-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S64x192 : Shape := ⟨2, ![64, 192]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg1 : IVec S2x800000 32) (main_v98 : IVec S_ 1) (main_v101 : IVec S_ 1) : IVec S_ 1 :=
  let main_v102 : IVec S_ 1 := andi main_v98 main_v101
  let main_c_40 : IVec S_ 32 := constantI S_ 32 50000#32
  let main_v103 : IVec S2x800000 32 := broadcastInDim S2x800000 ![] bcast_S_S2x800000 main_c_40
  let main_v104 : IVec S2x800000 1 := cmpi .slt main_arg1 main_v103
  let main_c_41 : IVec S_ 1 := constantI S_ 1 1#1
  let main_v105 : IVec S_ 1 := (fun x v => Host.reduce IntOp.andi x v reducesTo_S2x800000_S_d0_1 h_S_) main_v104 main_c_41
  let main_v106 : IVec S_ 1 := andi main_v102 main_v105
  main_v106

def fn_part5 {F : FTy → Type} [FloatOps F] (main_arg1 : IVec S2x800000 32) (main_arg19 : FVec F S64 .f32) (main_arg20 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_c_38 : IVec S_ 32 := constantI S_ 32 4294917296#32
  let main_v99 : IVec S2x800000 32 := broadcastInDim S2x800000 ![] bcast_S_S2x800000 main_c_38
  let main_v100 : IVec S2x800000 1 := cmpi .sge main_arg1 main_v99
  let main_c_39 : IVec S_ 1 := constantI S_ 1 1#1
  let main_v101 : IVec S_ 1 := (fun x v => Host.reduce IntOp.andi x v reducesTo_S2x800000_S_d0_1 h_S_) main_v100 main_c_39
  fn_part6 (F := F) main_arg1 main_v98 main_v101

def fn_part4 {F : FTy → Type} [FloatOps F] (main_arg1 : IVec S2x800000 32) (main_arg15 : FVec F S64x64 .f32) (main_arg16 : FVec F S64 .f32) (main_arg17 : FVec F S64 .f32) (main_arg18 : FVec F S64 .f32) (main_arg19 : FVec F S64 .f32) (main_arg20 : FVec F S64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x800000 32) (main_arg12 : FVec F S64 .f32) (main_arg13 : FVec F S64x192 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x192 .f32 := Host.absf main_arg13
  let main_cst_22 : FVec F S_ .f32 := constant S_ .f32 0x7F800000#32
  let main_v60 : FVec F S64x192 .f32 := broadcastInDim S64x192 ![] bcast_S_S64x192 main_cst_22
  let main_v61 : IVec S64x192 1 := cmpf .olt main_v59 main_v60
  let main_c_23 : IVec S_ 1 := constantI S_ 1 1#1
  let main_v62 : IVec S_ 1 := (fun x v => Host.reduce IntOp.andi x v reducesTo_S64x192_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_arg17 main_arg18 main_arg19 main_arg20 main_v63 main_v67

def fn_part2 {F : FTy → Type} [FloatOps F] (main_arg1 : IVec S2x800000 32) (main_arg8 : FVec F S64 .f32) (main_arg9 : FVec F S64x64 .f32) (main_arg10 : FVec F S64 .f32) (main_arg11 : FVec F S64x64 .f32) (main_arg12 : FVec F S64 .f32) (main_arg13 : FVec F S64x192 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x800000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x192 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S50000x64 .f32) (main_arg1 : IVec S2x800000 32) (main_arg2 : FVec F S800000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x192 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S64x192 : Shape := ⟨2, ![64, 192]⟩
abbrev S1x800000 : Shape := ⟨2, ![1, 800000]⟩
abbrev S800000 : Shape := ⟨1, ![800000]⟩
abbrev S256x64 : Shape := ⟨2, ![256, 64]⟩
abbrev S256 : Shape := ⟨1, ![256]⟩
abbrev S50000x256 : Shape := ⟨2, ![50000, 256]⟩
abbrev S5000x64 : Shape := ⟨2, ![5000, 64]⟩
abbrev S5000x256 : Shape := ⟨2, ![5000, 256]⟩
abbrev S64x256 : Shape := ⟨2, ![64, 256]⟩
abbrev S1x256 : Shape := ⟨2, ![1, 256]⟩
abbrev S50000x128 : Shape := ⟨2, ![50000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S4000x64 : Shape := ⟨2, ![4000, 64]⟩
abbrev S4000x128 : Shape := ⟨2, ![4000, 128]⟩
abbrev S1x64 : Shape := ⟨2, ![1, 64]⟩
abbrev S400000x128 : Shape := ⟨2, ![400000, 128]⟩
abbrev S128 : Shape := ⟨1, ![128]⟩
abbrev S8000x128 : Shape := ⟨2, ![8000, 128]⟩
abbrev S50000 : Shape := ⟨1, ![50000]⟩
abbrev S50000x1 : Shape := ⟨2, ![50000, 1]⟩
abbrev S25000x128 : Shape := ⟨2, ![25000, 128]⟩
abbrev S5000x128 : Shape := ⟨2, ![5000, 128]⟩

abbrev nBuf : Space → Nat
  | .hbm => 146
  | .vmem => 50
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x192, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S1x800000, .i32⟩
  | 22 => ⟨S800000, .i32⟩
  | 23 => ⟨S1x800000, .i32⟩
  | 24 => ⟨S800000, .i32⟩
  | 25 => ⟨S256x64, .f32⟩
  | 26 => ⟨S256, .f32⟩
  | 27 => ⟨S50000x256, .f32⟩
  | 28 => ⟨S50000x64, .f32⟩
  | 29 => ⟨S50000x64, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S1, .i32⟩
  | 40 => ⟨S_, .i32⟩
  | 41 => ⟨S800000x1, .i32⟩
  | 42 => ⟨S800000x1, .i1⟩
  | 43 => ⟨S1x1, .i32⟩
  | 44 => ⟨S800000x1, .i32⟩
  | 45 => ⟨S800000x1, .i1⟩
  | 46 => ⟨S800000x1, .i1⟩
  | 47 => ⟨S_, .i1⟩
  | 48 => ⟨S800000, .i1⟩
  | 49 => ⟨S800000x64, .f32⟩
  | 50 => ⟨S800000x64, .i1⟩
  | 51 => ⟨S_, .f32⟩
  | 52 => ⟨S800000x64, .f32⟩
  | 53 => ⟨S800000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x128, .f32⟩
  | 73 => ⟨S800000x128, .i1⟩
  | 74 => ⟨S_, .f32⟩
  | 75 => ⟨S800000x128, .f32⟩
  | 76 => ⟨S800000x128, .f32⟩
  | 77 => ⟨S64x64, .f32⟩
  | 78 => ⟨S64x64, .f32⟩
  | 79 => ⟨S64x64, .f32⟩
  | 80 => ⟨S800000x64, .f32⟩
  | 81 => ⟨S800000x64, .f32⟩
  | 82 => ⟨S1x128, .f32⟩
  | 83 => ⟨S1x64, .f32⟩
  | 84 => ⟨S64, .f32⟩
  | 85 => ⟨S_, .f32⟩
  | 86 => ⟨S64, .f32⟩
  | 87 => ⟨S64, .f32⟩
  | 88 => ⟨S1x64, .f32⟩
  | 89 => ⟨S64, .f32⟩
  | 90 => ⟨S_, .f32⟩
  | 91 => ⟨S64, .f32⟩
  | 92 => ⟨S64, .f32⟩
  | 93 => ⟨S64, .f32⟩
  | 94 => ⟨S64, .f32⟩
  | 95 => ⟨S_, .f32⟩
  | 96 => ⟨S64, .f32⟩
  | 97 => ⟨S64, .f32⟩
  | 98 => ⟨S400000x128, .f32⟩
  | 99 => ⟨S128, .f32⟩
  | 100 => ⟨S128, .f32⟩
  | 101 => ⟨S128, .f32⟩
  | 102 => ⟨S128, .f32⟩
  | 103 => ⟨S400000x128, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S1x128, .f32⟩
  | 124 => ⟨S1x64, .f32⟩
  | 125 => ⟨S64, .f32⟩
  | 126 => ⟨S_, .f32⟩
  | 127 => ⟨S64, .f32⟩
  | _ => ⟨S50000x64, .f32⟩

abbrev hbmTy0_1 (i : Nat) : BufTy := match i % 128 with
  | 0 => ⟨S64, .f32⟩
  | 1 => ⟨S1x64, .f32⟩
  | 2 => ⟨S64, .f32⟩
  | 3 => ⟨S_, .f32⟩
  | 4 => ⟨S64, .f32⟩
  | 5 => ⟨S64, .f32⟩
  | 6 => ⟨S64, .f32⟩
  | 7 => ⟨S64, .f32⟩
  | 8 => ⟨S_, .f32⟩
  | 9 => ⟨S64, .f32⟩
  | 10 => ⟨S64, .f32⟩
  | 11 => ⟨S25000x128, .f32⟩
  | 12 => ⟨S128, .f32⟩
  | 13 => ⟨S128, .f32⟩
  | 14 => ⟨S128, .f32⟩
  | 15 => ⟨S128, .f32⟩
  | 16 => ⟨S25000x128, .f32⟩
  | 17 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S256x64, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | .local _ .vmem, ⟨12, _⟩ => ⟨S4000x128, .f32⟩
  | .local _ .vmem, ⟨13, _⟩ => ⟨S4000x128, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S1x128, .f32⟩
  | .local _ .vmem, ⟨25, _⟩ => ⟨S1x128, .f32⟩
  | .local _ .vmem, ⟨26, _⟩ => ⟨S8000x128, .f32⟩
  | .local _ .vmem, ⟨27, _⟩ => ⟨S8000x128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S8000x128, .f32⟩
  | .local _ .vmem, ⟨33, _⟩ => ⟨S8000x128, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v10 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15_0 : Ref sig .tc := ⟨.hbm, 80, rfl⟩
abbrev main_v15_1 : Ref sig .tc := ⟨.hbm, 81, rfl⟩
abbrev main_v15_2 : Ref sig .tc := ⟨.hbm, 82, rfl⟩
abbrev main_v16 : Ref sig .tc := ⟨.hbm, 83, rfl⟩
abbrev main_v17 : Ref sig .tc := ⟨.hbm, 84, rfl⟩
abbrev main_cst : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_0 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_cst_1 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_cst_2 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_cst_3 : Ref sig .tc := ⟨.hbm, 109, rfl⟩
abbrev main_v38 : Ref sig .tc := ⟨.hbm, 110, rfl⟩
abbrev main_cst_4 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_cst_5 : Ref sig .tc := ⟨.hbm, 115, rfl⟩
abbrev main_call2_v0 : Ref sig .tc := ⟨.hbm, 116, rfl⟩
abbrev main_call2_v1 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46_0 : Ref sig .tc := ⟨.hbm, 122, rfl⟩
abbrev main_v46_1 : Ref sig .tc := ⟨.hbm, 123, rfl⟩
abbrev main_v47 : Ref sig .tc := ⟨.hbm, 124, rfl⟩
abbrev main_v48 : Ref sig .tc := ⟨.hbm, 125, rfl⟩
abbrev main_cst_6 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_cst_7 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_cst_8 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem11_1 : DmaSem sig := 21
abbrev cc1_sem12_0 : DmaSem sig := 22
abbrev cc1_sem12_1 : DmaSem sig := 23
abbrev cc1_sem13_0 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def k1_cond2 (i : grid1.Coords) : BitVec 1 :=
  let arg0 : BitVec 32 := BitVec.ofNat 32 (i 0).val
  let c199_i32 : BitVec 32 := 199#32
  let v75 : BitVec 1 := Scalar.cmpi .eq arg0 c199_i32
  let v76 : BitVec 32 := Scalar.extui v75
  let c0_i32_37 : BitVec 32 := 0#32
  let v77 : BitVec 1 := Scalar.cmpi .ne v76 c0_i32_37
  v77

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_14 : BitVec 32 := 0#32
  let v26 : BitVec 1 := Scalar.cmpi .ne v25 c0_i32_14
  v26

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S64x64_S64x64_S64x64_S64x64_S256x64_d0 : Shape.Concatenates [S64x64, S64x64, S64x64, S64x64] S256x64 0
  concatenates_S64_S64_S64_S64_S256_d0 : Shape.Concatenates [S64, S64, S64, S64] S256 0
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x64_0_0 : S50000x256.Slices ![0, 0] S50000x64
  slices_S50000x256_S50000x64_0_64 : S50000x256.Slices ![0, 64] S50000x64
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x128_0 : S800000.BroadcastsInDim S800000x128 (![0] : Fin 1 → Fin S800000x128.rank)
  bcast_S_S800000x128 : S_.BroadcastsInDim S800000x128 (![] : Fin 0 → Fin S800000x128.rank)
  slices_S64x192_S64x64_0_0 : S64x192.Slices ![0, 0] S64x64
  slices_S64x192_S64x64_0_64 : S64x192.Slices ![0, 64] S64x64
  slices_S64x192_S64x64_0_128 : S64x192.Slices ![0, 128] S64x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  shapeCasts_S4000x64_S4000x64 : S4000x64.ShapeCasts S4000x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x64 : S4000x128.Slices ![0, 0] S4000x64
  slices_S4000x128_o0_64_S4000x64 : S4000x128.Slices ![0, 64] S4000x64
  shapeCasts_S64x64_S64x64 : S64x64.ShapeCasts S64x64
  reduces_S4000x64_S64 : S4000x64.Reduces [0] S64
  inb_S1x128_S1x64_0_0 : ∀ a, (![0, 0] : Fin 2 → Nat) a + S1x64.size a ≤ S1x128.size a
  h_S1x64 : 0 < S1x64.numel
  shapeCasts_S1x64_S1x64 : S1x64.ShapeCasts S1x64
  inb_S1x128_S1x64_0_64 : ∀ a, (![0, 64] : Fin 2 → Nat) a + S1x64.size a ≤ S1x128.size a
  slices_S1x128_S1x64_0_0 : S1x128.Slices ![0, 0] S1x64
  shapeCasts_S1x64_S64 : S1x64.ShapeCasts S64
  bcast_S_S64 : S_.BroadcastsInDim S64 (![] : Fin 0 → Fin S64.rank)
  slices_S1x128_S1x64_0_64 : S1x128.Slices ![0, 64] S1x64
  shapeCasts_S800000x64_S400000x128 : S800000x64.ShapeCasts S400000x128
  concatenates_S64_S64_S128_d0 : Shape.Concatenates [S64, S64] S128 0
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8000x128 : S1x128.Broadcasts S8000x128
  shapeCasts_S400000x128_S800000x64 : S400000x128.ShapeCasts S800000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S5000x64_S5000x64 : S5000x64.ShapeCasts S5000x64
  reduces_S5000x64_S64 : S5000x64.Reduces [0] S64
  shapeCasts_S50000x64_S25000x128 : S50000x64.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S25000x128_S50000x64 : S25000x128.ShapeCasts S50000x64
  dot_S5000x64_S64x256_S5000x256_1_0_0_1_n_n_wf : DotDims.WF S5000x64 S64x256 S5000x256 [1] [0] [0] [1] [] []
  gather_S50000x64_S800000x1_S800000x64_1_0_n_n_0_1_164_wf : GatherDims.WF S50000x64 S800000x1 S800000x64 [1] [0] [] [0] [] 1 ![1, 64]
  gather_S50000x128_S800000x1_S800000x128_1_0_n_n_0_1_1128_wf : GatherDims.WF S50000x128 S800000x1 S800000x128 [1] [0] [] [0] [] 1 ![1, 128]
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S800000x64.size a
  hwx1_3 : ∀ i : grid1.Coords, EltTy.bits .f32 = 32 ∨ (Rect.block (s := S800000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S800000x128.size a
  hwx1_4 : ∀ i : grid1.Coords, EltTy.bits .f32 = 32 ∨ (Rect.block (s := S800000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x64.size a ≤ S800000x64.size a
  hwx1_11 : ∀ i : grid1.Coords, EltTy.bits .f32 = 32 ∨ (Rect.block (s := S800000x64) S4000x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4000x64.size a ≤ S800000x64.size a
  hwx1_12 : ∀ i : grid1.Coords, EltTy.bits .f32 = 32 ∨ (Rect.block (s := S800000x64) S4000x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S400000x128.size a
  hwx2_0 : ∀ i : grid2.Coords, EltTy.bits .f32 = 32 ∨ (Rect.block (s := S400000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S400000x128.size a
  hwx2_5 : ∀ i : grid2.Coords, EltTy.bits .f32 = 32 ∨ (Rect.block (s := S400000x128) S8000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S25000x128.size a
  hwx4_5 : ∀ i : grid4.Coords, EltTy.bits .f32 = 32 ∨ (Rect.block (s := S25000x128) S5000x128.size (cc4_transform_5 i) (hinb4_5 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v15_0) S4000x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v15_1) S4000x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v15_2) S1x128.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k1_cond2 i == 1#1) | ⟨_ + 14, h⟩ => absurd h (Nat.not_lt.2 (Nat.le_add_left _ _))

abbrev win2_0 : Pipeline.Window sig grid2 :=
  Pipeline.Window.ofSpec (Memref.whole main_v28) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v7) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46_1) S1x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S64x192 : Shape := ⟨2, ![64, 192]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x192 : Shape := ⟨2, ![800000, 192]⟩
abbrev S192x64 : Shape := ⟨2, ![192, 64]⟩
abbrev S50000 : Shape := ⟨1, ![50000]⟩
abbrev S50000x1 : Shape := ⟨2, ![50000, 1]⟩

abbrev nBuf : Space → Nat
  | .hbm => 211
  | .vmem => 0
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x192, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S1x800000, .i32⟩
  | 22 => ⟨S800000, .i32⟩
  | 23 => ⟨S1x800000, .i32⟩
  | 24 => ⟨S800000, .i32⟩
  | 25 => ⟨S64x64, .f32⟩
  | 26 => ⟨S50000x64, .f32⟩
  | 27 => ⟨S1x64, .f32⟩
  | 28 => ⟨S50000x64, .f32⟩
  | 29 => ⟨S50000x64, .f32⟩
  | 30 => ⟨S64x64, .f32⟩
  | 31 => ⟨S50000x64, .f32⟩
  | 32 => ⟨S1x64, .f32⟩
  | 33 => ⟨S50000x64, .f32⟩
  | 34 => ⟨S50000x64, .f32⟩
  | 35 => ⟨S64x64, .f32⟩
  | 36 => ⟨S50000x64, .f32⟩
  | 37 => ⟨S1x64, .f32⟩
  | 38 => ⟨S50000x64, .f32⟩
  | 39 => ⟨S50000x64, .f32⟩
  | 40 => ⟨S64x64, .f32⟩
  | 41 => ⟨S50000x64, .f32⟩
  | 42 => ⟨S1x64, .f32⟩
  | 43 => ⟨S50000x64, .f32⟩
  | 44 => ⟨S50000x64, .f32⟩
  | 45 => ⟨S64x64, .f32⟩
  | 46 => ⟨S800000x64, .f32⟩
  | 47 => ⟨S1x64, .f32⟩
  | 48 => ⟨S800000x64, .f32⟩
  | 49 => ⟨S800000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x64, .f32⟩
  | 69 => ⟨S800000x64, .f32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S800000x192, .f32⟩
  | 79 => ⟨S192x64, .f32⟩
  | 80 => ⟨S800000x64, .f32⟩
  | 81 => ⟨S1x64, .f32⟩
  | 82 => ⟨S800000x64, .f32⟩
  | 83 => ⟨S800000x64, .f32⟩
  | 84 => ⟨S_, .f32⟩
  | 85 => ⟨S800000x64, .f32⟩
  | 86 => ⟨S800000x64, .f32⟩
  | 87 => ⟨S64x64, .f32⟩
  | 88 => ⟨S800000x64, .f32⟩
  | 89 => ⟨S1x64, .f32⟩
  | 90 => ⟨S800000x64, .f32⟩
  | 91 => ⟨S800000x64, .f32⟩
  | 92 => ⟨S_, .f32⟩
  | 93 => ⟨S64, .f32⟩
  | 94 => ⟨S_, .f32⟩
  | 95 => ⟨S64, .f32⟩
  | 96 => ⟨S64, .f32⟩
  | 97 => ⟨S_, .i32⟩
  | 98 => ⟨S_, .f32⟩
  | 99 => ⟨S64, .f32⟩
  | 100 => ⟨S1x64, .f32⟩
  | 101 => ⟨S_, .f32⟩
  | 102 => ⟨S1x64, .f32⟩
  | 103 => ⟨S1x64, .f32⟩
  | 104 => ⟨S800000x64, .f32⟩
  | 105 => ⟨S800000x64, .f32⟩
  | 106 => ⟨S800000x64, .f32⟩
  | 107 => ⟨S_, .f32⟩
  | 108 => ⟨S_, .f32⟩
  | 109 => ⟨S_, .f32⟩
  | 110 => ⟨S_, .f32⟩
  | 111 => ⟨S64, .f32⟩
  | 112 => ⟨S64, .f32⟩
  | 113 => ⟨S64, .f32⟩
  | 114 => ⟨S_, .f32⟩
  | 115 => ⟨S_, .i1⟩
  | 116 => ⟨S_, .f32⟩
  | 117 => ⟨S_, .f32⟩
  | 118 => ⟨S64, .f32⟩
  | 119 => ⟨S64, .f32⟩
  | 120 => ⟨S1x64, .f32⟩
  | 121 => ⟨S800000x64, .f32⟩
  | 122 => ⟨S800000x64, .f32⟩
  | 123 => ⟨S1x64, .f32⟩
  | 124 => ⟨S800000x64, .f32⟩
  | 125 => ⟨S800000x64, .f32⟩
  | 126 => ⟨S_, .f32⟩
  | 127 => ⟨S64, .f32⟩
  | _ => ⟨S50000x64, .f32⟩

abbrev hbmTy0_1 (i : Nat) : BufTy := match i % 128 with
  | 0 => ⟨S64, .f32⟩
  | 1 => ⟨S64, .f32⟩
  | 2 => ⟨S1x64, .f32⟩
  | 3 => ⟨S800000x64, .f32⟩
  | 4 => ⟨S800000x64, .f32⟩
  | 5 => ⟨S1x64, .f32⟩
  | 6 => ⟨S800000x64, .f32⟩
  | 7 => ⟨S800000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000x1, .f32⟩
  | 33 => ⟨S50000x64, .f32⟩
  | 34 => ⟨S50000x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S50000x64, .f32⟩
  | 49 => ⟨S50000x64, .f32⟩
  | 50 => ⟨S50000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S64, .f32⟩
  | 72 => ⟨S64, .f32⟩
  | 73 => ⟨S64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_c_0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_1 : Ref sig .tc := ⟨.hbm, 59, rfl⟩
abbrev main_v36 : Ref sig .tc := ⟨.hbm, 60, rfl⟩
abbrev main_v37 : Ref sig .tc := ⟨.hbm, 61, rfl⟩
abbrev main_c_2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_cst : Ref sig .tc := ⟨.hbm, 84, rfl⟩
abbrev main_call0_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_4 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_v65 : Ref sig .tc := ⟨.hbm, 96, rfl⟩
abbrev main_c_6 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_cst_1 : Ref sig .tc := ⟨.hbm, 108, rfl⟩
abbrev main_call1_v8 : Ref sig .tc := ⟨.hbm, 109, rfl⟩
abbrev main_call1_cst_2 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_cst_3 : Ref sig .tc := ⟨.hbm, 114, rfl⟩
abbrev main_call1_v12 : Ref sig .tc := ⟨.hbm, 115, rfl⟩
abbrev main_call1_cst_4 : Ref sig .tc := ⟨.hbm, 116, rfl⟩
abbrev main_call1_call0_v0 : Ref sig .tc := ⟨.hbm, 117, rfl⟩
abbrev main_call1_call0_v1 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_7 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_8 : Ref sig .tc := ⟨.hbm, 136, rfl⟩
abbrev main_v82 : Ref sig .tc := ⟨.hbm, 137, rfl⟩
abbrev main_v83 : Ref sig .tc := ⟨.hbm, 138, rfl⟩
abbrev main_c_9 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_10 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_11 : Ref sig .tc := ⟨.hbm, 150, rfl⟩
abbrev main_v93 : Ref sig .tc := ⟨.hbm, 151, rfl⟩
abbrev main_cst_12 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_13 : Ref sig .tc := ⟨.hbm, 156, rfl⟩
abbrev main_call2_v0 : Ref sig .tc := ⟨.hbm, 157, rfl⟩
abbrev main_call2_v1 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_14 : Ref sig .tc := ⟨.hbm, 164, rfl⟩
abbrev main_v102 : Ref sig .tc := ⟨.hbm, 165, rfl⟩
abbrev main_cst_15 : Ref sig .tc := ⟨.hbm, 166, rfl⟩
abbrev main_v103 : Ref sig .tc := ⟨.hbm, 167, rfl⟩
abbrev main_v104 : Ref sig .tc := ⟨.hbm, 168, rfl⟩
abbrev main_c_16 : Ref sig .tc := ⟨.hbm, 169, rfl⟩
abbrev main_call3_cst : Ref sig .tc := ⟨.hbm, 170, rfl⟩
abbrev main_call3_v0 : Ref sig .tc := ⟨.hbm, 171, rfl⟩
abbrev main_call3_v1 : Ref sig .tc := ⟨.hbm, 172, rfl⟩
abbrev main_call3_cst_0 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_call3_v5 : Ref sig .tc := ⟨.hbm, 177, rfl⟩
abbrev main_call3_v6 : Ref sig .tc := ⟨.hbm, 178, rfl⟩
abbrev main_call3_v7 : Ref sig .tc := ⟨.hbm, 179, rfl⟩
abbrev main_call3_cst_1 : Ref sig .tc := ⟨.hbm, 180, rfl⟩
abbrev main_call3_v8 : Ref sig .tc := ⟨.hbm, 181, rfl⟩
abbrev main_call3_cst_2 : Ref sig .tc := ⟨.hbm, 182, rfl⟩
abbrev main_call3_v9 : Ref sig .tc := ⟨.hbm, 183, rfl⟩
abbrev main_call3_v10 : Ref sig .tc := ⟨.hbm, 184, rfl⟩
abbrev main_call3_v11 : Ref sig .tc := ⟨.hbm, 185, rfl⟩
abbrev main_call3_cst_3 : Ref sig .tc := ⟨.hbm, 186, rfl⟩
abbrev main_call3_v12 : Ref sig .tc := ⟨.hbm, 187, rfl⟩
abbrev main_call3_cst_4 : Ref sig .tc := ⟨.hbm, 188, rfl⟩
abbrev main_call3_call0_v0 : Ref sig .tc := ⟨.hbm, 189, rfl⟩
abbrev main_call3_call0_v1 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_17 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_call4_cst : Ref sig .tc := ⟨.hbm, 208, rfl⟩
abbrev main_call4_v0 : Ref sig .tc := ⟨.hbm, 209, rfl⟩
abbrev main_v121 : Ref sig .tc := ⟨.hbm, 210, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  concatenates_S800000x64_S800000x64_S800000x64_S800000x192_d1 : Shape.Concatenates [S800000x64, S800000x64, S800000x64] S800000x192 1
  transposes_S64x192_S192x64_1_0 : S64x192.Transposes [1, 0] S192x64
  reducesTo_S800000x64_S64_d0 : S800000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.HKernel.Reg0.lean ====
-- Region 0: the projection kernel's body triple, proof data and body obligation, at any float model.
import proofs.«428159_j48533130445226_3_alg».proof.Proof.Gen.Kernel.Launch
import proofs.«428159_j48533130445226_3_alg».proof.Proof.Gen.Kernel.Skeleton
import proofs.«428159_j48533130445226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t` of the contents `V` at region entry.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x64 := Rect.unit (s := S5000x64) ![0, 0] S5000x64.size inb_S5000x64_S5000x64_0_0
abbrev r0_wt : Rect S256x64 := Rect.unit (s := S256x64) ![0, 0] S256x64.size inb_S256x64_S256x64_0_0
abbrev r0_bias : Rect S256 := Rect.unit (s := S256) ![0] S256.size inb_S256_S256_0
abbrev r0_y : Rect S5000x256 := Rect.unit (s := S5000x256) ![0, 0] S5000x256.size inb_S5000x256_S5000x256_0_0

-- The output block as a function of the three input blocks.
def out0_3 (x : Vec F S5000x64 .f32) (wt : Vec F S256x64 .f32) (b : Vec F S256 .f32) : Vec F S5000x256 .f32 :=
  View.canon [⟨r0_y, k0_pay1 (View.ld x r0_x) (View.ld wt r0_wt) (View.ld b r0_bias)⟩]

theorem cover0_3 (p0 : Vec F S5000x256 .f32) (y : S5000x256.Idx) :
    ∃ pc ∈ ([⟨r0_y, p0⟩] : List (View.Piece (Elt F) S5000x256 .f32)), y ∈ pc.1.set :=
  View.cover_of_tiled [⟨r0_y, p0⟩] S5000x256.size (by rfl) y

set_option maxHeartbeats 1000000 in
-- The body keeps its three inputs and leaves `out0_3` of them in the output.
theorem sound_kernel0 (c : Dev nD) (x0 : Vec F S5000x64 .f32) (x1 : Vec F S256x64 .f32) (x2 : Vec F S256 .f32) {E : Set ℕ} {i : grid0.Coords}
    {arg1 : Memref sig .tc .vmem S5000x64 .f32} {arg2 : Memref sig .tc .vmem S256x64 .f32} {arg3 : Memref sig .tc .vmem S256 .f32}
    {arg4 : Memref sig .tc .vmem S5000x256 .f32} {harg1 : arg1.IsWhole} {harg2 : arg2.IsWhole} {harg3 : arg3.IsWhole} {harg4 : arg4.IsWhole}
    {K : PUnit → sProp 𝕄} :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

-- One case per input window; the output window is excluded.
theorem before0 (c : Dev nD) : ∀ (w : Fin cfg0.W) (_ : w ≠ 3) (t : Fin cfg0.N) (d), (dat0 V c).before w t d = (dat0 V c).fetched w t d
  | ⟨0, _⟩, _, t, d | ⟨1, _⟩, _, t, d | ⟨2, _⟩, _, t, d =>
    (dat0 V c).before_in_eq_fetched _ rfl (fun _ => rfl) (fun _ _ _ => rfl) (fun _ => rfl) t d
  | ⟨3, _⟩, h, _, _ => absurd rfl h

-- The body's triple at a grid point, framed by the invariant and the owed amounts.
theorem sound_body0 (c : Dev nD) (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d)))
    ⊢ wp frame (wpE (defs₀ (F := F)) Variants.none c none) Set.univ (bodyAt0 t) fun _ =>
      iprop((dat0 V c).Φ t.succ ∗ (dat0 V c).owesAt () t.succ
        ∗ owns c (st0_0 t) fullShare ((dat0 V c).after 0 t)
        ∗ owns c (st0_1 t) fullShare ((dat0 V c).after 1 t)
        ∗ owns c (st0_2 t) fullShare ((dat0 V c).after 2 t)
        ∗ owns c (st0_3 t) fullShare ((dat0 V c).after 3 t)) := by
  rw [show (dat0 V c).Φ t.succ = (dat0 V c).Φ t.castSucc from rfl,
    show (dat0 V c).owesAt () t.succ = (dat0 V c).owesAt () t.castSucc from rfl, after0_3]
  simp only [before0 V c 0 (by decide), before0 V c 1 (by decide), before0 V c 2 (by decide)]
  iintro ⟨HΦ, Ho, ⟨%d0, H0⟩, ⟨%d1, H1⟩, ⟨%d2, H2⟩, ⟨%d3, H3⟩⟩
  iapply (sound_kernel0 c (iblk0 V c 0 t) (iblk0 V c 1 t) (iblk0 V c 2 t))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) :
    (iprop((∃ r, prngReg c r)
        ∗ Pipeline.prefHeld (cfg0.toPCfg (Val := Elt F)).pre c (fun _ => fullShare) (cfg0.toPCfg_adm (Val := Elt F)).1
        ∗ Pipeline.scopedRest spec0 c) : sProp 𝕄)
      ⊢ (dat0 V c).Φ 0 := by
  show _ ⊢ Pipeline.ΦA spec0 c; unfold Pipeline.ΦA
  iintro ⟨Hp, -, Hr⟩
  isplitl [Hr]; · iexact Hr
  iexact Hp

theorem hout0 (c : Dev nD) :
    (dat0 V c).Φ (Fin.last cfg0.N)
      ⊢ (iprop((∃ r, prngReg c r) ∗ emp ∗ Pipeline.scopedRest spec0 c) : sProp 𝕄) := by
  show Pipeline.ΦA spec0 c ⊢ _; unfold Pipeline.ΦA
  iintro ⟨Hr, Hp⟩
  isplitl [Hp]; · iexact Hp
  isplitr; · iempintro
  iexact Hr

end Cert.Kernel.Frame
-- ==== Proof.HKernel.Reg1.Base.lean ====
-- Region 1 (the fused edge kernel): the windows' blocks, the body's two conditions, and the memrefs the body is called with.
import proofs.«428159_j48533130445226_3_alg».proof.Proof.Gen.Kernel.Launch
import proofs.«428159_j48533130445226_3_alg».proof.Proof.Gen.Kernel.Skeleton
import proofs.«428159_j48533130445226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- A whole memref owned at `X` is its elements held at the raw contents that read `X`.
theorem owns_eq_unread (c : Dev nD) {sp : Space} {sh : Shape} {e : EltTy} {m : Memref sig .tc sp sh e} (h : m.IsWhole) (X : sh.Idx → Elt F e) :
    (owns (c : Thread nD τ) m fullShare X : sProp 𝕄) = (m.view.loc (c : Thread nD τ) ↦[m.view.set]{fullShare} h.unread X) := by
  unfold owns
  refine BI.equiv_iff.mp ⟨?_, ?_⟩ <;> change (_ : sProp 𝕄) ⊢ _
  · iintro ⟨%f, %hf, H⟩; obtain rfl := h.eq_unread hf; iexact H
  · iintro H; iexists _; isplitr; · ipureintro; exact h.read_unread _
    iexact H

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)

-- In an input window the body finds the point's block (`HEq`: the two block shapes agree only window by window).
theorem before1_of (w : Fin cfg1.W) (hw : (cfg1.win w).isOut = false) (hA : dat.A w = V c (Pipeline.arrRef spec1 w))
    (hafter : ∀ t, HEq (dat.after w t) (iblk1 V c w t)) (t : Fin cfg1.N) (d) : HEq (dat.before w t d) (iblk1 V c w t) := by
  fin_cases w <;> first
    | exact absurd hw (by decide)
    | exact heq_of_eq ((dat.before_in_eq_fetched _ hw (fun _ => rfl) (fun _ _ _ => rfl)
        (fun t => by rw [eq_of_heq (hafter t)]; unfold Dat.blockOf iblk1; rw [hA]; try rfl) t d).trans
        (by unfold Dat.fetched Dat.blockOf iblk1; rw [hA]; try rfl))

theorem before1_0_of (hA : dat.A 0 = V c (Pipeline.arrRef spec1 0)) (hafter : ∀ t, dat.after 0 t = iblk1 V c 0 t) (t : Fin cfg1.N) (d) : dat.before 0 t d = iblk1 V c 0 t :=
  eq_of_heq (before1_of V dat 0 rfl hA (fun t => heq_of_eq (hafter t)) t d)
theorem before1_1_of (hA : dat.A 1 = V c (Pipeline.arrRef spec1 1)) (hafter : ∀ t, dat.after 1 t = iblk1 V c 1 t) (t : Fin cfg1.N) (d) : dat.before 1 t d = iblk1 V c 1 t :=
  eq_of_heq (before1_of V dat 1 rfl hA (fun t => heq_of_eq (hafter t)) t d)
theorem before1_2_of (hA : dat.A 2 = V c (Pipeline.arrRef spec1 2)) (hafter : ∀ t, dat.after 2 t = iblk1 V c 2 t) (t : Fin cfg1.N) (d) : dat.before 2 t d = iblk1 V c 2 t :=
  eq_of_heq (before1_of V dat 2 rfl hA (fun t => heq_of_eq (hafter t)) t d)
theorem before1_3_of (hA : dat.A 3 = V c (Pipeline.arrRef spec1 3)) (hafter : ∀ t, dat.after 3 t = iblk1 V c 3 t) (t : Fin cfg1.N) (d) : dat.before 3 t d = iblk1 V c 3 t :=
  eq_of_heq (before1_of V dat 3 rfl hA (fun t => heq_of_eq (hafter t)) t d)
theorem before1_4_of (hA : dat.A 4 = V c (Pipeline.arrRef spec1 4)) (hafter : ∀ t, dat.after 4 t = iblk1 V c 4 t) (t : Fin cfg1.N) (d) : dat.before 4 t d = iblk1 V c 4 t :=
  eq_of_heq (before1_of V dat 4 rfl hA (fun t => heq_of_eq (hafter t)) t d)
theorem before1_5_of (hA : dat.A 5 = V c (Pipeline.arrRef spec1 5)) (hafter : ∀ t, dat.after 5 t = iblk1 V c 5 t) (t : Fin cfg1.N) (d) : dat.before 5 t d = iblk1 V c 5 t :=
  eq_of_heq (before1_of V dat 5 rfl hA (fun t => heq_of_eq (hafter t)) t d)
theorem before1_6_of (hA : dat.A 6 = V c (Pipeline.arrRef spec1 6)) (hafter : ∀ t, dat.after 6 t = iblk1 V c 6 t) (t : Fin cfg1.N) (d) : dat.before 6 t d = iblk1 V c 6 t :=
  eq_of_heq (before1_of V dat 6 rfl hA (fun t => heq_of_eq (hafter t)) t d)
theorem before1_7_of (hA : dat.A 7 = V c (Pipeline.arrRef spec1 7)) (hafter : ∀ t, dat.after 7 t = iblk1 V c 7 t) (t : Fin cfg1.N) (d) : dat.before 7 t d = iblk1 V c 7 t :=
  eq_of_heq (before1_of V dat 7 rfl hA (fun t => heq_of_eq (hafter t)) t d)
theorem before1_8_of (hA : dat.A 8 = V c (Pipeline.arrRef spec1 8)) (hafter : ∀ t, dat.after 8 t = iblk1 V c 8 t) (t : Fin cfg1.N) (d) : dat.before 8 t d = iblk1 V c 8 t :=
  eq_of_heq (before1_of V dat 8 rfl hA (fun t => heq_of_eq (hafter t)) t d)
theorem before1_9_of (hA : dat.A 9 = V c (Pipeline.arrRef spec1 9)) (hafter : ∀ t, dat.after 9 t = iblk1 V c 9 t) (t : Fin cfg1.N) (d) : dat.before 9 t d = iblk1 V c 9 t :=
  eq_of_heq (before1_of V dat 9 rfl hA (fun t => heq_of_eq (hafter t)) t d)
theorem before1_10_of (hA : dat.A 10 = V c (Pipeline.arrRef spec1 10)) (hafter : ∀ t, dat.after 10 t = iblk1 V c 10 t) (t : Fin cfg1.N) (d) : dat.before 10 t d = iblk1 V c 10 t :=
  eq_of_heq (before1_of V dat 10 rfl hA (fun t => heq_of_eq (hafter t)) t d)
end

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 200 = 0 := by decide +kernel

abbrev cond1_1 (i : grid1.Coords) : Prop := k1_cond2 i = 1#1
theorem hcond1_1 : ∀ t : Fin cfg1.N, cond1_1 (grid1.coords t) ↔ t.val % 200 = 199 := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem liveAt1_11 : ∀ t : Fin cfg1.N, cfg1.idle 11 (grid1.coords t) = false := fun _ => rfl
theorem liveAt1_12 : ∀ t : Fin cfg1.N, cfg1.idle 12 (grid1.coords t) = false := fun _ => rfl
theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

abbrev VO1_11 : View sig .tc .vmem S4000x64 .f32 := (Memref.whole cc1_stg11_0 : Memref sig .tc .vmem S4000x64 .f32).view
abbrev VO1_12 : View sig .tc .vmem S4000x64 .f32 := (Memref.whole cc1_stg12_0 : Memref sig .tc .vmem S4000x64 .f32).view
abbrev VO1_13 : View sig .tc .vmem S1x128 .f32 := (Memref.whole cc1_stg13_0 : Memref sig .tc .vmem S1x128 .f32).view
abbrev ms1_0 (t : Fin cfg1.N) : Memref sig .tc .vmem S4000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4000x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4000x64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S4000x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev scM1_0 : Memref sig .tc .vmem S1x128 .f32 := Memref.whole cc1_scratch0
abbrev VS1_0 : View sig .tc .vmem S1x128 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

end Cert.Kernel.Frame

end
-- ==== Proof.HKernel.Reg1.RunC.lean ====
-- Region 1: the body's run at the three kinds of grid point: the first (the scratch row zeroed), a middle one, the last (the scratch row copied to the statistics window).
import proofs.«428159_j48533130445226_3_alg».proof.Proof.HKernel.Reg1.Base

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (c : Dev nD) (i : grid1.Coords)
    (arg1 : Memref sig .tc .vmem S4000x64 .f32) (harg1 : arg1.IsWhole)
    (arg2 : Memref sig .tc .vmem S64x64 .f32) (harg2 : arg2.IsWhole)
    (arg3 : Memref sig .tc .vmem S64 .f32) (harg3 : arg3.IsWhole)
    (arg4 : Memref sig .tc .vmem S4000x64 .f32) (harg4 : arg4.IsWhole)
    (arg5 : Memref sig .tc .vmem S4000x128 .f32) (harg5 : arg5.IsWhole)
    (arg6 : Memref sig .tc .vmem S64x64 .f32) (harg6 : arg6.IsWhole)
    (arg7 : Memref sig .tc .vmem S64x64 .f32) (harg7 : arg7.IsWhole)
    (arg8 : Memref sig .tc .vmem S64x64 .f32) (harg8 : arg8.IsWhole)
    (arg9 : Memref sig .tc .vmem S64 .f32) (harg9 : arg9.IsWhole)
    (arg10 : Memref sig .tc .vmem S64x64 .f32) (harg10 : arg10.IsWhole)
    (arg11 : Memref sig .tc .vmem S64 .f32) (harg11 : arg11.IsWhole)
    (arg12 : Memref sig .tc .vmem S4000x64 .f32) (harg12 : arg12.IsWhole)
    (arg13 : Memref sig .tc .vmem S4000x64 .f32) (harg13 : arg13.IsWhole)
    (arg14 : Memref sig .tc .vmem S1x128 .f32) (harg14 : arg14.IsWhole)
    (arg15 : Memref sig .tc .vmem S1x128 .f32) (harg15 : arg15.IsWhole)

set_option maxHeartbeats 4000000 in
noncomputable def kernelRun1_A (hc0 : cond1_0 i) (hc1 : ¬cond1_1 i)
    (x0 : Vec F S4000x64 .f32) (x1 : Vec F S64x64 .f32) (x2 : Vec F S64 .f32) (x3 : Vec F S4000x64 .f32) (x4 : Vec F S4000x128 .f32) (x5 : Vec F S64x64 .f32) (x6 : Vec F S64x64 .f32) (x7 : Vec F S64x64 .f32) (x8 : Vec F S64 .f32) (x9 : Vec F S64x64 .f32) (x10 : Vec F S64 .f32) :
    Σ' (L11 : List (View.Piece (Elt F) S4000x64 .f32)) (L12 : List (View.Piece (Elt F) S4000x64 .f32)) (L13 : List (View.Piece (Elt F) S1x128 .f32)), { LS0 : List (View.Piece (Elt F) S1x128 .f32) //
      ∀ (xi13 : Vec F S1x128 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ d, owns c.tc arg12 fullShare d) ∗ (∃ d, owns c.tc arg13 fullShare d) ∗ owns c.tc arg14 fullShare xi13 ∗ (∃ d, owns c.tc arg15 fullShare d)
            ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ f, arg12.view.loc c.tc ↦[arg12.view.set]{fullShare} arg12.view.writes (Elt F) f L11) ∗ (∃ f, arg13.view.loc c.tc ↦[arg13.view.set]{fullShare} arg13.view.writes (Elt F) f L12) ∗ owns c.tc arg14 fullShare xi13 ∗ (∃ f, arg15.view.loc c.tc ↦[arg15.view.set]{fullShare} arg15.view.writes (Elt F) f LS0)) -∗ K ⟨⟩))
          ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], ?_, fun xi13 E K => ?run⟩
  case run =>
    simp only [cc1__edge_fused_kernel_eq_skeleton]; unfold cc1__edge_fused_kernel_skel
    simp only [k1_part1_eq_skeleton, k1_part2_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg14]
    unfold owns
    iintro ⟨H0, H1, H2, H3, H4, H5, H6, H7, H8, H9, H10, ⟨%d11, %f11, -, H11⟩, ⟨%d12, %f12, -, H12⟩, H13, ⟨%ds0, %fs0, -, HS0⟩, Hk⟩
    sl_exec (disch := first | exact hc0 | exact hc1)
    sl_step
    iapply Hk
    iframe H0 H1 H2 H3 H4 H5 H6 H7 H8 H9 H10 H13
    isplitl [H11]; · iexists _; iexact H11
    isplitl [H12]; · iexists _; iexact H12
    iexists _; iexact HS0

set_option maxHeartbeats 4000000 in
noncomputable def kernelRun1_B (hc0 : ¬cond1_0 i) (hc1 : ¬cond1_1 i)
    (x0 : Vec F S4000x64 .f32) (x1 : Vec F S64x64 .f32) (x2 : Vec F S64 .f32) (x3 : Vec F S4000x64 .f32) (x4 : Vec F S4000x128 .f32) (x5 : Vec F S64x64 .f32) (x6 : Vec F S64x64 .f32) (x7 : Vec F S64x64 .f32) (x8 : Vec F S64 .f32) (x9 : Vec F S64x64 .f32) (x10 : Vec F S64 .f32) (xs0 : Vec F S1x128 .f32) :
    Σ' (L11 : List (View.Piece (Elt F) S4000x64 .f32)) (L12 : List (View.Piece (Elt F) S4000x64 .f32)) (L13 : List (View.Piece (Elt F) S1x128 .f32)), { LS0 : List (View.Piece (Elt F) S1x128 .f32) //
      ∀ (xi13 : Vec F S1x128 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ d, owns c.tc arg12 fullShare d) ∗ (∃ d, owns c.tc arg13 fullShare d) ∗ owns c.tc arg14 fullShare xi13 ∗ owns c.tc arg15 fullShare xs0
            ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ f, arg12.view.loc c.tc ↦[arg12.view.set]{fullShare} arg12.view.writes (Elt F) f L11) ∗ (∃ f, arg13.view.loc c.tc ↦[arg13.view.set]{fullShare} arg13.view.writes (Elt F) f L12) ∗ owns c.tc arg14 fullShare xi13 ∗ (∃ f, arg15.view.loc c.tc ↦[arg15.view.set]{fullShare} arg15.view.writes (Elt F) f LS0)) -∗ K ⟨⟩))
          ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], ?_, fun xi13 E K => ?run⟩
  case run =>
    simp only [cc1__edge_fused_kernel_eq_skeleton]; unfold cc1__edge_fused_kernel_skel
    simp only [k1_part1_eq_skeleton, k1_part2_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg14, owns_eq_unread c harg15]
    unfold owns
    iintro ⟨H0, H1, H2, H3, H4, H5, H6, H7, H8, H9, H10, ⟨%d11, %f11, -, H11⟩, ⟨%d12, %f12, -, H12⟩, H13, HS0, Hk⟩
    sl_exec (disch := first | exact hc0 | exact hc1)
    sl_step
    iapply Hk
    iframe H0 H1 H2 H3 H4 H5 H6 H7 H8 H9 H10 H13
    isplitl [H11]; · iexists _; iexact H11
    isplitl [H12]; · iexists _; iexact H12
    iexists _; iexact HS0

set_option maxHeartbeats 4000000 in
noncomputable def kernelRun1_C (hc0 : ¬cond1_0 i) (hc1 : cond1_1 i)
    (x0 : Vec F S4000x64 .f32) (x1 : Vec F S64x64 .f32) (x2 : Vec F S64 .f32) (x3 : Vec F S4000x64 .f32) (x4 : Vec F S4000x128 .f32) (x5 : Vec F S64x64 .f32) (x6 : Vec F S64x64 .f32) (x7 : Vec F S64x64 .f32) (x8 : Vec F S64 .f32) (x9 : Vec F S64x64 .f32) (x10 : Vec F S64 .f32) (xs0 : Vec F S1x128 .f32) :
    Σ' (L11 : List (View.Piece (Elt F) S4000x64 .f32)) (L12 : List (View.Piece (Elt F) S4000x64 .f32)) (L13 : List (View.Piece (Elt F) S1x128 .f32)), { LS0 : List (View.Piece (Elt F) S1x128 .f32) //
      ∀ (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ d, owns c.tc arg12 fullShare d) ∗ (∃ d, owns c.tc arg13 fullShare d) ∗ (∃ d, owns c.tc arg14 fullShare d) ∗ owns c.tc arg15 fullShare xs0
            ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ f, arg12.view.loc c.tc ↦[arg12.view.set]{fullShare} arg12.view.writes (Elt F) f L11) ∗ (∃ f, arg13.view.loc c.tc ↦[arg13.view.set]{fullShare} arg13.view.writes (Elt F) f L12) ∗ (∃ f, arg14.view.loc c.tc ↦[arg14.view.set]{fullShare} arg14.view.writes (Elt F) f L13) ∗ (∃ f, arg15.view.loc c.tc ↦[arg15.view.set]{fullShare} arg15.view.writes (Elt F) f LS0)) -∗ K ⟨⟩))
          ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__edge_fused_kernel_eq_skeleton]; unfold cc1__edge_fused_kernel_skel
    simp only [k1_part1_eq_skeleton, k1_part2_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg15]
    unfold owns
    iintro ⟨H0, H1, H2, H3, H4, H5, H6, H7, H8, H9, H10, ⟨%d11, %f11, -, H11⟩, ⟨%d12, %f12, -, H12⟩, ⟨%d13, %f13, -, H13⟩, HS0, Hk⟩
    sl_exec (disch := first | exact hc0 | exact hc1)
    sl_step
    iapply Hk
    iframe H0 H1 H2 H3 H4 H5 H6 H7 H8 H9 H10
    isplitl [H11]; · iexists _; iexact H11
    isplitl [H12]; · iexists _; iexact H12
    isplitl [H13]; · iexists _; iexact H13
    iexists _; iexact HS0

end Cert.Kernel.Frame

end
-- ==== Proof.HKernel.Reg1.lean ====
-- Region 1: the three control cases' runs at a grid point, the contents they leave point by point, the region's proof data and its body obligation.
import proofs.«428159_j48533130445226_3_alg».proof.Proof.HKernel.Reg1.RunC

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (t : Fin cfg1.N)

def runA (h0 : t.val % 200 = 0) (h1 : ¬t.val % 200 = 199) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

def contA (h0 : t.val % 200 = 0) (h1 : ¬t.val % 200 = 199) : Vec F S4000x64 .f32 × Vec F S4000x64 .f32 × Vec F S1x128 .f32 × Vec F S1x128 .f32 :=
  (VO1_11.read (Elt F) (VO1_11.writes (Elt F) VO1_11.junk (runA V c t h0 h1).1),
   VO1_12.read (Elt F) (VO1_12.writes (Elt F) VO1_12.junk (runA V c t h0 h1).2.1),
   VO1_13.read (Elt F) (VO1_13.writes (Elt F) VO1_13.junk (runA V c t h0 h1).2.2.1),
   VS1_0.read (Elt F) (VS1_0.writes (Elt F) VS1_0.junk (runA V c t h0 h1).2.2.2.1))

def runB (h0 : ¬t.val % 200 = 0) (h1 : ¬t.val % 200 = 199) (xs : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) xs

def contB (h0 : ¬t.val % 200 = 0) (h1 : ¬t.val % 200 = 199) (xs : Vec F S1x128 .f32) : Vec F S4000x64 .f32 × Vec F S4000x64 .f32 × Vec F S1x128 .f32 × Vec F S1x128 .f32 :=
  (VO1_11.read (Elt F) (VO1_11.writes (Elt F) VO1_11.junk (runB V c t h0 h1 xs).1),
   VO1_12.read (Elt F) (VO1_12.writes (Elt F) VO1_12.junk (runB V c t h0 h1 xs).2.1),
   VO1_13.read (Elt F) (VO1_13.writes (Elt F) VO1_13.junk (runB V c t h0 h1 xs).2.2.1),
   VS1_0.read (Elt F) (VS1_0.writes (Elt F) VS1_0.junk (runB V c t h0 h1 xs).2.2.2.1))

def runC (h0 : ¬t.val % 200 = 0) (h1 : t.val % 200 = 199) (xs : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) xs

def contC (h0 : ¬t.val % 200 = 0) (h1 : t.val % 200 = 199) (xs : Vec F S1x128 .f32) : Vec F S4000x64 .f32 × Vec F S4000x64 .f32 × Vec F S1x128 .f32 × Vec F S1x128 .f32 :=
  (VO1_11.read (Elt F) (VO1_11.writes (Elt F) VO1_11.junk (runC V c t h0 h1 xs).1),
   VO1_12.read (Elt F) (VO1_12.writes (Elt F) VO1_12.junk (runC V c t h0 h1 xs).2.1),
   VO1_13.read (Elt F) (VO1_13.writes (Elt F) VO1_13.junk (runC V c t h0 h1 xs).2.2.1),
   VS1_0.read (Elt F) (VS1_0.writes (Elt F) VS1_0.junk (runC V c t h0 h1 xs).2.2.2.1))

theorem succ_mod_ne (n : ℕ) (hn : n + 1 < cfg1.N) : ¬(n + 1) % 200 = 0 := by
  have hN : n + 1 < 200 := lt_of_lt_of_eq hn (show cfg1.N = 200 from N_1); omega

def outsAt1 (c : Dev nD) : (n : ℕ) → n < cfg1.N → Vec F S4000x64 .f32 × Vec F S4000x64 .f32 × Vec F S1x128 .f32 × Vec F S1x128 .f32
  | 0, hn => contA V c ⟨0, hn⟩ (Nat.zero_mod _) (by show ¬(0 % 200 = 199); decide)
  | n + 1, hn =>
    if h1 : (n + 1) % 200 = 199 then
      contC V c ⟨n + 1, hn⟩ (succ_mod_ne n hn) h1 (outsAt1 c n (Nat.lt_of_succ_lt hn)).2.2.2
    else
      contB V c ⟨n + 1, hn⟩ (succ_mod_ne n hn) h1 (outsAt1 c n (Nat.lt_of_succ_lt hn)).2.2.2

theorem outsAt1_first (h0 : t.val % 200 = 0) (h1 : ¬t.val % 200 = 199) :
    outsAt1 V c t.val t.isLt = contA V c t h0 h1 := by
  obtain ⟨n, hn⟩ := t
  cases n with
  | zero => exact rfl
  | succ n => exact absurd h0 (succ_mod_ne n hn)

theorem outsAt1_middle (h0 : ¬t.val % 200 = 0) (h1 : ¬t.val % 200 = 199) :
    outsAt1 V c t.val t.isLt
      = contB V c t h0 h1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h1).trans rfl

theorem outsAt1_last (h0 : ¬t.val % 200 = 0) (h1 : t.val % 200 = 199) :
    outsAt1 V c t.val t.isLt
      = contC V c t h0 h1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_pos h1).trans rfl

def PhiS1 : (n : ℕ) → n ≤ cfg1.N → sProp 𝕄
  | 0, _ => Pipeline.ΦA spec1 c
  | n + 1, hn => iprop(iprop(owns (c : Thread nD τ) scM1_0 fullShare ((outsAt1 V c n hn).2.2.2) ∗ restBut1 (F := F) c) ∗ (∃ r, prngReg c r))

theorem PhiS1_zero (n : ℕ) (h : n ≤ cfg1.N) (hz : n = 0) : PhiS1 V c n h = Pipeline.ΦA spec1 c := by
  subst hz; rfl

theorem PhiS1_succ (n : ℕ) (hn : n < cfg1.N) :
    PhiS1 V c (n + 1) hn = iprop(iprop(owns (c : Thread nD τ) scM1_0 fullShare ((outsAt1 V c n hn).2.2.2) ∗ restBut1 (F := F) c) ∗ (∃ r, prngReg c r)) := rfl

theorem PhiS1_pos (n : ℕ) (h : n ≤ cfg1.N) (hz : n ≠ 0) :
    PhiS1 V c n h = iprop(iprop(owns (c : Thread nD τ) scM1_0 fullShare ((outsAt1 V c (n - 1) (by omega)).2.2.2) ∗ restBut1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
    | ⟨12, _⟩ => (outsAt1 V c t.val t.isLt).2.1
    | ⟨13, _⟩ => (outsAt1 V c t.val t.isLt).2.2.1
  Φ t := PhiS1 V c t.val (Nat.le_of_lt_succ t.isLt)
  q _ := fullShare
  owed _ := 0

theorem A_eq1 (w : Fin cfg1.W) : (dat1 V c).A w = V c (Pipeline.arrRef spec1 w) := by
  dsimp only [dat1]

theorem PhiS1_castSucc :
    (dat1 V c).Φ t.castSucc = PhiS1 V c t.val (Nat.le_of_lt t.isLt) := by
  dsimp only [dat1]; simp only [Fin.coe_castSucc]

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = iblk1 V c 3 t := by dsimp only [dat1]
theorem after1_4 : (dat1 V c).after 4 t = iblk1 V c 4 t := by dsimp only [dat1]
theorem after1_5 : (dat1 V c).after 5 t = iblk1 V c 5 t := by dsimp only [dat1]
theorem after1_6 : (dat1 V c).after 6 t = iblk1 V c 6 t := by dsimp only [dat1]
theorem after1_7 : (dat1 V c).after 7 t = iblk1 V c 7 t := by dsimp only [dat1]
theorem after1_8 : (dat1 V c).after 8 t = iblk1 V c 8 t := by dsimp only [dat1]
theorem after1_9 : (dat1 V c).after 9 t = iblk1 V c 9 t := by dsimp only [dat1]
theorem after1_10 : (dat1 V c).after 10 t = iblk1 V c 10 t := by dsimp only [dat1]
theorem after1_11 : (dat1 V c).after 11 t = (outsAt1 V c t.val t.isLt).1 := by dsimp only [dat1]
theorem after1_12 : (dat1 V c).after 12 t = (outsAt1 V c t.val t.isLt).2.1 := by dsimp only [dat1]
theorem after1_13 : (dat1 V c).after 13 t = (outsAt1 V c t.val t.isLt).2.2.1 := by dsimp only [dat1]

theorem leaves_live (w : Fin cfg1.W) (h : cfg1.idle w (cfg1.grid.coords t) = false) :
    (dat1 V c).leavesExact w t = owns (c : Thread nD τ) ((cfg1.win w).stage (cfg1.slots t w)) fullShare ((dat1 V c).after w t) := by
  unfold Dat.leavesExact; rw [h]

def bodyPre1 : sProp 𝕄 :=
  iprop((dat1 V c).Φ t.castSucc ∗ (dat1 V c).owesAt () t.castSucc
    ∗ bigSep Finset.univ fun w : Fin cfg1.W => iprop(∃ d, owns (c : Thread nD τ) ((cfg1.win w).stage (cfg1.slots t w)) fullShare ((dat1 V c).before w t d)))

def bodyPost1 : sProp 𝕄 :=
  iprop((dat1 V c).Φ t.succ ∗ (dat1 V c).owesAt () t.succ ∗ bigSep Finset.univ fun w : Fin cfg1.W => (dat1 V c).leavesExact w t)

set_option maxHeartbeats 4800000 in
-- At every point the case's run applies: the invariant lends the scratch row and takes it back at the point's contents; all else is framed.
theorem sound_body1 :
    bodyPre1 V c t ⊢ wp frame (wpE (defs₀ (F := F)) Variants.none c none) Set.univ (bodyAt1 t) (fun _ => bodyPost1 V c t) := by
  unfold bodyPre1 bodyPost1 bodyAt1
  rw [bigSep_W1, bigSep_W1]
  simp only [before1_0_of V _ (A_eq1 V c 0) (after1_0 V c), before1_1_of V _ (A_eq1 V c 1) (after1_1 V c), before1_2_of V _ (A_eq1 V c 2) (after1_2 V c), before1_3_of V _ (A_eq1 V c 3) (after1_3 V c), before1_4_of V _ (A_eq1 V c 4) (after1_4 V c), before1_5_of V _ (A_eq1 V c 5) (after1_5 V c), before1_6_of V _ (A_eq1 V c 6) (after1_6 V c), before1_7_of V _ (A_eq1 V c 7) (after1_7 V c), before1_8_of V _ (A_eq1 V c 8) (after1_8 V c), before1_9_of V _ (A_eq1 V c 9) (after1_9 V c), before1_10_of V _ (A_eq1 V c 10) (after1_10 V c)]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [leaves_live V c t 0 (liveAt1_0 t), leaves_live V c t 1 (liveAt1_1 t), leaves_live V c t 2 (liveAt1_2 t), leaves_live V c t 3 (liveAt1_3 t), leaves_live V c t 4 (liveAt1_4 t), leaves_live V c t 5 (liveAt1_5 t), leaves_live V c t 6 (liveAt1_6 t), leaves_live V c t 7 (liveAt1_7 t), leaves_live V c t 8 (liveAt1_8 t), leaves_live V c t 9 (liveAt1_9 t), leaves_live V c t 10 (liveAt1_10 t), leaves_live V c t 11 (liveAt1_11 t), leaves_live V c t 12 (liveAt1_12 t), after1_0, after1_1, after1_2, after1_3, after1_4, after1_5, after1_6, after1_7, after1_8, after1_9, after1_10, after1_11, after1_12]
  have hN : t.val < 200 := lt_of_lt_of_eq t.isLt (show cfg1.N = 200 from N_1)
  by_cases h1 : t.val % 200 = 199
  · have h0 : ¬t.val % 200 = 0 := by omega
    rw [leaves_live V c t 13 (liveAt1_13 t ((hcond1_1 t).mpr h1)), after1_13, outsAt1_last V c t h0 h1, PhiS1_pos V c t.val _ (by omega)]
    unfold contC; dsimp only
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runC V c t h0 h1 _).2.2.2.2 Set.univ _)
    iframe H0 H1 H2 H3 H4 H5 H6 H7 H8 H9 H10 HS0
    isplitl [H11]; · iexists _; iexact H11
    isplitl [H12]; · iexists _; iexact H12
    isplitl [H13]; · iexists _; iexact H13
    iintro ⟨H0, H1, H2, H3, H4, H5, H6, H7, H8, H9, H10, ⟨%e11, H11⟩, ⟨%e12, H12⟩, ⟨%e13, H13⟩, ⟨%es0, HS0⟩⟩
    iframe Hrest Hg Ho H0 H1 H2 H3 H4 H5 H6 H7 H8 H9 H10
    isplitl [HS0]; · ihave H' := (Ring.owns_of_writes_tiledL VS1_0 S1x64.size) $$ HS0; iapply H'; ipureintro; sl_kernel_rfl
    isplitl [H11]; · ihave H' := (Ring.owns_of_writes_tiledL VO1_11 S4000x64.size) $$ H11; iapply H'; ipureintro; sl_kernel_rfl
    isplitl [H12]; · ihave H' := (Ring.owns_of_writes_tiledL VO1_12 S4000x64.size) $$ H12; iapply H'; ipureintro; sl_kernel_rfl
    ihave H' := (Ring.owns_of_writes_tiledL VO1_13 S1x128.size) $$ H13; iapply H'; ipureintro; sl_kernel_rfl
  · rw [Dat.leavesExact_idle (dat1 V c) 13 t (idleAt1_13 t (fun h => h1 ((hcond1_1 t).mp h))) (noFlush1_13 t (fun h => h1 ((hcond1_1 t).mp h)))]
    by_cases h0 : t.val % 200 = 0
    on_goal 1 => rw [outsAt1_first V c t h0 h1, PhiS1_zero V c t.val _ (by omega), PhiA1_eq]; unfold contA
    on_goal 2 => rw [outsAt1_middle V c t h0 h1, PhiS1_pos V c t.val _ (by omega)]; unfold contB
    all_goals
      dsimp only
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      first | iapply ((runA V c t h0 h1).2.2.2.2 _ Set.univ _) | iapply ((runB V c t h0 h1 _).2.2.2.2 _ Set.univ _)
      iframe H0 H1 H2 H3 H4 H5 H6 H7 H8 H9 H10 H13 HS0
      isplitl [H11]; · iexists _; iexact H11
      isplitl [H12]; · iexists _; iexact H12
      iintro ⟨H0, H1, H2, H3, H4, H5, H6, H7, H8, H9, H10, ⟨%e11, H11⟩, ⟨%e12, H12⟩, H13, ⟨%es0, HS0⟩⟩
      iframe Hrest Hg Ho H0 H1 H2 H3 H4 H5 H6 H7 H8 H9 H10
      isplitl [HS0]; · ihave H' := (Ring.owns_of_writes_tiledL VS1_0 S1x64.size) $$ HS0; iapply H'; ipureintro; sl_kernel_rfl
      isplitl [H11]; · ihave H' := (Ring.owns_of_writes_tiledL VO1_11 S4000x64.size) $$ H11; iapply H'; ipureintro; sl_kernel_rfl
      isplitl [H12]; · ihave H' := (Ring.owns_of_writes_tiledL VO1_12 S4000x64.size) $$ H12; iapply H'; ipureintro; sl_kernel_rfl
      iexists _; iexact H13

theorem body_obligation1 : BodyObligation (dat1 (F := F) V c) (defs₀ (F := F)) Variants.none () Set.univ := fun t => sound_body1 V c t

theorem hin1 :
    (iprop((∃ r, prngReg c r)
        ∗ Pipeline.prefHeld (cfg1.toPCfg (Val := Elt F)).pre c (fun _ => fullShare) (cfg1.toPCfg_adm (Val := Elt F)).1
        ∗ Pipeline.scopedRest spec1 c) : sProp 𝕄)
      ⊢ (dat1 V c).Φ 0 := by
  rw [show (dat1 V c).Φ 0 = PhiS1 V c 0 (Nat.zero_le _) from rfl, PhiS1_zero V c 0 _ rfl]; unfold Pipeline.ΦA
  iintro ⟨Hp, -, Hr⟩
  isplitl [Hr]; · iexact Hr
  iexact Hp

theorem Phi_out1 (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 :
    (dat1 V c).Φ (Fin.last cfg1.N)
      ⊢ (iprop((∃ r, prngReg c r) ∗ emp ∗ Pipeline.scopedRest spec1 c) : sProp 𝕄) := by
  refine (Phi_out1 V c _ (by rw [Fin.val_last]; have : cfg1.N = 200 := N_1; omega)).trans ?_
  unfold Pipeline.ΦA
  iintro ⟨Hr, Hp⟩
  isplitl [Hp]; · iexact Hp
  isplitr; · iempintro
  iexact Hr

end Cert.Kernel.Frame

end
-- ==== Proof.HKernel.Reg2.lean ====
-- Region 2: the normalisation kernel's body triple, proof data and body obligation, at any float model.
import proofs.«428159_j48533130445226_3_alg».proof.Proof.Gen.Kernel.Launch
import proofs.«428159_j48533130445226_3_alg».proof.Proof.Gen.Kernel.Skeleton
import proofs.«428159_j48533130445226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t` of the contents `V` at region entry.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8000x128 := Rect.unit (s := S8000x128) ![0, 0] S8000x128.size inb_S8000x128_S8000x128_0_0
abbrev r2_1 : Rect S128 := Rect.unit (s := S128) ![0] S128.size inb_S128_S128_0

-- The output block as a function of the five input blocks.
def out2_5 (x0 : Vec F S8000x128 .f32) (x1 x2 x3 x4 : Vec F S128 .f32) : Vec F S8000x128 .f32 :=
  View.canon [⟨r2_0, k2_pay1 (View.ld x0 r2_0) (View.ld x2 r2_1) (View.ld x3 r2_1) (View.ld x1 r2_1) (View.ld x4 r2_1)⟩]

theorem cover2_5 (p0 : Vec F S8000x128 .f32) (y : S8000x128.Idx) :
    ∃ pc ∈ ([⟨r2_0, p0⟩] : List (View.Piece (Elt F) S8000x128 .f32)), y ∈ pc.1.set :=
  View.cover_of_tiled [⟨r2_0, p0⟩] S8000x128.size (by rfl) y

set_option maxHeartbeats 1000000 in
-- The body keeps its five inputs and leaves `out2_5` of them in the output.
theorem sound_kernel2 (c : Dev nD) (x0 : Vec F S8000x128 .f32) (x1 x2 x3 x4 : Vec F S128 .f32) {E : Set ℕ} {i : grid2.Coords}
    {arg1 arg6 : Memref sig .tc .vmem S8000x128 .f32} {arg2 arg3 arg4 arg5 : Memref sig .tc .vmem S128 .f32}
    {harg1 : arg1.IsWhole} {harg2 : arg2.IsWhole} {harg3 : arg3.IsWhole} {harg4 : arg4.IsWhole} {harg5 : arg5.IsWhole} {harg6 : arg6.IsWhole}
    {K : PUnit → sProp 𝕄} :
    iprop(owns c arg1 fullShare x0 ∗ owns c arg2 fullShare x1 ∗ owns c arg3 fullShare x2 ∗ owns c arg4 fullShare x3 ∗ owns c arg5 fullShare x4
        ∗ (∃ d, owns c arg6 fullShare d)
        ∗ (iprop(owns c arg1 fullShare x0 ∗ owns c arg2 fullShare x1 ∗ owns c arg3 fullShare x2 ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__edge_bn_kernel i arg1 harg1 arg2 harg2 arg3 harg3 arg4 harg4 arg5 harg5 arg6 harg6) K := by
  simp only [cc2__edge_bn_kernel_eq_skeleton]; unfold cc2__edge_bn_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- One case per input window; the output window is excluded.
theorem before2 (c : Dev nD) : ∀ (w : Fin cfg2.W) (_ : w ≠ 5) (t : Fin cfg2.N) (d), (dat2 V c).before w t d = (dat2 V c).fetched w t d
  | ⟨0, _⟩, _, t, d | ⟨1, _⟩, _, t, d | ⟨2, _⟩, _, t, d | ⟨3, _⟩, _, t, d | ⟨4, _⟩, _, t, d =>
    (dat2 V c).before_in_eq_fetched _ rfl (fun _ => rfl) (fun _ _ _ => rfl) (fun _ => rfl) t d
  | ⟨5, _⟩, h, _, _ => absurd rfl h

-- The body's triple at a grid point, framed by the invariant and the owed amounts.
theorem sound_body2 (c : Dev nD) (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d))
      ∗ (∃ d, owns c (st2_5 t) fullShare ((dat2 V c).before 5 t d)))
    ⊢ wp frame (wpE (defs₀ (F := F)) Variants.none c none) Set.univ (bodyAt2 t) fun _ =>
      iprop((dat2 V c).Φ t.succ ∗ (dat2 V c).owesAt () t.succ
        ∗ owns c (st2_0 t) fullShare ((dat2 V c).after 0 t)
        ∗ owns c (st2_1 t) fullShare ((dat2 V c).after 1 t)
        ∗ owns c (st2_2 t) fullShare ((dat2 V c).after 2 t)
        ∗ owns c (st2_3 t) fullShare ((dat2 V c).after 3 t)
        ∗ owns c (st2_4 t) fullShare ((dat2 V c).after 4 t)
        ∗ owns c (st2_5 t) fullShare ((dat2 V c).after 5 t)) := by
  rw [show (dat2 V c).Φ t.succ = (dat2 V c).Φ t.castSucc from rfl,
    show (dat2 V c).owesAt () t.succ = (dat2 V c).owesAt () t.castSucc from rfl, after2_5]
  simp only [before2 V c 0 (by decide), before2 V c 1 (by decide), before2 V c 2 (by decide), before2 V c 3 (by decide), before2 V c 4 (by decide)]
  iintro ⟨HΦ, Ho, ⟨%d0, H0⟩, ⟨%d1, H1⟩, ⟨%d2, H2⟩, ⟨%d3, H3⟩, ⟨%d4, H4⟩, ⟨%d5, H5⟩⟩
  iapply (sound_kernel2 c (iblk2 V c 0 t) (iblk2 V c 1 t) (iblk2 V c 2 t) (iblk2 V c 3 t) (iblk2 V c 4 t))
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) :
    (iprop((∃ r, prngReg c r)
        ∗ Pipeline.prefHeld (cfg2.toPCfg (Val := Elt F)).pre c (fun _ => fullShare) (cfg2.toPCfg_adm (Val := Elt F)).1
        ∗ Pipeline.scopedRest spec2 c) : sProp 𝕄)
      ⊢ (dat2 V c).Φ 0 := by
  show _ ⊢ Pipeline.ΦA spec2 c; unfold Pipeline.ΦA
  iintro ⟨Hp, -, Hr⟩
  isplitl [Hr]; · iexact Hr
  iexact Hp

theorem hout2 (c : Dev nD) :
    (dat2 V c).Φ (Fin.last cfg2.N)
      ⊢ (iprop((∃ r, prngReg c r) ∗ emp ∗ Pipeline.scopedRest spec2 c) : sProp 𝕄) := by
  show Pipeline.ΦA spec2 c ⊢ _; unfold Pipeline.ΦA
  iintro ⟨Hr, Hp⟩
  isplitl [Hp]; · iexact Hp
  isplitr; · iempintro
  iexact Hr

end Cert.Kernel.Frame
-- ==== Proof.HKernel.Reg3.Runs.lean ====
-- Region 3: the body's triple at the first, a middle and the last grid point, with the lists of stored pieces each run finds.
import proofs.«428159_j48533130445226_3_alg».proof.Proof.Gen.Kernel.Launch
import proofs.«428159_j48533130445226_3_alg».proof.Proof.Gen.Kernel.Skeleton
import proofs.«428159_j48533130445226_3_alg».proof.Proof.Gen.Kernel.Points
import Idealize.ShloMosaic.Lib.Pipeline.FrameBody
import Idealize.ShloMosaic.Lib.Ring
import Idealize.ShloMosaic.Lib.Tactic

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Base
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Base

abbrev cond3_0 (i : grid3.Coords) : Prop := (Scalar.cmpi .ne (Scalar.extui (Scalar.cmpi .eq (BitVec.ofNat 32 (i 0).val) 0#32)) 0#32) = 1#1

-- The first branch condition holds at the first grid point only and the second at the last only: ten cases each.
theorem hcond3_0 : ∀ t : Fin cfg3.N, cond3_0 (grid3.coords t) ↔ t.val = 0 := by decide +kernel

abbrev cond3_1 (i : grid3.Coords) : Prop := k3_cond2 i = 1#1

theorem hcond3_1 : ∀ t : Fin cfg3.N, cond3_1 (grid3.coords t) ↔ t.val = 9 := by decide +kernel

theorem idleAt3_3 : ∀ t : Fin cfg3.N, ¬cond3_1 (grid3.coords t) → cfg3.idle 3 (grid3.coords t) = true := by decide +kernel

theorem noFlush3_3 : ∀ t : Fin cfg3.N, ¬cond3_1 (grid3.coords t) → (cfg3.win 3).flush t = false := by decide +kernel

theorem liveAt3_3 : ∀ t : Fin cfg3.N, cond3_1 (grid3.coords t) → cfg3.idle 3 (grid3.coords t) = false := by decide +kernel

abbrev VO3_2 : View sig .tc .vmem S5000x64 .f32 := (Memref.whole cc3_stg2_0 : Memref sig .tc .vmem S5000x64 .f32).view
abbrev VO3_3 : View sig .tc .vmem S1x128 .f32 := (Memref.whole cc3_stg3_0 : Memref sig .tc .vmem S1x128 .f32).view

abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)

abbrev scM3_0 : Memref sig .tc .vmem S1x128 .f32 := Memref.whole cc3_scratch0

abbrev VS3_0 : View sig .tc .vmem S1x128 .f32 := scM3_0.view

abbrev rest3 (c : Dev nD) : sProp 𝕄 :=
  Pipeline.scopedRestBut spec3 c [cc3_scratch0]

-- The scratch is one of the scoped buffers: split off, it is owned whole at some contents.
theorem scoped3_eq (c : Dev nD) :
    (Pipeline.scopedRest spec3 c : sProp 𝕄)
      = iprop(iprop((∃ d, owns (c : Thread nD τ) scM3_0 fullShare d)) ∗ rest3 c) := by
  rw [scopedRest3_split]; simp only [scM3_0, owns_whole]; try rfl

variable (c : Dev nD) (i : grid3.Coords) (arg1 : Memref sig .tc .vmem S5000x64 .f32) (harg1 : arg1.IsWhole)
  (arg2 : Memref sig .tc .vmem S5000x64 .f32) (harg2 : arg2.IsWhole) (arg3 : Memref sig .tc .vmem S5000x64 .f32) (harg3 : arg3.IsWhole)
  (arg4 : Memref sig .tc .vmem S1x128 .f32) (harg4 : arg4.IsWhole) (arg5 : Memref sig .tc .vmem S1x128 .f32) (harg5 : arg5.IsWhole)

-- First point: the scratch may hold anything; the run finds the pieces stored into the sum-rows buffer and the scratch.
set_option maxHeartbeats 1000000 in
def kernelRun3_A (hc0 : cond3_0 i) (hc1 : ¬cond3_1 i)
    (x0 : Vec F S5000x64 .f32) (x1 : Vec F S5000x64 .f32) :
    Σ' (L2 : List (View.Piece (Elt F) S5000x64 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc3__node_add_stats_kernel i arg1 harg1 arg2 harg2 arg3 harg3 arg4 harg4 arg5 harg5) K } := by
  refine ⟨?_, ?_, fun xi3 E K => ?run⟩
  case run =>
    simp only [cc3__node_add_stats_kernel_eq_skeleton]; unfold cc3__node_add_stats_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- Middle point: the scratch holds the partial sums xs0 of the points before.
set_option maxHeartbeats 1000000 in
def kernelRun3_B (hc0 : ¬cond3_0 i) (hc1 : ¬cond3_1 i)
    (x0 : Vec F S5000x64 .f32) (x1 : Vec F S5000x64 .f32) (xs0 : Vec F S1x128 .f32) :
    Σ' (L2 : List (View.Piece (Elt F) S5000x64 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc3__node_add_stats_kernel i arg1 harg1 arg2 harg2 arg3 harg3 arg4 harg4 arg5 harg5) K } := by
  refine ⟨?_, ?_, fun xi3 E K => ?run⟩
  case run =>
    simp only [cc3__node_add_stats_kernel_eq_skeleton]; unfold cc3__node_add_stats_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- Last point: as a middle point, and the updated scratch is copied to the statistics output.
set_option maxHeartbeats 1000000 in
def kernelRun3_C (hc0 : ¬cond3_0 i) (hc1 : cond3_1 i)
    (x0 : Vec F S5000x64 .f32) (x1 : Vec F S5000x64 .f32) (xs0 : Vec F S1x128 .f32) :
    Σ' (L2 : List (View.Piece (Elt F) S5000x64 .f32)) (L3 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__node_add_stats_kernel i arg1 harg1 arg2 harg2 arg3 harg3 arg4 harg4 arg5 harg5) K } := by
  refine ⟨?_, ?_, ?_, fun E K => ?run⟩
  case run =>
    simp only [cc3__node_add_stats_kernel_eq_skeleton]; unfold cc3__node_add_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Kernel.Frame

end
-- ==== Proof.HKernel.Reg3.lean ====
-- Region 3: what each run leaves in the outputs and the scratch, the invariant carrying the scratch between grid points, and the body obligation with the entailments into and out of the invariant.
import proofs.«428159_j48533130445226_3_alg».proof.Proof.HKernel.Reg3.Runs

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

-- What each run leaves in a buffer: its pieces written over anything and read back.
section
variable (c : Dev nD) (i : grid3.Coords) (arg1 : Memref sig .tc .vmem S5000x64 .f32) (harg1 : arg1.IsWhole)
  (arg2 : Memref sig .tc .vmem S5000x64 .f32) (harg2 : arg2.IsWhole) (arg3 : Memref sig .tc .vmem S5000x64 .f32) (harg3 : arg3.IsWhole)
  (arg4 : Memref sig .tc .vmem S1x128 .f32) (harg4 : arg4.IsWhole) (arg5 : Memref sig .tc .vmem S1x128 .f32) (harg5 : arg5.IsWhole)

section
variable (hc0 : cond3_0 i) (hc1 : ¬cond3_1 i) (x0 x1 : Vec F S5000x64 .f32)

def out3_A_2 : Vec F S5000x64 .f32 :=
  VO3_2.read (Elt F) (VO3_2.writes (Elt F) VO3_2.junk (kernelRun3_A c i arg1 harg1 arg2 harg2 arg3 harg3 arg4 harg4 arg5 harg5 hc0 hc1 x0 x1).1)

def sout3_A_0 : Vec F S1x128 .f32 :=
  VS3_0.read (Elt F) (VS3_0.writes (Elt F) VS3_0.junk (kernelRun3_A c i arg1 harg1 arg2 harg2 arg3 harg3 arg4 harg4 arg5 harg5 hc0 hc1 x0 x1).2.1)

end

section
variable (hc0 : ¬cond3_0 i) (hc1 : ¬cond3_1 i) (x0 x1 : Vec F S5000x64 .f32) (xs0 : Vec F S1x128 .f32)

def out3_B_2 : Vec F S5000x64 .f32 :=
  VO3_2.read (Elt F) (VO3_2.writes (Elt F) VO3_2.junk (kernelRun3_B c i arg1 harg1 arg2 harg2 arg3 harg3 arg4 harg4 arg5 harg5 hc0 hc1 x0 x1 xs0).1)

def sout3_B_0 : Vec F S1x128 .f32 :=
  VS3_0.read (Elt F) (VS3_0.writes (Elt F) VS3_0.junk (kernelRun3_B c i arg1 harg1 arg2 harg2 arg3 harg3 arg4 harg4 arg5 harg5 hc0 hc1 x0 x1 xs0).2.1)

end

section
variable (hc0 : ¬cond3_0 i) (hc1 : cond3_1 i) (x0 x1 : Vec F S5000x64 .f32) (xs0 : Vec F S1x128 .f32)

def out3_C_2 : Vec F S5000x64 .f32 :=
  VO3_2.read (Elt F) (VO3_2.writes (Elt F) VO3_2.junk (kernelRun3_C c i arg1 harg1 arg2 harg2 arg3 harg3 arg4 harg4 arg5 harg5 hc0 hc1 x0 x1 xs0).1)

def out3_C_3 : Vec F S1x128 .f32 :=
  VO3_3.read (Elt F) (VO3_3.writes (Elt F) VO3_3.junk (kernelRun3_C c i arg1 harg1 arg2 harg2 arg3 harg3 arg4 harg4 arg5 harg5 hc0 hc1 x0 x1 xs0).2.1)

def sout3_C_0 : Vec F S1x128 .f32 :=
  VS3_0.read (Elt F) (VS3_0.writes (Elt F) VS3_0.junk (kernelRun3_C c i arg1 harg1 arg2 harg2 arg3 harg3 arg4 harg4 arg5 harg5 hc0 hc1 x0 x1 xs0).2.2.1)

end
end

def idle3_3 : Vec F S1x128 .f32 := VO3_3.read (Elt F) VO3_3.junk

-- The three buffers' contents after point n, by recursion: the scratch of point n - 1 enters point n's run.
def outsAt3 (c : Dev nD) : (n : ℕ) → n < cfg3.N → Vec F S5000x64 .f32 × Vec F S1x128 .f32 × Vec F S1x128 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl) (fun h => (fun h9 => by (try dsimp only at h9); omega) ((hcond3_1 ⟨0, hn⟩).mp h)) (iblk3 V c 0 ⟨0, hn⟩) (iblk3 V c 1 ⟨0, hn⟩), idle3_3,
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl) (fun h => (fun h9 => by (try dsimp only at h9); omega) ((hcond3_1 ⟨0, hn⟩).mp h)) (iblk3 V c 0 ⟨0, hn⟩) (iblk3 V c 1 ⟨0, hn⟩))
  | n + 1, hn =>
    if h9 : n + 1 = 9 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) ((hcond3_1 ⟨n + 1, hn⟩).mpr h9) (iblk3 V c 0 ⟨n + 1, hn⟩) (iblk3 V c 1 ⟨n + 1, hn⟩) (outsAt3 c n (Nat.lt_of_succ_lt hn)).2.2,
        out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) ((hcond3_1 ⟨n + 1, hn⟩).mpr h9) (iblk3 V c 0 ⟨n + 1, hn⟩) (iblk3 V c 1 ⟨n + 1, hn⟩) (outsAt3 c n (Nat.lt_of_succ_lt hn)).2.2,
        sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) ((hcond3_1 ⟨n + 1, hn⟩).mpr h9) (iblk3 V c 0 ⟨n + 1, hn⟩) (iblk3 V c 1 ⟨n + 1, hn⟩) (outsAt3 c n (Nat.lt_of_succ_lt hn)).2.2)
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) (fun h => h9 ((hcond3_1 ⟨n + 1, hn⟩).mp h)) (iblk3 V c 0 ⟨n + 1, hn⟩) (iblk3 V c 1 ⟨n + 1, hn⟩) (outsAt3 c n (Nat.lt_of_succ_lt hn)).2.2, idle3_3,
        sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) (fun h => h9 ((hcond3_1 ⟨n + 1, hn⟩).mp h)) (iblk3 V c 0 ⟨n + 1, hn⟩) (iblk3 V c 1 ⟨n + 1, hn⟩) (outsAt3 c n (Nat.lt_of_succ_lt hn)).2.2)

theorem outsAt3_A (c : Dev nD) (t : Fin cfg3.N) (h0 : t.val = 0) (h1 : ¬t.val = 9) :
    outsAt3 V c t.val t.isLt = (out3_A_2 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t), idle3_3,
      sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact absurd h0 (Nat.succ_ne_zero n)

theorem outsAt3_B (c : Dev nD) (t : Fin cfg3.N) (h0 : ¬t.val = 0) (h1 : ¬t.val = 9) :
    outsAt3 V c t.val t.isLt = (out3_B_2 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.2, idle3_3,
      sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt3_C (c : Dev nD) (t : Fin cfg3.N) (h0 : ¬t.val = 0) (h1 : t.val = 9) :
    outsAt3 V c t.val t.isLt = (out3_C_2 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.2,
      out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.2,
      sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.2) := by
  obtain ⟨n, hn⟩ := t
  cases n with
  | zero => exact absurd rfl h0
  | succ n => exact (dif_pos h1).trans rfl

-- The invariant before point n: after the first point the scratch holds what the point before left.
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ rest3 c) ∗ (∃ r, prngReg c r))

theorem PhiS3_zero (c : Dev nD) (n : ℕ) (h : n ≤ cfg3.N) (hz : n = 0) :
    PhiS3 V c n h = iprop(iprop((∃ d, owns (c : Thread nD τ) scM3_0 fullShare d) ∗ rest3 c) ∗ (∃ r, prngReg c r)) := by
  subst hz; show (Pipeline.ΦA spec3 c : sProp 𝕄) = _; unfold Pipeline.ΦA; rw [scoped3_eq]

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ rest3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem leaves3 (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

-- The position of t selects the run; its pieces cover each buffer, so what is read back does not depend on the prior contents; the rest is common to the three cases.
set_option maxHeartbeats 4800000 in
theorem sound_body3 (c : Dev nD) (t : Fin cfg3.N) :
    (iprop((dat3 V c).Φ t.castSucc ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))) : sProp 𝕄)
      ⊢ wp frame (wpE (defs₀ (F := F)) Variants.none c none) Set.univ (bodyAt3 t) (fun _ =>
        iprop((dat3 V c).Φ t.succ ∗ (dat3 V c).owesAt () t.succ
          ∗ (dat3 V c).leavesExact 0 t
          ∗ (dat3 V c).leavesExact 1 t
          ∗ (dat3 V c).leavesExact 2 t
          ∗ (dat3 V c).leavesExact 3 t)) := by
  simp only [before3_0, before3_1]
  rw [show (dat3 V c).Φ t.succ = iprop(iprop(owns (c : Thread nD τ) scM3_0 fullShare ((outsAt3 V c t.val t.isLt).2.2) ∗ rest3 c) ∗ (∃ r, prngReg c r)) from rfl,
    show (dat3 V c).Φ t.castSucc = PhiS3 V c t.val t.isLt.le from rfl,
    leaves3 V c 0 t rfl, leaves3 V c 1 t rfl, leaves3 V c 2 t rfl, after3_0, after3_1, after3_2]
  by_cases h1 : t.val = 9
  case' pos =>
    have h0 : ¬t.val = 0 := by omega
    have hn0 : ¬cond3_0 (grid3.coords t) := fun h => h0 ((hcond3_0 t).mp h)
    rw [leaves3 V c 3 t (liveAt3_3 t ((hcond3_1 t).mpr h1)), after3_3, outsAt3_C V c t h0 h1]
    unfold out3_C_2 out3_C_3 sout3_C_0; dsimp only
    rw [PhiS3_pos V c _ _ h0]
    iintro ⟨⟨⟨HS0, Hr⟩, Hg⟩, Ho, ⟨%d0, H0⟩, ⟨%d1, H1⟩, ⟨%d2, H2⟩, ⟨%d3, H3⟩⟩
    iapply ((kernelRun3_C c _ _ _ _ _ _ _ _ _ scM3_0 _ hn0 ((hcond3_1 t).mpr h1) (iblk3 V c 0 t) (iblk3 V c 1 t) _).2.2.2 Set.univ _)
  case' neg =>
    have hn1 : ¬cond3_1 (grid3.coords t) := fun h => h1 ((hcond3_1 t).mp h)
    rw [Dat.leavesExact_idle (dat3 V c) 3 t (idleAt3_3 t hn1) (noFlush3_3 t hn1)]
    by_cases h0 : t.val = 0
    case' pos =>
      rw [outsAt3_A V c t h0 h1]
      unfold out3_A_2 sout3_A_0; dsimp only
      rw [PhiS3_zero V c _ _ h0]
      iintro ⟨⟨⟨HS0, Hr⟩, Hg⟩, Ho, ⟨%d0, H0⟩, ⟨%d1, H1⟩, ⟨%d2, H2⟩, ⟨%d3, H3⟩⟩
      iapply ((kernelRun3_A c _ _ _ _ _ _ _ _ _ scM3_0 _ ((hcond3_0 t).mpr h0) hn1 (iblk3 V c 0 t) (iblk3 V c 1 t)).2.2 _ Set.univ _)
    case' neg =>
      have hn0 : ¬cond3_0 (grid3.coords t) := fun h => h0 ((hcond3_0 t).mp h)
      rw [outsAt3_B V c t h0 h1]
      unfold out3_B_2 sout3_B_0; dsimp only
      rw [PhiS3_pos V c _ _ h0]
      iintro ⟨⟨⟨HS0, Hr⟩, Hg⟩, Ho, ⟨%d0, H0⟩, ⟨%d1, H1⟩, ⟨%d2, H2⟩, ⟨%d3, H3⟩⟩
      iapply ((kernelRun3_B c _ _ _ _ _ _ _ _ _ scM3_0 _ hn0 hn1 (iblk3 V c 0 t) (iblk3 V c 1 t) _).2.2 _ Set.univ _)
  all_goals
    isplitl [H0]; · iexact H0
    isplitl [H1]; · iexact H1
    isplitl [H2]; · iexists _; iexact H2
    isplitl [H3]; · first | iexact H3 | (iexists _; iexact H3)
    isplitl [HS0]; · iexact HS0
    iintro ⟨H0, H1, ⟨%e2, H2⟩, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (View.cover_of_tiledL (s := S1x128) _ S1x64.size (by sl_kernel_rfl))
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (View.cover_of_tiledL _ S5000x64.size (by sl_kernel_rfl))
    first
    | iexists _; iexact H3
    | icases H3 with ⟨%e3, H3⟩
      unfold owns; iexists _; isplitr
      swap; · iexact H3
      ipureintro; exact View.read_writes_of_cover _ _ _ _ _ (View.cover_of_tiledL _ S1x128.size (by sl_kernel_rfl))

theorem body_obligation3 (c : Dev nD) : BodyObligation (dat3 (F := F) V c) (defs₀ (F := F)) Variants.none () Set.univ := fun t => by
  rw [bigSep_W3, bigSep_W3]
  exact sound_body3 V c t

theorem hin3 (c : Dev nD) :
    (iprop((∃ r, prngReg c r)
        ∗ Pipeline.prefHeld (cfg3.toPCfg (Val := Elt F)).pre c (fun _ => fullShare) (cfg3.toPCfg_adm (Val := Elt F)).1
        ∗ Pipeline.scopedRest spec3 c) : sProp 𝕄)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

theorem hout3 (c : Dev nD) :
    (dat3 V c).Φ (Fin.last cfg3.N)
      ⊢ (iprop((∃ r, prngReg c r) ∗ emp ∗ Pipeline.scopedRest spec3 c) : sProp 𝕄) := by
  rw [show (dat3 V c).Φ (Fin.last cfg3.N) = PhiS3 V c cfg3.N le_rfl from rfl,
    PhiS3_pos V c _ _ (by have : cfg3.N = 10 := N_3; omega), scoped3_eq]
  iintro ⟨⟨HS0, Hr⟩, Hg⟩
  isplitl [Hg]; · iexact Hg
  isplitr; · iempintro
  isplitl [HS0]
  · iexists _; iexact HS0
  iexact Hr

end Frame

end Cert.Kernel.Frame

end
-- ==== Proof.HKernel.Reg4.lean ====
-- Region 4: the normalisation kernel's body triple, proof data and body obligation, at any float model.
import proofs.«428159_j48533130445226_3_alg».proof.Proof.Gen.Kernel.Launch
import proofs.«428159_j48533130445226_3_alg».proof.Proof.Gen.Kernel.Skeleton
import proofs.«428159_j48533130445226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t` of the contents `V` at region entry.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128 := Rect.unit (s := S128) ![0] S128.size inb_S128_S128_0

-- The output block as a function of the five input blocks.
def out4_5 (x0 : Vec F S5000x128 .f32) (x1 x2 x3 x4 : Vec F S128 .f32) : Vec F S5000x128 .f32 :=
  View.canon [⟨r4_0, k4_pay1 (View.ld x0 r4_0) (View.ld x2 r4_1) (View.ld x3 r4_1) (View.ld x1 r4_1) (View.ld x4 r4_1)⟩]

theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 1000000 in
-- The body keeps its five inputs and leaves `out4_5` of them in the output.
theorem sound_kernel4 (c : Dev nD) (x0 : Vec F S5000x128 .f32) (x1 x2 x3 x4 : Vec F S128 .f32) {E : Set ℕ} {i : grid4.Coords}
    {arg1 arg6 : Memref sig .tc .vmem S5000x128 .f32} {arg2 arg3 arg4 arg5 : Memref sig .tc .vmem S128 .f32}
    {harg1 : arg1.IsWhole} {harg2 : arg2.IsWhole} {harg3 : arg3.IsWhole} {harg4 : arg4.IsWhole} {harg5 : arg5.IsWhole} {harg6 : arg6.IsWhole}
    {K : PUnit → sProp 𝕄} :
    iprop(owns c arg1 fullShare x0 ∗ owns c arg2 fullShare x1 ∗ owns c arg3 fullShare x2 ∗ owns c arg4 fullShare x3 ∗ owns c arg5 fullShare x4
        ∗ (∃ d, owns c arg6 fullShare d)
        ∗ (iprop(owns c arg1 fullShare x0 ∗ owns c arg2 fullShare x1 ∗ owns c arg3 fullShare x2 ∗ owns c arg4 fullShare x3 ∗ owns c arg5 fullShare x4
            ∗ owns c arg6 fullShare (out4_5 x0 x1 x2 x3 x4)) -∗ K ⟨⟩))
      ⊢ wp frame (wpE (defs₀ (F := F)) Variants.none c none) E (cc4__node_bn_kernel i arg1 harg1 arg2 harg2 arg3 harg3 arg4 harg4 arg5 harg5 arg6 harg6) K := by
  simp only [cc4__node_bn_kernel_eq_skeleton]; unfold cc4__node_bn_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

-- One case per input window; the output window is excluded.
theorem before4 (c : Dev nD) : ∀ (w : Fin cfg4.W) (_ : w ≠ 5) (t : Fin cfg4.N) (d), (dat4 V c).before w t d = (dat4 V c).fetched w t d
  | ⟨0, _⟩, _, t, d | ⟨1, _⟩, _, t, d | ⟨2, _⟩, _, t, d | ⟨3, _⟩, _, t, d | ⟨4, _⟩, _, t, d =>
    (dat4 V c).before_in_eq_fetched _ rfl (fun _ => rfl) (fun _ _ _ => rfl) (fun _ => rfl) t d
  | ⟨5, _⟩, h, _, _ => absurd rfl h

-- The body's triple at a grid point, framed by the invariant and the owed amounts.
theorem sound_body4 (c : Dev nD) (t : Fin cfg4.N) :
    iprop((dat4 V c).Φ t.castSucc ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d))
      ∗ (∃ d, owns c (st4_3 t) fullShare ((dat4 V c).before 3 t d))
      ∗ (∃ d, owns c (st4_4 t) fullShare ((dat4 V c).before 4 t d))
      ∗ (∃ d, owns c (st4_5 t) fullShare ((dat4 V c).before 5 t d)))
    ⊢ wp frame (wpE (defs₀ (F := F)) Variants.none c none) Set.univ (bodyAt4 t) fun _ =>
      iprop((dat4 V c).Φ t.succ ∗ (dat4 V c).owesAt () t.succ
        ∗ owns c (st4_0 t) fullShare ((dat4 V c).after 0 t)
        ∗ owns c (st4_1 t) fullShare ((dat4 V c).after 1 t)
        ∗ owns c (st4_2 t) fullShare ((dat4 V c).after 2 t)
        ∗ owns c (st4_3 t) fullShare ((dat4 V c).after 3 t)
        ∗ owns c (st4_4 t) fullShare ((dat4 V c).after 4 t)
        ∗ owns c (st4_5 t) fullShare ((dat4 V c).after 5 t)) := by
  rw [show (dat4 V c).Φ t.succ = (dat4 V c).Φ t.castSucc from rfl,
    show (dat4 V c).owesAt () t.succ = (dat4 V c).owesAt () t.castSucc from rfl, after4_5]
  simp only [before4 V c 0 (by decide), before4 V c 1 (by decide), before4 V c 2 (by decide), before4 V c 3 (by decide), before4 V c 4 (by decide)]
  iintro ⟨HΦ, Ho, ⟨%d0, H0⟩, ⟨%d1, H1⟩, ⟨%d2, H2⟩, ⟨%d3, H3⟩, ⟨%d4, H4⟩, ⟨%d5, H5⟩⟩
  iapply (sound_kernel4 c (iblk4 V c 0 t) (iblk4 V c 1 t) (iblk4 V c 2 t) (iblk4 V c 3 t) (iblk4 V c 4 t))
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) :
    (iprop((∃ r, prngReg c r)
        ∗ Pipeline.prefHeld (cfg4.toPCfg (Val := Elt F)).pre c (fun _ => fullShare) (cfg4.toPCfg_adm (Val := Elt F)).1
        ∗ Pipeline.scopedRest spec4 c) : sProp 𝕄)
      ⊢ (dat4 V c).Φ 0 := by
  show _ ⊢ Pipeline.ΦA spec4 c; unfold Pipeline.ΦA
  iintro ⟨Hp, -, Hr⟩
  isplitl [Hr]; · iexact Hr
  iexact Hp

theorem hout4 (c : Dev nD) :
    (dat4 V c).Φ (Fin.last cfg4.N)
      ⊢ (iprop((∃ r, prngReg c r) ∗ emp ∗ Pipeline.scopedRest spec4 c) : sProp 𝕄) := by
  show Pipeline.ΦA spec4 c ⊢ _; unfold Pipeline.ΦA
  iintro ⟨Hr, Hp⟩
  isplitl [Hp]; · iexact Hp
  isplitr; · iempintro
  iexact Hr

end Cert.Kernel.Frame
-- ==== Proof.HKernel.Run.lean ====
/- The run of @main at any float model: the buffer contents at its sixteen item boundaries, the run over them, the results' last contents and the frame. -/
import proofs.«428159_j48533130445226_3_alg».proof.Proof.HKernel.Reg0
import proofs.«428159_j48533130445226_3_alg».proof.Proof.HKernel.Reg1
import proofs.«428159_j48533130445226_3_alg».proof.Proof.HKernel.Reg2
import proofs.«428159_j48533130445226_3_alg».proof.Proof.HKernel.Reg3
import proofs.«428159_j48533130445226_3_alg».proof.Proof.HKernel.Reg4
import proofs.«428159_j48533130445226_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 4096

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)

theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

abbrev W5 : Dev nD → Valuation τ sig (Elt F) := fun c => StableHlo.after hostOps1_2 (W4 m ρ c)

theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

abbrev W6 : Dev nD → Valuation τ sig (Elt F) := fun c => StableHlo.after hostOps1_3 (W5 m ρ c)

theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N :=
  Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) :=
  Pipeline.withArrays_of_ne spec1 c _ _ b hb

abbrev W8 : Dev nD → Valuation τ sig (Elt F) := fun c => StableHlo.after hostOps2 (W7 m ρ c)

theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N :=
  Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) :=
  Pipeline.withArrays_of_ne spec2 c _ _ b hb

abbrev W10 : Dev nD → Valuation τ sig (Elt F) := fun c => StableHlo.after hostOps3 (W9 m ρ c)

theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

abbrev W11 : Dev nD → Valuation τ sig (Elt F) := fun c => StableHlo.after hostOps3_1 (W10 m ρ c)

theorem W11_of (c : Dev nD) (r : Ref sig .tc) (h : r ∉ hostOps3_1_W) :
    W11 m ρ c (Proc.devRef .tc r) = W10 m ρ c (Proc.devRef .tc r) :=
  StableHlo.after_of_writes_sub hostOps3_1 _ hostOps3_1_writes h

abbrev W12 : Dev nD → Valuation τ sig (Elt F) := fun c => StableHlo.after hostOps3_2 (W11 m ρ c)

theorem W12_of (c : Dev nD) (r : Ref sig .tc) (h : r ∉ hostOps3_2_W) :
    W12 m ρ c (Proc.devRef .tc r) = W11 m ρ c (Proc.devRef .tc r) :=
  StableHlo.after_of_writes_sub hostOps3_2 _ hostOps3_2_writes h

abbrev V12 : (c : Dev nD) → (b : Ref sig .tc) → Buf (Elt F) ((c : Thread nD τ).loc b) := fun c b => W12 m ρ c b

def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N :=
  Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) :=
  Pipeline.withArrays_of_ne spec3 c _ _ b hb

abbrev W14 : Dev nD → Valuation τ sig (Elt F) := fun c => StableHlo.after hostOps4 (W13 m ρ c)

theorem W14_of (c : Dev nD) (r : Ref sig .tc) (h : r ∉ hostOps4_W) :
    W14 m ρ c (Proc.devRef .tc r) = W13 m ρ c (Proc.devRef .tc r) :=
  StableHlo.after_of_writes_sub hostOps4 _ hostOps4_writes h

abbrev V14 : (c : Dev nD) → (b : Ref sig .tc) → Buf (Elt F) ((c : Thread nD τ).loc b) := fun c b => W14 m ρ c b

def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N :=
  Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) :=
  Pipeline.withArrays_of_ne spec4 c _ _ b hb

abbrev W16 : Dev nD → Valuation τ sig (Elt F) := fun c => StableHlo.after hostOps5 (W15 m ρ c)

theorem W16_of (c : Dev nD) (r : Ref sig .tc) (h : r ∉ hostOps5_W) :
    W16 m ρ c (Proc.devRef .tc r) = W15 m ρ c (Proc.devRef .tc r) :=
  StableHlo.after_of_writes_sub hostOps5 _ hostOps5_writes h

theorem W16_main_v34 (c : Dev nD) : W16 m ρ c (Proc.devRef .tc main_v34) = W10 m ρ c (Proc.devRef .tc main_v34) :=
  (W16_of m ρ c main_v34 (by decide)).trans <|
  (W15_of_ne m ρ c main_v34 (by decide)).trans <|
  (W14_of m ρ c main_v34 (by decide)).trans <|
  (W13_of_ne m ρ c main_v34 (by decide)).trans <|
  (W12_of m ρ c main_v34 (by decide)).trans <|
  (W11_of m ρ c main_v34 (by decide))

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V12 m ρ) c
  | ⟨4, _⟩ => fun c => dat4 (V14 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m ρ c) ∗ ∃ r, prngReg c r)

set_option backward.isDefEq.respectTransparency.types false in
/-- A region as a segment over the thread state: every unscoped buffer at `Wi` on entry and at `Wo` on exit, `R` beside them. -/
def regSeg (p : Fin 5) (lf : Pipeline.LaunchFacts (nD := nD) (τ := τ) cfgs p) (Wi Wo : Dev nD → Valuation τ sig (Elt F))
    (hbody : ∀ c, Pipeline.BodyObligation (pdats m ρ p c) defs₀ 𝒱₀ () Set.univ)
    (howed : ∀ c t, (pdats m ρ p c).owed t = 0) (hrec : ∀ c x, x ∈ (pdats m ρ p c).recorded 0)
    (hq : ∀ c w, (pdats m ρ p c).q w = fullShare)
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b))
    (hin : ∀ c, iprop((∃ r, prngReg c r) ∗ Pipeline.prefHeld (pcfgs (F := F) p).pre c (fun _ => fullShare) (adm p).1
      ∗ Pipeline.scopedRest (cfgs p).spec c) ⊢ (pdats m ρ p c).Φ 0)
    (hout : ∀ c, (pdats m ρ p c).Φ (Fin.last (cfgs p).N)
      ⊢ iprop((∃ r, prngReg c r) ∗ emp ∗ Pipeline.scopedRest (cfgs p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin := hin
  hout c := by rw [Pipeline.ownSems0_none]; exact hout c
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c (Proc.devRef .tc b)) (fun b => Wo c (Proc.devRef .tc b))
      ((pdats m ρ p c).arrAt · (cfgs p).N) (fun w => (hF c w).symm) fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (regSeg m ρ 0 launch0 (W1 m ρ) (W2 m ρ) (body_obligation0 (V1 m ρ)) (fun _ _ => rfl)
      (fun _ _ => trivial) (fun _ _ => rfl) (fun _ _ => rfl) (W2_arr m ρ) (W2_of_ne m ρ)
      (hin0 (V1 m ρ)) (hout0 (V1 m ρ))),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (regSeg m ρ 1 launch1 (W6 m ρ) (W7 m ρ) (body_obligation1 (V6 m ρ)) (fun _ _ => rfl)
      (fun _ _ => trivial) (fun _ _ => rfl) (fun _ _ => rfl) (W7_arr m ρ) (W7_of_ne m ρ)
      (hin1 (V6 m ρ)) (hout1 (V6 m ρ))),
    .host (hseg hostOps2 hostOps2_sub hostOps2_fresh (W7 m ρ)),
    .region (regSeg m ρ 2 launch2 (W8 m ρ) (W9 m ρ) (body_obligation2 (V8 m ρ)) (fun _ _ => rfl)
      (fun _ _ => trivial) (fun _ _ => rfl) (fun _ _ => rfl) (W9_arr m ρ) (W9_of_ne m ρ)
      (hin2 (V8 m ρ)) (hout2 (V8 m ρ))),
    .host (hseg hostOps3 hostOps3_sub hostOps3_fresh (W9 m ρ)),
    .host (hseg hostOps3_1 hostOps3_1_sub hostOps3_1_fresh (W10 m ρ)),
    .host (hseg hostOps3_2 hostOps3_2_sub hostOps3_2_fresh (W11 m ρ)),
    .region (regSeg m ρ 3 launch3 (W12 m ρ) (W13 m ρ) (body_obligation3 (V12 m ρ)) (fun _ _ => rfl)
      (fun _ _ => trivial) (fun _ _ => rfl) (fun _ _ => rfl) (W13_arr m ρ) (W13_of_ne m ρ)
      (hin3 (V12 m ρ)) (hout3 (V12 m ρ))),
    .host (hseg hostOps4 hostOps4_sub hostOps4_fresh (W13 m ρ)),
    .region (regSeg m ρ 4 launch4 (W14 m ρ) (W15 m ρ) (body_obligation4 (V14 m ρ)) (fun _ _ => rfl)
      (fun _ _ => trivial) (fun _ _ => rfl) (fun _ _ => rfl) (W15_arr m ρ) (W15_of_ne m ρ)
      (hin4 (V14 m ρ)) (hout4 (V14 m ρ))),
    .host (hseg hostOps5 hostOps5_sub hostOps5_fresh (W15 m ρ)) ]

theorem main_run (c : Dev nD) : main (F := F) c = Pipeline.Seg.run (segs m ρ) := by
  rw [main_chain c, Pipeline.Seg.run_eq_chain]
  rfl

set_option backward.isDefEq.respectTransparency.types false in
theorem run_kit {Q : PUnit × MemSt nD τ sig (Elt F) → Prop}
    (hQ : ∀ s : MemSt nD τ sig (Elt F),
      (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- By cases on whether a window lies on `b`: a region's no-window lemma and its input windows as one. -/
theorem keep_of {ι : Type} (Wn Wp : Valuation τ sig (Elt F)) {f : ι → Ref sig .tc}
    (hne : ∀ b, (∀ w, f w ≠ b) → Wn (Proc.devRef .tc b) = Wp (Proc.devRef .tc b)) (b : Ref sig .tc)
    (hin : ∀ w, f w = b → Wn (Proc.devRef .tc (f w)) = Wp (Proc.devRef .tc (f w))) :
    Wn (Proc.devRef .tc b) = Wp (Proc.devRef .tc b) := by
  by_cases h : ∃ w, f w = b
  · obtain ⟨w, rfl⟩ := h; exact hin w rfl
  · exact hne b fun w e => h ⟨w, e⟩

/-- An unscoped buffer that no host stretch writes and no output window covers ends as launched: the fold walks back to the launch memory. -/
theorem arg_kept {s : MemSt nD τ sig (Elt F)}
    (h : ∀ c : Dev nD, ∀ b ∈ Pipeline.ucRefs τ sig, s.mem (((c : Thread nD τ)).1, b) = W16 m ρ c b) (c : Dev nD) (r : Ref sig .tc)
    (hr : ¬ (Proc.devRef .tc r : DevRef τ sig).isScoped
      ∧ r ∉ hostOps0_W ∧ r ∉ hostOps1_W ∧ r ∉ hostOps1_1_W ∧ r ∉ hostOps1_2_W ∧ r ∉ hostOps1_3_W ∧ r ∉ hostOps2_W
      ∧ r ∉ hostOps3_W ∧ r ∉ hostOps3_1_W ∧ r ∉ hostOps3_2_W ∧ r ∉ hostOps4_W ∧ r ∉ hostOps5_W
      ∧ (∀ w : Fin cfg0.W, Pipeline.arrRef spec0 w = r → (cfg0.win w).isOut = false)
      ∧ (∀ w : Fin cfg1.W, Pipeline.arrRef spec1 w = r → (cfg1.win w).isOut = false)
      ∧ (∀ w : Fin cfg2.W, Pipeline.arrRef spec2 w = r → (cfg2.win w).isOut = false)
      ∧ (∀ w : Fin cfg3.W, Pipeline.arrRef spec3 w = r → (cfg3.win w).isOut = false)
      ∧ ∀ w : Fin cfg4.W, Pipeline.arrRef spec4 w = r → (cfg4.win w).isOut = false) :
    s.mem ((c.tc : Thread nD τ).loc r) = m ((c.tc : Thread nD τ).loc r) := by
  obtain ⟨hu, a0, a1, a2, a3, a4, a5, a6, a7, a8, a9, a10, h0, h1, h2, h3, h4⟩ := hr
  exact (h c _ (mem_uc r hu)).trans <| (W16_of m ρ c r a10).trans <|
    (keep_of _ _ (W15_of_ne m ρ c) r fun w e => (W15_arr m ρ c w).trans <|
      ((dat4 (V14 m ρ) c).arrAt_in w (h4 w e) _).trans (A_eq4 (V14 m ρ) c w)).trans <| (W14_of m ρ c r a9).trans <|
    (keep_of _ _ (W13_of_ne m ρ c) r fun w e => (W13_arr m ρ c w).trans <|
      ((dat3 (V12 m ρ) c).arrAt_in w (h3 w e) _).trans (A_eq3 (V12 m ρ) c w)).trans <| (W12_of m ρ c r a8).trans <|
    (W11_of m ρ c r a7).trans <| (W10_of m ρ c r a6).trans <|
    (keep_of _ _ (W9_of_ne m ρ c) r fun w e => (W9_arr m ρ c w).trans <|
      ((dat2 (V8 m ρ) c).arrAt_in w (h2 w e) _).trans (A_eq2 (V8 m ρ) c w)).trans <| (W8_of m ρ c r a5).trans <|
    (keep_of _ _ (W7_of_ne m ρ c) r fun w e => (W7_arr m ρ c w).trans <|
      ((dat1 (V6 m ρ) c).arrAt_in w (h1 w e) _).trans (A_eq1 (V6 m ρ) c w)).trans <| (W6_of m ρ c r a4).trans <|
    (W5_of m ρ c r a3).trans <| (W4_of m ρ c r a2).trans <| (W3_of m ρ c r a1).trans <|
    (keep_of _ _ (W2_of_ne m ρ c) r fun w e => (W2_arr m ρ c w).trans <|
      ((dat0 (V1 m ρ) c).arrAt_in w (h0 w e) _).trans (A_eq0 (V1 m ρ) c w)).trans <| (W1_of m ρ c r a0).trans rfl

theorem run_results : θ_run defs (onTc (τ := τ) (main (F := F))) ⟨m, fun _ => 0, ρ⟩ (fun r => ∀ c : Dev nD,
      r.2.mem ((c.tc : Thread nD τ).loc main_v65) = W16 m ρ c (Proc.devRef .tc main_v65)
      ∧ r.2.mem ((c.tc : Thread nD τ).loc main_v34) = W16 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_kit m ρ fun s h c => by
    refine ⟨h c _ (mem_uc main_v65 (by decide)), h c _ (mem_uc main_v34 (by decide)), ?_⟩
    repeat' apply And.intro
    all_goals exact arg_kept m ρ h c _ (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine (θ_run defs (onTc (τ := τ) (main (F := F))) ⟨m, fun _ => 0, ρ⟩).mono ?_ (run_results m ρ)
  exact fun _ h c => (h c).2.2

end Cert.Kernel.Frame

end
-- ==== Proof.HKernelIdeal.Reg0.lean ====
-- Region 0: the projection kernel's body triple, proof data and body obligation, at any float model.
import proofs.«428159_j48533130445226_3_alg».proof.Proof.Gen.KernelIdeal.Launch
import proofs.«428159_j48533130445226_3_alg».proof.Proof.Gen.KernelIdeal.Skeleton
import proofs.«428159_j48533130445226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t` of the contents `V` at region entry.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x64 := Rect.unit (s := S5000x64) ![0, 0] S5000x64.size inb_S5000x64_S5000x64_0_0
abbrev r0_wt : Rect S256x64 := Rect.unit (s := S256x64) ![0, 0] S256x64.size inb_S256x64_S256x64_0_0
abbrev r0_bias : Rect S256 := Rect.unit (s := S256) ![0] S256.size inb_S256_S256_0
abbrev r0_y : Rect S5000x256 := Rect.unit (s := S5000x256) ![0, 0] S5000x256.size inb_S5000x256_S5000x256_0_0

-- The output block as a function of the three input blocks.
def out0_3 (x : Vec F S5000x64 .f32) (wt : Vec F S256x64 .f32) (b : Vec F S256 .f32) : Vec F S5000x256 .f32 :=
  View.canon [⟨r0_y, k0_pay1 (View.ld x r0_x) (View.ld wt r0_wt) (View.ld b r0_bias)⟩]

theorem cover0_3 (p0 : Vec F S5000x256 .f32) (y : S5000x256.Idx) :
    ∃ pc ∈ ([⟨r0_y, p0⟩] : List (View.Piece (Elt F) S5000x256 .f32)), y ∈ pc.1.set :=
  View.cover_of_tiled [⟨r0_y, p0⟩] S5000x256.size (by rfl) y

set_option maxHeartbeats 1000000 in
-- The body keeps its three inputs and leaves `out0_3` of them in the output.
theorem sound_kernel0 (c : Dev nD) (x0 : Vec F S5000x64 .f32) (x1 : Vec F S256x64 .f32) (x2 : Vec F S256 .f32) {E : Set ℕ} {i : grid0.Coords}
    {arg1 : Memref sig .tc .vmem S5000x64 .f32} {arg2 : Memref sig .tc .vmem S256x64 .f32} {arg3 : Memref sig .tc .vmem S256 .f32}
    {arg4 : Memref sig .tc .vmem S5000x256 .f32} {harg1 : arg1.IsWhole} {harg2 : arg2.IsWhole} {harg3 : arg3.IsWhole} {harg4 : arg4.IsWhole}
    {K : PUnit → sProp 𝕄} :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

-- One case per input window; the output window is excluded.
theorem before0 (c : Dev nD) : ∀ (w : Fin cfg0.W) (_ : w ≠ 3) (t : Fin cfg0.N) (d), (dat0 V c).before w t d = (dat0 V c).fetched w t d
  | ⟨0, _⟩, _, t, d | ⟨1, _⟩, _, t, d | ⟨2, _⟩, _, t, d =>
    (dat0 V c).before_in_eq_fetched _ rfl (fun _ => rfl) (fun _ _ _ => rfl) (fun _ => rfl) t d
  | ⟨3, _⟩, h, _, _ => absurd rfl h

-- The body's triple at a grid point, framed by the invariant and the owed amounts.
theorem sound_body0 (c : Dev nD) (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d)))
    ⊢ wp frame (wpE (defs₀ (F := F)) Variants.none c none) Set.univ (bodyAt0 t) fun _ =>
      iprop((dat0 V c).Φ t.succ ∗ (dat0 V c).owesAt () t.succ
        ∗ owns c (st0_0 t) fullShare ((dat0 V c).after 0 t)
        ∗ owns c (st0_1 t) fullShare ((dat0 V c).after 1 t)
        ∗ owns c (st0_2 t) fullShare ((dat0 V c).after 2 t)
        ∗ owns c (st0_3 t) fullShare ((dat0 V c).after 3 t)) := by
  rw [show (dat0 V c).Φ t.succ = (dat0 V c).Φ t.castSucc from rfl,
    show (dat0 V c).owesAt () t.succ = (dat0 V c).owesAt () t.castSucc from rfl, after0_3]
  simp only [before0 V c 0 (by decide), before0 V c 1 (by decide), before0 V c 2 (by decide)]
  iintro ⟨HΦ, Ho, ⟨%d0, H0⟩, ⟨%d1, H1⟩, ⟨%d2, H2⟩, ⟨%d3, H3⟩⟩
  iapply (sound_kernel0 c (iblk0 V c 0 t) (iblk0 V c 1 t) (iblk0 V c 2 t))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) :
    (iprop((∃ r, prngReg c r)
        ∗ Pipeline.prefHeld (cfg0.toPCfg (Val := Elt F)).pre c (fun _ => fullShare) (cfg0.toPCfg_adm (Val := Elt F)).1
        ∗ Pipeline.scopedRest spec0 c) : sProp 𝕄)
      ⊢ (dat0 V c).Φ 0 := by
  show _ ⊢ Pipeline.ΦA spec0 c; unfold Pipeline.ΦA
  iintro ⟨Hp, -, Hr⟩
  isplitl [Hr]; · iexact Hr
  iexact Hp

theorem hout0 (c : Dev nD) :
    (dat0 V c).Φ (Fin.last cfg0.N)
      ⊢ (iprop((∃ r, prngReg c r) ∗ emp ∗ Pipeline.scopedRest spec0 c) : sProp 𝕄) := by
  show Pipeline.ΦA spec0 c ⊢ _; unfold Pipeline.ΦA
  iintro ⟨Hr, Hp⟩
  isplitl [Hp]; · iexact Hp
  isplitr; · iempintro
  iexact Hr

end Cert.KernelIdeal.Frame
-- ==== Proof.HKernelIdeal.Reg1.Base.lean ====
-- Region 1 (the fused edge kernel): the windows' blocks, the body's two conditions, and the memrefs the body is called with.
import proofs.«428159_j48533130445226_3_alg».proof.Proof.Gen.KernelIdeal.Launch
import proofs.«428159_j48533130445226_3_alg».proof.Proof.Gen.KernelIdeal.Skeleton
import proofs.«428159_j48533130445226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- A whole memref owned at `X` is its elements held at the raw contents that read `X`.
theorem owns_eq_unread (c : Dev nD) {sp : Space} {sh : Shape} {e : EltTy} {m : Memref sig .tc sp sh e} (h : m.IsWhole) (X : sh.Idx → Elt F e) :
    (owns (c : Thread nD τ) m fullShare X : sProp 𝕄) = (m.view.loc (c : Thread nD τ) ↦[m.view.set]{fullShare} h.unread X) := by
  unfold owns
  refine BI.equiv_iff.mp ⟨?_, ?_⟩ <;> change (_ : sProp 𝕄) ⊢ _
  · iintro ⟨%f, %hf, H⟩; obtain rfl := h.eq_unread hf; iexact H
  · iintro H; iexists _; isplitr; · ipureintro; exact h.read_unread _
    iexact H

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)

-- In an input window the body finds the point's block (`HEq`: the two block shapes agree only window by window).
theorem before1_of (w : Fin cfg1.W) (hw : (cfg1.win w).isOut = false) (hA : dat.A w = V c (Pipeline.arrRef spec1 w))
    (hafter : ∀ t, HEq (dat.after w t) (iblk1 V c w t)) (t : Fin cfg1.N) (d) : HEq (dat.before w t d) (iblk1 V c w t) := by
  fin_cases w <;> first
    | exact absurd hw (by decide)
    | exact heq_of_eq ((dat.before_in_eq_fetched _ hw (fun _ => rfl) (fun _ _ _ => rfl)
        (fun t => by rw [eq_of_heq (hafter t)]; unfold Dat.blockOf iblk1; rw [hA]; try rfl) t d).trans
        (by unfold Dat.fetched Dat.blockOf iblk1; rw [hA]; try rfl))

theorem before1_0_of (hA : dat.A 0 = V c (Pipeline.arrRef spec1 0)) (hafter : ∀ t, dat.after 0 t = iblk1 V c 0 t) (t : Fin cfg1.N) (d) : dat.before 0 t d = iblk1 V c 0 t :=
  eq_of_heq (before1_of V dat 0 rfl hA (fun t => heq_of_eq (hafter t)) t d)
theorem before1_1_of (hA : dat.A 1 = V c (Pipeline.arrRef spec1 1)) (hafter : ∀ t, dat.after 1 t = iblk1 V c 1 t) (t : Fin cfg1.N) (d) : dat.before 1 t d = iblk1 V c 1 t :=
  eq_of_heq (before1_of V dat 1 rfl hA (fun t => heq_of_eq (hafter t)) t d)
theorem before1_2_of (hA : dat.A 2 = V c (Pipeline.arrRef spec1 2)) (hafter : ∀ t, dat.after 2 t = iblk1 V c 2 t) (t : Fin cfg1.N) (d) : dat.before 2 t d = iblk1 V c 2 t :=
  eq_of_heq (before1_of V dat 2 rfl hA (fun t => heq_of_eq (hafter t)) t d)
theorem before1_3_of (hA : dat.A 3 = V c (Pipeline.arrRef spec1 3)) (hafter : ∀ t, dat.after 3 t = iblk1 V c 3 t) (t : Fin cfg1.N) (d) : dat.before 3 t d = iblk1 V c 3 t :=
  eq_of_heq (before1_of V dat 3 rfl hA (fun t => heq_of_eq (hafter t)) t d)
theorem before1_4_of (hA : dat.A 4 = V c (Pipeline.arrRef spec1 4)) (hafter : ∀ t, dat.after 4 t = iblk1 V c 4 t) (t : Fin cfg1.N) (d) : dat.before 4 t d = iblk1 V c 4 t :=
  eq_of_heq (before1_of V dat 4 rfl hA (fun t => heq_of_eq (hafter t)) t d)
theorem before1_5_of (hA : dat.A 5 = V c (Pipeline.arrRef spec1 5)) (hafter : ∀ t, dat.after 5 t = iblk1 V c 5 t) (t : Fin cfg1.N) (d) : dat.before 5 t d = iblk1 V c 5 t :=
  eq_of_heq (before1_of V dat 5 rfl hA (fun t => heq_of_eq (hafter t)) t d)
theorem before1_6_of (hA : dat.A 6 = V c (Pipeline.arrRef spec1 6)) (hafter : ∀ t, dat.after 6 t = iblk1 V c 6 t) (t : Fin cfg1.N) (d) : dat.before 6 t d = iblk1 V c 6 t :=
  eq_of_heq (before1_of V dat 6 rfl hA (fun t => heq_of_eq (hafter t)) t d)
theorem before1_7_of (hA : dat.A 7 = V c (Pipeline.arrRef spec1 7)) (hafter : ∀ t, dat.after 7 t = iblk1 V c 7 t) (t : Fin cfg1.N) (d) : dat.before 7 t d = iblk1 V c 7 t :=
  eq_of_heq (before1_of V dat 7 rfl hA (fun t => heq_of_eq (hafter t)) t d)
theorem before1_8_of (hA : dat.A 8 = V c (Pipeline.arrRef spec1 8)) (hafter : ∀ t, dat.after 8 t = iblk1 V c 8 t) (t : Fin cfg1.N) (d) : dat.before 8 t d = iblk1 V c 8 t :=
  eq_of_heq (before1_of V dat 8 rfl hA (fun t => heq_of_eq (hafter t)) t d)
theorem before1_9_of (hA : dat.A 9 = V c (Pipeline.arrRef spec1 9)) (hafter : ∀ t, dat.after 9 t = iblk1 V c 9 t) (t : Fin cfg1.N) (d) : dat.before 9 t d = iblk1 V c 9 t :=
  eq_of_heq (before1_of V dat 9 rfl hA (fun t => heq_of_eq (hafter t)) t d)
theorem before1_10_of (hA : dat.A 10 = V c (Pipeline.arrRef spec1 10)) (hafter : ∀ t, dat.after 10 t = iblk1 V c 10 t) (t : Fin cfg1.N) (d) : dat.before 10 t d = iblk1 V c 10 t :=
  eq_of_heq (before1_of V dat 10 rfl hA (fun t => heq_of_eq (hafter t)) t d)
end

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 200 = 0 := by decide +kernel

abbrev cond1_1 (i : grid1.Coords) : Prop := k1_cond2 i = 1#1
theorem hcond1_1 : ∀ t : Fin cfg1.N, cond1_1 (grid1.coords t) ↔ t.val % 200 = 199 := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem liveAt1_11 : ∀ t : Fin cfg1.N, cfg1.idle 11 (grid1.coords t) = false := fun _ => rfl
theorem liveAt1_12 : ∀ t : Fin cfg1.N, cfg1.idle 12 (grid1.coords t) = false := fun _ => rfl
theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

abbrev VO1_11 : View sig .tc .vmem S4000x64 .f32 := (Memref.whole cc1_stg11_0 : Memref sig .tc .vmem S4000x64 .f32).view
abbrev VO1_12 : View sig .tc .vmem S4000x64 .f32 := (Memref.whole cc1_stg12_0 : Memref sig .tc .vmem S4000x64 .f32).view
abbrev VO1_13 : View sig .tc .vmem S1x128 .f32 := (Memref.whole cc1_stg13_0 : Memref sig .tc .vmem S1x128 .f32).view
abbrev ms1_0 (t : Fin cfg1.N) : Memref sig .tc .vmem S4000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4000x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4000x64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S4000x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev scM1_0 : Memref sig .tc .vmem S1x128 .f32 := Memref.whole cc1_scratch0
abbrev VS1_0 : View sig .tc .vmem S1x128 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

end Cert.KernelIdeal.Frame

end
-- ==== Proof.HKernelIdeal.Reg1.RunC.lean ====
-- Region 1: the body's run at the three kinds of grid point: the first (the scratch row zeroed), a middle one, the last (the scratch row copied to the statistics window).
import proofs.«428159_j48533130445226_3_alg».proof.Proof.HKernelIdeal.Reg1.Base

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid1.Coords)
    (arg1 : Memref sig .tc .vmem S4000x64 .f32) (harg1 : arg1.IsWhole)
    (arg2 : Memref sig .tc .vmem S64x64 .f32) (harg2 : arg2.IsWhole)
    (arg3 : Memref sig .tc .vmem S64 .f32) (harg3 : arg3.IsWhole)
    (arg4 : Memref sig .tc .vmem S4000x64 .f32) (harg4 : arg4.IsWhole)
    (arg5 : Memref sig .tc .vmem S4000x128 .f32) (harg5 : arg5.IsWhole)
    (arg6 : Memref sig .tc .vmem S64x64 .f32) (harg6 : arg6.IsWhole)
    (arg7 : Memref sig .tc .vmem S64x64 .f32) (harg7 : arg7.IsWhole)
    (arg8 : Memref sig .tc .vmem S64x64 .f32) (harg8 : arg8.IsWhole)
    (arg9 : Memref sig .tc .vmem S64 .f32) (harg9 : arg9.IsWhole)
    (arg10 : Memref sig .tc .vmem S64x64 .f32) (harg10 : arg10.IsWhole)
    (arg11 : Memref sig .tc .vmem S64 .f32) (harg11 : arg11.IsWhole)
    (arg12 : Memref sig .tc .vmem S4000x64 .f32) (harg12 : arg12.IsWhole)
    (arg13 : Memref sig .tc .vmem S4000x64 .f32) (harg13 : arg13.IsWhole)
    (arg14 : Memref sig .tc .vmem S1x128 .f32) (harg14 : arg14.IsWhole)
    (arg15 : Memref sig .tc .vmem S1x128 .f32) (harg15 : arg15.IsWhole)

set_option maxHeartbeats 4000000 in
noncomputable def kernelRun1_A (hc0 : cond1_0 i) (hc1 : ¬cond1_1 i)
    (x0 : Vec F S4000x64 .f32) (x1 : Vec F S64x64 .f32) (x2 : Vec F S64 .f32) (x3 : Vec F S4000x64 .f32) (x4 : Vec F S4000x128 .f32) (x5 : Vec F S64x64 .f32) (x6 : Vec F S64x64 .f32) (x7 : Vec F S64x64 .f32) (x8 : Vec F S64 .f32) (x9 : Vec F S64x64 .f32) (x10 : Vec F S64 .f32) :
    Σ' (L11 : List (View.Piece (Elt F) S4000x64 .f32)) (L12 : List (View.Piece (Elt F) S4000x64 .f32)) (L13 : List (View.Piece (Elt F) S1x128 .f32)), { LS0 : List (View.Piece (Elt F) S1x128 .f32) //
      ∀ (xi13 : Vec F S1x128 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ d, owns c.tc arg12 fullShare d) ∗ (∃ d, owns c.tc arg13 fullShare d) ∗ owns c.tc arg14 fullShare xi13 ∗ (∃ d, owns c.tc arg15 fullShare d)
            ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ f, arg12.view.loc c.tc ↦[arg12.view.set]{fullShare} arg12.view.writes (Elt F) f L11) ∗ (∃ f, arg13.view.loc c.tc ↦[arg13.view.set]{fullShare} arg13.view.writes (Elt F) f L12) ∗ owns c.tc arg14 fullShare xi13 ∗ (∃ f, arg15.view.loc c.tc ↦[arg15.view.set]{fullShare} arg15.view.writes (Elt F) f LS0)) -∗ K ⟨⟩))
          ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], ?_, fun xi13 E K => ?run⟩
  case run =>
    simp only [cc1__edge_fused_kernel_eq_skeleton]; unfold cc1__edge_fused_kernel_skel
    simp only [k1_part1_eq_skeleton, k1_part2_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg14]
    unfold owns
    iintro ⟨H0, H1, H2, H3, H4, H5, H6, H7, H8, H9, H10, ⟨%d11, %f11, -, H11⟩, ⟨%d12, %f12, -, H12⟩, H13, ⟨%ds0, %fs0, -, HS0⟩, Hk⟩
    sl_exec (disch := first | exact hc0 | exact hc1)
    sl_step
    iapply Hk
    iframe H0 H1 H2 H3 H4 H5 H6 H7 H8 H9 H10 H13
    isplitl [H11]; · iexists _; iexact H11
    isplitl [H12]; · iexists _; iexact H12
    iexists _; iexact HS0

set_option maxHeartbeats 4000000 in
noncomputable def kernelRun1_B (hc0 : ¬cond1_0 i) (hc1 : ¬cond1_1 i)
    (x0 : Vec F S4000x64 .f32) (x1 : Vec F S64x64 .f32) (x2 : Vec F S64 .f32) (x3 : Vec F S4000x64 .f32) (x4 : Vec F S4000x128 .f32) (x5 : Vec F S64x64 .f32) (x6 : Vec F S64x64 .f32) (x7 : Vec F S64x64 .f32) (x8 : Vec F S64 .f32) (x9 : Vec F S64x64 .f32) (x10 : Vec F S64 .f32) (xs0 : Vec F S1x128 .f32) :
    Σ' (L11 : List (View.Piece (Elt F) S4000x64 .f32)) (L12 : List (View.Piece (Elt F) S4000x64 .f32)) (L13 : List (View.Piece (Elt F) S1x128 .f32)), { LS0 : List (View.Piece (Elt F) S1x128 .f32) //
      ∀ (xi13 : Vec F S1x128 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ d, owns c.tc arg12 fullShare d) ∗ (∃ d, owns c.tc arg13 fullShare d) ∗ owns c.tc arg14 fullShare xi13 ∗ owns c.tc arg15 fullShare xs0
            ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ f, arg12.view.loc c.tc ↦[arg12.view.set]{fullShare} arg12.view.writes (Elt F) f L11) ∗ (∃ f, arg13.view.loc c.tc ↦[arg13.view.set]{fullShare} arg13.view.writes (Elt F) f L12) ∗ owns c.tc arg14 fullShare xi13 ∗ (∃ f, arg15.view.loc c.tc ↦[arg15.view.set]{fullShare} arg15.view.writes (Elt F) f LS0)) -∗ K ⟨⟩))
          ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], ?_, fun xi13 E K => ?run⟩
  case run =>
    simp only [cc1__edge_fused_kernel_eq_skeleton]; unfold cc1__edge_fused_kernel_skel
    simp only [k1_part1_eq_skeleton, k1_part2_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg14, owns_eq_unread c harg15]
    unfold owns
    iintro ⟨H0, H1, H2, H3, H4, H5, H6, H7, H8, H9, H10, ⟨%d11, %f11, -, H11⟩, ⟨%d12, %f12, -, H12⟩, H13, HS0, Hk⟩
    sl_exec (disch := first | exact hc0 | exact hc1)
    sl_step
    iapply Hk
    iframe H0 H1 H2 H3 H4 H5 H6 H7 H8 H9 H10 H13
    isplitl [H11]; · iexists _; iexact H11
    isplitl [H12]; · iexists _; iexact H12
    iexists _; iexact HS0

set_option maxHeartbeats 4000000 in
noncomputable def kernelRun1_C (hc0 : ¬cond1_0 i) (hc1 : cond1_1 i)
    (x0 : Vec F S4000x64 .f32) (x1 : Vec F S64x64 .f32) (x2 : Vec F S64 .f32) (x3 : Vec F S4000x64 .f32) (x4 : Vec F S4000x128 .f32) (x5 : Vec F S64x64 .f32) (x6 : Vec F S64x64 .f32) (x7 : Vec F S64x64 .f32) (x8 : Vec F S64 .f32) (x9 : Vec F S64x64 .f32) (x10 : Vec F S64 .f32) (xs0 : Vec F S1x128 .f32) :
    Σ' (L11 : List (View.Piece (Elt F) S4000x64 .f32)) (L12 : List (View.Piece (Elt F) S4000x64 .f32)) (L13 : List (View.Piece (Elt F) S1x128 .f32)), { LS0 : List (View.Piece (Elt F) S1x128 .f32) //
      ∀ (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ d, owns c.tc arg12 fullShare d) ∗ (∃ d, owns c.tc arg13 fullShare d) ∗ (∃ d, owns c.tc arg14 fullShare d) ∗ owns c.tc arg15 fullShare xs0
            ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ (∃ f, arg12.view.loc c.tc ↦[arg12.view.set]{fullShare} arg12.view.writes (Elt F) f L11) ∗ (∃ f, arg13.view.loc c.tc ↦[arg13.view.set]{fullShare} arg13.view.writes (Elt F) f L12) ∗ (∃ f, arg14.view.loc c.tc ↦[arg14.view.set]{fullShare} arg14.view.writes (Elt F) f L13) ∗ (∃ f, arg15.view.loc c.tc ↦[arg15.view.set]{fullShare} arg15.view.writes (Elt F) f LS0)) -∗ K ⟨⟩))
          ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__edge_fused_kernel_eq_skeleton]; unfold cc1__edge_fused_kernel_skel
    simp only [k1_part1_eq_skeleton, k1_part2_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg15]
    unfold owns
    iintro ⟨H0, H1, H2, H3, H4, H5, H6, H7, H8, H9, H10, ⟨%d11, %f11, -, H11⟩, ⟨%d12, %f12, -, H12⟩, ⟨%d13, %f13, -, H13⟩, HS0, Hk⟩
    sl_exec (disch := first | exact hc0 | exact hc1)
    sl_step
    iapply Hk
    iframe H0 H1 H2 H3 H4 H5 H6 H7 H8 H9 H10
    isplitl [H11]; · iexists _; iexact H11
    isplitl [H12]; · iexists _; iexact H12
    isplitl [H13]; · iexists _; iexact H13
    iexists _; iexact HS0

end Cert.KernelIdeal.Frame

end
-- ==== Proof.HKernelIdeal.Reg1.lean ====
-- Region 1: the three control cases' runs at a grid point, the contents they leave point by point, the region's proof data and its body obligation.
import proofs.«428159_j48533130445226_3_alg».proof.Proof.HKernelIdeal.Reg1.RunC

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (t : Fin cfg1.N)

def runA (h0 : t.val % 200 = 0) (h1 : ¬t.val % 200 = 199) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

def contA (h0 : t.val % 200 = 0) (h1 : ¬t.val % 200 = 199) : Vec F S4000x64 .f32 × Vec F S4000x64 .f32 × Vec F S1x128 .f32 × Vec F S1x128 .f32 :=
  (VO1_11.read (Elt F) (VO1_11.writes (Elt F) VO1_11.junk (runA V c t h0 h1).1),
   VO1_12.read (Elt F) (VO1_12.writes (Elt F) VO1_12.junk (runA V c t h0 h1).2.1),
   VO1_13.read (Elt F) (VO1_13.writes (Elt F) VO1_13.junk (runA V c t h0 h1).2.2.1),
   VS1_0.read (Elt F) (VS1_0.writes (Elt F) VS1_0.junk (runA V c t h0 h1).2.2.2.1))

def runB (h0 : ¬t.val % 200 = 0) (h1 : ¬t.val % 200 = 199) (xs : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) xs

def contB (h0 : ¬t.val % 200 = 0) (h1 : ¬t.val % 200 = 199) (xs : Vec F S1x128 .f32) : Vec F S4000x64 .f32 × Vec F S4000x64 .f32 × Vec F S1x128 .f32 × Vec F S1x128 .f32 :=
  (VO1_11.read (Elt F) (VO1_11.writes (Elt F) VO1_11.junk (runB V c t h0 h1 xs).1),
   VO1_12.read (Elt F) (VO1_12.writes (Elt F) VO1_12.junk (runB V c t h0 h1 xs).2.1),
   VO1_13.read (Elt F) (VO1_13.writes (Elt F) VO1_13.junk (runB V c t h0 h1 xs).2.2.1),
   VS1_0.read (Elt F) (VS1_0.writes (Elt F) VS1_0.junk (runB V c t h0 h1 xs).2.2.2.1))

def runC (h0 : ¬t.val % 200 = 0) (h1 : t.val % 200 = 199) (xs : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) xs

def contC (h0 : ¬t.val % 200 = 0) (h1 : t.val % 200 = 199) (xs : Vec F S1x128 .f32) : Vec F S4000x64 .f32 × Vec F S4000x64 .f32 × Vec F S1x128 .f32 × Vec F S1x128 .f32 :=
  (VO1_11.read (Elt F) (VO1_11.writes (Elt F) VO1_11.junk (runC V c t h0 h1 xs).1),
   VO1_12.read (Elt F) (VO1_12.writes (Elt F) VO1_12.junk (runC V c t h0 h1 xs).2.1),
   VO1_13.read (Elt F) (VO1_13.writes (Elt F) VO1_13.junk (runC V c t h0 h1 xs).2.2.1),
   VS1_0.read (Elt F) (VS1_0.writes (Elt F) VS1_0.junk (runC V c t h0 h1 xs).2.2.2.1))

theorem succ_mod_ne (n : ℕ) (hn : n + 1 < cfg1.N) : ¬(n + 1) % 200 = 0 := by
  have hN : n + 1 < 200 := lt_of_lt_of_eq hn (show cfg1.N = 200 from N_1); omega

def outsAt1 (c : Dev nD) : (n : ℕ) → n < cfg1.N → Vec F S4000x64 .f32 × Vec F S4000x64 .f32 × Vec F S1x128 .f32 × Vec F S1x128 .f32
  | 0, hn => contA V c ⟨0, hn⟩ (Nat.zero_mod _) (by show ¬(0 % 200 = 199); decide)
  | n + 1, hn =>
    if h1 : (n + 1) % 200 = 199 then
      contC V c ⟨n + 1, hn⟩ (succ_mod_ne n hn) h1 (outsAt1 c n (Nat.lt_of_succ_lt hn)).2.2.2
    else
      contB V c ⟨n + 1, hn⟩ (succ_mod_ne n hn) h1 (outsAt1 c n (Nat.lt_of_succ_lt hn)).2.2.2

theorem outsAt1_first (h0 : t.val % 200 = 0) (h1 : ¬t.val % 200 = 199) :
    outsAt1 V c t.val t.isLt = contA V c t h0 h1 := by
  obtain ⟨n, hn⟩ := t
  cases n with
  | zero => exact rfl
  | succ n => exact absurd h0 (succ_mod_ne n hn)

theorem outsAt1_middle (h0 : ¬t.val % 200 = 0) (h1 : ¬t.val % 200 = 199) :
    outsAt1 V c t.val t.isLt
      = contB V c t h0 h1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h1).trans rfl

theorem outsAt1_last (h0 : ¬t.val % 200 = 0) (h1 : t.val % 200 = 199) :
    outsAt1 V c t.val t.isLt
      = contC V c t h0 h1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_pos h1).trans rfl

def PhiS1 : (n : ℕ) → n ≤ cfg1.N → sProp 𝕄
  | 0, _ => Pipeline.ΦA spec1 c
  | n + 1, hn => iprop(iprop(owns (c : Thread nD τ) scM1_0 fullShare ((outsAt1 V c n hn).2.2.2) ∗ restBut1 (F := F) c) ∗ (∃ r, prngReg c r))

theorem PhiS1_zero (n : ℕ) (h : n ≤ cfg1.N) (hz : n = 0) : PhiS1 V c n h = Pipeline.ΦA spec1 c := by
  subst hz; rfl

theorem PhiS1_succ (n : ℕ) (hn : n < cfg1.N) :
    PhiS1 V c (n + 1) hn = iprop(iprop(owns (c : Thread nD τ) scM1_0 fullShare ((outsAt1 V c n hn).2.2.2) ∗ restBut1 (F := F) c) ∗ (∃ r, prngReg c r)) := rfl

theorem PhiS1_pos (n : ℕ) (h : n ≤ cfg1.N) (hz : n ≠ 0) :
    PhiS1 V c n h = iprop(iprop(owns (c : Thread nD τ) scM1_0 fullShare ((outsAt1 V c (n - 1) (by omega)).2.2.2) ∗ restBut1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
    | ⟨12, _⟩ => (outsAt1 V c t.val t.isLt).2.1
    | ⟨13, _⟩ => (outsAt1 V c t.val t.isLt).2.2.1
  Φ t := PhiS1 V c t.val (Nat.le_of_lt_succ t.isLt)
  q _ := fullShare
  owed _ := 0

theorem A_eq1 (w : Fin cfg1.W) : (dat1 V c).A w = V c (Pipeline.arrRef spec1 w) := by
  dsimp only [dat1]

theorem PhiS1_castSucc :
    (dat1 V c).Φ t.castSucc = PhiS1 V c t.val (Nat.le_of_lt t.isLt) := by
  dsimp only [dat1]; simp only [Fin.coe_castSucc]

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = iblk1 V c 3 t := by dsimp only [dat1]
theorem after1_4 : (dat1 V c).after 4 t = iblk1 V c 4 t := by dsimp only [dat1]
theorem after1_5 : (dat1 V c).after 5 t = iblk1 V c 5 t := by dsimp only [dat1]
theorem after1_6 : (dat1 V c).after 6 t = iblk1 V c 6 t := by dsimp only [dat1]
theorem after1_7 : (dat1 V c).after 7 t = iblk1 V c 7 t := by dsimp only [dat1]
theorem after1_8 : (dat1 V c).after 8 t = iblk1 V c 8 t := by dsimp only [dat1]
theorem after1_9 : (dat1 V c).after 9 t = iblk1 V c 9 t := by dsimp only [dat1]
theorem after1_10 : (dat1 V c).after 10 t = iblk1 V c 10 t := by dsimp only [dat1]
theorem after1_11 : (dat1 V c).after 11 t = (outsAt1 V c t.val t.isLt).1 := by dsimp only [dat1]
theorem after1_12 : (dat1 V c).after 12 t = (outsAt1 V c t.val t.isLt).2.1 := by dsimp only [dat1]
theorem after1_13 : (dat1 V c).after 13 t = (outsAt1 V c t.val t.isLt).2.2.1 := by dsimp only [dat1]

theorem leaves_live (w : Fin cfg1.W) (h : cfg1.idle w (cfg1.grid.coords t) = false) :
    (dat1 V c).leavesExact w t = owns (c : Thread nD τ) ((cfg1.win w).stage (cfg1.slots t w)) fullShare ((dat1 V c).after w t) := by
  unfold Dat.leavesExact; rw [h]

def bodyPre1 : sProp 𝕄 :=
  iprop((dat1 V c).Φ t.castSucc ∗ (dat1 V c).owesAt () t.castSucc
    ∗ bigSep Finset.univ fun w : Fin cfg1.W => iprop(∃ d, owns (c : Thread nD τ) ((cfg1.win w).stage (cfg1.slots t w)) fullShare ((dat1 V c).before w t d)))

def bodyPost1 : sProp 𝕄 :=
  iprop((dat1 V c).Φ t.succ ∗ (dat1 V c).owesAt () t.succ ∗ bigSep Finset.univ fun w : Fin cfg1.W => (dat1 V c).leavesExact w t)

set_option maxHeartbeats 4800000 in
-- At every point the case's run applies: the invariant lends the scratch row and takes it back at the point's contents; all else is framed.
theorem sound_body1 :
    bodyPre1 V c t ⊢ wp frame (wpE (defs₀ (F := F)) Variants.none c none) Set.univ (bodyAt1 t) (fun _ => bodyPost1 V c t) := by
  unfold bodyPre1 bodyPost1 bodyAt1
  rw [bigSep_W1, bigSep_W1]
  simp only [before1_0_of V _ (A_eq1 V c 0) (after1_0 V c), before1_1_of V _ (A_eq1 V c 1) (after1_1 V c), before1_2_of V _ (A_eq1 V c 2) (after1_2 V c), before1_3_of V _ (A_eq1 V c 3) (after1_3 V c), before1_4_of V _ (A_eq1 V c 4) (after1_4 V c), before1_5_of V _ (A_eq1 V c 5) (after1_5 V c), before1_6_of V _ (A_eq1 V c 6) (after1_6 V c), before1_7_of V _ (A_eq1 V c 7) (after1_7 V c), before1_8_of V _ (A_eq1 V c 8) (after1_8 V c), before1_9_of V _ (A_eq1 V c 9) (after1_9 V c), before1_10_of V _ (A_eq1 V c 10) (after1_10 V c)]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [leaves_live V c t 0 (liveAt1_0 t), leaves_live V c t 1 (liveAt1_1 t), leaves_live V c t 2 (liveAt1_2 t), leaves_live V c t 3 (liveAt1_3 t), leaves_live V c t 4 (liveAt1_4 t), leaves_live V c t 5 (liveAt1_5 t), leaves_live V c t 6 (liveAt1_6 t), leaves_live V c t 7 (liveAt1_7 t), leaves_live V c t 8 (liveAt1_8 t), leaves_live V c t 9 (liveAt1_9 t), leaves_live V c t 10 (liveAt1_10 t), leaves_live V c t 11 (liveAt1_11 t), leaves_live V c t 12 (liveAt1_12 t), after1_0, after1_1, after1_2, after1_3, after1_4, after1_5, after1_6, after1_7, after1_8, after1_9, after1_10, after1_11, after1_12]
  have hN : t.val < 200 := lt_of_lt_of_eq t.isLt (show cfg1.N = 200 from N_1)
  by_cases h1 : t.val % 200 = 199
  · have h0 : ¬t.val % 200 = 0 := by omega
    rw [leaves_live V c t 13 (liveAt1_13 t ((hcond1_1 t).mpr h1)), after1_13, outsAt1_last V c t h0 h1, PhiS1_pos V c t.val _ (by omega)]
    unfold contC; dsimp only
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runC V c t h0 h1 _).2.2.2.2 Set.univ _)
    iframe H0 H1 H2 H3 H4 H5 H6 H7 H8 H9 H10 HS0
    isplitl [H11]; · iexists _; iexact H11
    isplitl [H12]; · iexists _; iexact H12
    isplitl [H13]; · iexists _; iexact H13
    iintro ⟨H0, H1, H2, H3, H4, H5, H6, H7, H8, H9, H10, ⟨%e11, H11⟩, ⟨%e12, H12⟩, ⟨%e13, H13⟩, ⟨%es0, HS0⟩⟩
    iframe Hrest Hg Ho H0 H1 H2 H3 H4 H5 H6 H7 H8 H9 H10
    isplitl [HS0]; · ihave H' := (Ring.owns_of_writes_tiledL VS1_0 S1x64.size) $$ HS0; iapply H'; ipureintro; sl_kernel_rfl
    isplitl [H11]; · ihave H' := (Ring.owns_of_writes_tiledL VO1_11 S4000x64.size) $$ H11; iapply H'; ipureintro; sl_kernel_rfl
    isplitl [H12]; · ihave H' := (Ring.owns_of_writes_tiledL VO1_12 S4000x64.size) $$ H12; iapply H'; ipureintro; sl_kernel_rfl
    ihave H' := (Ring.owns_of_writes_tiledL VO1_13 S1x128.size) $$ H13; iapply H'; ipureintro; sl_kernel_rfl
  · rw [Dat.leavesExact_idle (dat1 V c) 13 t (idleAt1_13 t (fun h => h1 ((hcond1_1 t).mp h))) (noFlush1_13 t (fun h => h1 ((hcond1_1 t).mp h)))]
    by_cases h0 : t.val % 200 = 0
    on_goal 1 => rw [outsAt1_first V c t h0 h1, PhiS1_zero V c t.val _ (by omega), PhiA1_eq]; unfold contA
    on_goal 2 => rw [outsAt1_middle V c t h0 h1, PhiS1_pos V c t.val _ (by omega)]; unfold contB
    all_goals
      dsimp only
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      first | iapply ((runA V c t h0 h1).2.2.2.2 _ Set.univ _) | iapply ((runB V c t h0 h1 _).2.2.2.2 _ Set.univ _)
      iframe H0 H1 H2 H3 H4 H5 H6 H7 H8 H9 H10 H13 HS0
      isplitl [H11]; · iexists _; iexact H11
      isplitl [H12]; · iexists _; iexact H12
      iintro ⟨H0, H1, H2, H3, H4, H5, H6, H7, H8, H9, H10, ⟨%e11, H11⟩, ⟨%e12, H12⟩, H13, ⟨%es0, HS0⟩⟩
      iframe Hrest Hg Ho H0 H1 H2 H3 H4 H5 H6 H7 H8 H9 H10
      isplitl [HS0]; · ihave H' := (Ring.owns_of_writes_tiledL VS1_0 S1x64.size) $$ HS0; iapply H'; ipureintro; sl_kernel_rfl
      isplitl [H11]; · ihave H' := (Ring.owns_of_writes_tiledL VO1_11 S4000x64.size) $$ H11; iapply H'; ipureintro; sl_kernel_rfl
      isplitl [H12]; · ihave H' := (Ring.owns_of_writes_tiledL VO1_12 S4000x64.size) $$ H12; iapply H'; ipureintro; sl_kernel_rfl
      iexists _; iexact H13

theorem body_obligation1 : BodyObligation (dat1 (F := F) V c) (defs₀ (F := F)) Variants.none () Set.univ := fun t => sound_body1 V c t

theorem hin1 :
    (iprop((∃ r, prngReg c r)
        ∗ Pipeline.prefHeld (cfg1.toPCfg (Val := Elt F)).pre c (fun _ => fullShare) (cfg1.toPCfg_adm (Val := Elt F)).1
        ∗ Pipeline.scopedRest spec1 c) : sProp 𝕄)
      ⊢ (dat1 V c).Φ 0 := by
  rw [show (dat1 V c).Φ 0 = PhiS1 V c 0 (Nat.zero_le _) from rfl, PhiS1_zero V c 0 _ rfl]; unfold Pipeline.ΦA
  iintro ⟨Hp, -, Hr⟩
  isplitl [Hr]; · iexact Hr
  iexact Hp

theorem Phi_out1 (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 :
    (dat1 V c).Φ (Fin.last cfg1.N)
      ⊢ (iprop((∃ r, prngReg c r) ∗ emp ∗ Pipeline.scopedRest spec1 c) : sProp 𝕄) := by
  refine (Phi_out1 V c _ (by rw [Fin.val_last]; have : cfg1.N = 200 := N_1; omega)).trans ?_
  unfold Pipeline.ΦA
  iintro ⟨Hr, Hp⟩
  isplitl [Hp]; · iexact Hp
  isplitr; · iempintro
  iexact Hr

end Cert.KernelIdeal.Frame

end
-- ==== Proof.HKernelIdeal.Reg2.lean ====
-- Region 2: the normalisation kernel's body triple, proof data and body obligation, at any float model.
import proofs.«428159_j48533130445226_3_alg».proof.Proof.Gen.KernelIdeal.Launch
import proofs.«428159_j48533130445226_3_alg».proof.Proof.Gen.KernelIdeal.Skeleton
import proofs.«428159_j48533130445226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t` of the contents `V` at region entry.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8000x128 := Rect.unit (s := S8000x128) ![0, 0] S8000x128.size inb_S8000x128_S8000x128_0_0
abbrev r2_1 : Rect S128 := Rect.unit (s := S128) ![0] S128.size inb_S128_S128_0

-- The output block as a function of the five input blocks.
def out2_5 (x0 : Vec F S8000x128 .f32) (x1 x2 x3 x4 : Vec F S128 .f32) : Vec F S8000x128 .f32 :=
  View.canon [⟨r2_0, k2_pay1 (View.ld x0 r2_0) (View.ld x2 r2_1) (View.ld x3 r2_1) (View.ld x1 r2_1) (View.ld x4 r2_1)⟩]

theorem cover2_5 (p0 : Vec F S8000x128 .f32) (y : S8000x128.Idx) :
    ∃ pc ∈ ([⟨r2_0, p0⟩] : List (View.Piece (Elt F) S8000x128 .f32)), y ∈ pc.1.set :=
  View.cover_of_tiled [⟨r2_0, p0⟩] S8000x128.size (by rfl) y

set_option maxHeartbeats 1000000 in
-- The body keeps its five inputs and leaves `out2_5` of them in the output.
theorem sound_kernel2 (c : Dev nD) (x0 : Vec F S8000x128 .f32) (x1 x2 x3 x4 : Vec F S128 .f32) {E : Set ℕ} {i : grid2.Coords}
    {arg1 arg6 : Memref sig .tc .vmem S8000x128 .f32} {arg2 arg3 arg4 arg5 : Memref sig .tc .vmem S128 .f32}
    {harg1 : arg1.IsWhole} {harg2 : arg2.IsWhole} {harg3 : arg3.IsWhole} {harg4 : arg4.IsWhole} {harg5 : arg5.IsWhole} {harg6 : arg6.IsWhole}
    {K : PUnit → sProp 𝕄} :
    iprop(owns c arg1 fullShare x0 ∗ owns c arg2 fullShare x1 ∗ owns c arg3 fullShare x2 ∗ owns c arg4 fullShare x3 ∗ owns c arg5 fullShare x4
        ∗ (∃ d, owns c arg6 fullShare d)
        ∗ (iprop(owns c arg1 fullShare x0 ∗ owns c arg2 fullShare x1 ∗ owns c arg3 fullShare x2 ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__edge_bn_kernel i arg1 harg1 arg2 harg2 arg3 harg3 arg4 harg4 arg5 harg5 arg6 harg6) K := by
  simp only [cc2__edge_bn_kernel_eq_skeleton]; unfold cc2__edge_bn_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- One case per input window; the output window is excluded.
theorem before2 (c : Dev nD) : ∀ (w : Fin cfg2.W) (_ : w ≠ 5) (t : Fin cfg2.N) (d), (dat2 V c).before w t d = (dat2 V c).fetched w t d
  | ⟨0, _⟩, _, t, d | ⟨1, _⟩, _, t, d | ⟨2, _⟩, _, t, d | ⟨3, _⟩, _, t, d | ⟨4, _⟩, _, t, d =>
    (dat2 V c).before_in_eq_fetched _ rfl (fun _ => rfl) (fun _ _ _ => rfl) (fun _ => rfl) t d
  | ⟨5, _⟩, h, _, _ => absurd rfl h

-- The body's triple at a grid point, framed by the invariant and the owed amounts.
theorem sound_body2 (c : Dev nD) (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d))
      ∗ (∃ d, owns c (st2_5 t) fullShare ((dat2 V c).before 5 t d)))
    ⊢ wp frame (wpE (defs₀ (F := F)) Variants.none c none) Set.univ (bodyAt2 t) fun _ =>
      iprop((dat2 V c).Φ t.succ ∗ (dat2 V c).owesAt () t.succ
        ∗ owns c (st2_0 t) fullShare ((dat2 V c).after 0 t)
        ∗ owns c (st2_1 t) fullShare ((dat2 V c).after 1 t)
        ∗ owns c (st2_2 t) fullShare ((dat2 V c).after 2 t)
        ∗ owns c (st2_3 t) fullShare ((dat2 V c).after 3 t)
        ∗ owns c (st2_4 t) fullShare ((dat2 V c).after 4 t)
        ∗ owns c (st2_5 t) fullShare ((dat2 V c).after 5 t)) := by
  rw [show (dat2 V c).Φ t.succ = (dat2 V c).Φ t.castSucc from rfl,
    show (dat2 V c).owesAt () t.succ = (dat2 V c).owesAt () t.castSucc from rfl, after2_5]
  simp only [before2 V c 0 (by decide), before2 V c 1 (by decide), before2 V c 2 (by decide), before2 V c 3 (by decide), before2 V c 4 (by decide)]
  iintro ⟨HΦ, Ho, ⟨%d0, H0⟩, ⟨%d1, H1⟩, ⟨%d2, H2⟩, ⟨%d3, H3⟩, ⟨%d4, H4⟩, ⟨%d5, H5⟩⟩
  iapply (sound_kernel2 c (iblk2 V c 0 t) (iblk2 V c 1 t) (iblk2 V c 2 t) (iblk2 V c 3 t) (iblk2 V c 4 t))
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) :
    (iprop((∃ r, prngReg c r)
        ∗ Pipeline.prefHeld (cfg2.toPCfg (Val := Elt F)).pre c (fun _ => fullShare) (cfg2.toPCfg_adm (Val := Elt F)).1
        ∗ Pipeline.scopedRest spec2 c) : sProp 𝕄)
      ⊢ (dat2 V c).Φ 0 := by
  show _ ⊢ Pipeline.ΦA spec2 c; unfold Pipeline.ΦA
  iintro ⟨Hp, -, Hr⟩
  isplitl [Hr]; · iexact Hr
  iexact Hp

theorem hout2 (c : Dev nD) :
    (dat2 V c).Φ (Fin.last cfg2.N)
      ⊢ (iprop((∃ r, prngReg c r) ∗ emp ∗ Pipeline.scopedRest spec2 c) : sProp 𝕄) := by
  show Pipeline.ΦA spec2 c ⊢ _; unfold Pipeline.ΦA
  iintro ⟨Hr, Hp⟩
  isplitl [Hp]; · iexact Hp
  isplitr; · iempintro
  iexact Hr

end Cert.KernelIdeal.Frame
-- ==== Proof.HKernelIdeal.Reg3.Runs.lean ====
-- Region 3: the body's triple at the first, a middle and the last grid point, with the lists of stored pieces each run finds.
import proofs.«428159_j48533130445226_3_alg».proof.Proof.Gen.KernelIdeal.Launch
import proofs.«428159_j48533130445226_3_alg».proof.Proof.Gen.KernelIdeal.Skeleton
import proofs.«428159_j48533130445226_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Base
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Base

abbrev cond3_0 (i : grid3.Coords) : Prop := (Scalar.cmpi .ne (Scalar.extui (Scalar.cmpi .eq (BitVec.ofNat 32 (i 0).val) 0#32)) 0#32) = 1#1

-- The first branch condition holds at the first grid point only and the second at the last only: ten cases each.
theorem hcond3_0 : ∀ t : Fin cfg3.N, cond3_0 (grid3.coords t) ↔ t.val = 0 := by decide +kernel

abbrev cond3_1 (i : grid3.Coords) : Prop := k3_cond2 i = 1#1

theorem hcond3_1 : ∀ t : Fin cfg3.N, cond3_1 (grid3.coords t) ↔ t.val = 9 := by decide +kernel

theorem idleAt3_3 : ∀ t : Fin cfg3.N, ¬cond3_1 (grid3.coords t) → cfg3.idle 3 (grid3.coords t) = true := by decide +kernel

theorem noFlush3_3 : ∀ t : Fin cfg3.N, ¬cond3_1 (grid3.coords t) → (cfg3.win 3).flush t = false := by decide +kernel

theorem liveAt3_3 : ∀ t : Fin cfg3.N, cond3_1 (grid3.coords t) → cfg3.idle 3 (grid3.coords t) = false := by decide +kernel

abbrev VO3_2 : View sig .tc .vmem S5000x64 .f32 := (Memref.whole cc3_stg2_0 : Memref sig .tc .vmem S5000x64 .f32).view
abbrev VO3_3 : View sig .tc .vmem S1x128 .f32 := (Memref.whole cc3_stg3_0 : Memref sig .tc .vmem S1x128 .f32).view

abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)

abbrev scM3_0 : Memref sig .tc .vmem S1x128 .f32 := Memref.whole cc3_scratch0

abbrev VS3_0 : View sig .tc .vmem S1x128 .f32 := scM3_0.view

abbrev rest3 (c : Dev nD) : sProp 𝕄 :=
  Pipeline.scopedRestBut spec3 c [cc3_scratch0]

-- The scratch is one of the scoped buffers: split off, it is owned whole at some contents.
theorem scoped3_eq (c : Dev nD) :
    (Pipeline.scopedRest spec3 c : sProp 𝕄)
      = iprop(iprop((∃ d, owns (c : Thread nD τ) scM3_0 fullShare d)) ∗ rest3 c) := by
  rw [scopedRest3_split]; simp only [scM3_0, owns_whole]; try rfl

variable (c : Dev nD) (i : grid3.Coords) (arg1 : Memref sig .tc .vmem S5000x64 .f32) (harg1 : arg1.IsWhole)
  (arg2 : Memref sig .tc .vmem S5000x64 .f32) (harg2 : arg2.IsWhole) (arg3 : Memref sig .tc .vmem S5000x64 .f32) (harg3 : arg3.IsWhole)
  (arg4 : Memref sig .tc .vmem S1x128 .f32) (harg4 : arg4.IsWhole) (arg5 : Memref sig .tc .vmem S1x128 .f32) (harg5 : arg5.IsWhole)

-- First point: the scratch may hold anything; the run finds the pieces stored into the sum-rows buffer and the scratch.
set_option maxHeartbeats 1000000 in
def kernelRun3_A (hc0 : cond3_0 i) (hc1 : ¬cond3_1 i)
    (x0 : Vec F S5000x64 .f32) (x1 : Vec F S5000x64 .f32) :
    Σ' (L2 : List (View.Piece (Elt F) S5000x64 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc3__node_add_stats_kernel i arg1 harg1 arg2 harg2 arg3 harg3 arg4 harg4 arg5 harg5) K } := by
  refine ⟨?_, ?_, fun xi3 E K => ?run⟩
  case run =>
    simp only [cc3__node_add_stats_kernel_eq_skeleton]; unfold cc3__node_add_stats_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- Middle point: the scratch holds the partial sums xs0 of the points before.
set_option maxHeartbeats 1000000 in
def kernelRun3_B (hc0 : ¬cond3_0 i) (hc1 : ¬cond3_1 i)
    (x0 : Vec F S5000x64 .f32) (x1 : Vec F S5000x64 .f32) (xs0 : Vec F S1x128 .f32) :
    Σ' (L2 : List (View.Piece (Elt F) S5000x64 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc3__node_add_stats_kernel i arg1 harg1 arg2 harg2 arg3 harg3 arg4 harg4 arg5 harg5) K } := by
  refine ⟨?_, ?_, fun xi3 E K => ?run⟩
  case run =>
    simp only [cc3__node_add_stats_kernel_eq_skeleton]; unfold cc3__node_add_stats_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- Last point: as a middle point, and the updated scratch is copied to the statistics output.
set_option maxHeartbeats 1000000 in
def kernelRun3_C (hc0 : ¬cond3_0 i) (hc1 : cond3_1 i)
    (x0 : Vec F S5000x64 .f32) (x1 : Vec F S5000x64 .f32) (xs0 : Vec F S1x128 .f32) :
    Σ' (L2 : List (View.Piece (Elt F) S5000x64 .f32)) (L3 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__node_add_stats_kernel i arg1 harg1 arg2 harg2 arg3 harg3 arg4 harg4 arg5 harg5) K } := by
  refine ⟨?_, ?_, ?_, fun E K => ?run⟩
  case run =>
    simp only [cc3__node_add_stats_kernel_eq_skeleton]; unfold cc3__node_add_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.KernelIdeal.Frame

end
-- ==== Proof.HKernelIdeal.Reg3.lean ====
-- Region 3: what each run leaves in the outputs and the scratch, the invariant carrying the scratch between grid points, and the body obligation with the entailments into and out of the invariant.
import proofs.«428159_j48533130445226_3_alg».proof.Proof.HKernelIdeal.Reg3.Runs

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

-- What each run leaves in a buffer: its pieces written over anything and read back.
section
variable (c : Dev nD) (i : grid3.Coords) (arg1 : Memref sig .tc .vmem S5000x64 .f32) (harg1 : arg1.IsWhole)
  (arg2 : Memref sig .tc .vmem S5000x64 .f32) (harg2 : arg2.IsWhole) (arg3 : Memref sig .tc .vmem S5000x64 .f32) (harg3 : arg3.IsWhole)
  (arg4 : Memref sig .tc .vmem S1x128 .f32) (harg4 : arg4.IsWhole) (arg5 : Memref sig .tc .vmem S1x128 .f32) (harg5 : arg5.IsWhole)

section
variable (hc0 : cond3_0 i) (hc1 : ¬cond3_1 i) (x0 x1 : Vec F S5000x64 .f32)

def out3_A_2 : Vec F S5000x64 .f32 :=
  VO3_2.read (Elt F) (VO3_2.writes (Elt F) VO3_2.junk (kernelRun3_A c i arg1 harg1 arg2 harg2 arg3 harg3 arg4 harg4 arg5 harg5 hc0 hc1 x0 x1).1)

def sout3_A_0 : Vec F S1x128 .f32 :=
  VS3_0.read (Elt F) (VS3_0.writes (Elt F) VS3_0.junk (kernelRun3_A c i arg1 harg1 arg2 harg2 arg3 harg3 arg4 harg4 arg5 harg5 hc0 hc1 x0 x1).2.1)

end

section
variable (hc0 : ¬cond3_0 i) (hc1 : ¬cond3_1 i) (x0 x1 : Vec F S5000x64 .f32) (xs0 : Vec F S1x128 .f32)

def out3_B_2 : Vec F S5000x64 .f32 :=
  VO3_2.read (Elt F) (VO3_2.writes (Elt F) VO3_2.junk (kernelRun3_B c i arg1 harg1 arg2 harg2 arg3 harg3 arg4 harg4 arg5 harg5 hc0 hc1 x0 x1 xs0).1)

def sout3_B_0 : Vec F S1x128 .f32 :=
  VS3_0.read (Elt F) (VS3_0.writes (Elt F) VS3_0.junk (kernelRun3_B c i arg1 harg1 arg2 harg2 arg3 harg3 arg4 harg4 arg5 harg5 hc0 hc1 x0 x1 xs0).2.1)

end

section
variable (hc0 : ¬cond3_0 i) (hc1 : cond3_1 i) (x0 x1 : Vec F S5000x64 .f32) (xs0 : Vec F S1x128 .f32)

def out3_C_2 : Vec F S5000x64 .f32 :=
  VO3_2.read (Elt F) (VO3_2.writes (Elt F) VO3_2.junk (kernelRun3_C c i arg1 harg1 arg2 harg2 arg3 harg3 arg4 harg4 arg5 harg5 hc0 hc1 x0 x1 xs0).1)

def out3_C_3 : Vec F S1x128 .f32 :=
  VO3_3.read (Elt F) (VO3_3.writes (Elt F) VO3_3.junk (kernelRun3_C c i arg1 harg1 arg2 harg2 arg3 harg3 arg4 harg4 arg5 harg5 hc0 hc1 x0 x1 xs0).2.1)

def sout3_C_0 : Vec F S1x128 .f32 :=
  VS3_0.read (Elt F) (VS3_0.writes (Elt F) VS3_0.junk (kernelRun3_C c i arg1 harg1 arg2 harg2 arg3 harg3 arg4 harg4 arg5 harg5 hc0 hc1 x0 x1 xs0).2.2.1)

end
end

def idle3_3 : Vec F S1x128 .f32 := VO3_3.read (Elt F) VO3_3.junk

-- The three buffers' contents after point n, by recursion: the scratch of point n - 1 enters point n's run.
def outsAt3 (c : Dev nD) : (n : ℕ) → n < cfg3.N → Vec F S5000x64 .f32 × Vec F S1x128 .f32 × Vec F S1x128 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl) (fun h => (fun h9 => by (try dsimp only at h9); omega) ((hcond3_1 ⟨0, hn⟩).mp h)) (iblk3 V c 0 ⟨0, hn⟩) (iblk3 V c 1 ⟨0, hn⟩), idle3_3,
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl) (fun h => (fun h9 => by (try dsimp only at h9); omega) ((hcond3_1 ⟨0, hn⟩).mp h)) (iblk3 V c 0 ⟨0, hn⟩) (iblk3 V c 1 ⟨0, hn⟩))
  | n + 1, hn =>
    if h9 : n + 1 = 9 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) ((hcond3_1 ⟨n + 1, hn⟩).mpr h9) (iblk3 V c 0 ⟨n + 1, hn⟩) (iblk3 V c 1 ⟨n + 1, hn⟩) (outsAt3 c n (Nat.lt_of_succ_lt hn)).2.2,
        out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) ((hcond3_1 ⟨n + 1, hn⟩).mpr h9) (iblk3 V c 0 ⟨n + 1, hn⟩) (iblk3 V c 1 ⟨n + 1, hn⟩) (outsAt3 c n (Nat.lt_of_succ_lt hn)).2.2,
        sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) ((hcond3_1 ⟨n + 1, hn⟩).mpr h9) (iblk3 V c 0 ⟨n + 1, hn⟩) (iblk3 V c 1 ⟨n + 1, hn⟩) (outsAt3 c n (Nat.lt_of_succ_lt hn)).2.2)
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) (fun h => h9 ((hcond3_1 ⟨n + 1, hn⟩).mp h)) (iblk3 V c 0 ⟨n + 1, hn⟩) (iblk3 V c 1 ⟨n + 1, hn⟩) (outsAt3 c n (Nat.lt_of_succ_lt hn)).2.2, idle3_3,
        sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => (Nat.succ_ne_zero n) ((hcond3_0 ⟨n + 1, hn⟩).mp h)) (fun h => h9 ((hcond3_1 ⟨n + 1, hn⟩).mp h)) (iblk3 V c 0 ⟨n + 1, hn⟩) (iblk3 V c 1 ⟨n + 1, hn⟩) (outsAt3 c n (Nat.lt_of_succ_lt hn)).2.2)

theorem outsAt3_A (c : Dev nD) (t : Fin cfg3.N) (h0 : t.val = 0) (h1 : ¬t.val = 9) :
    outsAt3 V c t.val t.isLt = (out3_A_2 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t), idle3_3,
      sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact absurd h0 (Nat.succ_ne_zero n)

theorem outsAt3_B (c : Dev nD) (t : Fin cfg3.N) (h0 : ¬t.val = 0) (h1 : ¬t.val = 9) :
    outsAt3 V c t.val t.isLt = (out3_B_2 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.2, idle3_3,
      sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt3_C (c : Dev nD) (t : Fin cfg3.N) (h0 : ¬t.val = 0) (h1 : t.val = 9) :
    outsAt3 V c t.val t.isLt = (out3_C_2 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.2,
      out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.2,
      sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.2) := by
  obtain ⟨n, hn⟩ := t
  cases n with
  | zero => exact absurd rfl h0
  | succ n => exact (dif_pos h1).trans rfl

-- The invariant before point n: after the first point the scratch holds what the point before left.
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ rest3 c) ∗ (∃ r, prngReg c r))

theorem PhiS3_zero (c : Dev nD) (n : ℕ) (h : n ≤ cfg3.N) (hz : n = 0) :
    PhiS3 V c n h = iprop(iprop((∃ d, owns (c : Thread nD τ) scM3_0 fullShare d) ∗ rest3 c) ∗ (∃ r, prngReg c r)) := by
  subst hz; show (Pipeline.ΦA spec3 c : sProp 𝕄) = _; unfold Pipeline.ΦA; rw [scoped3_eq]

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ rest3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem leaves3 (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

-- The position of t selects the run; its pieces cover each buffer, so what is read back does not depend on the prior contents; the rest is common to the three cases.
set_option maxHeartbeats 4800000 in
theorem sound_body3 (c : Dev nD) (t : Fin cfg3.N) :
    (iprop((dat3 V c).Φ t.castSucc ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))) : sProp 𝕄)
      ⊢ wp frame (wpE (defs₀ (F := F)) Variants.none c none) Set.univ (bodyAt3 t) (fun _ =>
        iprop((dat3 V c).Φ t.succ ∗ (dat3 V c).owesAt () t.succ
          ∗ (dat3 V c).leavesExact 0 t
          ∗ (dat3 V c).leavesExact 1 t
          ∗ (dat3 V c).leavesExact 2 t
          ∗ (dat3 V c).leavesExact 3 t)) := by
  simp only [before3_0, before3_1]
  rw [show (dat3 V c).Φ t.succ = iprop(iprop(owns (c : Thread nD τ) scM3_0 fullShare ((outsAt3 V c t.val t.isLt).2.2) ∗ rest3 c) ∗ (∃ r, prngReg c r)) from rfl,
    show (dat3 V c).Φ t.castSucc = PhiS3 V c t.val t.isLt.le from rfl,
    leaves3 V c 0 t rfl, leaves3 V c 1 t rfl, leaves3 V c 2 t rfl, after3_0, after3_1, after3_2]
  by_cases h1 : t.val = 9
  case' pos =>
    have h0 : ¬t.val = 0 := by omega
    have hn0 : ¬cond3_0 (grid3.coords t) := fun h => h0 ((hcond3_0 t).mp h)
    rw [leaves3 V c 3 t (liveAt3_3 t ((hcond3_1 t).mpr h1)), after3_3, outsAt3_C V c t h0 h1]
    unfold out3_C_2 out3_C_3 sout3_C_0; dsimp only
    rw [PhiS3_pos V c _ _ h0]
    iintro ⟨⟨⟨HS0, Hr⟩, Hg⟩, Ho, ⟨%d0, H0⟩, ⟨%d1, H1⟩, ⟨%d2, H2⟩, ⟨%d3, H3⟩⟩
    iapply ((kernelRun3_C c _ _ _ _ _ _ _ _ _ scM3_0 _ hn0 ((hcond3_1 t).mpr h1) (iblk3 V c 0 t) (iblk3 V c 1 t) _).2.2.2 Set.univ _)
  case' neg =>
    have hn1 : ¬cond3_1 (grid3.coords t) := fun h => h1 ((hcond3_1 t).mp h)
    rw [Dat.leavesExact_idle (dat3 V c) 3 t (idleAt3_3 t hn1) (noFlush3_3 t hn1)]
    by_cases h0 : t.val = 0
    case' pos =>
      rw [outsAt3_A V c t h0 h1]
      unfold out3_A_2 sout3_A_0; dsimp only
      rw [PhiS3_zero V c _ _ h0]
      iintro ⟨⟨⟨HS0, Hr⟩, Hg⟩, Ho, ⟨%d0, H0⟩, ⟨%d1, H1⟩, ⟨%d2, H2⟩, ⟨%d3, H3⟩⟩
      iapply ((kernelRun3_A c _ _ _ _ _ _ _ _ _ scM3_0 _ ((hcond3_0 t).mpr h0) hn1 (iblk3 V c 0 t) (iblk3 V c 1 t)).2.2 _ Set.univ _)
    case' neg =>
      have hn0 : ¬cond3_0 (grid3.coords t) := fun h => h0 ((hcond3_0 t).mp h)
      rw [outsAt3_B V c t h0 h1]
      unfold out3_B_2 sout3_B_0; dsimp only
      rw [PhiS3_pos V c _ _ h0]
      iintro ⟨⟨⟨HS0, Hr⟩, Hg⟩, Ho, ⟨%d0, H0⟩, ⟨%d1, H1⟩, ⟨%d2, H2⟩, ⟨%d3, H3⟩⟩
      iapply ((kernelRun3_B c _ _ _ _ _ _ _ _ _ scM3_0 _ hn0 hn1 (iblk3 V c 0 t) (iblk3 V c 1 t) _).2.2 _ Set.univ _)
  all_goals
    isplitl [H0]; · iexact H0
    isplitl [H1]; · iexact H1
    isplitl [H2]; · iexists _; iexact H2
    isplitl [H3]; · first | iexact H3 | (iexists _; iexact H3)
    isplitl [HS0]; · iexact HS0
    iintro ⟨H0, H1, ⟨%e2, H2⟩, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (View.cover_of_tiledL (s := S1x128) _ S1x64.size (by sl_kernel_rfl))
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (View.cover_of_tiledL _ S5000x64.size (by sl_kernel_rfl))
    first
    | iexists _; iexact H3
    | icases H3 with ⟨%e3, H3⟩
      unfold owns; iexists _; isplitr
      swap; · iexact H3
      ipureintro; exact View.read_writes_of_cover _ _ _ _ _ (View.cover_of_tiledL _ S1x128.size (by sl_kernel_rfl))

theorem body_obligation3 (c : Dev nD) : BodyObligation (dat3 (F := F) V c) (defs₀ (F := F)) Variants.none () Set.univ := fun t => by
  rw [bigSep_W3, bigSep_W3]
  exact sound_body3 V c t

theorem hin3 (c : Dev nD) :
    (iprop((∃ r, prngReg c r)
        ∗ Pipeline.prefHeld (cfg3.toPCfg (Val := Elt F)).pre c (fun _ => fullShare) (cfg3.toPCfg_adm (Val := Elt F)).1
        ∗ Pipeline.scopedRest spec3 c) : sProp 𝕄)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

theorem hout3 (c : Dev nD) :
    (dat3 V c).Φ (Fin.last cfg3.N)
      ⊢ (iprop((∃ r, prngReg c r) ∗ emp ∗ Pipeline.scopedRest spec3 c) : sProp 𝕄) := by
  rw [show (dat3 V c).Φ (Fin.last cfg3.N) = PhiS3 V c cfg3.N le_rfl from rfl,
    PhiS3_pos V c _ _ (by have : cfg3.N = 10 := N_3; omega), scoped3_eq]
  iintro ⟨⟨HS0, Hr⟩, Hg⟩
  isplitl [Hg]; · iexact Hg
  isplitr; · iempintro
  isplitl [HS0]
  · iexists _; iexact HS0
  iexact Hr

end Frame

end Cert.KernelIdeal.Frame

end
-- ==== Proof.HKernelIdeal.Reg4.lean ====
-- Region 4: the normalisation kernel's body triple, proof data and body obligation, at any float model.
import proofs.«428159_j48533130445226_3_alg».proof.Proof.Gen.KernelIdeal.Launch
import proofs.«428159_j48533130445226_3_alg».proof.Proof.Gen.KernelIdeal.Skeleton
import proofs.«428159_j48533130445226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t` of the contents `V` at region entry.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128 := Rect.unit (s := S128) ![0] S128.size inb_S128_S128_0

-- The output block as a function of the five input blocks.
def out4_5 (x0 : Vec F S5000x128 .f32) (x1 x2 x3 x4 : Vec F S128 .f32) : Vec F S5000x128 .f32 :=
  View.canon [⟨r4_0, k4_pay1 (View.ld x0 r4_0) (View.ld x2 r4_1) (View.ld x3 r4_1) (View.ld x1 r4_1) (View.ld x4 r4_1)⟩]

theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 1000000 in
-- The body keeps its five inputs and leaves `out4_5` of them in the output.
theorem sound_kernel4 (c : Dev nD) (x0 : Vec F S5000x128 .f32) (x1 x2 x3 x4 : Vec F S128 .f32) {E : Set ℕ} {i : grid4.Coords}
    {arg1 arg6 : Memref sig .tc .vmem S5000x128 .f32} {arg2 arg3 arg4 arg5 : Memref sig .tc .vmem S128 .f32}
    {harg1 : arg1.IsWhole} {harg2 : arg2.IsWhole} {harg3 : arg3.IsWhole} {harg4 : arg4.IsWhole} {harg5 : arg5.IsWhole} {harg6 : arg6.IsWhole}
    {K : PUnit → sProp 𝕄} :
    iprop(owns c arg1 fullShare x0 ∗ owns c arg2 fullShare x1 ∗ owns c arg3 fullShare x2 ∗ owns c arg4 fullShare x3 ∗ owns c arg5 fullShare x4
        ∗ (∃ d, owns c arg6 fullShare d)
        ∗ (iprop(owns c arg1 fullShare x0 ∗ owns c arg2 fullShare x1 ∗ owns c arg3 fullShare x2 ∗ owns c arg4 fullShare x3 ∗ owns c arg5 fullShare x4
            ∗ owns c arg6 fullShare (out4_5 x0 x1 x2 x3 x4)) -∗ K ⟨⟩))
      ⊢ wp frame (wpE (defs₀ (F := F)) Variants.none c none) E (cc4__node_bn_kernel i arg1 harg1 arg2 harg2 arg3 harg3 arg4 harg4 arg5 harg5 arg6 harg6) K := by
  simp only [cc4__node_bn_kernel_eq_skeleton]; unfold cc4__node_bn_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

-- One case per input window; the output window is excluded.
theorem before4 (c : Dev nD) : ∀ (w : Fin cfg4.W) (_ : w ≠ 5) (t : Fin cfg4.N) (d), (dat4 V c).before w t d = (dat4 V c).fetched w t d
  | ⟨0, _⟩, _, t, d | ⟨1, _⟩, _, t, d | ⟨2, _⟩, _, t, d | ⟨3, _⟩, _, t, d | ⟨4, _⟩, _, t, d =>
    (dat4 V c).before_in_eq_fetched _ rfl (fun _ => rfl) (fun _ _ _ => rfl) (fun _ => rfl) t d
  | ⟨5, _⟩, h, _, _ => absurd rfl h

-- The body's triple at a grid point, framed by the invariant and the owed amounts.
theorem sound_body4 (c : Dev nD) (t : Fin cfg4.N) :
    iprop((dat4 V c).Φ t.castSucc ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d))
      ∗ (∃ d, owns c (st4_3 t) fullShare ((dat4 V c).before 3 t d))
      ∗ (∃ d, owns c (st4_4 t) fullShare ((dat4 V c).before 4 t d))
      ∗ (∃ d, owns c (st4_5 t) fullShare ((dat4 V c).before 5 t d)))
    ⊢ wp frame (wpE (defs₀ (F := F)) Variants.none c none) Set.univ (bodyAt4 t) fun _ =>
      iprop((dat4 V c).Φ t.succ ∗ (dat4 V c).owesAt () t.succ
        ∗ owns c (st4_0 t) fullShare ((dat4 V c).after 0 t)
        ∗ owns c (st4_1 t) fullShare ((dat4 V c).after 1 t)
        ∗ owns c (st4_2 t) fullShare ((dat4 V c).after 2 t)
        ∗ owns c (st4_3 t) fullShare ((dat4 V c).after 3 t)
        ∗ owns c (st4_4 t) fullShare ((dat4 V c).after 4 t)
        ∗ owns c (st4_5 t) fullShare ((dat4 V c).after 5 t)) := by
  rw [show (dat4 V c).Φ t.succ = (dat4 V c).Φ t.castSucc from rfl,
    show (dat4 V c).owesAt () t.succ = (dat4 V c).owesAt () t.castSucc from rfl, after4_5]
  simp only [before4 V c 0 (by decide), before4 V c 1 (by decide), before4 V c 2 (by decide), before4 V c 3 (by decide), before4 V c 4 (by decide)]
  iintro ⟨HΦ, Ho, ⟨%d0, H0⟩, ⟨%d1, H1⟩, ⟨%d2, H2⟩, ⟨%d3, H3⟩, ⟨%d4, H4⟩, ⟨%d5, H5⟩⟩
  iapply (sound_kernel4 c (iblk4 V c 0 t) (iblk4 V c 1 t) (iblk4 V c 2 t) (iblk4 V c 3 t) (iblk4 V c 4 t))
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) :
    (iprop((∃ r, prngReg c r)
        ∗ Pipeline.prefHeld (cfg4.toPCfg (Val := Elt F)).pre c (fun _ => fullShare) (cfg4.toPCfg_adm (Val := Elt F)).1
        ∗ Pipeline.scopedRest spec4 c) : sProp 𝕄)
      ⊢ (dat4 V c).Φ 0 := by
  show _ ⊢ Pipeline.ΦA spec4 c; unfold Pipeline.ΦA
  iintro ⟨Hp, -, Hr⟩
  isplitl [Hr]; · iexact Hr
  iexact Hp

theorem hout4 (c : Dev nD) :
    (dat4 V c).Φ (Fin.last cfg4.N)
      ⊢ (iprop((∃ r, prngReg c r) ∗ emp ∗ Pipeline.scopedRest spec4 c) : sProp 𝕄) := by
  show Pipeline.ΦA spec4 c ⊢ _; unfold Pipeline.ΦA
  iintro ⟨Hr, Hp⟩
  isplitl [Hp]; · iexact Hp
  isplitr; · iempintro
  iexact Hr

end Cert.KernelIdeal.Frame
-- ==== Proof.HKernelIdeal.Run.lean ====
/- The run of @main at any float model: the buffer contents at its sixteen item boundaries, the run over them, the results' last contents and the frame. -/
import proofs.«428159_j48533130445226_3_alg».proof.Proof.HKernelIdeal.Reg0
import proofs.«428159_j48533130445226_3_alg».proof.Proof.HKernelIdeal.Reg1
import proofs.«428159_j48533130445226_3_alg».proof.Proof.HKernelIdeal.Reg2
import proofs.«428159_j48533130445226_3_alg».proof.Proof.HKernelIdeal.Reg3
import proofs.«428159_j48533130445226_3_alg».proof.Proof.HKernelIdeal.Reg4
import proofs.«428159_j48533130445226_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 4096

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)

theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

abbrev W5 : Dev nD → Valuation τ sig (Elt F) := fun c => StableHlo.after hostOps1_2 (W4 m ρ c)

theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

abbrev W6 : Dev nD → Valuation τ sig (Elt F) := fun c => StableHlo.after hostOps1_3 (W5 m ρ c)

theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N :=
  Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) :=
  Pipeline.withArrays_of_ne spec1 c _ _ b hb

abbrev W8 : Dev nD → Valuation τ sig (Elt F) := fun c => StableHlo.after hostOps2 (W7 m ρ c)

theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N :=
  Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) :=
  Pipeline.withArrays_of_ne spec2 c _ _ b hb

abbrev W10 : Dev nD → Valuation τ sig (Elt F) := fun c => StableHlo.after hostOps3 (W9 m ρ c)

theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

abbrev W11 : Dev nD → Valuation τ sig (Elt F) := fun c => StableHlo.after hostOps3_1 (W10 m ρ c)

theorem W11_of (c : Dev nD) (r : Ref sig .tc) (h : r ∉ hostOps3_1_W) :
    W11 m ρ c (Proc.devRef .tc r) = W10 m ρ c (Proc.devRef .tc r) :=
  StableHlo.after_of_writes_sub hostOps3_1 _ hostOps3_1_writes h

abbrev W12 : Dev nD → Valuation τ sig (Elt F) := fun c => StableHlo.after hostOps3_2 (W11 m ρ c)

theorem W12_of (c : Dev nD) (r : Ref sig .tc) (h : r ∉ hostOps3_2_W) :
    W12 m ρ c (Proc.devRef .tc r) = W11 m ρ c (Proc.devRef .tc r) :=
  StableHlo.after_of_writes_sub hostOps3_2 _ hostOps3_2_writes h

abbrev V12 : (c : Dev nD) → (b : Ref sig .tc) → Buf (Elt F) ((c : Thread nD τ).loc b) := fun c b => W12 m ρ c b

def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N :=
  Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) :=
  Pipeline.withArrays_of_ne spec3 c _ _ b hb

abbrev W14 : Dev nD → Valuation τ sig (Elt F) := fun c => StableHlo.after hostOps4 (W13 m ρ c)

theorem W14_of (c : Dev nD) (r : Ref sig .tc) (h : r ∉ hostOps4_W) :
    W14 m ρ c (Proc.devRef .tc r) = W13 m ρ c (Proc.devRef .tc r) :=
  StableHlo.after_of_writes_sub hostOps4 _ hostOps4_writes h

abbrev V14 : (c : Dev nD) → (b : Ref sig .tc) → Buf (Elt F) ((c : Thread nD τ).loc b) := fun c b => W14 m ρ c b

def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N :=
  Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) :=
  Pipeline.withArrays_of_ne spec4 c _ _ b hb

abbrev W16 : Dev nD → Valuation τ sig (Elt F) := fun c => StableHlo.after hostOps5 (W15 m ρ c)

theorem W16_of (c : Dev nD) (r : Ref sig .tc) (h : r ∉ hostOps5_W) :
    W16 m ρ c (Proc.devRef .tc r) = W15 m ρ c (Proc.devRef .tc r) :=
  StableHlo.after_of_writes_sub hostOps5 _ hostOps5_writes h

theorem W16_main_v34 (c : Dev nD) : W16 m ρ c (Proc.devRef .tc main_v34) = W10 m ρ c (Proc.devRef .tc main_v34) :=
  (W16_of m ρ c main_v34 (by decide)).trans <|
  (W15_of_ne m ρ c main_v34 (by decide)).trans <|
  (W14_of m ρ c main_v34 (by decide)).trans <|
  (W13_of_ne m ρ c main_v34 (by decide)).trans <|
  (W12_of m ρ c main_v34 (by decide)).trans <|
  (W11_of m ρ c main_v34 (by decide))

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V12 m ρ) c
  | ⟨4, _⟩ => fun c => dat4 (V14 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m ρ c) ∗ ∃ r, prngReg c r)

set_option backward.isDefEq.respectTransparency.types false in
/-- A region as a segment over the thread state: every unscoped buffer at `Wi` on entry and at `Wo` on exit, `R` beside them. -/
def regSeg (p : Fin 5) (lf : Pipeline.LaunchFacts (nD := nD) (τ := τ) cfgs p) (Wi Wo : Dev nD → Valuation τ sig (Elt F))
    (hbody : ∀ c, Pipeline.BodyObligation (pdats m ρ p c) defs₀ 𝒱₀ () Set.univ)
    (howed : ∀ c t, (pdats m ρ p c).owed t = 0) (hrec : ∀ c x, x ∈ (pdats m ρ p c).recorded 0)
    (hq : ∀ c w, (pdats m ρ p c).q w = fullShare)
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b))
    (hin : ∀ c, iprop((∃ r, prngReg c r) ∗ Pipeline.prefHeld (pcfgs (F := F) p).pre c (fun _ => fullShare) (adm p).1
      ∗ Pipeline.scopedRest (cfgs p).spec c) ⊢ (pdats m ρ p c).Φ 0)
    (hout : ∀ c, (pdats m ρ p c).Φ (Fin.last (cfgs p).N)
      ⊢ iprop((∃ r, prngReg c r) ∗ emp ∗ Pipeline.scopedRest (cfgs p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin := hin
  hout c := by rw [Pipeline.ownSems0_none]; exact hout c
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c (Proc.devRef .tc b)) (fun b => Wo c (Proc.devRef .tc b))
      ((pdats m ρ p c).arrAt · (cfgs p).N) (fun w => (hF c w).symm) fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (regSeg m ρ 0 launch0 (W1 m ρ) (W2 m ρ) (body_obligation0 (V1 m ρ)) (fun _ _ => rfl)
      (fun _ _ => trivial) (fun _ _ => rfl) (fun _ _ => rfl) (W2_arr m ρ) (W2_of_ne m ρ)
      (hin0 (V1 m ρ)) (hout0 (V1 m ρ))),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (regSeg m ρ 1 launch1 (W6 m ρ) (W7 m ρ) (body_obligation1 (V6 m ρ)) (fun _ _ => rfl)
      (fun _ _ => trivial) (fun _ _ => rfl) (fun _ _ => rfl) (W7_arr m ρ) (W7_of_ne m ρ)
      (hin1 (V6 m ρ)) (hout1 (V6 m ρ))),
    .host (hseg hostOps2 hostOps2_sub hostOps2_fresh (W7 m ρ)),
    .region (regSeg m ρ 2 launch2 (W8 m ρ) (W9 m ρ) (body_obligation2 (V8 m ρ)) (fun _ _ => rfl)
      (fun _ _ => trivial) (fun _ _ => rfl) (fun _ _ => rfl) (W9_arr m ρ) (W9_of_ne m ρ)
      (hin2 (V8 m ρ)) (hout2 (V8 m ρ))),
    .host (hseg hostOps3 hostOps3_sub hostOps3_fresh (W9 m ρ)),
    .host (hseg hostOps3_1 hostOps3_1_sub hostOps3_1_fresh (W10 m ρ)),
    .host (hseg hostOps3_2 hostOps3_2_sub hostOps3_2_fresh (W11 m ρ)),
    .region (regSeg m ρ 3 launch3 (W12 m ρ) (W13 m ρ) (body_obligation3 (V12 m ρ)) (fun _ _ => rfl)
      (fun _ _ => trivial) (fun _ _ => rfl) (fun _ _ => rfl) (W13_arr m ρ) (W13_of_ne m ρ)
      (hin3 (V12 m ρ)) (hout3 (V12 m ρ))),
    .host (hseg hostOps4 hostOps4_sub hostOps4_fresh (W13 m ρ)),
    .region (regSeg m ρ 4 launch4 (W14 m ρ) (W15 m ρ) (body_obligation4 (V14 m ρ)) (fun _ _ => rfl)
      (fun _ _ => trivial) (fun _ _ => rfl) (fun _ _ => rfl) (W15_arr m ρ) (W15_of_ne m ρ)
      (hin4 (V14 m ρ)) (hout4 (V14 m ρ))),
    .host (hseg hostOps5 hostOps5_sub hostOps5_fresh (W15 m ρ)) ]

theorem main_run (c : Dev nD) : main (F := F) c = Pipeline.Seg.run (segs m ρ) := by
  rw [main_chain c, Pipeline.Seg.run_eq_chain]
  rfl

set_option backward.isDefEq.respectTransparency.types false in
theorem run_kit {Q : PUnit × MemSt nD τ sig (Elt F) → Prop}
    (hQ : ∀ s : MemSt nD τ sig (Elt F),
      (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- By cases on whether a window lies on `b`: a region's no-window lemma and its input windows as one. -/
theorem keep_of {ι : Type} (Wn Wp : Valuation τ sig (Elt F)) {f : ι → Ref sig .tc}
    (hne : ∀ b, (∀ w, f w ≠ b) → Wn (Proc.devRef .tc b) = Wp (Proc.devRef .tc b)) (b : Ref sig .tc)
    (hin : ∀ w, f w = b → Wn (Proc.devRef .tc (f w)) = Wp (Proc.devRef .tc (f w))) :
    Wn (Proc.devRef .tc b) = Wp (Proc.devRef .tc b) := by
  by_cases h : ∃ w, f w = b
  · obtain ⟨w, rfl⟩ := h; exact hin w rfl
  · exact hne b fun w e => h ⟨w, e⟩

/-- An unscoped buffer that no host stretch writes and no output window covers ends as launched: the fold walks back to the launch memory. -/
theorem arg_kept {s : MemSt nD τ sig (Elt F)}
    (h : ∀ c : Dev nD, ∀ b ∈ Pipeline.ucRefs τ sig, s.mem (((c : Thread nD τ)).1, b) = W16 m ρ c b) (c : Dev nD) (r : Ref sig .tc)
    (hr : ¬ (Proc.devRef .tc r : DevRef τ sig).isScoped
      ∧ r ∉ hostOps0_W ∧ r ∉ hostOps1_W ∧ r ∉ hostOps1_1_W ∧ r ∉ hostOps1_2_W ∧ r ∉ hostOps1_3_W ∧ r ∉ hostOps2_W
      ∧ r ∉ hostOps3_W ∧ r ∉ hostOps3_1_W ∧ r ∉ hostOps3_2_W ∧ r ∉ hostOps4_W ∧ r ∉ hostOps5_W
      ∧ (∀ w : Fin cfg0.W, Pipeline.arrRef spec0 w = r → (cfg0.win w).isOut = false)
      ∧ (∀ w : Fin cfg1.W, Pipeline.arrRef spec1 w = r → (cfg1.win w).isOut = false)
      ∧ (∀ w : Fin cfg2.W, Pipeline.arrRef spec2 w = r → (cfg2.win w).isOut = false)
      ∧ (∀ w : Fin cfg3.W, Pipeline.arrRef spec3 w = r → (cfg3.win w).isOut = false)
      ∧ ∀ w : Fin cfg4.W, Pipeline.arrRef spec4 w = r → (cfg4.win w).isOut = false) :
    s.mem ((c.tc : Thread nD τ).loc r) = m ((c.tc : Thread nD τ).loc r) := by
  obtain ⟨hu, a0, a1, a2, a3, a4, a5, a6, a7, a8, a9, a10, h0, h1, h2, h3, h4⟩ := hr
  exact (h c _ (mem_uc r hu)).trans <| (W16_of m ρ c r a10).trans <|
    (keep_of _ _ (W15_of_ne m ρ c) r fun w e => (W15_arr m ρ c w).trans <|
      ((dat4 (V14 m ρ) c).arrAt_in w (h4 w e) _).trans (A_eq4 (V14 m ρ) c w)).trans <| (W14_of m ρ c r a9).trans <|
    (keep_of _ _ (W13_of_ne m ρ c) r fun w e => (W13_arr m ρ c w).trans <|
      ((dat3 (V12 m ρ) c).arrAt_in w (h3 w e) _).trans (A_eq3 (V12 m ρ) c w)).trans <| (W12_of m ρ c r a8).trans <|
    (W11_of m ρ c r a7).trans <| (W10_of m ρ c r a6).trans <|
    (keep_of _ _ (W9_of_ne m ρ c) r fun w e => (W9_arr m ρ c w).trans <|
      ((dat2 (V8 m ρ) c).arrAt_in w (h2 w e) _).trans (A_eq2 (V8 m ρ) c w)).trans <| (W8_of m ρ c r a5).trans <|
    (keep_of _ _ (W7_of_ne m ρ c) r fun w e => (W7_arr m ρ c w).trans <|
      ((dat1 (V6 m ρ) c).arrAt_in w (h1 w e) _).trans (A_eq1 (V6 m ρ) c w)).trans <| (W6_of m ρ c r a4).trans <|
    (W5_of m ρ c r a3).trans <| (W4_of m ρ c r a2).trans <| (W3_of m ρ c r a1).trans <|
    (keep_of _ _ (W2_of_ne m ρ c) r fun w e => (W2_arr m ρ c w).trans <|
      ((dat0 (V1 m ρ) c).arrAt_in w (h0 w e) _).trans (A_eq0 (V1 m ρ) c w)).trans <| (W1_of m ρ c r a0).trans rfl

theorem run_results : θ_run defs (onTc (τ := τ) (main (F := F))) ⟨m, fun _ => 0, ρ⟩ (fun r => ∀ c : Dev nD,
      r.2.mem ((c.tc : Thread nD τ).loc main_v65) = W16 m ρ c (Proc.devRef .tc main_v65)
      ∧ r.2.mem ((c.tc : Thread nD τ).loc main_v34) = W16 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_kit m ρ fun s h c => by
    refine ⟨h c _ (mem_uc main_v65 (by decide)), h c _ (mem_uc main_v34 (by decide)), ?_⟩
    repeat' apply And.intro
    all_goals exact arg_kept m ρ h c _ (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine (θ_run defs (onTc (τ := τ) (main (F := F))) ⟨m, fun _ => 0, ρ⟩).mono ?_ (run_results m ρ)
  exact fun _ h c => (h c).2.2

end Cert.KernelIdeal.Frame

end
-- ==== Proof.Ref.Stages.lean ====
-- The reference's computation as functions of its twenty-one argument arrays, stage by stage, each stated from the earlier ones.
import proofs.«428159_j48533130445226_3_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

def nodeRows (b : FVec F S64 .f32) : FVec F S50000x64 .f32 :=
  broadcastInDim S50000x64 ![0, 1] bcast_S1x64_S50000x64_0_1 (broadcastInDim S1x64 ![1] bcast_S64_S1x64_1 b)

def edgeRows (b : FVec F S64 .f32) : FVec F S800000x64 .f32 :=
  broadcastInDim S800000x64 ![0, 1] bcast_S1x64_S800000x64_0_1 (broadcastInDim S1x64 ![1] bcast_S64_S1x64_1 b)

def nodeLinear (x : FVec F S50000x64 .f32) (W : FVec F S64x64 .f32) (b : FVec F S64 .f32) : FVec F S50000x64 .f32 :=
  addf (Host.dotGeneral dot_S50000x64_S64x64_S50000x64_1_0_0_1_n_n none x (transpose S64x64 [1, 0] W transposes_S64x64_S64x64_1_0))
    (nodeRows b)

def edgeLinear (e : FVec F S800000x64 .f32) (W : FVec F S64x64 .f32) (b : FVec F S64 .f32) : FVec F S800000x64 .f32 :=
  addf (Host.dotGeneral dot_S800000x64_S64x64_S800000x64_1_0_0_1_n_n none e (transpose S64x64 [1, 0] W transposes_S64x64_S64x64_1_0))
    (edgeRows b)

def refSrc (idx : IVec S2x800000 32) : IVec S800000 32 :=
  shapeCast S800000 (extractStridedSlice S1x800000 ![0, 0] idx slices_S2x800000_S1x800000_0_0) shapeCasts_S1x800000_S800000

def refDst (idx : IVec S2x800000 32) : IVec S800000 32 :=
  shapeCast S800000 (extractStridedSlice S1x800000 ![1, 0] idx slices_S2x800000_S1x800000_1_0) shapeCasts_S1x800000_S800000

def wrapIx (j : IVec S800000 32) : IVec S800000x1 32 :=
  broadcastInDim S800000x1 ![0] bcast_S800000_S800000x1_0
    (select (cmpi .slt j (broadcastInDim S800000 ![] bcast_S_S800000 (constantI S_ 32 0#32)))
      (addi j (broadcastInDim S800000 ![] bcast_S_S800000 (constantI S_ 32 50000#32))) j)

def colIx (j : IVec S800000 32) : IVec S800000x1 32 :=
  broadcastInDim S800000x1 ![0] bcast_S800000_S800000x1_0 j

def edgeMean (h : FVec F S800000x64 .f32) : FVec F S64 .f32 :=
  Host.divf (Host.reduceAdd h (constant S_ .f32 0x00000000#32) reducesTo_S800000x64_S64_d0 h_S_)
    (broadcastInDim S64 ![] bcast_S_S64 (constant S_ .f32 0x49435000#32))

def edgeCount : FVec F S_ .f32 :=
  subf (constant S_ .f32 0x49435000#32) (sitofp .f32 (constantI S_ 32 0#32))

def edgeCentred (h : FVec F S800000x64 .f32) : FVec F S800000x64 .f32 :=
  subf h (broadcastInDim S800000x64 ![0, 1] bcast_S1x64_S800000x64_0_1
    (Host.divf (broadcastInDim S1x64 ![1] bcast_S64_S1x64_1 (Host.reduceAdd h (constant S_ .f32 0x00000000#32) reducesTo_S800000x64_S64_d0 h_S_))
      (broadcastInDim S1x64 ![] bcast_S_S1x64 (constant S_ .f32 0x49435000#32))))

def edgeVar (h : FVec F S800000x64 .f32) : FVec F S64 .f32 :=
  select (broadcastInDim S64 ![] bcast_S_S64 (cmpf .ogt (edgeCount (F := F)) (constant S_ .f32 0x00000000#32)))
    (Host.divf (Host.reduceAdd (mulf (edgeCentred h) (edgeCentred h)) (constant S_ .f32 0x00000000#32) reducesTo_S800000x64_S64_d0 h_S_)
      (broadcastInDim S64 ![] bcast_S_S64 (edgeCount (F := F))))
    (broadcastInDim S64 ![] bcast_S_S64 (id (constant S_ .f32 0x7FC00000#32)))

def nodeCount : FVec F S_ .f32 :=
  subf (constant S_ .f32 0x47435000#32) (sitofp .f32 (constantI S_ 32 0#32))

def nodeCentred (h : FVec F S50000x64 .f32) : FVec F S50000x64 .f32 :=
  subf h (broadcastInDim S50000x64 ![0, 1] bcast_S1x64_S50000x64_0_1
    (Host.divf (broadcastInDim S1x64 ![1] bcast_S64_S1x64_1 (Host.reduceAdd h (constant S_ .f32 0x00000000#32) reducesTo_S50000x64_S64_d0 h_S_))
      (broadcastInDim S1x64 ![] bcast_S_S1x64 (constant S_ .f32 0x47435000#32))))

def nodeVar (h : FVec F S50000x64 .f32) : FVec F S64 .f32 :=
  select (broadcastInDim S64 ![] bcast_S_S64 (cmpf .ogt (nodeCount (F := F)) (constant S_ .f32 0x00000000#32)))
    (Host.divf (Host.reduceAdd (mulf (nodeCentred h) (nodeCentred h)) (constant S_ .f32 0x00000000#32) reducesTo_S50000x64_S64_d0 h_S_)
      (broadcastInDim S64 ![] bcast_S_S64 (nodeCount (F := F))))
    (broadcastInDim S64 ![] bcast_S_S64 (id (constant S_ .f32 0x7FC00000#32)))

def refDeg (idx : IVec S2x800000 32) : FVec F S50000 .f32 :=
  Host.scatterAdd scatter_S50000_S800000x1_S800000_n_0_0_1
    (broadcastInDim S50000 ![] bcast_S_S50000 (constant S_ .f32 0x00000000#32)) (colIx (refDst idx))
    (broadcastInDim S800000 ![] bcast_S_S800000 (constant S_ .f32 0x3F800000#32))

section Stages

abbrev Stage (F : FTy → Type) (α : Type) : Type :=
  FVec F S50000x64 .f32 → IVec S2x800000 32 → FVec F S800000x64 .f32 →
  FVec F S64x64 .f32 → FVec F S64 .f32 → FVec F S64x64 .f32 → FVec F S64 .f32 →
  FVec F S64x64 .f32 → FVec F S64 .f32 → FVec F S64x64 .f32 → FVec F S64 .f32 →
  FVec F S64x64 .f32 → FVec F S64 .f32 → FVec F S64x192 .f32 → FVec F S64 .f32 →
  FVec F S64x64 .f32 → FVec F S64 .f32 → FVec F S64 .f32 → FVec F S64 .f32 → FVec F S64 .f32 → FVec F S64 .f32 → α
set_option hygiene false in
local notation:max "⟪" f "⟫" => f x idx ea WA bA WB bB WD bD WE bE WC bC W1 b1 W2 b2 gn bn ge be

def refAx : Stage F (FVec F S50000x64 .f32) := fun x idx ea WA bA WB bB WD bD WE bE WC bC W1 b1 W2 b2 gn bn ge be =>
  nodeLinear x WA bA
def refBx : Stage F (FVec F S50000x64 .f32) := fun x idx ea WA bA WB bB WD bD WE bE WC bC W1 b1 W2 b2 gn bn ge be =>
  nodeLinear x WB bB
def refDx : Stage F (FVec F S50000x64 .f32) := fun x idx ea WA bA WB bB WD bD WE bE WC bC W1 b1 W2 b2 gn bn ge be =>
  nodeLinear x WD bD
def refEx : Stage F (FVec F S50000x64 .f32) := fun x idx ea WA bA WB bB WD bD WE bE WC bC W1 b1 W2 b2 gn bn ge be =>
  nodeLinear x WE bE
def refCe : Stage F (FVec F S800000x64 .f32) := fun x idx ea WA bA WB bB WD bD WE bE WC bC W1 b1 W2 b2 gn bn ge be =>
  edgeLinear ea WC bC

def refDd : Stage F (FVec F S800000x64 .f32) := fun x idx ea WA bA WB bB WD bD WE bE WC bC W1 b1 W2 b2 gn bn ge be =>
  Host.gather gather_S50000x64_S800000x1_S800000x64_1_0_n_n_0_1_164 ⟪refDx⟫ (wrapIx (refDst idx))

def refEs : Stage F (FVec F S800000x64 .f32) := fun x idx ea WA bA WB bB WD bD WE bE WC bC W1 b1 W2 b2 gn bn ge be =>
  Host.gather gather_S50000x64_S800000x1_S800000x64_1_0_n_n_0_1_164 ⟪refEx⟫ (wrapIx (refSrc idx))

def refSigma : Stage F (FVec F S800000x64 .f32) := fun x idx ea WA bA WB bB WD bD WE bE WC bC W1 b1 W2 b2 gn bn ge be =>
  Host.divf (broadcastInDim S800000x64 ![] bcast_S_S800000x64 (constant S_ .f32 0x3F800000#32))
    (addf (broadcastInDim S800000x64 ![] bcast_S_S800000x64 (constant S_ .f32 0x3F800000#32))
      (Host.exp (Host.negf (addf (addf ⟪refCe⟫ ⟪refDd⟫) ⟪refEs⟫))))

def refCat : Stage F (FVec F S800000x192 .f32) := fun x idx ea WA bA WB bB WD bD WE bE WC bC W1 b1 W2 b2 gn bn ge be =>
  concatenate S800000x192 1 [⟨S800000x64, ⟪refDd⟫⟩, ⟨S800000x64, ⟪refEs⟫⟩, ⟨S800000x64, ⟪refCe⟫⟩]
    concatenates_S800000x64_S800000x64_S800000x64_S800000x192_d1

def refLin1 : Stage F (FVec F S800000x64 .f32) := fun x idx ea WA bA WB bB WD bD WE bE WC bC W1 b1 W2 b2 gn bn ge be =>
  Host.dotGeneral dot_S800000x192_S192x64_S800000x64_1_0_0_1_n_n none ⟪refCat⟫
    (transpose S192x64 [1, 0] W1 transposes_S64x192_S192x64_1_0)

def refPre : Stage F (FVec F S800000x64 .f32) := fun x idx ea WA bA WB bB WD bD WE bE WC bC W1 b1 W2 b2 gn bn ge be =>
  edgeLinear (maximumf (addf ⟪refLin1⟫ (edgeRows b1))
    (broadcastInDim S800000x64 ![] bcast_S_S800000x64 (constant S_ .f32 0x00000000#32))) W2 b2

def refMuE : Stage F (FVec F S64 .f32) := fun x idx ea WA bA WB bB WD bD WE bE WC bC W1 b1 W2 b2 gn bn ge be =>
  edgeMean ⟪refPre⟫

def refVarE : Stage F (FVec F S64 .f32) := fun x idx ea WA bA WB bB WD bD WE bE WC bC W1 b1 W2 b2 gn bn ge be =>
  edgeVar ⟪refPre⟫

def refEnew : Stage F (FVec F S800000x64 .f32) := fun x idx ea WA bA WB bB WD bD WE bE WC bC W1 b1 W2 b2 gn bn ge be =>
  addf (mulf (mulf (edgeRows ge) (subf ⟪refPre⟫ (edgeRows ⟪refMuE⟫)))
      (edgeRows (Host.rsqrt (addf ⟪refVarE⟫ (broadcastInDim S64 ![] bcast_S_S64 (constant S_ .f32 0x3727C5AC#32))))))
    (edgeRows be)

def refBxs : Stage F (FVec F S800000x64 .f32) := fun x idx ea WA bA WB bB WD bD WE bE WC bC W1 b1 W2 b2 gn bn ge be =>
  Host.gather gather_S50000x64_S800000x1_S800000x64_1_0_n_n_0_1_164 ⟪refBx⟫ (wrapIx (refSrc idx))

def refMsg : Stage F (FVec F S800000x64 .f32) := fun x idx ea WA bA WB bB WD bD WE bE WC bC W1 b1 W2 b2 gn bn ge be =>
  mulf ⟪refSigma⟫ ⟪refBxs⟫

def refAgg : Stage F (FVec F S50000x64 .f32) := fun x idx ea WA bA WB bB WD bD WE bE WC bC W1 b1 W2 b2 gn bn ge be =>
  Host.divf
    (Host.scatterAdd scatter_S50000x64_S800000x1_S800000x64_1_0_0_1
      (broadcastInDim S50000x64 ![] bcast_S_S50000x64 (constant S_ .f32 0x00000000#32)) (colIx (refDst idx)) ⟪refMsg⟫)
    (broadcastInDim S50000x64 ![0, 1] bcast_S50000x1_S50000x64_0_1 (broadcastInDim S50000x1 ![0] bcast_S50000_S50000x1_0
      (maximumf (broadcastInDim S50000 ![] bcast_S_S50000 (id (constant S_ .f32 0x3F800000#32))) (refDeg (F := F) idx))))

def refHpre : Stage F (FVec F S50000x64 .f32) := fun x idx ea WA bA WB bB WD bD WE bE WC bC W1 b1 W2 b2 gn bn ge be =>
  addf ⟪refAx⟫ ⟪refAgg⟫

def refSumN : Stage F (FVec F S64 .f32) := fun x idx ea WA bA WB bB WD bD WE bE WC bC W1 b1 W2 b2 gn bn ge be =>
  Host.reduceAdd ⟪refHpre⟫ (constant S_ .f32 0x00000000#32) reducesTo_S50000x64_S64_d0 h_S_

def refMuN : Stage F (FVec F S64 .f32) := fun x idx ea WA bA WB bB WD bD WE bE WC bC W1 b1 W2 b2 gn bn ge be =>
  Host.divf ⟪refSumN⟫ (broadcastInDim S64 ![] bcast_S_S64 (constant S_ .f32 0x47435000#32))

def refVarN : Stage F (FVec F S64 .f32) := fun x idx ea WA bA WB bB WD bD WE bE WC bC W1 b1 W2 b2 gn bn ge be =>
  nodeVar ⟪refHpre⟫

def refH : Stage F (FVec F S50000x64 .f32) := fun x idx ea WA bA WB bB WD bD WE bE WC bC W1 b1 W2 b2 gn bn ge be =>
  maximumf
    (addf (mulf (mulf (nodeRows gn) (subf ⟪refHpre⟫ (nodeRows ⟪refMuN⟫)))
        (nodeRows (Host.rsqrt (addf ⟪refVarN⟫ (broadcastInDim S64 ![] bcast_S_S64 (constant S_ .f32 0x3727C5AC#32))))))
      (nodeRows bn))
    (broadcastInDim S50000x64 ![] bcast_S_S50000x64 (constant S_ .f32 0x00000000#32))

end Stages

end Cert.ReferenceIdeal.Hand

end
-- ==== Proof.Ref.Ops.lean ====
-- The reference's 190 operations, cut into nine stretches, with the references each stretch writes.
import proofs.«428159_j48533130445226_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev s1 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    unary main_arg3 main_v4 (transpose S64x64 [1, 0] · transposes_S64x64_S64x64_1_0),
    binary main_arg0 main_v4 main_v5 (fun l r => Host.dotGeneral dot_S50000x64_S64x64_S50000x64_1_0_0_1_n_n none l r),
    unary main_arg4 main_v6 (broadcastInDim S1x64 ![1] bcast_S64_S1x64_1),
    unary main_v6 main_v7 (broadcastInDim S50000x64 ![0, 1] bcast_S1x64_S50000x64_0_1),
    binary main_v5 main_v7 main_v8 addf,
    unary main_arg5 main_v9 (transpose S64x64 [1, 0] · transposes_S64x64_S64x64_1_0),
    binary main_arg0 main_v9 main_v10 (fun l r => Host.dotGeneral dot_S50000x64_S64x64_S50000x64_1_0_0_1_n_n none l r),
    unary main_arg6 main_v11 (broadcastInDim S1x64 ![1] bcast_S64_S1x64_1),
    unary main_v11 main_v12 (broadcastInDim S50000x64 ![0, 1] bcast_S1x64_S50000x64_0_1),
    binary main_v10 main_v12 main_v13 addf,
    unary main_arg7 main_v14 (transpose S64x64 [1, 0] · transposes_S64x64_S64x64_1_0),
    binary main_arg0 main_v14 main_v15 (fun l r => Host.dotGeneral dot_S50000x64_S64x64_S50000x64_1_0_0_1_n_n none l r),
    unary main_arg8 main_v16 (broadcastInDim S1x64 ![1] bcast_S64_S1x64_1),
    unary main_v16 main_v17 (broadcastInDim S50000x64 ![0, 1] bcast_S1x64_S50000x64_0_1),
    binary main_v15 main_v17 main_v18 addf,
    unary main_arg9 main_v19 (transpose S64x64 [1, 0] · transposes_S64x64_S64x64_1_0),
    binary main_arg0 main_v19 main_v20 (fun l r => Host.dotGeneral dot_S50000x64_S64x64_S50000x64_1_0_0_1_n_n none l r),
    unary main_arg10 main_v21 (broadcastInDim S1x64 ![1] bcast_S64_S1x64_1),
    unary main_v21 main_v22 (broadcastInDim S50000x64 ![0, 1] bcast_S1x64_S50000x64_0_1),
    binary main_v20 main_v22 main_v23 addf,
    unary main_arg11 main_v24 (transpose S64x64 [1, 0] · transposes_S64x64_S64x64_1_0),
    binary main_arg2 main_v24 main_v25 (fun l r => Host.dotGeneral dot_S800000x64_S64x64_S800000x64_1_0_0_1_n_n none l r),
    unary main_arg12 main_v26 (broadcastInDim S1x64 ![1] bcast_S64_S1x64_1),
    unary main_v26 main_v27 (broadcastInDim S800000x64 ![0, 1] bcast_S1x64_S800000x64_0_1),
    binary main_v25 main_v27 main_v28 addf ]

abbrev s1_W : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28]

abbrev s2 : List (HloOp τ sig (Elt F)) :=
  [ nullary main_c (constantI S_ 32 0#32),
    unary main_c main_v29 (broadcastInDim S800000 ![] bcast_S_S800000),
    binary main_v3 main_v29 main_v30 (cmpi .slt),
    nullary main_c_0 (constantI S_ 32 50000#32),
    unary main_c_0 main_v31 (broadcastInDim S800000 ![] bcast_S_S800000),
    binary main_v3 main_v31 main_v32 addi,
    ternary main_v30 main_v32 main_v3 main_v33 select,
    unary main_v33 main_v34 (broadcastInDim S800000x1 ![0] bcast_S800000_S800000x1_0),
    binary main_v18 main_v34 main_v35 (fun x i => Host.gather gather_S50000x64_S800000x1_S800000x64_1_0_n_n_0_1_164 x i),
    nullary main_c_1 (constantI S_ 32 0#32),
    unary main_c_1 main_v36 (broadcastInDim S800000 ![] bcast_S_S800000),
    binary main_v1 main_v36 main_v37 (cmpi .slt),
    nullary main_c_2 (constantI S_ 32 50000#32),
    unary main_c_2 main_v38 (broadcastInDim S800000 ![] bcast_S_S800000),
    binary main_v1 main_v38 main_v39 addi,
    ternary main_v37 main_v39 main_v1 main_v40 select,
    unary main_v40 main_v41 (broadcastInDim S800000x1 ![0] bcast_S800000_S800000x1_0),
    binary main_v23 main_v41 main_v42 (fun x i => Host.gather gather_S50000x64_S800000x1_S800000x64_1_0_n_n_0_1_164 x i),
    binary main_v28 main_v35 main_v43 addf,
    binary main_v43 main_v42 main_v44 addf,
    unary main_v44 main_v45 Host.negf,
    unary main_v45 main_v46 Host.exp,
    nullary main_cst (constant S_ .f32 0x3F800000#32),
    unary main_cst main_v47 (broadcastInDim S800000x64 ![] bcast_S_S800000x64),
    binary main_v47 main_v46 main_v48 addf,
    nullary main_cst_3 (constant S_ .f32 0x3F800000#32),
    unary main_cst_3 main_v49 (broadcastInDim S800000x64 ![] bcast_S_S800000x64),
    binary main_v49 main_v48 main_v50 Host.divf ]

abbrev s2_W : List (Ref sig .tc) :=
  [main_c, main_v29, main_v30, main_c_0, main_v31, main_v32, main_v33, main_v34, main_v35, main_c_1, main_v36, main_v37, main_c_2, main_v38, main_v39, main_v40, main_v41, main_v42, main_v43, main_v44, main_v45, main_v46, main_cst, main_v47, main_v48, main_cst_3, main_v49, main_v50]

abbrev s3 : List (HloOp τ sig (Elt F)) :=
  [ nary ![main_v35, main_v42, main_v28] main_v51 (fun u => concatenate S800000x192 1 [⟨S800000x64, u 0⟩, ⟨S800000x64, u 1⟩, ⟨S800000x64, u 2⟩] concatenates_S800000x64_S800000x64_S800000x64_S800000x192_d1),
    unary main_arg13 main_v52 (transpose S192x64 [1, 0] · transposes_S64x192_S192x64_1_0),
    binary main_v51 main_v52 main_v53 (fun l r => Host.dotGeneral dot_S800000x192_S192x64_S800000x64_1_0_0_1_n_n none l r) ]

abbrev s3_W : List (Ref sig .tc) :=
  [main_v51, main_v52, main_v53]

abbrev s4 : List (HloOp τ sig (Elt F)) :=
  [ unary main_arg14 main_v54 (broadcastInDim S1x64 ![1] bcast_S64_S1x64_1),
    unary main_v54 main_v55 (broadcastInDim S800000x64 ![0, 1] bcast_S1x64_S800000x64_0_1),
    binary main_v53 main_v55 main_v56 addf,
    nullary main_call0_cst (constant S_ .f32 0x00000000#32),
    unary main_call0_cst main_call0_v0 (broadcastInDim S800000x64 ![] bcast_S_S800000x64),
    binary main_v56 main_call0_v0 main_v57 maximumf,
    unary main_arg15 main_v58 (transpose S64x64 [1, 0] · transposes_S64x64_S64x64_1_0),
    binary main_v57 main_v58 main_v59 (fun l r => Host.dotGeneral dot_S800000x64_S64x64_S800000x64_1_0_0_1_n_n none l r),
    unary main_arg16 main_v60 (broadcastInDim S1x64 ![1] bcast_S64_S1x64_1),
    unary main_v60 main_v61 (broadcastInDim S800000x64 ![0, 1] bcast_S1x64_S800000x64_0_1),
    binary main_v59 main_v61 main_v62 addf ]

abbrev s4_W : List (Ref sig .tc) :=
  [main_v54, main_v55, main_v56, main_call0_cst, main_call0_v0, main_v57, main_v58, main_v59, main_v60, main_v61, main_v62]

abbrev s5 : List (HloOp τ sig (Elt F)) :=
  [ nullary main_cst_4 (constant S_ .f32 0x00000000#32),
    binary main_v62 main_cst_4 main_v63 (fun x v => Host.reduceAdd x v reducesTo_S800000x64_S64_d0 h_S_),
    nullary main_cst_5 (constant S_ .f32 0x49435000#32),
    unary main_cst_5 main_v64 (broadcastInDim S64 ![] bcast_S_S64),
    binary main_v63 main_v64 main_v65 Host.divf,
    nullary main_c_6 (constantI S_ 32 0#32),
    nullary main_call1_cst (constant S_ .f32 0x00000000#32),
    binary main_v62 main_call1_cst main_call1_v0 (fun x v => Host.reduceAdd x v reducesTo_S800000x64_S64_d0 h_S_),
    unary main_call1_v0 main_call1_v1 (broadcastInDim S1x64 ![1] bcast_S64_S1x64_1),
    nullary main_call1_cst_0 (constant S_ .f32 0x49435000#32),
    unary main_call1_cst_0 main_call1_v2 (broadcastInDim S1x64 ![] bcast_S_S1x64),
    binary main_call1_v1 main_call1_v2 main_call1_v3 Host.divf,
    unary main_call1_v3 main_call1_v4 (broadcastInDim S800000x64 ![0, 1] bcast_S1x64_S800000x64_0_1),
    binary main_v62 main_call1_v4 main_call1_v5 subf,
    binary main_call1_v5 main_call1_v5 main_call1_v6 mulf,
    unary main_c_6 main_call1_v7 (sitofp .f32),
    nullary main_call1_cst_1 (constant S_ .f32 0x49435000#32),
    binary main_call1_cst_1 main_call1_v7 main_call1_v8 subf,
    nullary main_call1_cst_2 (constant S_ .f32 0x00000000#32),
    binary main_call1_v6 main_call1_cst_2 main_call1_v9 (fun x v => Host.reduceAdd x v reducesTo_S800000x64_S64_d0 h_S_),
    unary main_call1_v8 main_call1_v10 (broadcastInDim S64 ![] bcast_S_S64),
    binary main_call1_v9 main_call1_v10 main_call1_v11 Host.divf,
    nullary main_call1_cst_3 (constant S_ .f32 0x00000000#32),
    binary main_call1_v8 main_call1_cst_3 main_call1_v12 (cmpf .ogt),
    nullary main_call1_cst_4 (constant S_ .f32 0x7FC00000#32),
    unary main_call1_cst_4 main_call1_call0_v0 id,
    unary main_call1_call0_v0 main_call1_call0_v1 (broadcastInDim S64 ![] bcast_S_S64),
    ternary main_call1_v12 main_call1_v11 main_call1_call0_v1 main_v66 (fun p a b => select (broadcastInDim S64 ![] bcast_S_S64 p) a b) ]

abbrev s5_W : List (Ref sig .tc) :=
  [main_cst_4, main_v63, main_cst_5, main_v64, main_v65, main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v66]

abbrev s6 : List (HloOp τ sig (Elt F)) :=
  [ unary main_v65 main_v67 (broadcastInDim S1x64 ![1] bcast_S64_S1x64_1),
    unary main_v67 main_v68 (broadcastInDim S800000x64 ![0, 1] bcast_S1x64_S800000x64_0_1),
    binary main_v62 main_v68 main_v69 subf,
    unary main_arg19 main_v70 (broadcastInDim S1x64 ![1] bcast_S64_S1x64_1),
    unary main_v70 main_v71 (broadcastInDim S800000x64 ![0, 1] bcast_S1x64_S800000x64_0_1),
    binary main_v71 main_v69 main_v72 mulf,
    nullary main_cst_7 (constant S_ .f32 0x3727C5AC#32),
    unary main_cst_7 main_v73 (broadcastInDim S64 ![] bcast_S_S64),
    binary main_v66 main_v73 main_v74 addf,
    unary main_v74 main_v75 Host.rsqrt,
    unary main_v75 main_v76 (broadcastInDim S1x64 ![1] bcast_S64_S1x64_1),
    unary main_v76 main_v77 (broadcastInDim S800000x64 ![0, 1] bcast_S1x64_S800000x64_0_1),
    binary main_v72 main_v77 main_v78 mulf,
    unary main_arg20 main_v79 (broadcastInDim S1x64 ![1] bcast_S64_S1x64_1),
    unary main_v79 main_v80 (broadcastInDim S800000x64 ![0, 1] bcast_S1x64_S800000x64_0_1),
    binary main_v78 main_v80 main_v81 addf ]

abbrev s6_W : List (Ref sig .tc) :=
  [main_v67, main_v68, main_v69, main_v70, main_v71, main_v72, main_cst_7, main_v73, main_v74, main_v75, main_v76, main_v77, main_v78, main_v79, main_v80, main_v81]

abbrev s7 : List (HloOp τ sig (Elt F)) :=
  [ nullary main_c_8 (constantI S_ 32 0#32),
    unary main_c_8 main_v82 (broadcastInDim S800000 ![] bcast_S_S800000),
    binary main_v1 main_v82 main_v83 (cmpi .slt),
    nullary main_c_9 (constantI S_ 32 50000#32),
    unary main_c_9 main_v84 (broadcastInDim S800000 ![] bcast_S_S800000),
    binary main_v1 main_v84 main_v85 addi,
    ternary main_v83 main_v85 main_v1 main_v86 select,
    unary main_v86 main_v87 (broadcastInDim S800000x1 ![0] bcast_S800000_S800000x1_0),
    binary main_v13 main_v87 main_v88 (fun x i => Host.gather gather_S50000x64_S800000x1_S800000x64_1_0_n_n_0_1_164 x i),
    binary main_v50 main_v88 main_v89 mulf,
    nullary main_cst_10 (constant S_ .f32 0x00000000#32),
    unary main_cst_10 main_v90 (broadcastInDim S50000x64 ![] bcast_S_S50000x64),
    unary main_v3 main_v91 (broadcastInDim S800000x1 ![0] bcast_S800000_S800000x1_0),
    ternary main_v90 main_v91 main_v89 main_v92 (fun x i u => Host.scatterAdd scatter_S50000x64_S800000x1_S800000x64_1_0_0_1 x i u),
    nullary main_cst_11 (constant S_ .f32 0x3F800000#32),
    unary main_cst_11 main_v93 (broadcastInDim S800000 ![] bcast_S_S800000),
    nullary main_cst_12 (constant S_ .f32 0x00000000#32),
    unary main_cst_12 main_v94 (broadcastInDim S50000 ![] bcast_S_S50000),
    unary main_v3 main_v95 (broadcastInDim S800000x1 ![0] bcast_S800000_S800000x1_0),
    ternary main_v94 main_v95 main_v93 main_v96 (fun x i u => Host.scatterAdd scatter_S50000_S800000x1_S800000_n_0_0_1 x i u),
    nullary main_cst_13 (constant S_ .f32 0x3F800000#32),
    unary main_cst_13 main_call2_v0 id,
    unary main_call2_v0 main_call2_v1 (broadcastInDim S50000 ![] bcast_S_S50000),
    binary main_call2_v1 main_v96 main_v97 maximumf,
    unary main_v97 main_v98 (broadcastInDim S50000x1 ![0] bcast_S50000_S50000x1_0),
    unary main_v98 main_v99 (broadcastInDim S50000x64 ![0, 1] bcast_S50000x1_S50000x64_0_1),
    binary main_v92 main_v99 main_v100 Host.divf,
    binary main_v8 main_v100 main_v101 addf,
    nullary main_cst_14 (constant S_ .f32 0x00000000#32),
    binary main_v101 main_cst_14 main_v102 (fun x v => Host.reduceAdd x v reducesTo_S50000x64_S64_d0 h_S_) ]

abbrev s7_W : List (Ref sig .tc) :=
  [main_c_8, main_v82, main_v83, main_c_9, main_v84, main_v85, main_v86, main_v87, main_v88, main_v89, main_cst_10, main_v90, main_v91, main_v92, main_cst_11, main_v93, main_cst_12, main_v94, main_v95, main_v96, main_cst_13, main_call2_v0, main_call2_v1, main_v97, main_v98, main_v99, main_v100, main_v101, main_cst_14, main_v102]

abbrev s8 : List (HloOp τ sig (Elt F)) :=
  [ nullary main_cst_15 (constant S_ .f32 0x47435000#32),
    unary main_cst_15 main_v103 (broadcastInDim S64 ![] bcast_S_S64),
    binary main_v102 main_v103 main_v104 Host.divf,
    nullary main_c_16 (constantI S_ 32 0#32),
    nullary main_call3_cst (constant S_ .f32 0x00000000#32),
    binary main_v101 main_call3_cst main_call3_v0 (fun x v => Host.reduceAdd x v reducesTo_S50000x64_S64_d0 h_S_),
    unary main_call3_v0 main_call3_v1 (broadcastInDim S1x64 ![1] bcast_S64_S1x64_1),
    nullary main_call3_cst_0 (constant S_ .f32 0x47435000#32),
    unary main_call3_cst_0 main_call3_v2 (broadcastInDim S1x64 ![] bcast_S_S1x64),
    binary main_call3_v1 main_call3_v2 main_call3_v3 Host.divf,
    unary main_call3_v3 main_call3_v4 (broadcastInDim S50000x64 ![0, 1] bcast_S1x64_S50000x64_0_1),
    binary main_v101 main_call3_v4 main_call3_v5 subf,
    binary main_call3_v5 main_call3_v5 main_call3_v6 mulf,
    unary main_c_16 main_call3_v7 (sitofp .f32),
    nullary main_call3_cst_1 (constant S_ .f32 0x47435000#32),
    binary main_call3_cst_1 main_call3_v7 main_call3_v8 subf,
    nullary main_call3_cst_2 (constant S_ .f32 0x00000000#32),
    binary main_call3_v6 main_call3_cst_2 main_call3_v9 (fun x v => Host.reduceAdd x v reducesTo_S50000x64_S64_d0 h_S_),
    unary main_call3_v8 main_call3_v10 (broadcastInDim S64 ![] bcast_S_S64),
    binary main_call3_v9 main_call3_v10 main_call3_v11 Host.divf,
    nullary main_call3_cst_3 (constant S_ .f32 0x00000000#32),
    binary main_call3_v8 main_call3_cst_3 main_call3_v12 (cmpf .ogt),
    nullary main_call3_cst_4 (constant S_ .f32 0x7FC00000#32),
    unary main_call3_cst_4 main_call3_call0_v0 id,
    unary main_call3_call0_v0 main_call3_call0_v1 (broadcastInDim S64 ![] bcast_S_S64),
    ternary main_call3_v12 main_call3_v11 main_call3_call0_v1 main_v105 (fun p a b => select (broadcastInDim S64 ![] bcast_S_S64 p) a b) ]

abbrev s8_W : List (Ref sig .tc) :=
  [main_cst_15, main_v103, main_v104, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v105]

abbrev s9 : List (HloOp τ sig (Elt F)) :=
  [ unary main_v104 main_v106 (broadcastInDim S1x64 ![1] bcast_S64_S1x64_1),
    unary main_v106 main_v107 (broadcastInDim S50000x64 ![0, 1] bcast_S1x64_S50000x64_0_1),
    binary main_v101 main_v107 main_v108 subf,
    unary main_arg17 main_v109 (broadcastInDim S1x64 ![1] bcast_S64_S1x64_1),
    unary main_v109 main_v110 (broadcastInDim S50000x64 ![0, 1] bcast_S1x64_S50000x64_0_1),
    binary main_v110 main_v108 main_v111 mulf,
    nullary main_cst_17 (constant S_ .f32 0x3727C5AC#32),
    unary main_cst_17 main_v112 (broadcastInDim S64 ![] bcast_S_S64),
    binary main_v105 main_v112 main_v113 addf,
    unary main_v113 main_v114 Host.rsqrt,
    unary main_v114 main_v115 (broadcastInDim S1x64 ![1] bcast_S64_S1x64_1),
    unary main_v115 main_v116 (broadcastInDim S50000x64 ![0, 1] bcast_S1x64_S50000x64_0_1),
    binary main_v111 main_v116 main_v117 mulf,
    unary main_arg18 main_v118 (broadcastInDim S1x64 ![1] bcast_S64_S1x64_1),
    unary main_v118 main_v119 (broadcastInDim S50000x64 ![0, 1] bcast_S1x64_S50000x64_0_1),
    binary main_v117 main_v119 main_v120 addf,
    nullary main_call4_cst (constant S_ .f32 0x00000000#32),
    unary main_call4_cst main_call4_v0 (broadcastInDim S50000x64 ![] bcast_S_S50000x64),
    binary main_v120 main_call4_v0 main_v121 maximumf ]

abbrev s9_W : List (Ref sig .tc) :=
  [main_v106, main_v107, main_v108, main_v109, main_v110, main_v111, main_cst_17, main_v112, main_v113, main_v114, main_v115, main_v116, main_v117, main_v118, main_v119, main_v120, main_call4_cst, main_call4_v0, main_v121]

def sOps : ℕ → List (HloOp τ sig (Elt F))
  | 0 => s1 | 1 => s2 | 2 => s3 | 3 => s4 | 4 => s5 | 5 => s6 | 6 => s7 | 7 => s8 | 8 => s9 | _ => []

def sW : ℕ → List (Ref sig .tc)
  | 0 => s1_W | 1 => s2_W | 2 => s3_W | 3 => s4_W | 4 => s5_W | 5 => s6_W | 6 => s7_W | 7 => s8_W | 8 => s9_W | _ => []

theorem writes_sub_of {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

theorem s_sub : ∀ k, (sOps (F := F) k).Forall fun op => op.bufs ⊆ tcRefs τ sig
  | 0 | 1 | 2 | 3 | 4 | 5 | 6 | 7 | 8 => by
    simp only [sOps, List.Forall, nullary_bufs_sub, unary_bufs_sub, binary_bufs_sub, ternary_bufs_sub, reshape_bufs_sub,
      nary_bufs_sub, and_self]
  | _ + 9 => trivial

theorem s_fresh : ∀ k, (sOps (F := F) k).Forall fun op => op.fresh = ∅
  | 0 | 1 | 2 | 3 | 4 | 5 | 6 | 7 | 8 => by
    simp only [sOps, List.Forall]
    repeat' apply And.intro
    all_goals rfl
  | _ + 9 => trivial

-- every operation writes one reference, and it is in its stretch's list
theorem s_writes : ∀ k, (sOps (F := F) k).Forall fun op => op.writes ⊆ ((sW k).map (Proc.devRef (τ := τ) .tc)).toFinset
  | 0 | 1 | 2 | 3 | 4 | 5 | 6 | 7 | 8 => by
    simp only [sOps, sW, List.Forall]
    repeat' apply And.intro
    all_goals exact writes_sub_of rfl (by decide)
  | _ + 9 => trivial

end Cert.ReferenceIdeal.Hand

end
-- ==== Proof.Ref.Run.lean ====
-- The reference's run: both results, and the untouched arguments, as the stages of Ref/Stages.lean at the launch contents.
import proofs.«428159_j48533130445226_3_alg».proof.Proof.Ref.Stages
import proofs.«428159_j48533130445226_3_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) := s1 ++ (s2 ++ s3)
abbrev ops1 : List (HloOp τ sig (Elt F)) := s4 ++ (s5 ++ (s6 ++ s7))
abbrev ops2 : List (HloOp τ sig (Elt F)) := s8 ++ s9
abbrev ops : List (HloOp τ sig (Elt F)) := ops0 ++ (ops1 ++ ops2)

theorem ops_forall {P : HloOp τ sig (Elt F) → Prop} (h : ∀ k, (sOps (F := F) k).Forall P) : (ops (F := F)).Forall P := by
  refine List.forall_iff_forall_mem.mpr fun op ho => ?_
  have H := fun k => List.forall_iff_forall_mem.mp (h k) op
  simp only [ops, ops0, ops1, ops2, List.mem_append] at ho
  rcases ho with (ho | ho | ho) | (ho | ho | ho | ho) | (ho | ho)
  exacts [H 0 ho, H 1 ho, H 2 ho, H 3 ho, H 4 ho, H 5 ho, H 6 ho, H 7 ho, H 8 ho]

theorem main_part0_eq (c : Dev nD) : main_part0 (F := F) c = seq ops0 := rfl

theorem main_part1_eq (c : Dev nD) : main_part1 (F := F) c = seq ops1 := by
  simp only [main_part1, fn_relu.body, fn_var.body, fn_where.body, fn_clip.body, seq, bind_assoc, pure_bind]
  rfl

theorem main_part2_eq (c : Dev nD) : main_part2 (F := F) c = seq ops2 := by
  simp only [main_part2, fn_var_0.body, fn_where.body, fn_relu_1.body, seq, bind_assoc, pure_bind]
  first | done | rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_forall s_sub) m ρ
    (fun _ => List.forall_iff_forall_mem.mp (ops_forall s_fresh))

-- cut V k: what the buffers hold once the first k stretches have run from V
def cut (V : Valuation τ sig (Elt F)) : ℕ → Valuation τ sig (Elt F)
  | 0 => V
  | k + 1 => after (sOps k) (cut V k)

theorem after_ops (V : Valuation τ sig (Elt F)) : after ops V = cut V 9 := by
  simp only [ops, ops0, ops1, ops2, after_append]
  rfl

-- every buffer is written once: what the stretches j … k-1 do not write holds at cut k what it held at cut j
theorem cut_keep (V : Valuation τ sig (Elt F)) (r : Ref sig .tc) (j k : ℕ) {x : (Proc.devRef .tc r : DevRef τ sig).ty.Contents (Elt F)}
    (e : cut V j (Proc.devRef .tc r) = x) (h : j ≤ k ∧ ∀ i, i < k → j ≤ i → r ∉ sW i := by decide) :
    cut V k (no_index (Proc.devRef .tc r)) = x := by
  obtain ⟨hjk, h⟩ := h
  induction k, hjk using Nat.le_induction with
  | base => exact e
  | succ k hjk ih =>
    exact (after_of_writes_sub _ _ (s_writes k) (h k k.lt_succ_self hjk)).trans (ih fun i hi => h i (hi.trans k.lt_succ_self))

theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

set_option quotPrecheck false in
local notation:max "⟬" f ", " m ", " c "⟭" =>
  f (m (((c).tc : Thread nD τ).loc main_arg0)) (m (((c).tc : Thread nD τ).loc main_arg1)) (m (((c).tc : Thread nD τ).loc main_arg2))
    (m (((c).tc : Thread nD τ).loc main_arg3)) (m (((c).tc : Thread nD τ).loc main_arg4)) (m (((c).tc : Thread nD τ).loc main_arg5))
    (m (((c).tc : Thread nD τ).loc main_arg6)) (m (((c).tc : Thread nD τ).loc main_arg7)) (m (((c).tc : Thread nD τ).loc main_arg8))
    (m (((c).tc : Thread nD τ).loc main_arg9)) (m (((c).tc : Thread nD τ).loc main_arg10)) (m (((c).tc : Thread nD τ).loc main_arg11))
    (m (((c).tc : Thread nD τ).loc main_arg12)) (m (((c).tc : Thread nD τ).loc main_arg13)) (m (((c).tc : Thread nD τ).loc main_arg14))
    (m (((c).tc : Thread nD τ).loc main_arg15)) (m (((c).tc : Thread nD τ).loc main_arg16)) (m (((c).tc : Thread nD τ).loc main_arg17))
    (m (((c).tc : Thread nD τ).loc main_arg18)) (m (((c).tc : Thread nD τ).loc main_arg19)) (m (((c).tc : Thread nD τ).loc main_arg20))

section Cuts
variable (m : (ℓ : Loc nD τ sig) → Buf (Elt F) ℓ) (c : Dev nD)
local notation "𝓥" => launchContents m c

-- the buffer of each stage, at the cut that completes it, holds the stage at the argument buffers' contents
theorem cut1_v1 : cut 𝓥 1 (no_index (Proc.devRef .tc main_v1)) = refSrc (m ((c.tc : Thread nD τ).loc main_arg1)) := by
  show after s1 𝓥 _ = _; after_results_simp <;> rfl

theorem cut1_v3 : cut 𝓥 1 (no_index (Proc.devRef .tc main_v3)) = refDst (m ((c.tc : Thread nD τ).loc main_arg1)) := by
  show after s1 𝓥 _ = _; after_results_simp <;> rfl

theorem cut1_v8 : cut 𝓥 1 (no_index (Proc.devRef .tc main_v8)) = ⟬refAx, m, c⟭ := by
  show after s1 𝓥 _ = _; after_results_simp <;> rfl

theorem cut1_v13 : cut 𝓥 1 (no_index (Proc.devRef .tc main_v13)) = ⟬refBx, m, c⟭ := by
  show after s1 𝓥 _ = _; after_results_simp <;> rfl

theorem cut1_v18 : cut 𝓥 1 (no_index (Proc.devRef .tc main_v18)) = ⟬refDx, m, c⟭ := by
  show after s1 𝓥 _ = _; after_results_simp <;> rfl

theorem cut1_v23 : cut 𝓥 1 (no_index (Proc.devRef .tc main_v23)) = ⟬refEx, m, c⟭ := by
  show after s1 𝓥 _ = _; after_results_simp <;> rfl

theorem cut1_v28 : cut 𝓥 1 (no_index (Proc.devRef .tc main_v28)) = ⟬refCe, m, c⟭ := by
  show after s1 𝓥 _ = _; after_results_simp <;> rfl

theorem cut2_v35 : cut 𝓥 2 (no_index (Proc.devRef .tc main_v35)) = ⟬refDd, m, c⟭ := by
  show after s2 (cut 𝓥 1) _ = _; after_results_simp
  simp only [cut1_v18, cut1_v3]
  rfl

theorem cut2_v42 : cut 𝓥 2 (no_index (Proc.devRef .tc main_v42)) = ⟬refEs, m, c⟭ := by
  show after s2 (cut 𝓥 1) _ = _; after_results_simp
  simp only [cut1_v23, cut1_v1]
  rfl

theorem cut2_v50 : cut 𝓥 2 (no_index (Proc.devRef .tc main_v50)) = ⟬refSigma, m, c⟭ := by
  show after s2 (cut 𝓥 1) _ = _; after_results_simp
  simp only [cut1_v28, cut1_v18, cut1_v3, cut1_v23, cut1_v1]
  rfl

theorem cut3_v53 : cut 𝓥 3 (no_index (Proc.devRef .tc main_v53)) = ⟬refLin1, m, c⟭ := by
  show after s3 (cut 𝓥 2) _ = _
  simp (disch := decide) only [after_cons, after_nil, nary3_result', unary_result', binary_result',
    unary_result_ne', binary_result_ne', nary_result_ne']
  simp only [cut2_v35, cut2_v42, cut_keep 𝓥 main_v28 1 2 (cut1_v28 m c), cut_keep 𝓥 main_arg13 0 2 rfl]
  rfl

theorem cut4_v62 : cut 𝓥 4 (no_index (Proc.devRef .tc main_v62)) = ⟬refPre, m, c⟭ := by
  show after s4 (cut 𝓥 3) _ = _; after_results_simp
  simp only [cut3_v53, cut_keep 𝓥 main_arg14 0 3 rfl, cut_keep 𝓥 main_arg15 0 3 rfl, cut_keep 𝓥 main_arg16 0 3 rfl]
  rfl

theorem cut5_v65 : cut 𝓥 5 (no_index (Proc.devRef .tc main_v65)) = ⟬refMuE, m, c⟭ := by
  show after s5 (cut 𝓥 4) _ = _; after_results_simp
  simp only [cut4_v62]
  rfl

theorem cut5_v66 : cut 𝓥 5 (no_index (Proc.devRef .tc main_v66)) = ⟬refVarE, m, c⟭ := by
  show after s5 (cut 𝓥 4) _ = _; after_results_simp
  simp only [cut4_v62]
  rfl

theorem cut6_v81 : cut 𝓥 6 (no_index (Proc.devRef .tc main_v81)) = ⟬refEnew, m, c⟭ := by
  show after s6 (cut 𝓥 5) _ = _; after_results_simp
  simp only [cut5_v65, cut_keep 𝓥 main_v62 4 5 (cut4_v62 m c), cut5_v66, cut_keep 𝓥 main_arg19 0 5 rfl, cut_keep 𝓥 main_arg20 0 5 rfl]
  rfl

theorem cut7_v101 : cut 𝓥 7 (no_index (Proc.devRef .tc main_v101)) = ⟬refHpre, m, c⟭ := by
  show after s7 (cut 𝓥 6) _ = _; after_results_simp
  simp only [cut_keep 𝓥 main_v8 1 6 (cut1_v8 m c), cut_keep 𝓥 main_v50 2 6 (cut2_v50 m c), cut_keep 𝓥 main_v13 1 6 (cut1_v13 m c), cut_keep 𝓥 main_v1 1 6 (cut1_v1 m c), cut_keep 𝓥 main_v3 1 6 (cut1_v3 m c)]
  rfl

theorem cut7_v102 : cut 𝓥 7 (no_index (Proc.devRef .tc main_v102)) = ⟬refSumN, m, c⟭ := by
  show after s7 (cut 𝓥 6) _ = _; after_results_simp
  simp only [cut_keep 𝓥 main_v8 1 6 (cut1_v8 m c), cut_keep 𝓥 main_v50 2 6 (cut2_v50 m c), cut_keep 𝓥 main_v13 1 6 (cut1_v13 m c), cut_keep 𝓥 main_v1 1 6 (cut1_v1 m c), cut_keep 𝓥 main_v3 1 6 (cut1_v3 m c)]
  rfl

theorem cut8_v104 : cut 𝓥 8 (no_index (Proc.devRef .tc main_v104)) = ⟬refMuN, m, c⟭ := by
  show after s8 (cut 𝓥 7) _ = _; after_results_simp
  simp only [cut7_v102]
  rfl

theorem cut8_v105 : cut 𝓥 8 (no_index (Proc.devRef .tc main_v105)) = ⟬refVarN, m, c⟭ := by
  show after s8 (cut 𝓥 7) _ = _; after_results_simp
  simp only [cut7_v101]
  rfl

theorem cut9_v121 : cut 𝓥 9 (no_index (Proc.devRef .tc main_v121)) = ⟬refH, m, c⟭ := by
  show after s9 (cut 𝓥 8) _ = _; after_results_simp
  simp only [cut_keep 𝓥 main_v101 7 8 (cut7_v101 m c), cut8_v104, cut8_v105, cut_keep 𝓥 main_arg17 0 8 rfl, cut_keep 𝓥 main_arg18 0 8 rfl]
  rfl

theorem cut9_v81 : cut 𝓥 9 (no_index (Proc.devRef .tc main_v81)) = ⟬refEnew, m, c⟭ :=
  cut_keep 𝓥 main_v81 6 9 (cut6_v81 m c)

end Cuts

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121) = ⟬refH, m, c⟭
      ∧ r.2.mem ((c.tc : Thread nD τ).loc main_v81) = ⟬refEnew, m, c⟭
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => by
    have A := fun r hr => (h c r).trans ((congrFun (after_ops _) _).trans (cut_keep (launchContents m c) r 0 9 rfl hr))
    refine ⟨(h c main_v121).trans ((congrFun (after_ops _) _).trans (cut9_v121 m c)),
      (h c main_v81).trans ((congrFun (after_ops _) _).trans (cut9_v81 m c)), ?_⟩
    repeat' apply And.intro
    all_goals exact A _ (by decide)) (run_ops m ρ)

end Cert.ReferenceIdeal.Hand

end
-- ==== Proof.LibIdealReal.lean ====
import Idealize.ShloMosaic.PureOps.Ideal
import Idealize.ShloMosaic.PureOps.Ideal.Laws

-- The ideal float operations on real operands give the real result.

noncomputable section

namespace Idealize.ShloMosaic.IdealReal

open Idealize.ShloMosaic

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul]
  congr 1
  field_simp

theorem cmp_ogt_coe (x y : ℝ) : Ideal.cmp .ogt (x : EReal) (y : EReal) = if y < x then 1#1 else 0#1 := by
  unfold Ideal.cmp
  by_cases h : y < x <;> simp [h, EReal.coe_lt_coe_iff]

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

end Idealize.ShloMosaic.IdealReal

end
-- ==== Proof.Val.Consts.lean ====
import Idealize.ShloMosaic.PureOps.Ideal
import Idealize.ShloMosaic.PureOps.Ideal.Laws

-- The float literals of the two programs as the extended reals their patterns denote.

noncomputable section

namespace Cert.KernelIdeal.Val

open Idealize.ShloMosaic

theorem ofBits_800000 : Ideal.ofBits .f32 0x49435000#32 = ((800000 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_one' : Ideal.ofBits .f32 0x3F800000#32 = 1 := by
  rw [ofBits_one]; rfl

theorem ofBits_zero : Ideal.ofBits .f32 0x00000000#32 = ((0 : ℝ) : EReal) := by
  rw [Ideal.ofBits_zero_f32]; rfl

theorem ofBits_zero' : Ideal.ofBits .f32 0x00000000#32 = 0 := Ideal.ofBits_zero_f32

end Cert.KernelIdeal.Val

end
-- ==== Proof.Val.BNMath.lean ====
import Mathlib.Algebra.BigOperators.Fin
import Mathlib.Algebra.BigOperators.Ring.Finset
import Mathlib.Algebra.Order.BigOperators.Group.Finset
import Mathlib.Data.Fintype.BigOperators
import Mathlib.Logic.Equiv.Fin.Basic
import Mathlib.Data.EReal.Operations
import Mathlib.Tactic.FieldSimp
import Mathlib.Tactic.Ring
import Idealize.ShloMosaic.PureOps.Ideal
import Idealize.ShloMosaic.PureOps.Ideal.Laws
import proofs.«428159_j48533130445226_3_alg».proof.Proof.LibIdealReal
import proofs.«428159_j48533130445226_3_alg».proof.Proof.Val.Consts

-- Extended reals that are real numbers, the variance identity for them, and two regroupings of finite sums.

noncomputable section

namespace Cert.KernelIdeal.Val

open Idealize.ShloMosaic
open Idealize.ShloMosaic.IdealReal

def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem exists_fun {ι : Type*} {h : ι → EReal} (hh : ∀ i, IsReal (h i)) :
    ∃ f : ι → ℝ, h = fun i => ((f i : ℝ) : EReal) :=
  ⟨fun i => (hh i).choose, funext fun i => (hh i).choose_spec⟩

theorem sum {ι : Type*} (s : Finset ι) {h : ι → EReal} (hh : ∀ i ∈ s, IsReal (h i)) :
    IsReal (∑ i ∈ s, h i) := by
  classical
  induction s using Finset.induction_on with
  | empty => simpa using zero
  | insert a s ha ih =>
    rw [Finset.sum_insert ha]
    exact add (hh a (Finset.mem_insert_self a s)) (ih fun i hi => hh i (Finset.mem_insert_of_mem hi))

theorem sum_univ {ι : Type*} [Fintype ι] {h : ι → EReal} (hh : ∀ i, IsReal (h i)) : IsReal (∑ i, h i) :=
  sum Finset.univ fun i _ => hh i

theorem div {x : EReal} (hx : IsReal x) {y : ℝ} (hy : y ≠ 0) : IsReal (Ideal.div x (y : EReal)) := by
  obtain ⟨a, rfl⟩ := hx; exact ⟨a / y, div_coe_coe a y hy⟩

theorem div' {x y : EReal} (hx : IsReal x) (hy : IsReal y) (hy0 : y ≠ 0) : IsReal (Ideal.div x y) := by
  obtain ⟨b, rfl⟩ := hy
  exact div hx fun hb => hy0 (by rw [hb]; rfl)

theorem exp {x : EReal} (hx : IsReal x) : IsReal (Ideal.exp x) := by
  obtain ⟨a, rfl⟩ := hx; exact ⟨Real.exp a, Ideal.exp_coe a⟩

theorem logistic {x : EReal} (hx : IsReal x) : IsReal (Ideal.logistic x) := by
  obtain ⟨a, rfl⟩ := hx; exact ⟨(1 + Real.exp (-a))⁻¹, Ideal.logistic_coe a⟩

theorem max {x y : EReal} (hx : IsReal x) (hy : IsReal y) : IsReal (max x y) := by
  obtain ⟨a, rfl⟩ := hx; obtain ⟨b, rfl⟩ := hy; exact ⟨Max.max a b, max_coe a b⟩

end IsReal

theorem isReal_ofBits_one : IsReal (Ideal.ofBits .f32 0x3F800000#32) := ⟨1, ofBits_one⟩

theorem isReal_ofBits_zero : IsReal (Ideal.ofBits .f32 0x00000000#32) := ⟨0, ofBits_zero⟩

-- Over the reals, E[(x - E x)^2] = E[x^2] - (E x)^2.
theorem real_variance {ι : Type*} [Fintype ι] (f : ι → ℝ) (n : ℝ) (hn : n = (Fintype.card ι : ℝ)) (hn0 : n ≠ 0) :
    (∑ i, (f i - (∑ j, f j) / n) * (f i - (∑ j, f j) / n)) / n
      = (∑ i, f i * f i) / n - ((∑ j, f j) / n) * ((∑ j, f j) / n) := by
  have hexp : ∀ m : ℝ, ∑ i, (f i - m) * (f i - m) = ∑ i, f i * f i - 2 * m * ∑ i, f i + n * (m * m) := by
    intro m
    have : ∀ i, (f i - m) * (f i - m) = f i * f i - 2 * m * f i + m * m := fun i => by ring
    simp only [this, Finset.sum_add_distrib, Finset.sum_sub_distrib, ← Finset.mul_sum, Finset.sum_const,
      Finset.card_univ, nsmul_eq_mul, ← hn]
    ring
  rw [hexp]
  field_simp
  ring

-- Both sides are the population variance of the reals, which is nonnegative, so the clamp at 0 does nothing.
theorem variance_identity {ι : Type*} [Fintype ι] [Nonempty ι] (h : ι → EReal) (hh : ∀ i, IsReal (h i)) (N : EReal)
    (hN : N = ((Fintype.card ι : ℝ) : EReal)) :
    max (Ideal.div (∑ i, h i * h i) N - Ideal.div (∑ i, h i) N * Ideal.div (∑ i, h i) N) 0
      = Ideal.div (∑ i, (h i - Ideal.div (∑ i, h i) N) * (h i - Ideal.div (∑ i, h i) N)) N := by
  obtain ⟨f, rfl⟩ := IsReal.exists_fun hh
  subst hN
  have hc : (Fintype.card ι : ℝ) ≠ 0 := Nat.cast_ne_zero.2 Fintype.card_ne_zero
  simp only [← EReal.coe_mul, ← EReal.coe_sub, coe_sum, div_coe_coe _ _ hc]
  rw [← EReal.coe_zero, max_coe, ← real_variance f _ rfl hc,
    max_eq_left (div_nonneg (Finset.sum_nonneg fun i _ => mul_self_nonneg _) (Nat.cast_nonneg _))]

theorem ofBits_800000_card :
    Ideal.ofBits .f32 0x49435000#32 = ((Fintype.card (Fin 800000) : ℝ) : EReal) := by
  rw [ofBits_800000, Fintype.card_fin]; norm_num

theorem ofBits_50000_card :
    Ideal.ofBits .f32 0x47435000#32 = ((Fintype.card (Fin 50000) : ℝ) : EReal) := by
  rw [ofBits_50000, Fintype.card_fin]; norm_num

theorem blockRow_lt {B R : ℕ} (b : Fin B) (q : Fin R) : (b : ℕ) * R + (q : ℕ) < B * R := by
  calc (b : ℕ) * R + (q : ℕ) < (b : ℕ) * R + R := Nat.add_lt_add_left q.isLt _
    _ = ((b : ℕ) + 1) * R := (Nat.succ_mul _ _).symm
    _ ≤ B * R := Nat.mul_le_mul_right R b.isLt

-- A sum over B * R rows is the sum over the blocks of the sums over a block's rows.
theorem sum_blocks_of_eq {M : Type*} [AddCommMonoid M] {n : ℕ} (B R : ℕ) (hn : n = B * R) (f : Fin n → M) :
    ∑ r : Fin n, f r = ∑ b : Fin B, ∑ q : Fin R, f ⟨(b : ℕ) * R + (q : ℕ), hn ▸ blockRow_lt b q⟩ := by
  subst hn
  rw [← (finProdFinEquiv (m := B) (n := R)).sum_comp, Fintype.sum_prod_type]
  refine Finset.sum_congr rfl fun b _ => Finset.sum_congr rfl fun q _ => ?_
  congr 1
  apply Fin.ext
  simp only [finProdFinEquiv_apply_val]
  rw [Nat.add_comm, Nat.mul_comm]

theorem sum_192_thirds {M : Type*} [AddCommMonoid M] (g : Fin 192 → M) :
    ∑ k : Fin 192, g k
      = ∑ k : Fin 64, g ⟨(k : ℕ), by omega⟩ + ∑ k : Fin 64, g ⟨64 + (k : ℕ), by omega⟩
        + ∑ k : Fin 64, g ⟨128 + (k : ℕ), by omega⟩ := by
  rw [Fin.sum_univ_add (a := 64 + 64) (b := 64) g,
    Fin.sum_univ_add (a := 64) (b := 64) fun i : Fin (64 + 64) => g (Fin.castAdd 64 i)]
  rfl

end Cert.KernelIdeal.Val

end
-- ==== Proof.Ref.Real.lean ====
import proofs.«428159_j48533130445226_3_alg».proof.Proof.Ref.Stages
import proofs.«428159_j48533130445226_3_alg».proof.Proof.Val.BNMath
import proofs.«428159_j48533130445226_3_alg».proof.Proof.Val.Consts

-- Real argument arrays make every entry of the rows that enter the two batch norms a real number.

noncomputable section

namespace Cert.ReferenceIdeal.Hand

open Cert.ReferenceIdeal Cert.ReferenceIdeal.Gen Idealize.ShloMosaic Idealize.SL.Sem
open Cert.KernelIdeal.Val

def AllReal {s : Shape} (a : FVec Ideal s .f32) : Prop := ∀ i, IsReal (a i)

section Ops
variable {s : Shape} {a b : FVec Ideal s .f32} (ha : AllReal a) (hb : AllReal b)
include ha hb

theorem allReal_addf : AllReal (addf a b) := fun i => (ha i).add (hb i)

theorem allReal_mulf : AllReal (mulf a b) := fun i => (ha i).mul (hb i)

theorem allReal_maximumf : AllReal (maximumf a b) := fun i => (ha i).max (hb i)

theorem allReal_divf (hb0 : ∀ i, b i ≠ 0) : AllReal (Host.divf a b) := fun i => (ha i).div' (hb i) (hb0 i)

end Ops

-- A broadcast, a transpose, a gather and a concatenation each read an entry of an operand.
theorem allReal_broadcastInDim {s t : Shape} {dims : Fin s.rank → Fin t.rank} (h : s.BroadcastsInDim t dims)
    {a : FVec Ideal s .f32} (ha : AllReal a) : AllReal (broadcastInDim t dims h a) :=
  fun j => ha _

theorem allReal_transpose {s t : Shape} {perm : List (Fin s.rank)} (h : s.Transposes perm t)
    {a : FVec Ideal s .f32} (ha : AllReal a) : AllReal (transpose t perm a h) :=
  fun j => ha _

theorem allReal_gather {s si t : Shape} {w : Nat} (d : GatherDims s si t) {a : FVec Ideal s .f32} (ha : AllReal a)
    (idx : IVec si w) : AllReal (Host.gather d a idx) :=
  fun j => ha _

theorem allReal_concatenate {t : Shape} (a : Fin t.rank) (xs : List ((s : Shape) × (FVec Ideal s .f32)))
    (h : Shape.Concatenates (xs.map (·.1)) t a) (hx : ∀ p ∈ xs, AllReal p.2) : AllReal (concatenate t a xs h) := by
  intro j
  unfold _root_.Idealize.ShloMosaic.concatenate
  exact hx _ (List.getElem_mem _) _

theorem allReal_concatenate3 {t s₁ s₂ s₃ : Shape} (a : Fin t.rank) {x₁ : FVec Ideal s₁ .f32} {x₂ : FVec Ideal s₂ .f32}
    {x₃ : FVec Ideal s₃ .f32} (h : Shape.Concatenates (([⟨s₁, x₁⟩, ⟨s₂, x₂⟩, ⟨s₃, x₃⟩] : List ((s : Shape) × (FVec Ideal s .f32))).map (·.1)) t a)
    (h₁ : AllReal x₁) (h₂ : AllReal x₂) (h₃ : AllReal x₃) :
    AllReal (concatenate t a [⟨s₁, x₁⟩, ⟨s₂, x₂⟩, ⟨s₃, x₃⟩] h) := by
  refine allReal_concatenate a _ h fun p hp => ?_
  simp only [List.mem_cons, List.not_mem_nil, or_false] at hp
  rcases hp with rfl | rfl | rfl
  exacts [h₁, h₂, h₃]

-- A matrix product is, at each entry, a finite sum of products of entries.
theorem allReal_dotGeneral {sl sr so : Shape} (d : DotDims sl sr so) {a : FVec Ideal sl .f32} {b : FVec Ideal sr .f32}
    (ha : AllReal a) (hb : AllReal b) : AllReal (Host.dotGeneral d none a b) := by
  intro j
  rw [Host.dotGeneral, Ideal.dotGeneral_apply]
  exact IsReal.sum_univ fun k => (ha _).mul (hb _)

-- Scatter-add at an entry: what was there plus finitely many of the updates.
theorem allReal_scatterAdd {s si u : Shape} {w : Nat} (d : ScatterDims s si u) {x : FVec Ideal s .f32}
    {upd : FVec Ideal u .f32} (hx : AllReal x) (idx : IVec si w) (hu : AllReal upd) :
    AllReal (Host.scatterAdd d x idx upd) :=
  fun i => (hx i).add (IsReal.sum _ fun j _ => hu j)

theorem allReal_one (s : Shape) : AllReal (constant (F := Ideal) s .f32 0x3F800000#32) := fun _ => isReal_ofBits_one

theorem allReal_zero (s : Shape) : AllReal (constant (F := Ideal) s .f32 0x00000000#32) := fun _ => isReal_ofBits_zero

-- One over one plus the exponential of the negation is the logistic function of each entry.
theorem allReal_gate {s : Shape} (hb : S_.BroadcastsInDim s ![]) {z : FVec Ideal s .f32} (hz : AllReal z) :
    AllReal (Host.divf (broadcastInDim s ![] hb (constant S_ .f32 0x3F800000#32))
      (addf (broadcastInDim s ![] hb (constant S_ .f32 0x3F800000#32)) (Host.exp (Host.negf z)))) := by
  intro i
  show IsReal (Ideal.div (Ideal.ofBits .f32 0x3F800000#32) (Ideal.ofBits .f32 0x3F800000#32 + Ideal.exp (-(z i))))
  rw [ofBits_one']
  exact IsReal.logistic (hz i)

theorem allReal_nodeLinear {x : FVec Ideal S50000x64 .f32} {W : FVec Ideal S64x64 .f32} {b : FVec Ideal S64 .f32}
    (hx : AllReal x) (hW : AllReal W) (hb : AllReal b) : AllReal (nodeLinear x W b) :=
  allReal_addf (allReal_dotGeneral _ hx (allReal_transpose _ hW)) (allReal_broadcastInDim _ (allReal_broadcastInDim _ hb))

theorem allReal_edgeLinear {e : FVec Ideal S800000x64 .f32} {W : FVec Ideal S64x64 .f32} {b : FVec Ideal S64 .f32}
    (he : AllReal e) (hW : AllReal W) (hb : AllReal b) : AllReal (edgeLinear e W b) :=
  allReal_addf (allReal_dotGeneral _ he (allReal_transpose _ hW)) (allReal_broadcastInDim _ (allReal_broadcastInDim _ hb))

-- The divisor of a node's row: its in-degree, or one where that is smaller.
def degRows (idx : IVec S2x800000 32) : FVec Ideal S50000x64 .f32 :=
  broadcastInDim S50000x64 ![0, 1] bcast_S50000x1_S50000x64_0_1 (broadcastInDim S50000x1 ![0] bcast_S50000_S50000x1_0
    (maximumf (broadcastInDim S50000 ![] bcast_S_S50000 (id (constant S_ .f32 0x3F800000#32))) (refDeg (F := Ideal) idx)))

-- The in-degree is zero plus a finite sum of ones.
theorem allReal_degRows (idx : IVec S2x800000 32) : AllReal (degRows idx) :=
  allReal_broadcastInDim _ (allReal_broadcastInDim _
    (allReal_maximumf (allReal_broadcastInDim _ (allReal_one _)) (allReal_scatterAdd _ (allReal_broadcastInDim _ (allReal_zero _)) _ (allReal_broadcastInDim _ (allReal_one _)))))

-- Being at least one, the divisor is not zero.
theorem maximumf_one_ne_zero {s : Shape} (hb : S_.BroadcastsInDim s ![]) (y : FVec Ideal s .f32) (i : s.Idx) :
    maximumf (broadcastInDim s ![] hb (id (constant S_ .f32 0x3F800000#32))) y i ≠ 0 := by
  refine ne_of_gt ?_
  show (0 : EReal) < max (Ideal.ofBits .f32 0x3F800000#32) (y i)
  rw [ofBits_one']
  exact lt_max_of_lt_left zero_lt_one

theorem degRows_ne_zero (idx : IVec S2x800000 32) (i : S50000x64.Idx) : degRows idx i ≠ 0 :=
  maximumf_one_ne_zero _ _ _

section Stages

variable {x : FVec Ideal S50000x64 .f32} (idx : IVec S2x800000 32) {ea : FVec Ideal S800000x64 .f32}
  {WA : FVec Ideal S64x64 .f32} {bA : FVec Ideal S64 .f32} {WB : FVec Ideal S64x64 .f32} {bB : FVec Ideal S64 .f32}
  {WD : FVec Ideal S64x64 .f32} {bD : FVec Ideal S64 .f32} {WE : FVec Ideal S64x64 .f32} {bE : FVec Ideal S64 .f32}
  {WC : FVec Ideal S64x64 .f32} {bC : FVec Ideal S64 .f32} {W1 : FVec Ideal S64x192 .f32} {b1 : FVec Ideal S64 .f32}
  {W2 : FVec Ideal S64x64 .f32} {b2 : FVec Ideal S64 .f32} {gn bn ge be : FVec Ideal S64 .f32}

set_option hygiene false in
local notation:max "⟪" f "⟫" => f x idx ea WA bA WB bB WD bD WE bE WC bC W1 b1 W2 b2 gn bn ge be

variable (hx : ∀ i, IsReal (x i)) (hea : ∀ i, IsReal (ea i))
  (hWA : ∀ i, IsReal (WA i)) (hbA : ∀ i, IsReal (bA i)) (hWB : ∀ i, IsReal (WB i)) (hbB : ∀ i, IsReal (bB i))
  (hWD : ∀ i, IsReal (WD i)) (hbD : ∀ i, IsReal (bD i)) (hWE : ∀ i, IsReal (WE i)) (hbE : ∀ i, IsReal (bE i))
  (hWC : ∀ i, IsReal (WC i)) (hbC : ∀ i, IsReal (bC i)) (hW1 : ∀ i, IsReal (W1 i)) (hb1 : ∀ i, IsReal (b1 i))
  (hW2 : ∀ i, IsReal (W2 i)) (hb2 : ∀ i, IsReal (b2 i))

include hx hea hWA hbA hWB hbB hWD hbD hWE hbE hWC hbC hW1 hb1 hW2 hb2

-- Stage by stage: linear maps, gathers, the gate, a concatenation, a maximum with zero, and a sum over a divisor that is at least one.
theorem isReal_refPre_refHpre : (∀ i, IsReal (⟪refPre⟫ i)) ∧ ∀ i, IsReal (⟪refHpre⟫ i) :=
  have hAx : AllReal ⟪refAx⟫ := allReal_nodeLinear hx hWA hbA
  have hBx : AllReal ⟪refBx⟫ := allReal_nodeLinear hx hWB hbB
  have hDx : AllReal ⟪refDx⟫ := allReal_nodeLinear hx hWD hbD
  have hEx : AllReal ⟪refEx⟫ := allReal_nodeLinear hx hWE hbE
  have hCe : AllReal ⟪refCe⟫ := allReal_edgeLinear hea hWC hbC
  have hDd : AllReal ⟪refDd⟫ := allReal_gather _ hDx _
  have hEs : AllReal ⟪refEs⟫ := allReal_gather _ hEx _
  have hBxs : AllReal ⟪refBxs⟫ := allReal_gather _ hBx _
  have hSigma : AllReal ⟪refSigma⟫ := allReal_gate _ (allReal_addf (allReal_addf hCe hDd) hEs)
  have hCat : AllReal ⟪refCat⟫ := allReal_concatenate3 _ _ hDd hEs hCe
  have hLin1 : AllReal ⟪refLin1⟫ := allReal_dotGeneral _ hCat (allReal_transpose _ hW1)
  have hMsg : AllReal ⟪refMsg⟫ := allReal_mulf hSigma hBxs
  have hAgg : AllReal ⟪refAgg⟫ :=
    allReal_divf (allReal_scatterAdd _ (allReal_broadcastInDim _ (allReal_zero _)) _ hMsg) (allReal_degRows idx) (degRows_ne_zero idx)
  ⟨allReal_edgeLinear (allReal_maximumf (allReal_addf hLin1 (allReal_broadcastInDim _ (allReal_broadcastInDim _ hb1)))
    (allReal_broadcastInDim _ (allReal_zero _))) hW2 hb2, allReal_addf hAx hAgg⟩

theorem isReal_refPre : ∀ i, IsReal (⟪refPre⟫ i) :=
  (isReal_refPre_refHpre idx hx hea hWA hbA hWB hbB hWD hbD hWE hbE hWC hbC hW1 hb1 hW2 hb2).1

theorem isReal_refHpre : ∀ i, IsReal (⟪refHpre⟫ i) :=
  (isReal_refPre_refHpre idx hx hea hWA hbA hWB hbB hWD hbD hWE hbE hWC hbC hW1 hb1 hW2 hb2).2

end Stages

end Cert.ReferenceIdeal.Hand

end
-- ==== Proof.Val.PreFacts.lean ====
-- A conjunction of reductions by `and` that is 1 has every tested entry pass: each float entry is a real, each index word lies in [-50000, 50000).
import proofs.«428159_j48533130445226_3_alg».proof.Pre_finite_inputs
import proofs.«428159_j48533130445226_3_alg».proof.Proof.Gen.Pre_finite_inputs
import Idealize.ShloMosaic.PureOps.Ideal
import Idealize.ShloMosaic.PureOps.IdealRules
import Idealize.ShloMosaic.Lib.ReduceAll
import Idealize.ShloMosaic.Lib.ValueIdx

noncomputable section

namespace Cert.KernelIdeal.Val

open Idealize.ShloMosaic Cert.Pre_finite_inputs

instance : Subsingleton S_.Idx := ⟨fun a b => funext fun d => d.elim0⟩

theorem inf_pattern : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem real_of_finite (x : Ideal .f32)
    (h : FloatOps.cmpf (F := Ideal) .olt (FloatOps.hostAbsf x) (Ideal.ofBits .f32 0x7F800000#32) = 1#1) :
    ∃ r : ℝ, x = (r : EReal) := by
  rw [inf_pattern] at h
  have h2 : BitVec.ofBool (decide (max x (-x) < (⊤ : EReal))) = 1#1 := h
  refine real_of_abs_lt_top x ?_
  cases hd : decide (max x (-x) < (⊤ : EReal)) with
  | true => exact of_decide_eq_true hd
  | false => rw [hd] at h2; exact absurd h2 (by decide)

theorem andi_at {s : Shape} (x y : IVec s 1) (i : s.Idx) : andi x y i = IntOp.andi (x i) (y i) := rfl

theorem real_of_all {s : Shape} {axes : List (Fin s.rank)} {x : FVec Ideal s .f32}
    {hb : S_.BroadcastsInDim s (![] : Fin 0 → Fin s.rank)} {hr : s.ReducesTo axes S_} {hu : 0 < S_.numel}
    (e : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) :=
  real_of_finite (x i) (Host.reduce_andi_all _ _ hr hu _ e i)

theorem range_of_all {s : Shape} {axes : List (Fin s.rank)} {a : IVec s 32}
    {hb : S_.BroadcastsInDim s (![] : Fin 0 → Fin s.rank)} {hr : s.ReducesTo axes S_} {hu : 0 < S_.numel}
    (e1 : Host.reduce IntOp.andi (cmpi .sge a (broadcastInDim s ![] hb (constantI S_ 32 4294917296#32)))
      (constantI S_ 1 1#1) hr hu ValueIdx.ix0 = 1#1)
    (e2 : Host.reduce IntOp.andi (cmpi .slt a (broadcastInDim s ![] hb (constantI S_ 32 50000#32)))
      (constantI S_ 1 1#1) hr hu ValueIdx.ix0 = 1#1) (i : s.Idx) :
    -(50000 : ℤ) ≤ (a i).toInt ∧ (a i).toInt < 50000 := by
  have h1 : IntOp.cmpi .sge (a i) 4294917296#32 = 1#1 := Host.reduce_andi_all _ _ hr hu _ e1 i
  have h2 : IntOp.cmpi .slt (a i) 50000#32 = 1#1 := Host.reduce_andi_all _ _ hr hu _ e2 i
  have c1 : (4294917296#32 : BitVec 32).toInt = -50000 := by decide
  have c2 : (50000#32 : BitVec 32).toInt = 50000 := by decide
  have g1 := IntOp.cmpi_sge.mp h1
  have g2 := IntOp.cmpi_slt.mp h2
  rw [c1] at g1; rw [c2] at g2
  exact ⟨g1, g2⟩

variable (a0 : FVec Ideal S50000x64 .f32) (a1 : IVec S2x800000 32) (a2 : FVec Ideal S800000x64 .f32)
    (a3 : FVec Ideal S64x64 .f32) (a4 : FVec Ideal S64 .f32) (a5 : FVec Ideal S64x64 .f32) (a6 : FVec Ideal S64 .f32)
    (a7 : FVec Ideal S64x64 .f32) (a8 : FVec Ideal S64 .f32) (a9 : FVec Ideal S64x64 .f32) (a10 : FVec Ideal S64 .f32)
    (a11 : FVec Ideal S64x64 .f32) (a12 : FVec Ideal S64 .f32) (a13 : FVec Ideal S64x192 .f32) (a14 : FVec Ideal S64 .f32)
    (a15 : FVec Ideal S64x64 .f32) (a16 : FVec Ideal S64 .f32) (a17 : FVec Ideal S64 .f32) (a18 : FVec Ideal S64 .f32)
    (a19 : FVec Ideal S64 .f32) (a20 : FVec Ideal S64 .f32)

structure FiniteArgs : Prop where
  r0 : ∀ i, ∃ r : ℝ, a0 i = (r : EReal)
  r2 : ∀ i, ∃ r : ℝ, a2 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  r13 : ∀ i, ∃ r : ℝ, a13 i = (r : EReal)
  r14 : ∀ i, ∃ r : ℝ, a14 i = (r : EReal)
  r15 : ∀ i, ∃ r : ℝ, a15 i = (r : EReal)
  r16 : ∀ i, ∃ r : ℝ, a16 i = (r : EReal)
  r17 : ∀ i, ∃ r : ℝ, a17 i = (r : EReal)
  r18 : ∀ i, ∃ r : ℝ, a18 i = (r : EReal)
  r19 : ∀ i, ∃ r : ℝ, a19 i = (r : EReal)
  r20 : ∀ i, ∃ r : ℝ, a20 i = (r : EReal)
  idx : ∀ i, -(50000 : ℤ) ≤ (a1 i).toInt ∧ (a1 i).toInt < 50000

theorem finiteArgs_of_pre
    (h : fn (F := Ideal) a0 a1 a2 a3 a4 a5 a6 a7 a8 a9 a10 a11 a12 a13 a14 a15 a16 a17 a18 a19 a20 = fun _ => 1#1) :
    FiniteArgs a0 a1 a2 a3 a4 a5 a6 a7 a8 a9 a10 a11 a12 a13 a14 a15 a16 a17 a18 a19 a20 := by
  have e := congrFun h ValueIdx.ix0
  dsimp only [fn, fn_part1, fn_part2, fn_part3, fn_part4, fn_part5, fn_part6] at e
  simp only [andi_at, IntOp.andi_eq_one] at e
  obtain ⟨⟨⟨⟨⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩, e19⟩, e20⟩, eg⟩, el⟩ := e
  exact ⟨real_of_all e0, real_of_all e2, real_of_all e3, real_of_all e4,
    real_of_all e5, real_of_all e6, real_of_all e7, real_of_all e8,
    real_of_all e9, real_of_all e10, real_of_all e11, real_of_all e12,
    real_of_all e13, real_of_all e14, real_of_all e15, real_of_all e16,
    real_of_all e17, real_of_all e18, real_of_all e19, real_of_all e20,
    range_of_all eg el⟩

end Cert.KernelIdeal.Val
end
-- ==== Proof.Val.Args.lean ====
-- The twenty-one argument arrays under names, and a function of them read at those arrays.
import proofs.«428159_j48533130445226_3_alg».proof.Proof.Gen.KernelIdeal
import proofs.«428159_j48533130445226_3_alg».proof.Proof.Ref.Stages
import Idealize.ShloMosaic.PureOps.Ideal

noncomputable section

namespace Cert.KernelIdeal.Val

open Idealize.ShloMosaic Idealize.SL.Sem Cert.KernelIdeal

variable (m : (ℓ : Loc nD τ sig) → Buf (Elt Ideal) ℓ) (c : Dev nD)

abbrev argX : FVec Ideal S50000x64 .f32 := m ((c.tc : Thread nD τ).loc main_arg0)
abbrev argIdx : IVec S2x800000 32 := m ((c.tc : Thread nD τ).loc main_arg1)
abbrev argEa : FVec Ideal S800000x64 .f32 := m ((c.tc : Thread nD τ).loc main_arg2)
abbrev argWA : FVec Ideal S64x64 .f32 := m ((c.tc : Thread nD τ).loc main_arg3)
abbrev argBA : FVec Ideal S64 .f32 := m ((c.tc : Thread nD τ).loc main_arg4)
abbrev argWB : FVec Ideal S64x64 .f32 := m ((c.tc : Thread nD τ).loc main_arg5)
abbrev argBB : FVec Ideal S64 .f32 := m ((c.tc : Thread nD τ).loc main_arg6)
abbrev argWD : FVec Ideal S64x64 .f32 := m ((c.tc : Thread nD τ).loc main_arg7)
abbrev argBD : FVec Ideal S64 .f32 := m ((c.tc : Thread nD τ).loc main_arg8)
abbrev argWE : FVec Ideal S64x64 .f32 := m ((c.tc : Thread nD τ).loc main_arg9)
abbrev argBE : FVec Ideal S64 .f32 := m ((c.tc : Thread nD τ).loc main_arg10)
abbrev argWC : FVec Ideal S64x64 .f32 := m ((c.tc : Thread nD τ).loc main_arg11)
abbrev argBC : FVec Ideal S64 .f32 := m ((c.tc : Thread nD τ).loc main_arg12)
abbrev argW1 : FVec Ideal S64x192 .f32 := m ((c.tc : Thread nD τ).loc main_arg13)
abbrev argB1 : FVec Ideal S64 .f32 := m ((c.tc : Thread nD τ).loc main_arg14)
abbrev argW2 : FVec Ideal S64x64 .f32 := m ((c.tc : Thread nD τ).loc main_arg15)
abbrev argB2 : FVec Ideal S64 .f32 := m ((c.tc : Thread nD τ).loc main_arg16)
abbrev argGn : FVec Ideal S64 .f32 := m ((c.tc : Thread nD τ).loc main_arg17)
abbrev argBn : FVec Ideal S64 .f32 := m ((c.tc : Thread nD τ).loc main_arg18)
abbrev argGe : FVec Ideal S64 .f32 := m ((c.tc : Thread nD τ).loc main_arg19)
abbrev argBe : FVec Ideal S64 .f32 := m ((c.tc : Thread nD τ).loc main_arg20)

abbrev atArgs {α : Type} (f : Cert.ReferenceIdeal.Hand.Stage Ideal α) : α :=
  f (argX m c) (argIdx m c) (argEa m c) (argWA m c) (argBA m c) (argWB m c) (argBB m c) (argWD m c) (argBD m c) (argWE m c) (argBE m c) (argWC m c) (argBC m c) (argW1 m c) (argB1 m c) (argW2 m c) (argB2 m c) (argGn m c) (argBn m c) (argGe m c) (argBe m c)

end Cert.KernelIdeal.Val

end
-- ==== Proof.Val.Reg0Val.lean ====
/- After region 0 entry (r, q) of the output array is the sum over the 64 feature coordinates k of features(r, k) · weight(q, k), plus bias(q). -/
import proofs.«428159_j48533130445226_3_alg».proof.Proof.HKernelIdeal.Reg0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open scoped BigOperators

variable (V : (c : Dev nD) → (b : Ref sig .tc) → Buf (Elt Ideal) ((c : Thread nD τ).loc b))

abbrev feat0 (c : Dev nD) : Vec Ideal S50000x64 .f32 := V c (Pipeline.arrRef spec0 0)

abbrev wts0 (c : Dev nD) : Vec Ideal S256x64 .f32 := V c (Pipeline.arrRef spec0 1)

abbrev bias0 (c : Dev nD) : Vec Ideal S256 .f32 := V c (Pipeline.arrRef spec0 2)

abbrev D0 : DotDims S5000x64 S64x256 S5000x256 := dot_S5000x64_S64x256_S5000x256_1_0_0_1_n_n

theorem pay0_apply (x : Vec Ideal S5000x64 .f32) (wt : Vec Ideal S256x64 .f32) (b : Vec Ideal S256 .f32) (p : Fin 5000) (q : Fin 256) :
    k0_pay1 (F := Ideal) x wt b (ix2 p q) = (∑ k : Fin 64, x (ix2 p k) * wt (ix2 q k)) + b (ix1 q) := by
  unfold k0_pay1
  dsimp only
  rw [addf_apply]
  simp only [matmul]
  rw [Ideal.matmul_constant_zero_apply, broadcastTo_1b_ab_apply, shapeCast_a_1a_apply,
    ← Equiv.sum_comp (contrEquiv1 D0 64 rfl rfl).symm]
  simp only [shapeCast_self]
  congr 1
  refine Finset.sum_congr rfl fun k _ => ?_
  have ck := contrEquiv1_symm_val D0 64 rfl rfl k
  have hl : D0.lhsIdx (ix2 p q) ((contrEquiv1 D0 64 rfl rfl).symm k) = ix2 p k := by
    funext ax; apply Fin.ext
    match ax with
    | ⟨0, _⟩ => simp [DotDims.lhsIdx, D0, dot_S5000x64_S64x256_S5000x256_1_0_0_1_n_n]; rfl
    | ⟨1, _⟩ => simp [DotDims.lhsIdx, D0, dot_S5000x64_S64x256_S5000x256_1_0_0_1_n_n]; exact ck
  have hr : D0.rhsIdx (ix2 p q) ((contrEquiv1 D0 64 rfl rfl).symm k) = ix2 k q := by
    funext ax; apply Fin.ext
    match ax with
    | ⟨0, _⟩ => simp [DotDims.rhsIdx, D0, dot_S5000x64_S64x256_S5000x256_1_0_0_1_n_n]; exact ck
    | ⟨1, _⟩ => simp [DotDims.rhsIdx, D0, dot_S5000x64_S64x256_S5000x256_1_0_0_1_n_n]; rfl
  rw [hl, hr, truncf_apply, transpose_ix2_apply, truncf_apply]

private theorem hz2 : (![0, 0] : Fin 2 → Nat) = fun _ => 0 := funext fun a => by fin_cases a <;> rfl
private theorem hz1 : (![0] : Fin 1 → Nat) = fun _ => 0 := funext fun a => by fin_cases a; rfl

theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

theorem cover0_3_arr (i : S50000x256.Idx) :
    ∃ t : Fin cfg0.N, (cfg0.win 3).flush t = true ∧ i ∈ ((cfg0.win 3).blk t).view.set := by
  have h0 : (i 0).val < 50000 := (i 0).isLt
  have h1 : (i 1).val < 256 := (i 1).isLt
  obtain ⟨t, ht⟩ : ∃ t : Fin cfg0.N, t.val = (i 0).val / 5000 :=
    ⟨⟨(i 0).val / 5000, by rw [show cfg0.N = 10 from N_0]; omega⟩, rfl⟩
  obtain ⟨e0, e1, e2, e3, e4, e5, e6⟩ := idx_facts0 t
  refine ⟨t, flush0_3 t, ?_⟩
  show i ∈ ((View.whole main_v6).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

-- The blocks tile the array, and what point t writes back is block t of that function of the three input arrays.
theorem final0_3_apply (c : Dev nD) (r : Fin 50000) (q : Fin 256) :
    ((dat0 (F := Ideal) V c).arrAt 3 cfg0.N : Vec Ideal S50000x256 .f32) (ix2 r q)
      = (∑ k : Fin 64, feat0 V c (ix2 r k) * wts0 V c (ix2 q k)) + bias0 V c (ix1 q) := by
  refine congrFun ((dat0 (F := Ideal) V c).arrAt_eq_of_cover 3 (fun i => (∑ k : Fin 64, feat0 V c (ix2 (i 0) k) * wts0 V c (ix2 (i 1) k)) + bias0 V c (ix1 (i 1))) (fun t _ => ?_) cover0_3_arr) (ix2 r q)
  show (cfg0.win 3).cut (grid0.coords t) ((dat0 (F := Ideal) V c).after 3 t) = _
  rw [after0_3]
  unfold out0_3
  rw [View.canon_unit_zero hz2]
  simp only [View.ld_unit_zero (S := S5000x64) hz2, View.ld_unit_zero (S := S256x64) hz2, View.ld_unit_zero (S := S256) hz1]
  obtain ⟨e0, e1, e2, e3, e4, e5, e6⟩ := idx_facts0 t
  funext j
  obtain ⟨p, s, rfl⟩ : ∃ (p : Fin 5000) (s : Fin 256), j = ix2 p s := ⟨j 0, j 1, eq_ix2 j⟩
  refine (pay0_apply _ _ _ p s).trans ?_
  refine congrArg₂ (· + ·) (Finset.sum_congr rfl fun k _ => congrArg₂ (· * ·) (congrArg (feat0 V c) ?_) (congrArg (wts0 V c) ?_)) (congrArg (bias0 V c) ?_)
    <;> funext a <;> apply Fin.ext
  · match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  · match a with
    | ⟨0, _⟩ => show win0_1.index t (0 : Fin 2) * 256 + 1 * s.val = win0_3.index t (1 : Fin 2) * 256 + 1 * s.val; omega
    | ⟨1, _⟩ => show win0_1.index t (1 : Fin 2) * 64 + 1 * k.val = k.val; omega
  · match a with
    | ⟨0, _⟩ => show win0_2.index t (0 : Fin 1) * 256 + 1 * s.val = win0_3.index t (1 : Fin 2) * 256 + 1 * s.val; omega

end Cert.KernelIdeal.Val
-- ==== Proof.Val.HostA.lean ====
-- Each array computed before the third region, read at an index, is an entry of the arrays it is computed from.
import proofs.«428159_j48533130445226_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

set_option maxRecDepth 1296

noncomputable section

namespace Cert.KernelIdeal.Val

open Idealize.ShloMosaic Idealize.ShloMosaic.ValueIdx
open Cert.KernelIdeal Cert.KernelIdeal.Gen

variable (W : Valuation τ sig (Elt Ideal))

theorem hostOps0_main_v1 :
    (StableHlo.after hostOps0 W (Proc.devRef .tc main_v1))
      = shapeCast S800000 (extractStridedSlice S1x800000 ![0, 0]
          (W (Proc.devRef .tc main_arg1)) slices_S2x800000_S1x800000_0_0)
          shapeCasts_S1x800000_S800000 := by
  after_results; rfl

theorem hostOps0_main_v3 :
    (StableHlo.after hostOps0 W (Proc.devRef .tc main_v3))
      = shapeCast S800000 (extractStridedSlice S1x800000 ![1, 0]
          (W (Proc.devRef .tc main_arg1)) slices_S2x800000_S1x800000_1_0)
          shapeCasts_S1x800000_S800000 := by
  after_results; rfl

-- Off the stacking axis a piece's row and the stack's row have the same column.
theorem col_eq {n N m : Nat} (j : Fin n) (r : Fin N) (q : Fin m) (b : Fin 2) (hb : b ≠ 0) :
    (ix2 j q b).val = (ix2 r q b).val := by
  match b with
  | ⟨0, _⟩ => exact absurd rfl hb
  | ⟨1, _⟩ => rfl

theorem hostOps0_main_v4_apply_0 (j q : Fin 64) (r : Fin 256) (hr : r.val = j.val) :
    (StableHlo.after hostOps0 W (Proc.devRef .tc main_v4)) (ix2 r q)
      = (W (Proc.devRef .tc main_arg3)) (ix2 j q) := by
  after_results
  exact concatenate_apply_piece _ _ _ (ix2 r q) 0 (by show (0 : Nat) < 4; omega) S64x64 _ rfl rfl 0 rfl (ix2 j q)
    (fun b hb => col_eq j r q b hb) (by show 0 + j.val = r.val; omega)

theorem hostOps0_main_v4_apply_1 (j q : Fin 64) (r : Fin 256) (hr : r.val = 64 + j.val) :
    (StableHlo.after hostOps0 W (Proc.devRef .tc main_v4)) (ix2 r q)
      = (W (Proc.devRef .tc main_arg7)) (ix2 j q) := by
  after_results
  exact concatenate_apply_piece _ _ _ (ix2 r q) 1 (by show (1 : Nat) < 4; omega) S64x64 _ rfl rfl 64 rfl (ix2 j q)
    (fun b hb => col_eq j r q b hb) (by show 64 + j.val = r.val; omega)

theorem hostOps0_main_v4_apply_2 (j q : Fin 64) (r : Fin 256) (hr : r.val = 128 + j.val) :
    (StableHlo.after hostOps0 W (Proc.devRef .tc main_v4)) (ix2 r q)
      = (W (Proc.devRef .tc main_arg9)) (ix2 j q) := by
  after_results
  exact concatenate_apply_piece _ _ _ (ix2 r q) 2 (by show (2 : Nat) < 4; omega) S64x64 _ rfl rfl 128 rfl (ix2 j q)
    (fun b hb => col_eq j r q b hb) (by show 128 + j.val = r.val; omega)

theorem hostOps0_main_v4_apply_3 (j q : Fin 64) (r : Fin 256) (hr : r.val = 192 + j.val) :
    (StableHlo.after hostOps0 W (Proc.devRef .tc main_v4)) (ix2 r q)
      = (W (Proc.devRef .tc main_arg5)) (ix2 j q) := by
  after_results
  exact concatenate_apply_piece _ _ _ (ix2 r q) 3 (by show (3 : Nat) < 4; omega) S64x64 _ rfl rfl 192 rfl (ix2 j q)
    (fun b hb => col_eq j r q b hb) (by show 192 + j.val = r.val; omega)

theorem hostOps0_main_v5_apply_0 (j : Fin 64) (r : Fin 256) (hr : r.val = j.val) :
    (StableHlo.after hostOps0 W (Proc.devRef .tc main_v5)) (ix1 r)
      = (W (Proc.devRef .tc main_arg4)) (ix1 j) := by
  after_results
  exact concatenate_apply_piece _ _ _ (ix1 r) 0 (by show (0 : Nat) < 4; omega) S64 _ rfl rfl 0 rfl (ix1 j)
    (fun | ⟨0, _⟩, hb => absurd rfl hb) (by show 0 + j.val = r.val; omega)

theorem hostOps0_main_v5_apply_1 (j : Fin 64) (r : Fin 256) (hr : r.val = 64 + j.val) :
    (StableHlo.after hostOps0 W (Proc.devRef .tc main_v5)) (ix1 r)
      = (W (Proc.devRef .tc main_arg8)) (ix1 j) := by
  after_results
  exact concatenate_apply_piece _ _ _ (ix1 r) 1 (by show (1 : Nat) < 4; omega) S64 _ rfl rfl 64 rfl (ix1 j)
    (fun | ⟨0, _⟩, hb => absurd rfl hb) (by show 64 + j.val = r.val; omega)

theorem hostOps0_main_v5_apply_2 (j : Fin 64) (r : Fin 256) (hr : r.val = 128 + j.val) :
    (StableHlo.after hostOps0 W (Proc.devRef .tc main_v5)) (ix1 r)
      = (W (Proc.devRef .tc main_arg10)) (ix1 j) := by
  after_results
  exact concatenate_apply_piece _ _ _ (ix1 r) 2 (by show (2 : Nat) < 4; omega) S64 _ rfl rfl 128 rfl (ix1 j)
    (fun | ⟨0, _⟩, hb => absurd rfl hb) (by show 128 + j.val = r.val; omega)

theorem hostOps0_main_v5_apply_3 (j : Fin 64) (r : Fin 256) (hr : r.val = 192 + j.val) :
    (StableHlo.after hostOps0 W (Proc.devRef .tc main_v5)) (ix1 r)
      = (W (Proc.devRef .tc main_arg6)) (ix1 j) := by
  after_results
  exact concatenate_apply_piece _ _ _ (ix1 r) 3 (by show (3 : Nat) < 4; omega) S64 _ rfl rfl 192 rfl (ix1 j)
    (fun | ⟨0, _⟩, hb => absurd rfl hb) (by show 192 + j.val = r.val; omega)

theorem hostOps1_main_v7_apply (p : Fin 50000) (q : Fin 64) (k : Fin 256) (hk : k.val = q.val) :
    (StableHlo.after hostOps1 W (Proc.devRef .tc main_v7)) (ix2 p q)
      = (W (Proc.devRef .tc main_v6)) (ix2 p k) := by
  after_results
  exact slice2_axis1_apply 0 _ _ p q k (by omega)

theorem hostOps1_main_v8_apply (p : Fin 50000) (q : Fin 64) (k : Fin 256) (hk : k.val = 64 + q.val) :
    (StableHlo.after hostOps1 W (Proc.devRef .tc main_v8)) (ix2 p q)
      = (W (Proc.devRef .tc main_v6)) (ix2 p k) := by
  after_results
  exact slice2_axis1_apply 64 _ _ p q k hk

theorem hostOps1_main_v9_apply (p : Fin 50000) (q : Fin 128) (k : Fin 256) (hk : k.val = 128 + q.val) :
    (StableHlo.after hostOps1 W (Proc.devRef .tc main_v9)) (ix2 p q)
      = (W (Proc.devRef .tc main_v6)) (ix2 p k) := by
  after_results
  exact slice2_axis1_apply 128 _ _ p q k hk

theorem hostOps1_3_main_v12_apply (p q : Fin 64) (k : Fin 192) (hk : k.val = q.val) :
    (StableHlo.after hostOps1_3 W (Proc.devRef .tc main_v12)) (ix2 p q)
      = (W (Proc.devRef .tc main_arg13)) (ix2 p k) := by
  after_results
  exact slice2_axis1_apply 0 _ _ p q k (by omega)

theorem hostOps1_3_main_v13_apply (p q : Fin 64) (k : Fin 192) (hk : k.val = 64 + q.val) :
    (StableHlo.after hostOps1_3 W (Proc.devRef .tc main_v13)) (ix2 p q)
      = (W (Proc.devRef .tc main_arg13)) (ix2 p k) := by
  after_results
  exact slice2_axis1_apply 64 _ _ p q k hk

theorem hostOps1_3_main_v14_apply (p q : Fin 64) (k : Fin 192) (hk : k.val = 128 + q.val) :
    (StableHlo.after hostOps1_3 W (Proc.devRef .tc main_v14)) (ix2 p q)
      = (W (Proc.devRef .tc main_arg13)) (ix2 p k) := by
  after_results
  exact slice2_axis1_apply 128 _ _ p q k hk

theorem hostOps2_main_v19 :
    (StableHlo.after hostOps2 W (Proc.devRef .tc main_v19))
      = Host.divf (F := Ideal)
          (shapeCast S64 (extractStridedSlice S1x64 ![0, 0] (W (Proc.devRef .tc main_v15_2)) slices_S1x128_S1x64_0_0) shapeCasts_S1x64_S64)
          (broadcastInDim S64 ![] bcast_S_S64 (constant (F := Ideal) S_ .f32 0x49435000#32)) := by
  after_results; rfl

theorem hostOps2_main_v27 :
    (StableHlo.after hostOps2 W (Proc.devRef .tc main_v27))
      = maximumf (F := Ideal)
          (subf (F := Ideal)
            (Host.divf (F := Ideal)
              (shapeCast S64 (extractStridedSlice S1x64 ![0, 64] (W (Proc.devRef .tc main_v15_2)) slices_S1x128_S1x64_0_64) shapeCasts_S1x64_S64)
              (broadcastInDim S64 ![] bcast_S_S64 (constant (F := Ideal) S_ .f32 0x49435000#32)))
            (mulf (F := Ideal) (StableHlo.after hostOps2 W (Proc.devRef .tc main_v19)) (StableHlo.after hostOps2 W (Proc.devRef .tc main_v19))))
          (broadcastInDim S64 ![] bcast_S_S64 (constant (F := Ideal) S_ .f32 0x00000000#32)) := by
  rw [hostOps2_main_v19]; after_results; rfl

theorem bcast64_const_apply (b : BitVec 32) (i : S64.Idx) :
    broadcastInDim S64 ![] bcast_S_S64 (constant (F := Ideal) S_ .f32 b) i = Ideal.ofBits .f32 b := rfl

theorem hostOps2_main_v19_apply (j : Fin 64) (k : Fin 128) (hk : k.val = j.val) :
    (StableHlo.after hostOps2 W (Proc.devRef .tc main_v19)) (ix1 j)
      = Ideal.div ((W (Proc.devRef .tc main_v15_2)) (ix2 (0 : Fin 1) k)) (Ideal.ofBits .f32 0x49435000#32) := by
  rw [hostOps2_main_v19, hostDivf_apply, bcast64_const_apply, shapeCast_1a_a_apply,
    slice2_axis1_apply 0 _ _ (0 : Fin 1) j k (by omega)]

theorem hostOps2_main_v27_apply (j : Fin 64) (k0 k1 : Fin 128)
    (hk0 : k0.val = j.val) (hk1 : k1.val = 64 + j.val) :
    (StableHlo.after hostOps2 W (Proc.devRef .tc main_v27)) (ix1 j)
      = max (Ideal.div ((W (Proc.devRef .tc main_v15_2)) (ix2 (0 : Fin 1) k1)) (Ideal.ofBits .f32 0x49435000#32)
              - Ideal.div ((W (Proc.devRef .tc main_v15_2)) (ix2 (0 : Fin 1) k0)) (Ideal.ofBits .f32 0x49435000#32)
                * Ideal.div ((W (Proc.devRef .tc main_v15_2)) (ix2 (0 : Fin 1) k0)) (Ideal.ofBits .f32 0x49435000#32)) 0 := by
  rw [hostOps2_main_v27, maximumf_apply, subf_apply, mulf_apply, hostOps2_main_v19_apply W j k0 hk0, hostDivf_apply,
    bcast64_const_apply, bcast64_const_apply, shapeCast_1a_a_apply, slice2_axis1_apply 64 _ _ (0 : Fin 1) j k1 hk1,
    Ideal.ofBits_zero_f32]

-- Both entries sit at row-major position 128 r + 64 a + j.
theorem hostOps2_main_v28_apply (r : Fin 400000) (c : Fin 128) (a : Fin 2) (j : Fin 64)
    (k : Fin 800000) (hc : c.val = 64 * a.val + j.val) (hk : k.val = 2 * r.val + a.val) :
    (StableHlo.after hostOps2 W (Proc.devRef .tc main_v28)) (ix2 r c)
      = (W (Proc.devRef .tc main_v15_1)) (ix2 k j) := by
  after_results
  refine shapeCast_apply (s := S800000x64) (t := S400000x128) _ _ (ix2 r c) (ix2 k j) ?_
  rw [Shape.rowMajor_val_two, Shape.rowMajor_val_two]
  show k.val * 64 + j.val = r.val * 128 + c.val
  omega

-- A 64-vector laid twice end to end reads, at 64 a + j, its entry j.
theorem twice64_apply {α : Type} (x : S64.Idx → α) (a : Fin 2) (j : Fin 64) (c : Fin 128) (hc : c.val = 64 * a.val + j.val) :
    concatenate S128 0 [⟨S64, x⟩, ⟨S64, x⟩] concatenates_S64_S64_S128_d0 (ix1 c) = x (ix1 j) := by
  match a, hc with
  | ⟨0, _⟩, hc =>
    exact concatenate_pair_apply_left (t := S128) (s₁ := S64) (s₂ := S64) _ _ _ _ (ix1 c) rfl (ix1 j)
      (fun | ⟨0, _⟩ => by show j.val = c.val; simp at hc; omega)
  | ⟨1, _⟩, hc =>
    exact concatenate_pair_apply_right (t := S128) (s₁ := S64) (s₂ := S64) _ _ _ _ (ix1 c) rfl rfl (ix1 j)
      (fun | ⟨0, _⟩, hb => absurd rfl hb) (by show j.val + 64 = c.val; simp at hc; omega)

theorem hostOps2_main_v29_apply (a : Fin 2) (j : Fin 64) (c : Fin 128) (hc : c.val = 64 * a.val + j.val) :
    (StableHlo.after hostOps2 W (Proc.devRef .tc main_v29)) (ix1 c) = (StableHlo.after hostOps2 W (Proc.devRef .tc main_v19)) (ix1 j) := by
  after_results; exact twice64_apply _ a j c hc

theorem hostOps2_main_v30_apply (a : Fin 2) (j : Fin 64) (c : Fin 128) (hc : c.val = 64 * a.val + j.val) :
    (StableHlo.after hostOps2 W (Proc.devRef .tc main_v30)) (ix1 c) = (StableHlo.after hostOps2 W (Proc.devRef .tc main_v27)) (ix1 j) := by
  after_results; exact twice64_apply _ a j c hc

theorem hostOps2_main_v31_apply (a : Fin 2) (j : Fin 64) (c : Fin 128) (hc : c.val = 64 * a.val + j.val) :
    (StableHlo.after hostOps2 W (Proc.devRef .tc main_v31)) (ix1 c) = (W (Proc.devRef .tc main_arg19)) (ix1 j) := by
  after_results; exact twice64_apply _ a j c hc

theorem hostOps2_main_v32_apply (a : Fin 2) (j : Fin 64) (c : Fin 128) (hc : c.val = 64 * a.val + j.val) :
    (StableHlo.after hostOps2 W (Proc.devRef .tc main_v32)) (ix1 c) = (W (Proc.devRef .tc main_arg20)) (ix1 j) := by
  after_results; exact twice64_apply _ a j c hc

end Cert.KernelIdeal.Val

end
-- ==== Proof.Val.Chain0.lean ====
-- The projection region's result carried through the host stretches, and the launch arrays as later regions find them.
import proofs.«428159_j48533130445226_3_alg».proof.Proof.HKernelIdeal.Run
import proofs.«428159_j48533130445226_3_alg».proof.Proof.Val.Reg0Val
import proofs.«428159_j48533130445226_3_alg».proof.Proof.Val.HostA
import proofs.«428159_j48533130445226_3_alg».proof.Proof.Val.Args

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open scoped BigOperators

variable (m : (ℓ : Loc nD τ sig) → Buf (Elt Ideal) ℓ) (ρ : Dev nD → PrngReg) (c : Dev nD)

theorem feat0_V1 : feat0 (V1 m ρ) c = argX m c :=
  (W1_of m ρ c main_arg0 (by decide)).trans rfl

-- Column q of the projection: the features against row q of the stacked weight, plus entry q of the stacked bias.
theorem cat_apply (n : Fin 50000) (q : Fin 256) {w : Fin 64 → Ideal .f32} {b : Ideal .f32}
    (hw : ∀ k, wts0 (V1 m ρ) c (ix2 q k) = w k) (hb : bias0 (V1 m ρ) c (ix1 q) = b) :
    (W2 m ρ c (Proc.devRef .tc main_v6) : (⟨S50000x256, .f32⟩ : BufTy).Contents (Elt Ideal)) (ix2 n q)
      = (∑ k : Fin 64, argX m c (ix2 n k) * w k) + b := by
  refine (congrFun (W2_arr m ρ c 3) (ix2 n q)).trans ((final0_3_apply (V1 m ρ) c n q).trans ?_)
  rw [feat0_V1, hb]
  congr 1
  exact Finset.sum_congr rfl fun k _ => by rw [hw k]

-- The stack's order is A, D, E, B: 64 rows each; the host then slices columns 0-63, 64-127 and 128-255.
theorem v8_apply (n : Fin 50000) (j : Fin 64) :
    (W3 m ρ c (Proc.devRef .tc main_v8) : (⟨S50000x64, .f32⟩ : BufTy).Contents (Elt Ideal)) (ix2 n j)
      = (∑ k : Fin 64, argX m c (ix2 n k) * argWD m c (ix2 j k)) + argBD m c (ix1 j) :=
  (hostOps1_main_v8_apply (W2 m ρ c) n j ⟨64 + j.val, by omega⟩ rfl).trans
    (cat_apply m ρ c n _ (fun k => hostOps0_main_v4_apply_1 (W0 m ρ c) j k _ rfl)
      (hostOps0_main_v5_apply_1 (W0 m ρ c) j _ rfl))

theorem v9_apply_E (n : Fin 50000) (j : Fin 64) (q' : Fin 128) (hq' : q'.val = j.val) :
    (W3 m ρ c (Proc.devRef .tc main_v9) : (⟨S50000x128, .f32⟩ : BufTy).Contents (Elt Ideal)) (ix2 n q')
      = (∑ k : Fin 64, argX m c (ix2 n k) * argWE m c (ix2 j k)) + argBE m c (ix1 j) := by
  have h : 128 + q'.val = 128 + j.val := by omega
  exact (hostOps1_main_v9_apply (W2 m ρ c) n q' ⟨128 + q'.val, by omega⟩ rfl).trans
    (cat_apply m ρ c n _ (fun k => hostOps0_main_v4_apply_2 (W0 m ρ c) j k _ h)
      (hostOps0_main_v5_apply_2 (W0 m ρ c) j _ h))

theorem v9_apply_B (n : Fin 50000) (j : Fin 64) (q' : Fin 128) (hq' : q'.val = 64 + j.val) :
    (W3 m ρ c (Proc.devRef .tc main_v9) : (⟨S50000x128, .f32⟩ : BufTy).Contents (Elt Ideal)) (ix2 n q')
      = (∑ k : Fin 64, argX m c (ix2 n k) * argWB m c (ix2 j k)) + argBB m c (ix1 j) := by
  have h : 128 + q'.val = 192 + j.val := by omega
  exact (hostOps1_main_v9_apply (W2 m ρ c) n q' ⟨128 + q'.val, by omega⟩ rfl).trans
    (cat_apply m ρ c n _ (fun k => hostOps0_main_v4_apply_3 (W0 m ρ c) j k _ h)
      (hostOps0_main_v5_apply_3 (W0 m ρ c) j _ h))

-- Nothing between the slice and the node region writes the A block.
theorem v7_apply_W12 (n : Fin 50000) (j : Fin 64) :
    (W12 m ρ c (Proc.devRef .tc main_v7) : (⟨S50000x64, .f32⟩ : BufTy).Contents (Elt Ideal)) (ix2 n j)
      = (∑ k : Fin 64, argX m c (ix2 n k) * argWA m c (ix2 j k)) + argBA m c (ix1 j) :=
  (congrFun ((W12_of m ρ c main_v7 (by decide)).trans <|
    (W11_of m ρ c main_v7 (by decide)).trans <|
    (W10_of m ρ c main_v7 (by decide)).trans <|
    (W9_of_ne m ρ c main_v7 (by decide)).trans <|
    (W8_of m ρ c main_v7 (by decide)).trans <|
    (W7_of_ne m ρ c main_v7 (by decide)).trans <|
    (W6_of m ρ c main_v7 (by decide)).trans <|
    (W5_of m ρ c main_v7 (by decide)).trans <|
    (W4_of m ρ c main_v7 (by decide))) (ix2 n j)).trans <|
  (hostOps1_main_v7_apply (W2 m ρ c) n j ⟨j.val, by omega⟩ rfl).trans
    (cat_apply m ρ c n _ (fun k => hostOps0_main_v4_apply_0 (W0 m ρ c) j k _ rfl)
      (hostOps0_main_v5_apply_0 (W0 m ρ c) j _ rfl))

-- The conditions under which nothing writes a buffer before boundary 5, 7 or 13.
abbrev Kept5 (r : Ref sig .tc) : Prop :=
  r ∉ hostOps0_W ∧ (∀ w : Fin 4, Pipeline.arrRef spec0 w ≠ r) ∧ r ∉ hostOps1_W ∧ r ∉ hostOps1_1_W ∧ r ∉ hostOps1_2_W

abbrev Kept7 (r : Ref sig .tc) : Prop :=
  Kept5 r ∧ r ∉ hostOps1_3_W ∧ ∀ w : Fin 14, Pipeline.arrRef spec1 w ≠ r

abbrev Kept13 (r : Ref sig .tc) : Prop :=
  Kept7 r ∧ r ∉ hostOps2_W ∧ (∀ w : Fin 6, Pipeline.arrRef spec2 w ≠ r) ∧ r ∉ hostOps3_W ∧ r ∉ hostOps3_1_W
    ∧ r ∉ hostOps3_2_W ∧ ∀ w : Fin 4, Pipeline.arrRef spec3 w ≠ r

variable (r : Ref sig .tc)

-- Under them the buffer still holds what it held at the launch.
theorem launched5 (h : Kept5 r) : W5 m ρ c (Proc.devRef .tc r) = m ((c : Thread nD τ).loc r) :=
  (W5_of m ρ c r h.2.2.2.2).trans <| (W4_of m ρ c r h.2.2.2.1).trans <| (W3_of m ρ c r h.2.2.1).trans <|
    (W2_of_ne m ρ c r h.2.1).trans <| (W1_of m ρ c r h.1).trans rfl

theorem launched6 (h : Kept5 r ∧ r ∉ hostOps1_3_W) : W6 m ρ c (Proc.devRef .tc r) = m ((c : Thread nD τ).loc r) :=
  (W6_of m ρ c r h.2).trans (launched5 m ρ c r h.1)

theorem launched7 (h : Kept7 r) : W7 m ρ c (Proc.devRef .tc r) = m ((c : Thread nD τ).loc r) :=
  (W7_of_ne m ρ c r h.2.2).trans (launched6 m ρ c r ⟨h.1, h.2.1⟩)

theorem launched13 (h : Kept13 r) : W13 m ρ c (Proc.devRef .tc r) = m ((c : Thread nD τ).loc r) := by
  obtain ⟨h7, h8, h9, h10, h11, h12, h13⟩ := h
  exact (W13_of_ne m ρ c r h13).trans <| (W12_of m ρ c r h12).trans <| (W11_of m ρ c r h11).trans <|
    (W10_of m ρ c r h10).trans <| (W9_of_ne m ρ c r h9).trans <| (W8_of m ρ c r h8).trans (launched7 m ρ c r h7)

theorem W6_main_arg2 : W6 m ρ c (Proc.devRef .tc main_arg2) = m ((c : Thread nD τ).loc main_arg2) :=
  launched6 m ρ c _ (by decide)

theorem W6_main_arg11 : W6 m ρ c (Proc.devRef .tc main_arg11) = m ((c : Thread nD τ).loc main_arg11) :=
  launched6 m ρ c _ (by decide)

theorem W6_main_arg12 : W6 m ρ c (Proc.devRef .tc main_arg12) = m ((c : Thread nD τ).loc main_arg12) :=
  launched6 m ρ c _ (by decide)

theorem W5_main_arg13 : W5 m ρ c (Proc.devRef .tc main_arg13) = m ((c : Thread nD τ).loc main_arg13) :=
  launched5 m ρ c _ (by decide)

theorem W6_main_arg14 : W6 m ρ c (Proc.devRef .tc main_arg14) = m ((c : Thread nD τ).loc main_arg14) :=
  launched6 m ρ c _ (by decide)

theorem W6_main_arg15 : W6 m ρ c (Proc.devRef .tc main_arg15) = m ((c : Thread nD τ).loc main_arg15) :=
  launched6 m ρ c _ (by decide)

theorem W6_main_arg16 : W6 m ρ c (Proc.devRef .tc main_arg16) = m ((c : Thread nD τ).loc main_arg16) :=
  launched6 m ρ c _ (by decide)

theorem W7_main_arg19 : W7 m ρ c (Proc.devRef .tc main_arg19) = m ((c : Thread nD τ).loc main_arg19) :=
  launched7 m ρ c _ (by decide)

theorem W7_main_arg20 : W7 m ρ c (Proc.devRef .tc main_arg20) = m ((c : Thread nD τ).loc main_arg20) :=
  launched7 m ρ c _ (by decide)

theorem W13_main_arg17 : W13 m ρ c (Proc.devRef .tc main_arg17) = m ((c : Thread nD τ).loc main_arg17) :=
  launched13 m ρ c _ (by decide)

theorem W13_main_arg18 : W13 m ρ c (Proc.devRef .tc main_arg18) = m ((c : Thread nD τ).loc main_arg18) :=
  launched13 m ρ c _ (by decide)

end Cert.KernelIdeal.Val
-- ==== Proof.LibTakeFill.lean ====
-- A gather that fills out-of-range rows is the plain gather when every index word lies in [-N, N): the row mask is all ones.
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

abbrev Sc : Shape := ⟨0, ![]⟩

abbrev V1 (E : Nat) : Shape := ⟨1, ![E]⟩

abbrev Col (E : Nat) : Shape := ⟨2, ![E, 1]⟩

abbrev One2 : Shape := ⟨2, ![1, 1]⟩

abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

theorem toInt_ofNat_small (a : ℕ) (ha : a < 2 ^ 31) : (BitVec.ofNat 32 a).toInt = (a : ℤ) := by
  rw [BitVec.toInt_ofNat']
  exact Int.bmod_eq_of_le_mul_two (by omega) (by omega)

theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  refine (congrArg (Scalar.select · (g j) (fill j)) (?_ : _ = 1#1)).trans (select_one _ _)
  exact broadcastInDim_eq_const _ _ _ _
    (fun k => reduce_andi_ones _ _ _ _ (fun i => wrap_word_in_range N hN0 hN (idx _) (hidx _)) (fun _ => rfl) k) j

end Cert.LibTakeFill

end
-- ==== Proof.Val.Takes.lean ====
-- Indexing rows by index words in [-50000, 50000): the wrapped word names a row, the fill is never read, so entry (e, j) is entry j of that row.
import proofs.«428159_j48533130445226_3_alg».proof.Proof.Gen.KernelIdeal.Launch
import proofs.«428159_j48533130445226_3_alg».proof.Proof.Gen.ReferenceIdeal
import proofs.«428159_j48533130445226_3_alg».proof.Proof.LibTakeFill
import Idealize.ShloMosaic.Lib.StableHlo.Run
import Idealize.ShloMosaic.Lib.StableHlo.Predicate
import Idealize.ShloMosaic.Lib.ValueIdx
import Idealize.ShloMosaic.PureOps.Ideal
import Idealize.ShloMosaic.PureOps.ShapeOps

set_option maxRecDepth 4096

noncomputable section

namespace Cert.KernelIdeal.Val

open Idealize.ShloMosaic Idealize.ShloMosaic.TcCoe Idealize.ShloMosaic.StableHlo Idealize.ShloMosaic.ValueIdx Idealize.SL.Sem
open Cert.LibTakeFill

section RowGather
variable {α : Type}

abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowDims N R C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowDims N R C wf).start (ix2 e c) idx 0 + (rowDims N R C wf).batchCoord (ix2 e c) 0
        + (rowDims N R C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e c) ⟨List.idxOf (0 : Fin 2) (rowDims N R C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowDims N R C wf).start (ix2 e c) idx 1 + (rowDims N R C wf).batchCoord (ix2 e c) 1
        + (rowDims N R C wf).offCoord (ix2 e c) 1 = c.val
    rw [GatherDims.batchCoord_eq_zero _ _ _ List.not_mem_nil]
    have hst : (rowDims N R C wf).start (ix2 e c) idx 1 = 0 := by
      unfold GatherDims.start
      rw [dif_neg (show (1 : Fin 2) ∉ (rowDims N R C wf).startIndexMap from
        fun h => Nat.one_ne_zero (congrArg Fin.val (List.mem_singleton.mp h)))]
    rw [hst]
    simp only [Nat.add_zero, Nat.zero_add]
    rfl

end RowGather

section Wrap

def wrapWord (Nw i : BitVec 32) : BitVec 32 := Scalar.select (IntOp.cmpi .slt i 0#32) (IntOp.addi i Nw) i

theorem wrapWord_toInt (N : Nat) (hN : N < 2 ^ 30) (i : BitVec 32) (hi : -(N : ℤ) ≤ i.toInt ∧ i.toInt < (N : ℤ)) :
    0 ≤ (wrapWord (BitVec.ofNat 32 N) i).toInt ∧ (wrapWord (BitVec.ofNat 32 N) i).toInt < (N : ℤ) := by
  have h := wrap_word_in_range N (by omega) hN i hi
  rw [IntOp.andi_eq_one, IntOp.cmpi_sge, IntOp.cmpi_sle, BitVec.toInt_zero, toInt_ofNat_small (N - 1) (by omega)] at h
  unfold wrapWord
  omega

theorem toInt_toNat_of_nonneg (w : BitVec 32) (h : 0 ≤ w.toInt) : w.toInt.toNat = w.toNat := by
  have hlt : w.toNat < 2 ^ 31 := by
    by_contra hge
    have : w.toInt < 0 := by rw [BitVec.toInt_eq_toNat_cond]; split <;> omega
    omega
  rw [BitVec.toInt_eq_toNat_of_lt (by omega)]
  exact Int.toNat_natCast _

theorem wrapWord_row (N : Nat) (hN : N < 2 ^ 30) (i : BitVec 32) (hi : -(N : ℤ) ≤ i.toInt ∧ i.toInt < (N : ℤ)) :
    (wrapWord (BitVec.ofNat 32 N) i).toNat < N
      ∧ min (wrapWord (BitVec.ofNat 32 N) i).toInt.toNat (N - 1) = (wrapWord (BitVec.ofNat 32 N) i).toNat := by
  obtain ⟨h0, h1⟩ := wrapWord_toInt N hN i hi
  have e := toInt_toNat_of_nonneg _ h0
  have hlt : (wrapWord (BitVec.ofNat 32 N) i).toNat < N := by
    have : ((wrapWord (BitVec.ofNat 32 N) i).toInt.toNat : ℤ) < (N : ℤ) := by rw [Int.toNat_of_nonneg h0]; exact h1
    rw [e] at this; exact_mod_cast this
  exact ⟨hlt, by rw [e]; omega⟩

theorem col_apply {α : Type} {E : Nat} (hbc : (V1 E).BroadcastsInDim (Col E) (![0] : Fin 1 → Fin 2))
    (v : (V1 E).Idx → α) (e : Fin E) :
    broadcastInDim (Col E) (![0] : Fin 1 → Fin 2) hbc v (ix2 e ⟨0, Nat.one_pos⟩) = v (ix1 e) := by
  simp only [broadcastInDim]
  congr 1
  funext a
  have ha : a = 0 := Subsingleton.elim _ _
  subst ha
  apply Fin.ext
  have hp := e.isLt
  split
  · next h1 => change E = 1 at h1; show (0 : Nat) = e.val; omega
  · rfl

theorem wrapCol_apply {E : Nat} (hb0 : Sc.BroadcastsInDim (V1 E) (![] : Fin 0 → Fin 1))
    (hbc : (V1 E).BroadcastsInDim (Col E) (![0] : Fin 1 → Fin 2)) (Nw : BitVec 32) (idx : IVec (V1 E) 32) (e : Fin E) :
    wrapCol hb0 hbc Nw idx (ix2 e ⟨0, Nat.one_pos⟩) = wrapWord Nw (idx (ix1 e)) := by
  unfold wrapCol
  rw [col_apply]
  rfl

end Wrap

section Read
variable {α : Type}

def takeRowOf (N : Nat) (hN : N < 2 ^ 30) {E : Nat} (idx : IVec (V1 E) 32)
    (hidx : ∀ k : (V1 E).Idx, -(N : ℤ) ≤ (idx k).toInt ∧ (idx k).toInt < (N : ℤ)) (e : Fin E) : Fin N :=
  ⟨(wrapWord (BitVec.ofNat 32 N) (idx (ix1 e))).toNat, (wrapWord_row N hN _ (hidx (ix1 e))).1⟩

theorem gather_wrap_apply {N E C : Nat} (hN0 : 0 < N) (hN : N < 2 ^ 30)
    (wf : GatherDims.WF ⟨2, ![N, C]⟩ ⟨2, ![E, 1]⟩ ⟨2, ![E, C]⟩ [1] [0] [] [0] [] 1 ![1, C])
    (hb0 : Sc.BroadcastsInDim (V1 E) (![] : Fin 0 → Fin 1)) (hbc : (V1 E).BroadcastsInDim (Col E) (![0] : Fin 1 → Fin 2))
    (x : (⟨2, ![N, C]⟩ : Shape).Idx → α) (idx : IVec (V1 E) 32)
    (hidx : ∀ k : (V1 E).Idx, -(N : ℤ) ≤ (idx k).toInt ∧ (idx k).toInt < (N : ℤ)) (e : Fin E) (c : Fin C) :
    Host.gather (rowDims N E C wf) x (wrapCol hb0 hbc (BitVec.ofNat 32 N) idx) (ix2 e c)
      = x (ix2 (takeRowOf N hN idx hidx e) c) := by
  rw [gather_row_apply hN0]
  congr 2
  apply Fin.ext
  show min (wrapCol hb0 hbc (BitVec.ofNat 32 N) idx (ix2 e ⟨0, Nat.one_pos⟩)).toInt.toNat (N - 1)
      = (wrapWord (BitVec.ofNat 32 N) (idx (ix1 e))).toNat
  rw [wrapCol_apply]
  exact (wrapWord_row N hN _ (hidx (ix1 e))).2

end Read

section Printed

abbrev InRange (idx : IVec (V1 800000) 32) : Prop :=
  ∀ k : (V1 800000).Idx, -(50000 : ℤ) ≤ (idx k).toInt ∧ (idx k).toInt < 50000

theorem InRange.cast {idx : IVec (V1 800000) 32} (h : InRange idx) :
    ∀ k : (V1 800000).Idx, -((50000 : ℕ) : ℤ) ≤ (idx k).toInt ∧ (idx k).toInt < ((50000 : ℕ) : ℤ) :=
  fun k => by exact_mod_cast h k

abbrev row (idx : IVec (V1 800000) 32) (hidx : InRange idx) (e : Fin 800000) : Fin 50000 :=
  takeRowOf 50000 (by decide) idx hidx.cast e

variable {α : Type}

theorem reference_gather64_apply (hb0 : Sc.BroadcastsInDim (V1 800000) (![] : Fin 0 → Fin 1))
    (hbc : (V1 800000).BroadcastsInDim (Col 800000) (![0] : Fin 1 → Fin 2))
    (x : (⟨2, ![50000, 64]⟩ : Shape).Idx → α) (idx : IVec (V1 800000) 32) (hidx : InRange idx) (e : Fin 800000) (j : Fin 64) :
    Host.gather Cert.ReferenceIdeal.gather_S50000x64_S800000x1_S800000x64_1_0_n_n_0_1_164 x (wrapCol hb0 hbc 50000#32 idx) (ix2 e j)
      = x (ix2 (row idx hidx e) j) :=
  gather_wrap_apply (by decide) (by decide) _ hb0 hbc x idx hidx.cast e j

end Printed

section Bridge

theorem inRange_slice {s u : Shape} (a : IVec s 32) (h : ∀ i, -(50000 : ℤ) ≤ (a i).toInt ∧ (a i).toInt < 50000)
    (off : Fin s.rank → Nat) (hs : s.Slices off u) (hc : u.ShapeCasts (V1 800000)) :
    InRange (shapeCast (V1 800000) (extractStridedSlice u off a hs) hc) :=
  fun k => h _

end Bridge

section Casts

open Cert.KernelIdeal

theorem ofBuf_toBuf {sig : RefSig} {T : BufTy} {Val : EltTy → Type} (x : StableHlo.TRef sig T) (v : T.Contents Val) :
    x.ofBuf (x.toBuf v) = v := by
  obtain ⟨ref, ty_eq, od, us⟩ := x
  subst ty_eq
  rfl

theorem ofBuf_v3 (v : (main_v3 : Ref sig .tc).ty.Contents (Elt Ideal)) :
    (StableHlo.TRef.of main_v3 : StableHlo.TRef sig ⟨S800000, .i32⟩).ofBuf v = v := rfl
theorem ofBuf_v1 (v : (main_v1 : Ref sig .tc).ty.Contents (Elt Ideal)) :
    (StableHlo.TRef.of main_v1 : StableHlo.TRef sig ⟨S800000, .i32⟩).ofBuf v = v := rfl
theorem ofBuf_v8 (v : (main_v8 : Ref sig .tc).ty.Contents (Elt Ideal)) :
    (StableHlo.TRef.of main_v8 : StableHlo.TRef sig ⟨S50000x64, .f32⟩).ofBuf v = v := rfl
theorem ofBuf_v9 (v : (main_v9 : Ref sig .tc).ty.Contents (Elt Ideal)) :
    (StableHlo.TRef.of main_v9 : StableHlo.TRef sig ⟨S50000x128, .f32⟩).ofBuf v = v := rfl
theorem toBuf_v10 (v : (⟨S800000x64, .f32⟩ : BufTy).Contents (Elt Ideal)) :
    (StableHlo.TRef.of main_v10 : StableHlo.TRef sig ⟨S800000x64, .f32⟩).toBuf v = v := rfl
theorem toBuf_v11 (v : (⟨S800000x128, .f32⟩ : BufTy).Contents (Elt Ideal)) :
    (StableHlo.TRef.of main_v11 : StableHlo.TRef sig ⟨S800000x128, .f32⟩).toBuf v = v := rfl

end Casts

section Stretches

open Cert.KernelIdeal Cert.KernelIdeal.Gen

variable (W : Valuation τ sig (Elt Ideal))

theorem inRange_after0_v1
    (h : ∀ i, -(50000 : ℤ) ≤ ((W (Proc.devRef .tc main_arg1) : IVec S2x800000 32) i).toInt
      ∧ ((W (Proc.devRef .tc main_arg1) : IVec S2x800000 32) i).toInt < 50000) :
    InRange (StableHlo.after hostOps0 W (Proc.devRef .tc main_v1)) := by
  intro k
  after_results
  exact h _

theorem inRange_after0_v3
    (h : ∀ i, -(50000 : ℤ) ≤ ((W (Proc.devRef .tc main_arg1) : IVec S2x800000 32) i).toInt
      ∧ ((W (Proc.devRef .tc main_arg1) : IVec S2x800000 32) i).toInt < 50000) :
    InRange (StableHlo.after hostOps0 W (Proc.devRef .tc main_v3)) := by
  intro k
  after_results
  exact h _

set_option maxHeartbeats 1600000 in
theorem after_take0
    (hidx : InRange (W (Proc.devRef .tc main_v3))) :
    StableHlo.after hostOps1_1 W (Proc.devRef .tc main_v10)
      = Host.gather Cert.KernelIdeal.gather_S50000x64_S800000x1_S800000x64_1_0_n_n_0_1_164 (W (Proc.devRef .tc main_v8))
          (wrapCol Gen.bcast_S_S800000 Gen.bcast_S800000_S800000x1_0 50000#32 (W (Proc.devRef .tc main_v3))) := by
  after_results_simp
  simp only [ofBuf_toBuf, ofBuf_v3, ofBuf_v8, toBuf_v10]
  exact take_fill_eq 50000 50000#32 49999#32 Gen.bcast_S_S800000 Gen.bcast_S800000_S800000x1_0 Gen.bcast_S_S800000x1
    Gen.bcast_S1_S1x1_1 Gen.bcast_S1x1_S800000x1_0_1 Gen.reducesTo_S800000x1_S800000_d1 Gen.h_S_
    Gen.bcast_S800000_S800000x64_0 (by decide) (by decide) rfl rfl _ hidx.cast _ _

set_option maxHeartbeats 1600000 in
theorem after_take1
    (hidx : InRange (W (Proc.devRef .tc main_v1))) :
    StableHlo.after hostOps1_2 W (Proc.devRef .tc main_v11)
      = Host.gather Cert.KernelIdeal.gather_S50000x128_S800000x1_S800000x128_1_0_n_n_0_1_1128 (W (Proc.devRef .tc main_v9))
          (wrapCol Gen.bcast_S_S800000 Gen.bcast_S800000_S800000x1_0 50000#32 (W (Proc.devRef .tc main_v1))) := by
  after_results_simp
  simp only [ofBuf_toBuf, ofBuf_v1, ofBuf_v9, toBuf_v11]
  exact take_fill_eq 50000 50000#32 49999#32 Gen.bcast_S_S800000 Gen.bcast_S800000_S800000x1_0 Gen.bcast_S_S800000x1
    Gen.bcast_S1_S1x1_1 Gen.bcast_S1x1_S800000x1_0_1 Gen.reducesTo_S800000x1_S800000_d1 Gen.h_S_
    Gen.bcast_S800000_S800000x128_0 (by decide) (by decide) rfl rfl _ hidx.cast _ _

theorem after_take0_apply (hidx : InRange (W (Proc.devRef .tc main_v3)))
    (e : Fin 800000) (j : Fin 64) :
    (StableHlo.after hostOps1_1 W (Proc.devRef .tc main_v10)) (ix2 e j)
      = (W (Proc.devRef .tc main_v8)) (ix2 (row (W (Proc.devRef .tc main_v3)) hidx e) j) :=
  (congrFun (after_take0 W hidx) (ix2 e j)).trans
    (gather_wrap_apply (by decide) (by decide) _ Gen.bcast_S_S800000 Gen.bcast_S800000_S800000x1_0 _ _ hidx.cast e j)

theorem after_take1_apply (hidx : InRange (W (Proc.devRef .tc main_v1)))
    (e : Fin 800000) (j : Fin 128) :
    (StableHlo.after hostOps1_2 W (Proc.devRef .tc main_v11)) (ix2 e j)
      = (W (Proc.devRef .tc main_v9)) (ix2 (row (W (Proc.devRef .tc main_v1)) hidx e) j) :=
  (congrFun (after_take1 W hidx) (ix2 e j)).trans
    (gather_wrap_apply (by decide) (by decide) _ Gen.bcast_S_S800000 Gen.bcast_S800000_S800000x1_0 _ _ hidx.cast e j)

end Stretches

end Cert.KernelIdeal.Val

end
-- ==== Proof.Ref.Read.lean ====
import proofs.«428159_j48533130445226_3_alg».proof.Proof.Ref.Stages
import proofs.«428159_j48533130445226_3_alg».proof.Proof.Val.Consts
import proofs.«428159_j48533130445226_3_alg».proof.Proof.Val.BNMath
import Idealize.ShloMosaic.Lib.StackMember
import Idealize.ShloMosaic.Lib.ValueLayout
import Idealize.ShloMosaic.Lib.IdealHost
import Idealize.ShloMosaic.Lib.KernelVsHost

-- The reference's stages read at a node or edge and a column, as finite sums and the extended reals' operations.

noncomputable section

namespace Cert.ReferenceIdeal.Hand

open Cert.ReferenceIdeal Cert.ReferenceIdeal.Gen Idealize.ShloMosaic Idealize.SL.Sem
open Idealize.ShloMosaic.ValueIdx Idealize.ShloMosaic.StackMember
open Cert.KernelIdeal.Val
open scoped BigOperators

-- A vector of 64 laid under each of m rows reads, at column j, its entry j.
theorem rows_apply {m : ℕ} (hb : S1x64.BroadcastsInDim ⟨2, ![m, 64]⟩ ![0, 1]) (b : FVec Ideal S64 .f32) (n : Fin m)
    (j : Fin 64) :
    broadcastInDim ⟨2, ![m, 64]⟩ ![0, 1] hb (broadcastInDim S1x64 ![1] bcast_S64_S1x64_1 b) (ix2 n j) = b (ix1 j) := by
  rw [broadcastInDim_oneRow_apply]
  refine broadcastInDim_apply ![1] bcast_S64_S1x64_1 b (ix2 (0 : Fin 1) j) (ix1 j) fun a => ?_
  obtain rfl : a = 0 := Subsingleton.elim _ _
  rfl

theorem nodeRows_apply (b : FVec Ideal S64 .f32) (n : Fin 50000) (j : Fin 64) :
    nodeRows (F := Ideal) b (ix2 n j) = b (ix1 j) := rows_apply _ b n j

theorem edgeRows_apply (b : FVec Ideal S64 .f32) (e : Fin 800000) (j : Fin 64) :
    edgeRows (F := Ideal) b (ix2 e j) = b (ix1 j) := rows_apply _ b e j

-- Rows against transposed weights: entry (n, j) of the product is row n against row j of the weights.
theorem dotT_apply {m k : ℕ} (x : FVec Ideal ⟨2, ![m, k]⟩ .f32) (W : FVec Ideal ⟨2, ![64, k]⟩ .f32)
    (ht : (⟨2, ![64, k]⟩ : Shape).Transposes [1, 0] ⟨2, ![k, 64]⟩) (n : Fin m) (j : Fin 64) :
    Host.dotGeneral (DotDims.plain m k 64) none x (transpose ⟨2, ![k, 64]⟩ [1, 0] W ht) (ix2 n j)
      = ∑ c : Fin k, x (ix2 n c) * W (ix2 j c) := by
  rw [dotGeneral_plain_apply]
  exact Finset.sum_congr rfl fun c _ => by rw [transpose_ix2_apply]

theorem nodeLinear_apply (x : FVec Ideal S50000x64 .f32) (W : FVec Ideal S64x64 .f32) (b : FVec Ideal S64 .f32)
    (n : Fin 50000) (j : Fin 64) :
    nodeLinear (F := Ideal) x W b (ix2 n j) = (∑ k : Fin 64, x (ix2 n k) * W (ix2 j k)) + b (ix1 j) := by
  unfold nodeLinear
  rw [addf_apply, nodeRows_apply]
  exact congrArg (· + b (ix1 j)) (dotT_apply x W _ n j)

theorem edgeLinear_apply (h : FVec Ideal S800000x64 .f32) (W : FVec Ideal S64x64 .f32) (b : FVec Ideal S64 .f32)
    (e : Fin 800000) (j : Fin 64) :
    edgeLinear (F := Ideal) h W b (ix2 e j) = (∑ k : Fin 64, h (ix2 e k) * W (ix2 j k)) + b (ix1 j) := by
  unfold edgeLinear
  rw [addf_apply, edgeRows_apply]
  exact congrArg (· + b (ix1 j)) (dotT_apply h W _ e j)

-- Three arrays of 64 columns side by side: column 64 p + k of the concatenation is column k of piece p.
theorem cat3_apply (A B C : FVec Ideal S800000x64 .f32) (p : Fin 3) (e : Fin 800000) (k : Fin 64) (c : Fin 192)
    (hc : 64 * p.val + k.val = c.val) :
    concatenate S800000x192 1 [⟨S800000x64, A⟩, ⟨S800000x64, B⟩, ⟨S800000x64, C⟩]
        concatenates_S800000x64_S800000x64_S800000x64_S800000x192_d1 (ix2 e c) = ![A, B, C] p (ix2 e k) := by
  refine concatenate_apply_piece 1 [⟨S800000x64, A⟩, ⟨S800000x64, B⟩, ⟨S800000x64, C⟩] _ (ix2 e c) p.val p.isLt S800000x64
    (![A, B, C] p) ?_ rfl (64 * p.val) ?_ (ix2 e k) ?_ hc
  · fin_cases p <;> rfl
  · fin_cases p <;> rfl
  · intro b hb
    match b with
    | ⟨0, _⟩ => rfl
    | ⟨1, _⟩ => exact absurd rfl hb

section Stages

variable (x : FVec Ideal S50000x64 .f32) (idx : IVec S2x800000 32) (ea : FVec Ideal S800000x64 .f32)
    (WA : FVec Ideal S64x64 .f32) (bA : FVec Ideal S64 .f32) (WB : FVec Ideal S64x64 .f32) (bB : FVec Ideal S64 .f32)
    (WD : FVec Ideal S64x64 .f32) (bD : FVec Ideal S64 .f32) (WE : FVec Ideal S64x64 .f32) (bE : FVec Ideal S64 .f32)
    (WC : FVec Ideal S64x64 .f32) (bC : FVec Ideal S64 .f32) (W1 : FVec Ideal S64x192 .f32) (b1 : FVec Ideal S64 .f32)
    (W2 : FVec Ideal S64x64 .f32) (b2 : FVec Ideal S64 .f32) (gn bn ge be : FVec Ideal S64 .f32)

local notation:max "⟪" f "⟫" => f (F := Ideal) x idx ea WA bA WB bB WD bD WE bE WC bC W1 b1 W2 b2 gn bn ge be

theorem refCe_apply (e : Fin 800000) (j : Fin 64) :
    ⟪refCe⟫ (ix2 e j) = (∑ k : Fin 64, ea (ix2 e k) * WC (ix2 j k)) + bC (ix1 j) := edgeLinear_apply ea WC bC e j

-- One over one plus the exponential of the negated sum is the logistic function of the sum.
theorem refSigma_apply (e : Fin 800000) (j : Fin 64) :
    ⟪refSigma⟫ (ix2 e j) = Ideal.logistic (⟪refCe⟫ (ix2 e j) + ⟪refDd⟫ (ix2 e j) + ⟪refEs⟫ (ix2 e j)) := by
  show Ideal.div (broadcastInDim S800000x64 ![] bcast_S_S800000x64 (constant (F := Ideal) S_ .f32 0x3F800000#32) (ix2 e j))
      (broadcastInDim S800000x64 ![] bcast_S_S800000x64 (constant (F := Ideal) S_ .f32 0x3F800000#32) (ix2 e j)
        + Ideal.exp (-(⟪refCe⟫ (ix2 e j) + ⟪refDd⟫ (ix2 e j) + ⟪refEs⟫ (ix2 e j)))) = _
  rw [broadcastInDim_scalar_apply, constant_apply, ofBits_one']
  rfl

theorem refMsg_apply (e : Fin 800000) (j : Fin 64) :
    ⟪refMsg⟫ (ix2 e j) = ⟪refSigma⟫ (ix2 e j) * ⟪refBxs⟫ (ix2 e j) := rfl

-- The sum over the 192 columns of the edge MLP's input, regrouped by the three pieces Dd, Es and Ce.
theorem refLin1_apply (e : Fin 800000) (j : Fin 64) :
    ⟪refLin1⟫ (ix2 e j)
      = (∑ k : Fin 64, ⟪refDd⟫ (ix2 e k) * W1 (ix2 j (⟨(k : ℕ), by omega⟩ : Fin 192)))
        + (∑ k : Fin 64, ⟪refEs⟫ (ix2 e k) * W1 (ix2 j (⟨64 + (k : ℕ), by omega⟩ : Fin 192)))
        + (∑ k : Fin 64, ⟪refCe⟫ (ix2 e k) * W1 (ix2 j (⟨128 + (k : ℕ), by omega⟩ : Fin 192))) := by
  refine (dotT_apply ⟪refCat⟫ W1 _ e j).trans ((sum_192_thirds _).trans ?_)
  refine congrArg₂ (· + ·) (congrArg₂ (· + ·) (Finset.sum_congr rfl fun k _ => ?_) (Finset.sum_congr rfl fun k _ => ?_))
    (Finset.sum_congr rfl fun k _ => ?_)
  · exact congrArg (· * W1 (ix2 j _)) (cat3_apply _ _ _ 0 e k _ (Nat.zero_add _))
  · exact congrArg (· * W1 (ix2 j _)) (cat3_apply _ _ _ 1 e k _ rfl)
  · exact congrArg (· * W1 (ix2 j _)) (cat3_apply _ _ _ 2 e k _ rfl)

theorem refPre_apply (e : Fin 800000) (j : Fin 64) :
    ⟪refPre⟫ (ix2 e j)
      = (∑ k : Fin 64, max (⟪refLin1⟫ (ix2 e k) + b1 (ix1 k)) 0 * W2 (ix2 j k)) + b2 (ix1 j) := by
  show edgeLinear (F := Ideal) (maximumf (addf ⟪refLin1⟫ (edgeRows b1))
    (broadcastInDim S800000x64 ![] bcast_S_S800000x64 (constant (F := Ideal) S_ .f32 0x00000000#32))) W2 b2 (ix2 e j) = _
  rw [edgeLinear_apply]
  refine congrArg (· + b2 (ix1 j)) (Finset.sum_congr rfl fun k _ => ?_)
  rw [maximumf_apply, addf_apply, edgeRows_apply, broadcastInDim_scalar_apply, constant_apply, ofBits_zero']

-- The edge batch norm in the program's association; the mean and the variance stay as the stages' own terms.
theorem refEnew_apply (e : Fin 800000) (j : Fin 64) :
    ⟪refEnew⟫ (ix2 e j)
      = ge (ix1 j) * (⟪refPre⟫ (ix2 e j) - edgeMean (F := Ideal) ⟪refPre⟫ (ix1 j))
          * Ideal.rsqrt (edgeVar (F := Ideal) ⟪refPre⟫ (ix1 j) + Ideal.ofBits .f32 0x3727C5AC#32)
        + be (ix1 j) := by
  show (edgeRows (F := Ideal) ge (ix2 e j) * (⟪refPre⟫ (ix2 e j) - edgeRows (F := Ideal) ⟪refMuE⟫ (ix2 e j)))
        * edgeRows (F := Ideal) (Host.rsqrt (addf ⟪refVarE⟫
            (broadcastInDim S64 ![] bcast_S_S64 (constant (F := Ideal) S_ .f32 0x3727C5AC#32)))) (ix2 e j)
      + edgeRows (F := Ideal) be (ix2 e j) = _
  rw [edgeRows_apply, edgeRows_apply, edgeRows_apply, edgeRows_apply]
  show _ * _ * Ideal.rsqrt (⟪refVarE⟫ (ix1 j)
      + broadcastInDim S64 ![] bcast_S_S64 (constant (F := Ideal) S_ .f32 0x3727C5AC#32) (ix1 j)) + _ = _
  rw [broadcastInDim_scalar_apply, constant_apply]
  rfl

-- The node batch norm in the program's association, clipped below at zero.
theorem refH_apply (n : Fin 50000) (j : Fin 64) :
    ⟪refH⟫ (ix2 n j)
      = max (gn (ix1 j) * (⟪refHpre⟫ (ix2 n j) - ⟪refMuN⟫ (ix1 j))
              * Ideal.rsqrt (nodeVar (F := Ideal) ⟪refHpre⟫ (ix1 j) + Ideal.ofBits .f32 0x3727C5AC#32)
            + bn (ix1 j)) 0 := by
  show max ((nodeRows (F := Ideal) gn (ix2 n j) * (⟪refHpre⟫ (ix2 n j) - nodeRows (F := Ideal) ⟪refMuN⟫ (ix2 n j)))
        * nodeRows (F := Ideal) (Host.rsqrt (addf ⟪refVarN⟫
            (broadcastInDim S64 ![] bcast_S_S64 (constant (F := Ideal) S_ .f32 0x3727C5AC#32)))) (ix2 n j)
      + nodeRows (F := Ideal) bn (ix2 n j))
      (broadcastInDim S50000x64 ![] bcast_S_S50000x64 (constant (F := Ideal) S_ .f32 0x00000000#32) (ix2 n j)) = _
  rw [nodeRows_apply, nodeRows_apply, nodeRows_apply, nodeRows_apply, broadcastInDim_scalar_apply, constant_apply,
    ofBits_zero']
  show max (_ * _ * Ideal.rsqrt (⟪refVarN⟫ (ix1 j)
      + broadcastInDim S64 ![] bcast_S_S64 (constant (F := Ideal) S_ .f32 0x3727C5AC#32) (ix1 j)) + _) 0 = _
  rw [broadcastInDim_scalar_apply, constant_apply]
  rfl

end Stages

end Cert.ReferenceIdeal.Hand

end
-- ==== Proof.Val.Chain1.lean ====
-- The edge region's gathered inputs are the reference's gathered stages.
import proofs.«428159_j48533130445226_3_alg».proof.Defs
import proofs.«428159_j48533130445226_3_alg».proof.Proof.HKernelIdeal.Run
import proofs.«428159_j48533130445226_3_alg».proof.Proof.Val.Args
import proofs.«428159_j48533130445226_3_alg».proof.Proof.Val.HostA
import proofs.«428159_j48533130445226_3_alg».proof.Proof.Val.Takes
import proofs.«428159_j48533130445226_3_alg».proof.Proof.Val.PreFacts
import proofs.«428159_j48533130445226_3_alg».proof.Proof.Ref.Stages
import proofs.«428159_j48533130445226_3_alg».proof.Proof.Ref.Read

set_option maxRecDepth 4096

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Frame
open Cert.ReferenceIdeal.Hand Cert.LibTakeFill
open scoped BigOperators

variable (m : (ℓ : Loc nD τ sig) → Buf (Elt Ideal) ℓ) (ρ : Dev nD → PrngReg) (c : Dev nD)

theorem argIdx_range (hpre : Cert.Pre_KernelIdeal m) :
    ∀ i, -(50000 : ℤ) ≤ (argIdx m c i).toInt ∧ (argIdx m c i).toInt < 50000 :=
  (finiteArgs_of_pre _ _ _ _ _ _ _ _ _ _ _ _ _ _ _ _ _ _ _ _ _ (hpre c)).idx

-- The two index vectors are rows 1 and 0 of the index argument, untouched up to the takes that read them.
theorem v3_eq_refDst : (W3 m ρ c (Proc.devRef .tc main_v3) : IVec S800000 32) = refDst (argIdx m c) :=
  (W3_of m ρ c main_v3 (by decide)).trans <| (W2_of_ne m ρ c main_v3 (by decide)).trans <|
  (hostOps0_main_v3 (W0 m ρ c)).trans rfl

theorem v1_eq_refSrc : (W4 m ρ c (Proc.devRef .tc main_v1) : IVec S800000 32) = refSrc (argIdx m c) :=
  (W4_of m ρ c main_v1 (by decide)).trans <| (W3_of m ρ c main_v1 (by decide)).trans <|
  (W2_of_ne m ρ c main_v1 (by decide)).trans <| (hostOps0_main_v1 (W0 m ρ c)).trans rfl

theorem inRange_refDst (hpre : Cert.Pre_KernelIdeal m) : InRange (refDst (argIdx m c)) :=
  inRange_slice (argIdx m c) (argIdx_range m c hpre) _ _ _

theorem inRange_refSrc (hpre : Cert.Pre_KernelIdeal m) : InRange (refSrc (argIdx m c)) :=
  inRange_slice (argIdx m c) (argIdx_range m c hpre) _ _ _

theorem inRange_v3 (hpre : Cert.Pre_KernelIdeal m) : InRange (W3 m ρ c (Proc.devRef .tc main_v3)) :=
  v3_eq_refDst m ρ c ▸ inRange_refDst m c hpre

theorem inRange_v1 (hpre : Cert.Pre_KernelIdeal m) : InRange (W4 m ρ c (Proc.devRef .tc main_v1)) :=
  v1_eq_refSrc m ρ c ▸ inRange_refSrc m c hpre

-- A linear map of the node rows read at the row an index word names is the reference's gather of that map.
theorem gatheredLinear {W : FVec Ideal S64x64 .f32} {b : FVec Ideal S64 .f32} {ix ix' : IVec S800000 32} (h : ix = ix')
    (hi : InRange ix) (hi' : InRange ix') (e : Fin 800000) (j : Fin 64) :
    (∑ k : Fin 64, argX m c (ix2 (row ix hi e) k) * W (ix2 j k)) + b (ix1 j)
      = Host.gather Cert.ReferenceIdeal.gather_S50000x64_S800000x1_S800000x64_1_0_n_n_0_1_164
          (nodeLinear (F := Ideal) (argX m c) W b) (wrapIx ix') (ix2 e j) := by
  subst h
  exact ((reference_gather64_apply Cert.ReferenceIdeal.Gen.bcast_S_S800000 Cert.ReferenceIdeal.Gen.bcast_S800000_S800000x1_0
    (nodeLinear (F := Ideal) (argX m c) W b) ix hi e j).trans (nodeLinear_apply _ W b _ j)).symm

theorem dd_eq (hpre : Cert.Pre_KernelIdeal m)
    (hv8 : ∀ (n : Fin 50000) (j : Fin 64),
      (W3 m ρ c (Proc.devRef .tc main_v8) : (⟨S50000x64, .f32⟩ : BufTy).Contents (Elt Ideal)) (ix2 n j)
        = (∑ k : Fin 64, argX m c (ix2 n k) * argWD m c (ix2 j k)) + argBD m c (ix1 j)) :
    (W6 m ρ c (Proc.devRef .tc main_v10) : FVec Ideal S800000x64 .f32) = atArgs m c (refDd (F := Ideal)) := by
  funext i
  obtain ⟨e, j, rfl⟩ : ∃ e j, i = ix2 e j := ⟨i 0, i 1, eq_ix2 i⟩
  exact (congrFun ((W6_of m ρ c main_v10 (by decide)).trans (W5_of m ρ c main_v10 (by decide))) (ix2 e j)).trans <|
    (after_take0_apply (W3 m ρ c) (inRange_v3 m ρ c hpre) e j).trans <|
    (hv8 _ j).trans (gatheredLinear m c (v3_eq_refDst m ρ c) _ (inRange_refDst m c hpre) e j)

-- Column q' of the second gathered array, given what column q' of its table holds.
theorem src_apply (hpre : Cert.Pre_KernelIdeal m) {W : FVec Ideal S64x64 .f32} {b : FVec Ideal S64 .f32}
    (j : Fin 64) (q' : Fin 128)
    (h : ∀ n : Fin 50000,
      (W3 m ρ c (Proc.devRef .tc main_v9) : (⟨S50000x128, .f32⟩ : BufTy).Contents (Elt Ideal)) (ix2 n q')
        = (∑ k : Fin 64, argX m c (ix2 n k) * W (ix2 j k)) + b (ix1 j)) (e : Fin 800000) :
    (W6 m ρ c (Proc.devRef .tc main_v11) : FVec Ideal S800000x128 .f32) (ix2 e q')
      = Host.gather Cert.ReferenceIdeal.gather_S50000x64_S800000x1_S800000x64_1_0_n_n_0_1_164
          (nodeLinear (F := Ideal) (argX m c) W b) (wrapIx (refSrc (argIdx m c))) (ix2 e j) :=
  (congrFun (W6_of m ρ c main_v11 (by decide)) (ix2 e q')).trans <|
  (after_take1_apply (W4 m ρ c) (inRange_v1 m ρ c hpre) e q').trans <|
  (congrFun (W4_of m ρ c main_v9 (by decide)) _).trans <|
  (h _).trans (gatheredLinear m c (v1_eq_refSrc m ρ c) _ (inRange_refSrc m c hpre) e j)

theorem es_apply (hpre : Cert.Pre_KernelIdeal m)
    (hv9E : ∀ (n : Fin 50000) (j : Fin 64) (q' : Fin 128) (hq' : q'.val = j.val),
      (W3 m ρ c (Proc.devRef .tc main_v9) : (⟨S50000x128, .f32⟩ : BufTy).Contents (Elt Ideal)) (ix2 n q')
        = (∑ k : Fin 64, argX m c (ix2 n k) * argWE m c (ix2 j k)) + argBE m c (ix1 j))
    (e : Fin 800000) (j : Fin 64) :
    (W6 m ρ c (Proc.devRef .tc main_v11) : FVec Ideal S800000x128 .f32) (ix2 e ⟨j.val, by omega⟩)
      = atArgs m c (refEs (F := Ideal)) (ix2 e j) :=
  src_apply m ρ c hpre j ⟨j.val, by omega⟩ (fun n => hv9E n j _ rfl) e

theorem bxs_apply (hpre : Cert.Pre_KernelIdeal m)
    (hv9B : ∀ (n : Fin 50000) (j : Fin 64) (q' : Fin 128) (hq' : q'.val = 64 + j.val),
      (W3 m ρ c (Proc.devRef .tc main_v9) : (⟨S50000x128, .f32⟩ : BufTy).Contents (Elt Ideal)) (ix2 n q')
        = (∑ k : Fin 64, argX m c (ix2 n k) * argWB m c (ix2 j k)) + argBB m c (ix1 j))
    (e : Fin 800000) (j : Fin 64) :
    (W6 m ρ c (Proc.devRef .tc main_v11) : FVec Ideal S800000x128 .f32) (ix2 e ⟨64 + j.val, by omega⟩)
      = atArgs m c (refBxs (F := Ideal)) (ix2 e j) :=
  src_apply m ρ c hpre j ⟨64 + j.val, by omega⟩ (fun n => hv9B n j _ rfl) e

end Cert.KernelIdeal.Val

end
-- ==== Proof.Val.Match1.lean ====
import proofs.«428159_j48533130445226_3_alg».proof.Proof.Ref.Read

-- The kernel's message and pre-normalisation formulas at an edge are the reference's stages, term by term.

noncomputable section

namespace Cert.KernelIdeal.Val

open Cert.ReferenceIdeal Cert.ReferenceIdeal.Gen Cert.ReferenceIdeal.Hand Idealize.ShloMosaic
open Idealize.ShloMosaic.ValueIdx
open scoped BigOperators

section Match1

variable (x : FVec Ideal S50000x64 .f32) (idx : IVec S2x800000 32) (ea : FVec Ideal S800000x64 .f32)
    (WA : FVec Ideal S64x64 .f32) (bA : FVec Ideal S64 .f32) (WB : FVec Ideal S64x64 .f32) (bB : FVec Ideal S64 .f32)
    (WD : FVec Ideal S64x64 .f32) (bD : FVec Ideal S64 .f32) (WE : FVec Ideal S64x64 .f32) (bE : FVec Ideal S64 .f32)
    (WC : FVec Ideal S64x64 .f32) (bC : FVec Ideal S64 .f32) (W1 : FVec Ideal S64x192 .f32) (b1 : FVec Ideal S64 .f32)
    (W2 : FVec Ideal S64x64 .f32) (b2 : FVec Ideal S64 .f32) (gn bn ge be : FVec Ideal S64 .f32)

local notation:max "⟪" f "⟫" => f (F := Ideal) x idx ea WA bA WB bB WD bD WE bE WC bC W1 b1 W2 b2 gn bn ge be

theorem msg_match (dd : FVec Ideal S800000x64 .f32) (eb : FVec Ideal (⟨2, ![800000, 128]⟩ : Shape) .f32)
    (hdd : dd = ⟪refDd⟫)
    (hes : ∀ (e : Fin 800000) (j : Fin 64), eb (ix2 e (⟨j.val, by omega⟩ : Fin 128)) = ⟪refEs⟫ (ix2 e j))
    (hbx : ∀ (e : Fin 800000) (j : Fin 64), eb (ix2 e (⟨64 + j.val, by omega⟩ : Fin 128)) = ⟪refBxs⟫ (ix2 e j))
    (e : Fin 800000) (j : Fin 64) :
    Ideal.logistic (((∑ k : Fin 64, ea (ix2 e k) * WC (ix2 j k)) + bC (ix1 j)) + dd (ix2 e j)
        + eb (ix2 e (⟨j.val, by omega⟩ : Fin 128)))
      * eb (ix2 e (⟨64 + j.val, by omega⟩ : Fin 128))
      = ⟪refMsg⟫ (ix2 e j) := by
  subst hdd
  rw [hes, hbx, refMsg_apply, refSigma_apply, refCe_apply]

theorem pre_match (dd : FVec Ideal S800000x64 .f32) (eb : FVec Ideal (⟨2, ![800000, 128]⟩ : Shape) .f32)
    (w1a w1b w1c : FVec Ideal S64x64 .f32)
    (hdd : dd = ⟪refDd⟫)
    (hes : ∀ (e : Fin 800000) (j : Fin 64), eb (ix2 e (⟨j.val, by omega⟩ : Fin 128)) = ⟪refEs⟫ (ix2 e j))
    (hw1a : ∀ j k : Fin 64, w1a (ix2 j k) = W1 (ix2 j (⟨k.val, by omega⟩ : Fin 192)))
    (hw1b : ∀ j k : Fin 64, w1b (ix2 j k) = W1 (ix2 j (⟨64 + k.val, by omega⟩ : Fin 192)))
    (hw1c : ∀ j k : Fin 64, w1c (ix2 j k) = W1 (ix2 j (⟨128 + k.val, by omega⟩ : Fin 192)))
    (e : Fin 800000) (q : Fin 64) :
    (∑ j : Fin 64,
        max (((∑ k : Fin 64, dd (ix2 e k) * w1a (ix2 j k))
              + (∑ k : Fin 64, eb (ix2 e (⟨k.val, by omega⟩ : Fin 128)) * w1b (ix2 j k))
              + (∑ k : Fin 64, ((∑ i : Fin 64, ea (ix2 e i) * WC (ix2 k i)) + bC (ix1 k)) * w1c (ix2 j k)))
            + b1 (ix1 j)) 0 * W2 (ix2 q j))
        + b2 (ix1 q)
      = ⟪refPre⟫ (ix2 e q) := by
  subst hdd
  simp only [refPre_apply, refLin1_apply, refCe_apply, hw1a, hw1b, hw1c, hes]

end Match1

end Cert.KernelIdeal.Val

end
-- ==== Proof.HKernelIdeal.Reg1.Pieces.lean ====
-- Region 1: at every point the two row outputs are one payload of the point's blocks; the scratch row moves by one step function.
import proofs.«428159_j48533130445226_3_alg».proof.Proof.HKernelIdeal.Reg1
import Idealize.ShloMosaic.Lib.Pipeline.Value
import Idealize.ShloMosaic.Lib.ValueIdx

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))
variable (c : Dev nD) (t : Fin cfg1.N)

theorem hz2 : (![0, 0] : Fin 2 → Nat) = fun _ => 0 := funext fun a => by fin_cases a <;> rfl
theorem hz1 : (![0] : Fin 1 → Nat) = fun _ => 0 := funext fun a => by fin_cases a; rfl

-- The message rows and the pre-normalisation rows a point leaves, as payloads of its input blocks.
abbrev msg1 : Vec F S4000x64 .f32 := k1_pay14 (k1_pay7 (iblk1 V c 4 t)) (k1_pay8 (iblk1 V c 0 t) (iblk1 V c 1 t) (iblk1 V c 2 t) (iblk1 V c 3 t) (iblk1 V c 4 t))
abbrev pre1 : Vec F S4000x64 .f32 := k1_pay13 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t)

-- In each of the three control cases the two row outputs end at the same two payloads.
theorem cont_out :
    (∀ h0 h1, (contA V c t h0 h1).1 = msg1 V c t ∧ (contA V c t h0 h1).2.1 = pre1 V c t)
    ∧ (∀ h0 h1 xs, (contB V c t h0 h1 xs).1 = msg1 V c t ∧ (contB V c t h0 h1 xs).2.1 = pre1 V c t)
    ∧ (∀ h0 h1 xs, (contC V c t h0 h1 xs).1 = msg1 V c t ∧ (contC V c t h0 h1 xs).2.1 = pre1 V c t) := by
  refine ⟨fun h0 h1 => ?_, fun h0 h1 xs => ?_, fun h0 h1 xs => ?_⟩ <;>
    (dsimp only [contA, contB, contC]
     rw [View.read_writes_junk_eq_canon, View.read_writes_junk_eq_canon]
     dsimp only [runA, runB, runC, kernelRun1_A, kernelRun1_B, kernelRun1_C]
     sl_unfold_words
     constructor <;> (rw [View.canon_unit_zero hz2]; simp only [msg1, pre1, View.readAt_eq_ld, Memref.IsWhole.read_unread, View.ld_unit_zero (S := S4000x64) hz2, View.ld_unit_zero (S := S4000x128) hz2, View.ld_unit_zero (S := S64x64) hz2, View.ld_unit_zero (S := S64) hz1]))

theorem outs_out :
    (outsAt1 V c t.val t.isLt).1 = msg1 V c t ∧ (outsAt1 V c t.val t.isLt).2.1 = pre1 V c t := by
  have hN : t.val < 200 := lt_of_lt_of_eq t.isLt (show cfg1.N = 200 from N_1)
  by_cases h1 : t.val % 200 = 199
  · have h0 : ¬t.val % 200 = 0 := by omega
    rw [outsAt1_last V c t h0 h1]; exact (cont_out V c t).2.2 h0 h1 _
  · by_cases h0 : t.val % 200 = 0
    · rw [outsAt1_first V c t h0 h1]; exact (cont_out V c t).1 h0 h1
    · rw [outsAt1_middle V c t h0 h1]; exact (cont_out V c t).2.1 h0 h1 _

theorem out11_eq :
    (outsAt1 V c t.val t.isLt).1 = k1_pay14 (k1_pay7 (iblk1 V c 4 t)) (k1_pay8 (iblk1 V c 0 t) (iblk1 V c 1 t) (iblk1 V c 2 t) (iblk1 V c 3 t) (iblk1 V c 4 t)) :=
  (outs_out V c t).1

theorem out12_eq :
    (outsAt1 V c t.val t.isLt).2.1 = k1_pay13 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t) :=
  (outs_out V c t).2

abbrev rLo : Rect S1x128 := Rect.unit (s := S1x128) ![0, 0] S1x64.size inb_S1x128_S1x64_0_0
abbrev rHi : Rect S1x128 := Rect.unit (s := S1x128) ![0, 64] S1x64.size inb_S1x128_S1x64_0_64

def scrStep1 (c : Dev nD) (t : Fin cfg1.N) (xs : Vec F S1x128 .f32) : Vec F S1x128 .f32 :=
  View.canon [⟨rHi, k1_pay1 (k1_pay16 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t) (View.ld xs rHi))⟩,
    ⟨rLo, k1_pay15 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t) (View.ld xs rLo)⟩]

theorem emb_rLo (q : Fin 64) : (ix2 (0 : Fin 1) (⟨q.val, by omega⟩ : Fin 128) : S1x128.Idx) = rLo.emb (ix2 (0 : Fin 1) q) := by
  funext a; apply Fin.ext
  match a with
  | ⟨0, _⟩ => show 0 = 0 + 1 * 0; rfl
  | ⟨1, _⟩ => show q.val = 0 + 1 * q.val; omega

theorem emb_rHi (q : Fin 64) : (ix2 (0 : Fin 1) (⟨64 + q.val, by omega⟩ : Fin 128) : S1x128.Idx) = rHi.emb (ix2 (0 : Fin 1) q) := by
  funext a; apply Fin.ext
  match a with
  | ⟨0, _⟩ => show 0 = 0 + 1 * 0; rfl
  | ⟨1, _⟩ => show 64 + q.val = 64 + 1 * q.val; omega

theorem ld_rLo (xs : Vec F S1x128 .f32) (q : Fin 64) :
    View.ld xs rLo (ix2 (0 : Fin 1) q) = xs (ix2 (0 : Fin 1) ⟨q.val, by omega⟩) :=
  (congrArg xs (emb_rLo q)).symm

theorem ld_rHi (xs : Vec F S1x128 .f32) (q : Fin 64) :
    View.ld xs rHi (ix2 (0 : Fin 1) q) = xs (ix2 (0 : Fin 1) ⟨64 + q.val, by omega⟩) :=
  (congrArg xs (emb_rHi q)).symm

theorem mem_rHi (y : S1x128.Idx) : y ∈ rHi.set ↔ 64 ≤ (y 1).val := by
  rw [Rect.mem_set_unit]
  constructor
  · intro h; exact (h 1).1
  · intro h a
    have h0 : (y 0).val < 1 := (y 0).isLt
    have h1 : (y 1).val < 128 := (y 1).isLt
    match a with
    | ⟨0, _⟩ => show 0 ≤ (y 0).val ∧ (y 0).val < 0 + 1; omega
    | ⟨1, _⟩ => show 64 ≤ (y 1).val ∧ (y 1).val < 64 + 64; omega

theorem mem_rLo (y : S1x128.Idx) : y ∈ rLo.set ↔ (y 1).val < 64 := by
  rw [Rect.mem_set_unit]
  constructor
  · intro h; have := (h 1).2; show (y 1).val < 64; exact (by simpa using this)
  · intro h a
    have h0 : (y 0).val < 1 := (y 0).isLt
    match a with
    | ⟨0, _⟩ => show 0 ≤ (y 0).val ∧ (y 0).val < 0 + 1; omega
    | ⟨1, _⟩ => show 0 ≤ (y 1).val ∧ (y 1).val < 0 + 64; omega

theorem scrStep1_lo (xs : Vec F S1x128 .f32) (q : Fin 64) :
    scrStep1 V c t xs (ix2 (0 : Fin 1) ⟨q.val, by omega⟩)
      = k1_pay15 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t) (View.ld xs rLo) (ix2 (0 : Fin 1) q) := by
  unfold scrStep1
  rw [View.canon_cons_of_not_mem _ _ (by rw [mem_rHi]; show ¬(64 ≤ q.val); omega), emb_rLo, View.canon_cons_emb]

theorem scrStep1_hi (xs : Vec F S1x128 .f32) (q : Fin 64) :
    scrStep1 V c t xs (ix2 (0 : Fin 1) ⟨64 + q.val, by omega⟩)
      = k1_pay1 (k1_pay16 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t) (View.ld xs rHi)) (ix2 (0 : Fin 1) q) := by
  unfold scrStep1
  rw [emb_rHi, View.canon_cons_emb]

end Cert.KernelIdeal.Frame

end
-- ==== Proof.Val.Pay1.lean ====
-- The edge-update region's arithmetic, read at one entry of each block, at the ideal values.
import Mathlib.Algebra.BigOperators.Group.Finset.Basic
import Idealize.ShloMosaic.Lib.ValueIdx
import Idealize.ShloMosaic.Lib.Pipeline.Value
import Idealize.ShloMosaic.Lib.ValueLayout
import Idealize.ShloMosaic.PureOps.Ideal.Laws
import proofs.«428159_j48533130445226_3_alg».proof.Proof.Gen.KernelIdeal.Skeleton
import proofs.«428159_j48533130445226_3_alg».proof.Proof.Val.BNMath

noncomputable section

namespace Cert.KernelIdeal.Val

open Idealize.ShloMosaic Idealize.ShloMosaic.ValueIdx
open Cert.KernelIdeal Cert.KernelIdeal.Gen

theorem dotW_lhs_0 (i : S4000x64.Idx) (c : dot_S4000x64_S64x64_S4000x64_1_0_0_1_n_n.contr.Idx) :
    (dot_S4000x64_S64x64_S4000x64_1_0_0_1_n_n.lhsIdx i c 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

theorem dotW_rhs_1 (i : S4000x64.Idx) (c : dot_S4000x64_S64x64_S4000x64_1_0_0_1_n_n.contr.Idx) :
    (dot_S4000x64_S64x64_S4000x64_1_0_0_1_n_n.rhsIdx i c 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

-- A block times the transpose of a weight: entry (p, q) is the sum over k of x (p, k) w (q, k).
theorem matmulT_apply {φ₁ φ₂ : FTy} (x : FVec Ideal S4000x64 φ₁) (w : FVec Ideal S64x64 φ₂)
    (ht : S64x64.Transposes [1, 0] S64x64) (p : Fin 4000) (q : Fin 64) :
    matmul dot_S4000x64_S64x64_S4000x64_1_0_0_1_n_n none x (transpose S64x64 [1, 0] w ht)
        (constant S4000x64 .f32 0x00000000#32) (ix2 p q)
      = ∑ k : Fin 64, x (ix2 p k) * w (ix2 q k) := by
  simp only [matmul]
  rw [Ideal.matmul_constant_zero_apply,
    ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q)
      ((contrEquiv1 dot_S4000x64_S64x64_S4000x64_1_0_0_1_n_n 64 rfl rfl).symm k) = ix2 p k :=
    funext fun a => Fin.ext (by
      match a with
      | ⟨0, _⟩ => exact dotW_lhs_0 _ _
      | ⟨1, _⟩ => exact (dot_S4000x64_S64x64_S4000x64_1_0_0_1_n_n.lhsIdx_val_of_single rfl _ _).trans hk)
  have er : dot_S4000x64_S64x64_S4000x64_1_0_0_1_n_n.rhsIdx (ix2 p q)
      ((contrEquiv1 dot_S4000x64_S64x64_S4000x64_1_0_0_1_n_n 64 rfl rfl).symm k) = ix2 k q :=
    funext fun a => Fin.ext (by
      match a with
      | ⟨0, _⟩ => exact (dot_S4000x64_S64x64_S4000x64_1_0_0_1_n_n.rhsIdx_val_of_single rfl _ _).trans hk
      | ⟨1, _⟩ => exact dotW_rhs_1 _ _)
  rw [el, er, transpose_ix2_apply]

theorem biasRow_apply {α : Type} (b : S64.Idx → α) (hsc : S64.ShapeCasts S1x64) (hbc : S1x64.Broadcasts S4000x64)
    (p : Fin 4000) (q : Fin 64) :
    broadcastTo S4000x64 (shapeCast S1x64 b hsc) hbc (ix2 p q) = b (ix1 q) :=
  (broadcastTo_1b_ab_apply _ hbc p q).trans (shapeCast_a_1a_apply b hsc 0 q)

theorem shapeCast_same_apply {α : Type} {s : Shape} (x : s.Idx → α) (h : s.ShapeCasts s) (j : s.Idx) :
    shapeCast s x h j = x j :=
  shapeCast_apply x h j j rfl

variable (ea : Vec Ideal S4000x64 .f32) (wc : Vec Ideal S64x64 .f32) (bc : Vec Ideal S64 .f32)
  (dd : Vec Ideal S4000x64 .f32) (eb : Vec Ideal S4000x128 .f32) (w1a w1b w1c : Vec Ideal S64x64 .f32)
  (b1 : Vec Ideal S64 .f32) (w2 : Vec Ideal S64x64 .f32) (b2 : Vec Ideal S64 .f32) (p : Fin 4000) (q : Fin 64)

-- The C-projection of the edge features at (p, q).
def ce : EReal :=
  (∑ k : Fin 64, ea (ix2 p k) * wc (ix2 q k)) + bc (ix1 q)

theorem pay3_apply : k1_pay3 ea wc bc (ix2 p q) = ce ea wc bc p q := by
  unfold k1_pay3 ce
  exact congrArg₂ (· + ·) (matmulT_apply _ _ _ p q) (biasRow_apply _ _ _ p q)

theorem pay4_apply : k1_pay4 dd (ix2 p q) = dd (ix2 p q) := by
  unfold k1_pay4
  exact shapeCast_same_apply dd _ _

theorem pay6_apply : k1_pay6 eb (ix2 p q) = eb (ix2 p ⟨q.val, by omega⟩) := by
  unfold k1_pay6 k1_pay5
  refine (slice2_axis1_apply (n1 := 128) 0 _ _ p q ⟨q.val, by omega⟩ (Nat.zero_add q.val).symm).trans ?_
  exact shapeCast_same_apply eb _ _

theorem pay7_apply : k1_pay7 eb (ix2 p q) = eb (ix2 p ⟨64 + q.val, by omega⟩) := by
  unfold k1_pay7 k1_pay5
  refine (slice2_axis1_apply (n1 := 128) 64 _ _ p q ⟨64 + q.val, by omega⟩ rfl).trans ?_
  exact shapeCast_same_apply eb _ _

-- The message block at (p, q): the logistic gate times the gathered B entry.
theorem msg_apply : k1_pay14 (k1_pay7 eb) (k1_pay8 ea wc bc dd eb) (ix2 p q)
      = Ideal.logistic (ce ea wc bc p q + dd (ix2 p q) + eb (ix2 p ⟨q.val, by omega⟩))
        * eb (ix2 p ⟨64 + q.val, by omega⟩) := by
  show Ideal.logistic (k1_pay3 ea wc bc (ix2 p q) + k1_pay4 dd (ix2 p q) + k1_pay6 eb (ix2 p q)) * k1_pay7 eb (ix2 p q) = _
  rw [pay3_apply, pay4_apply, pay6_apply, pay7_apply]

theorem pay10_apply (j k : Fin 64) : k1_pay10 w1c (ix2 j k) = w1c (ix2 j k) := by
  unfold k1_pay10
  exact shapeCast_same_apply w1c _ _

theorem pay11_apply : k1_pay11 dd w1a (ix2 p q) = ∑ k : Fin 64, dd (ix2 p k) * w1a (ix2 q k) := by
  unfold k1_pay11
  refine (matmulT_apply _ _ _ p q).trans ?_
  exact Finset.sum_congr rfl fun k _ => congrArg₂ (· * ·) (pay4_apply dd p k) (shapeCast_same_apply w1a _ _)

theorem pay12_apply : k1_pay12 eb w1b (ix2 p q) = ∑ k : Fin 64, eb (ix2 p ⟨k.val, by omega⟩) * w1b (ix2 q k) := by
  unfold k1_pay12
  refine (matmulT_apply _ _ _ p q).trans ?_
  exact Finset.sum_congr rfl fun k _ => congrArg₂ (· * ·) (pay6_apply eb p k) (shapeCast_same_apply w1b _ _)

-- The hidden layer at (p, j): the three first-layer products, plus the bias, clamped below at 0.
def hid (j : Fin 64) : EReal :=
  max (((∑ k : Fin 64, dd (ix2 p k) * w1a (ix2 j k))
        + (∑ k : Fin 64, eb (ix2 p ⟨k.val, by omega⟩) * w1b (ix2 j k))
        + (∑ k : Fin 64, ce ea wc bc p k * w1c (ix2 j k)))
      + b1 (ix1 j)) 0

-- Entry (p, q) before normalisation: the second-layer weight applied to the hidden layer, bias added.
def pre : EReal :=
  (∑ j : Fin 64, hid ea wc bc dd eb w1a w1b w1c b1 p j * w2 (ix2 q j)) + b2 (ix1 q)

theorem pre_apply :
    k1_pay13 (k1_pay9 ea wc bc) (k1_pay10 w1c) (k1_pay11 dd w1a) (k1_pay12 eb w1b) b1 w2 b2 (ix2 p q)
      = pre ea wc bc dd eb w1a w1b w1c b1 w2 b2 p q := by
  unfold k1_pay13 pre hid
  refine congrArg₂ (· + ·) ((matmulT_apply _ _ _ p q).trans ?_) (biasRow_apply _ _ _ p q)
  refine Finset.sum_congr rfl fun j _ => congrArg₂ (· * ·) ?_ rfl
  refine congrArg₂ max ?_ ofBits_zero'
  refine congrArg₂ (· + ·) ?_ (biasRow_apply _ _ _ p j)
  refine congrArg₂ (· + ·) (congrArg₂ (· + ·) (pay11_apply dd w1a p j) (pay12_apply eb w1b p j)) ?_
  refine (matmulT_apply _ _ _ p j).trans ?_
  exact Finset.sum_congr rfl fun k _ => congrArg₂ (· * ·) (pay3_apply ea wc bc p k) (pay10_apply w1c j k)

theorem colsum_apply (X : FVec Ideal S4000x64 .f32) (acc : BitVec 32) (hr : S4000x64.Reduces [0] S64)
    (hφ : FKind.Formats .f32) (hacc : acc = FKind.add.neutral .f32 hφ) (j : Fin 64) :
    multiReduction (F := Ideal) .add [0] S64 X acc hr hφ hacc (ix1 j) = ∑ p : Fin 4000, X (ix2 p j) := by
  refine (Ideal.multiReduction_add_single X acc hr hφ hacc (ix1 j)).trans ?_
  refine Finset.sum_congr rfl fun p _ => congrArg X ?_
  funext a
  match a with
  | ⟨0, _⟩ => rfl
  | ⟨1, _⟩ => rfl

-- The first slice of the carried row after a point: the slice plus the column sums of the point's block.
theorem pay15_apply (s : Vec Ideal S1x64 .f32) (j : Fin 64) :
    k1_pay15 (k1_pay9 ea wc bc) (k1_pay10 w1c) (k1_pay11 dd w1a) (k1_pay12 eb w1b) b1 w2 b2 s (ix2 (0 : Fin 1) j)
      = s (ix2 (0 : Fin 1) j) + ∑ p : Fin 4000, pre ea wc bc dd eb w1a w1b w1c b1 w2 b2 p j := by
  unfold k1_pay15
  refine (shapeCast_same_apply _ _ _).trans ?_
  refine congrArg₂ (· + ·) rfl ?_
  refine (shapeCast_a_1a_apply _ _ 0 j).trans ?_
  refine (colsum_apply _ _ _ _ _ j).trans ?_
  exact Finset.sum_congr rfl fun p _ => pre_apply ea wc bc dd eb w1a w1b w1c b1 w2 b2 p j

-- The second slice: the slice plus the column sums of the squares.
theorem pay16_apply (s : Vec Ideal S1x64 .f32) (j : Fin 64) :
    k1_pay16 (k1_pay9 ea wc bc) (k1_pay10 w1c) (k1_pay11 dd w1a) (k1_pay12 eb w1b) b1 w2 b2 s (ix2 (0 : Fin 1) j)
      = s (ix2 (0 : Fin 1) j)
        + ∑ p : Fin 4000, pre ea wc bc dd eb w1a w1b w1c b1 w2 b2 p j * pre ea wc bc dd eb w1a w1b w1c b1 w2 b2 p j := by
  unfold k1_pay16
  refine congrArg₂ (· + ·) rfl ?_
  refine (shapeCast_a_1a_apply _ _ 0 j).trans ?_
  refine (colsum_apply _ _ _ _ _ j).trans ?_
  exact Finset.sum_congr rfl fun p _ =>
    have h := pre_apply ea wc bc dd eb w1a w1b w1c b1 w2 b2 p j
    congrArg₂ (· * ·) h h

theorem pay1_apply (x : FVec Ideal S1x64 .f32) (j : S1x64.Idx) : k1_pay1 x j = x j := by
  unfold k1_pay1
  exact shapeCast_same_apply x _ j

theorem pay2_apply (j : S1x128.Idx) : (k1_pay2 (F := Ideal)) j = 0 := by
  unfold k1_pay2
  refine (shapeCast_same_apply _ _ j).trans ?_
  exact ofBits_zero'

end Cert.KernelIdeal.Val

end
-- ==== Proof.Val.Reg1Val.lean ====
-- Region 1 at the ideal values: the message array and the pre-normalisation array after the region, entry by entry.
import proofs.«428159_j48533130445226_3_alg».proof.Proof.HKernelIdeal.Reg1.Pieces
import proofs.«428159_j48533130445226_3_alg».proof.Proof.Val.Pay1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open scoped BigOperators

variable (V : (c : Dev nD) → (b : Ref sig .tc) → Buf (Elt Ideal) ((c : Thread nD τ).loc b))

abbrev ea1 (c : Dev nD) : Vec Ideal S800000x64 .f32 := V c (Pipeline.arrRef spec1 0)
abbrev wc1 (c : Dev nD) : Vec Ideal S64x64 .f32 := V c (Pipeline.arrRef spec1 1)
abbrev bc1 (c : Dev nD) : Vec Ideal S64 .f32 := V c (Pipeline.arrRef spec1 2)
abbrev dd1 (c : Dev nD) : Vec Ideal S800000x64 .f32 := V c (Pipeline.arrRef spec1 3)
abbrev eb1 (c : Dev nD) : Vec Ideal S800000x128 .f32 := V c (Pipeline.arrRef spec1 4)
abbrev w1a1 (c : Dev nD) : Vec Ideal S64x64 .f32 := V c (Pipeline.arrRef spec1 5)
abbrev w1b1 (c : Dev nD) : Vec Ideal S64x64 .f32 := V c (Pipeline.arrRef spec1 6)
abbrev w1c1 (c : Dev nD) : Vec Ideal S64x64 .f32 := V c (Pipeline.arrRef spec1 7)
abbrev b1_1 (c : Dev nD) : Vec Ideal S64 .f32 := V c (Pipeline.arrRef spec1 8)
abbrev w2_1 (c : Dev nD) : Vec Ideal S64x64 .f32 := V c (Pipeline.arrRef spec1 9)
abbrev b2_1 (c : Dev nD) : Vec Ideal S64 .f32 := V c (Pipeline.arrRef spec1 10)

-- Decided point by point over the 200 points.
theorem idx_facts1 : ∀ t : Fin cfg1.N, win1_0.index t (0 : Fin 2) = t.val
    ∧ win1_0.index t (1 : Fin 2) = 0
    ∧ win1_4.index t (0 : Fin 2) = t.val
    ∧ win1_4.index t (1 : Fin 2) = 0
    ∧ win1_1.index t (0 : Fin 2) = 0
    ∧ win1_1.index t (1 : Fin 2) = 0
    ∧ win1_2.index t (0 : Fin 1) = 0 :=
  (by decide +kernel : ∀ t : Fin grid1.N, _)

def rowOf (t : Fin cfg1.N) (p : Fin 4000) : Fin 800000 :=
  ⟨4000 * t.val + p.val, by have h : t.val < 200 := lt_of_lt_of_eq t.isLt (show cfg1.N = 200 from N_1); omega⟩

-- Entry (p, q) of point t's row block is entry (4000 t + p, q) of its array; the five row-blocked arrays are cut alike.
theorem emb_row (t : Fin cfg1.N) (p : Fin 4000) (q : Fin 64) :
    ((cfg1.win 0).blk t).view.emb (ix2 p q) = (ix2 (rowOf t p) q : S800000x64.Idx) := by
  have := idx_facts1 t
  funext a; apply Fin.ext
  match a with
  | ⟨0, _⟩ => show win1_0.index t (0 : Fin 2) * 4000 + 1 * p.val = 4000 * t.val + p.val; omega
  | ⟨1, _⟩ => show win1_0.index t (1 : Fin 2) * 64 + 1 * q.val = q.val; omega

theorem emb_row4 (t : Fin cfg1.N) (p : Fin 4000) (q : Fin 128) :
    ((cfg1.win 4).blk t).view.emb (ix2 p q) = (ix2 (rowOf t p) q : S800000x128.Idx) := by
  have := idx_facts1 t
  funext a; apply Fin.ext
  match a with
  | ⟨0, _⟩ => show win1_4.index t (0 : Fin 2) * 4000 + 1 * p.val = 4000 * t.val + p.val; omega
  | ⟨1, _⟩ => show win1_4.index t (1 : Fin 2) * 128 + 1 * q.val = q.val; omega

-- A weight's or a bias's block is its whole array.
theorem emb_mat (t : Fin cfg1.N) (j k : Fin 64) :
    ((cfg1.win 1).blk t).view.emb (ix2 j k) = (ix2 j k : S64x64.Idx) := by
  have := idx_facts1 t
  funext a; apply Fin.ext
  match a with
  | ⟨0, _⟩ => show win1_1.index t (0 : Fin 2) * 64 + 1 * j.val = j.val; omega
  | ⟨1, _⟩ => show win1_1.index t (1 : Fin 2) * 64 + 1 * k.val = k.val; omega

theorem emb_vec (t : Fin cfg1.N) (j : Fin 64) :
    ((cfg1.win 2).blk t).view.emb (ix1 j) = (ix1 j : S64.Idx) := by
  have := idx_facts1 t
  funext a; apply Fin.ext
  match a with
  | ⟨0, _⟩ => show win1_2.index t (0 : Fin 1) * 64 + 1 * j.val = j.val; omega

variable (c : Dev nD) (t : Fin cfg1.N) (p : Fin 4000) (j k : Fin 64)

theorem blk1_0 : (iblk1 V c 0 t : Vec Ideal S4000x64 .f32) (ix2 p k) = ea1 V c (ix2 (rowOf t p) k) :=
  congrArg (ea1 V c) (emb_row t p k)
theorem blk1_1 : (iblk1 V c 1 t : Vec Ideal S64x64 .f32) (ix2 j k) = wc1 V c (ix2 j k) :=
  congrArg (wc1 V c) (emb_mat t j k)
theorem blk1_2 : (iblk1 V c 2 t : Vec Ideal S64 .f32) (ix1 j) = bc1 V c (ix1 j) :=
  congrArg (bc1 V c) (emb_vec t j)
theorem blk1_3 : (iblk1 V c 3 t : Vec Ideal S4000x64 .f32) (ix2 p k) = dd1 V c (ix2 (rowOf t p) k) :=
  congrArg (dd1 V c) (emb_row t p k)
theorem blk1_4 (k : Fin 128) : (iblk1 V c 4 t : Vec Ideal S4000x128 .f32) (ix2 p k) = eb1 V c (ix2 (rowOf t p) k) :=
  congrArg (eb1 V c) (emb_row4 t p k)
theorem blk1_5 : (iblk1 V c 5 t : Vec Ideal S64x64 .f32) (ix2 j k) = w1a1 V c (ix2 j k) :=
  congrArg (w1a1 V c) (emb_mat t j k)
theorem blk1_6 : (iblk1 V c 6 t : Vec Ideal S64x64 .f32) (ix2 j k) = w1b1 V c (ix2 j k) :=
  congrArg (w1b1 V c) (emb_mat t j k)
theorem blk1_7 : (iblk1 V c 7 t : Vec Ideal S64x64 .f32) (ix2 j k) = w1c1 V c (ix2 j k) :=
  congrArg (w1c1 V c) (emb_mat t j k)
theorem blk1_8 : (iblk1 V c 8 t : Vec Ideal S64 .f32) (ix1 j) = b1_1 V c (ix1 j) :=
  congrArg (b1_1 V c) (emb_vec t j)
theorem blk1_9 : (iblk1 V c 9 t : Vec Ideal S64x64 .f32) (ix2 j k) = w2_1 V c (ix2 j k) :=
  congrArg (w2_1 V c) (emb_mat t j k)
theorem blk1_10 : (iblk1 V c 10 t : Vec Ideal S64 .f32) (ix1 j) = b2_1 V c (ix1 j) :=
  congrArg (b2_1 V c) (emb_vec t j)

-- Every row of the array is a row of one point's block.
theorem rows_surj (i : S800000x64.Idx) : ∃ (t : Fin cfg1.N) (p : Fin 4000) (q : Fin 64), i = ix2 (rowOf t p) q := by
  have h : (i 0).val < 800000 := (i 0).isLt
  refine ⟨⟨(i 0).val / 4000, by rw [show cfg1.N = 200 from N_1]; omega⟩, ⟨(i 0).val % 4000, Nat.mod_lt _ (by norm_num)⟩, i 1,
    (eq_ix2 i).trans (congrArg (fun r => ix2 r (i 1)) (Fin.ext ?_))⟩
  show (i 0).val = 4000 * ((i 0).val / 4000) + (i 0).val % 4000
  omega

def msgAt (e : Fin 800000) (j : Fin 64) : EReal :=
  Ideal.logistic (((∑ k : Fin 64, ea1 V c (ix2 e k) * wc1 V c (ix2 j k)) + bc1 V c (ix1 j)) + dd1 V c (ix2 e j)
        + eb1 V c (ix2 e (⟨j.val, by omega⟩ : Fin 128)))
      * eb1 V c (ix2 e (⟨64 + j.val, by omega⟩ : Fin 128))

def preAtArr (e : Fin 800000) (q : Fin 64) : EReal :=
  (∑ j : Fin 64,
        max (((∑ k : Fin 64, dd1 V c (ix2 e k) * w1a1 V c (ix2 j k))
              + (∑ k : Fin 64, eb1 V c (ix2 e (⟨k.val, by omega⟩ : Fin 128)) * w1b1 V c (ix2 j k))
              + (∑ k : Fin 64, ((∑ i : Fin 64, ea1 V c (ix2 e i) * wc1 V c (ix2 k i)) + bc1 V c (ix1 k)) * w1c1 V c (ix2 j k)))
            + b1_1 V c (ix1 j)) 0 * w2_1 V c (ix2 q j))
        + b2_1 V c (ix1 q)

-- The two-layer network of point t's blocks at (p, q) is the network of the arrays at row 4000 t + p.
theorem pre_blk (q : Fin 64) :
    pre (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q = preAtArr V c (rowOf t p) q := by
  unfold pre hid ce preAtArr
  simp only [blk1_0, blk1_1, blk1_2, blk1_3, blk1_4, blk1_5, blk1_6, blk1_7, blk1_8, blk1_9, blk1_10]

theorem final1_11 : (dat1 (F := Ideal) V c).arrAt 11 cfg1.N = fun i : S800000x64.Idx => msgAt V c (i 0) (i 1) :=
  (dat1 (F := Ideal) V c).arrAt_eq_of_cover 11 _ (fun t _ => by
    show (cfg1.win 11).cut (grid1.coords t) ((dat1 (F := Ideal) V c).after 11 t) = _
    rw [after1_11, out11_eq]
    funext y
    obtain ⟨p, q, rfl⟩ : ∃ (p : Fin 4000) (q : Fin 64), y = ix2 p q := ⟨y 0, y 1, eq_ix2 y⟩
    show k1_pay14 (k1_pay7 (iblk1 V c 4 t)) (k1_pay8 (iblk1 V c 0 t) (iblk1 V c 1 t) (iblk1 V c 2 t) (iblk1 V c 3 t) (iblk1 V c 4 t)) (ix2 p q)
      = msgAt V c ((((cfg1.win 0).blk t).view.emb (ix2 p q)) 0) ((((cfg1.win 0).blk t).view.emb (ix2 p q)) 1)
    rw [emb_row t p q, msg_apply]
    unfold ce msgAt
    simp only [blk1_0, blk1_1, blk1_2, blk1_3, blk1_4]
    rfl) fun i => by
    obtain ⟨t, p, q, rfl⟩ := rows_surj i
    exact ⟨t, flush1_11 t, emb_row t p q ▸ ((cfg1.win 11).blk t).view.emb_mem_set (ix2 p q)⟩

theorem final1_12 : (dat1 (F := Ideal) V c).arrAt 12 cfg1.N = fun i : S800000x64.Idx => preAtArr V c (i 0) (i 1) :=
  (dat1 (F := Ideal) V c).arrAt_eq_of_cover 12 _ (fun t _ => by
    show (cfg1.win 12).cut (grid1.coords t) ((dat1 (F := Ideal) V c).after 12 t) = _
    rw [after1_12, out12_eq]
    funext y
    obtain ⟨p, q, rfl⟩ : ∃ (p : Fin 4000) (q : Fin 64), y = ix2 p q := ⟨y 0, y 1, eq_ix2 y⟩
    show k1_pay13 (k1_pay9 (iblk1 V c 0 t) (iblk1 V c 1 t) (iblk1 V c 2 t)) (k1_pay10 (iblk1 V c 7 t)) (k1_pay11 (iblk1 V c 3 t) (iblk1 V c 5 t)) (k1_pay12 (iblk1 V c 4 t) (iblk1 V c 6 t)) (iblk1 V c 8 t) (iblk1 V c 9 t) (iblk1 V c 10 t) (ix2 p q)
      = preAtArr V c ((((cfg1.win 0).blk t).view.emb (ix2 p q)) 0) ((((cfg1.win 0).blk t).view.emb (ix2 p q)) 1)
    rw [emb_row t p q, pre_apply]
    exact pre_blk V c t p q) fun i => by
    obtain ⟨t, p, q, rfl⟩ := rows_surj i
    exact ⟨t, flush1_12 t, emb_row t p q ▸ ((cfg1.win 12).blk t).view.emb_mem_set (ix2 p q)⟩

theorem final1_11_apply (c : Dev nD) (e : Fin 800000) (j : Fin 64) :
    ((dat1 (F := Ideal) V c).arrAt 11 cfg1.N : Vec Ideal S800000x64 .f32) (ix2 e j)
      = Ideal.logistic (((∑ k : Fin 64, ea1 V c (ix2 e k) * wc1 V c (ix2 j k)) + bc1 V c (ix1 j)) + dd1 V c (ix2 e j)
        + eb1 V c (ix2 e (⟨j.val, by omega⟩ : Fin 128)))
      * eb1 V c (ix2 e (⟨64 + j.val, by omega⟩ : Fin 128)) := by
  rw [final1_11]
  rfl

theorem final1_12_apply (c : Dev nD) (e : Fin 800000) (q : Fin 64) :
    ((dat1 (F := Ideal) V c).arrAt 12 cfg1.N : Vec Ideal S800000x64 .f32) (ix2 e q)
      = (∑ j : Fin 64,
        max (((∑ k : Fin 64, dd1 V c (ix2 e k) * w1a1 V c (ix2 j k))
              + (∑ k : Fin 64, eb1 V c (ix2 e (⟨k.val, by omega⟩ : Fin 128)) * w1b1 V c (ix2 j k))
              + (∑ k : Fin 64, ((∑ i : Fin 64, ea1 V c (ix2 e i) * wc1 V c (ix2 k i)) + bc1 V c (ix1 k)) * w1c1 V c (ix2 j k)))
            + b1_1 V c (ix1 j)) 0 * w2_1 V c (ix2 q j))
        + b2_1 V c (ix1 q) := by
  rw [final1_12]
  rfl

end Cert.KernelIdeal.Val
-- ==== Proof.HKernelIdeal.Reg1.Scratch.lean ====
-- Region 1: the scratch row after each point is one step of the row the point before left (of the zero row at the first point); at the last point the statistics window holds that row.
import proofs.«428159_j48533130445226_3_alg».proof.Proof.HKernelIdeal.Reg1.Pieces

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))
variable (c : Dev nD) (t : Fin cfg1.N)

theorem read_scratch (xs : Vec F S1x128 .f32) :
    View.read (Elt F) (View.whole cc1_scratch0) ((Memref.isWhole_whole cc1_scratch0).unread xs) = xs :=
  (Memref.isWhole_whole cc1_scratch0).read_unread xs

theorem contB_s (h0 : ¬t.val % 200 = 0) (h1 : ¬t.val % 200 = 199) (xs : Vec F S1x128 .f32) :
    (contB V c t h0 h1 xs).2.2.2 = scrStep1 V c t xs := by
  unfold contB
  dsimp only
  rw [View.read_writes_junk_eq_canon]
  unfold runB kernelRun1_B
  dsimp only
  sl_unfold_words
  simp only [View.readAt_eq_ld, Memref.IsWhole.read_unread, View.ld_unit_zero (S := S4000x64) hz2, View.ld_unit_zero (S := S4000x128) hz2, View.ld_unit_zero (S := S64x64) hz2, View.ld_unit_zero (S := S64) hz1, read_scratch]
  rfl

theorem contC_s (h0 : ¬t.val % 200 = 0) (h1 : t.val % 200 = 199) (xs : Vec F S1x128 .f32) :
    (contC V c t h0 h1 xs).2.2.1 = scrStep1 V c t xs ∧ (contC V c t h0 h1 xs).2.2.2 = scrStep1 V c t xs := by
  unfold contC
  dsimp only
  rw [View.read_writes_junk_eq_canon, View.read_writes_junk_eq_canon]
  unfold runC kernelRun1_C
  dsimp only
  sl_unfold_words
  rw [View.canon_unit_zero hz2, View.readCov_eq_canon']
  simp only [View.readAt_eq_ld, Memref.IsWhole.read_unread, View.ld_unit_zero (S := S4000x64) hz2, View.ld_unit_zero (S := S4000x128) hz2, View.ld_unit_zero (S := S64x64) hz2, View.ld_unit_zero (S := S64) hz1, read_scratch]
  exact ⟨View.ld_unit_zero (S := S1x128) hz2 _ (scrStep1 V c t xs), rfl⟩

abbrev rAll : Rect S1x128 := Rect.unit (s := S1x128) ![0, 0] S1x128.size inb_S1x128_S1x128_0_0

theorem readCov_zero_lo (v : View sig .tc .vmem S1x128 .f32) :
    v.readCov [(⟨rAll, k1_pay2 (F := F)⟩ : View.Piece (Elt F) S1x128 .f32)] rLo.toLoadRect = View.ld (k1_pay2 (F := F)) rLo := by
  rw [View.readCov_eq_canon', View.canon_unit_zero hz2]

theorem readCov_lo_zero_hi (v : View sig .tc .vmem S1x128 .f32) (w : rLo.shape.Idx → Elt F .f32) :
    v.readCov [(⟨rLo, w⟩ : View.Piece (Elt F) S1x128 .f32), ⟨rAll, k1_pay2 (F := F)⟩] rHi.toLoadRect = View.ld (k1_pay2 (F := F)) rHi := by
  rw [View.readCov_eq_canon']
  funext j
  have hj : rHi.toLoadRect.idx j ∉ rLo.set := by
    rw [mem_rLo]; show ¬(64 + 1 * (j 1).val < 64); omega
  rw [View.canon_cons_of_not_mem _ _ hj, View.canon_unit_zero hz2]

-- The whole-row store lies under the two half-row stores, which cover the row, and does not show.
theorem canon_hi_lo_all (wh : rHi.shape.Idx → Elt F .f32) (wl : rLo.shape.Idx → Elt F .f32) (z : rAll.shape.Idx → Elt F .f32) :
    View.canon [(⟨rHi, wh⟩ : View.Piece (Elt F) S1x128 .f32), ⟨rLo, wl⟩, ⟨rAll, z⟩]
      = View.canon [(⟨rHi, wh⟩ : View.Piece (Elt F) S1x128 .f32), ⟨rLo, wl⟩] := by
  funext y
  by_cases hy : y ∈ rHi.set
  · obtain ⟨x, rfl⟩ : ∃ x, rHi.emb x = y := rHi.exists_idx_of_mem hy
    rw [View.canon_cons_emb, View.canon_cons_emb]
  · rw [View.canon_cons_of_not_mem (⟨rHi, wh⟩ : View.Piece (Elt F) S1x128 .f32) _ hy, View.canon_cons_of_not_mem (⟨rHi, wh⟩ : View.Piece (Elt F) S1x128 .f32) _ hy]
    obtain ⟨x, rfl⟩ : ∃ x, rLo.emb x = y := rLo.exists_idx_of_mem (by rw [mem_rLo]; rw [mem_rHi] at hy; omega)
    rw [View.canon_cons_emb, View.canon_cons_emb]

theorem contA_s (h0 : t.val % 200 = 0) (h1 : ¬t.val % 200 = 199) :
    (contA V c t h0 h1).2.2.2 = scrStep1 V c t (k1_pay2 (F := F)) := by
  unfold contA
  dsimp only
  rw [View.read_writes_junk_eq_canon]
  unfold runA kernelRun1_A
  dsimp only
  sl_unfold_words
  simp only [View.readAt_eq_ld, Memref.IsWhole.read_unread, View.ld_unit_zero (S := S4000x64) hz2, View.ld_unit_zero (S := S4000x128) hz2, View.ld_unit_zero (S := S64x64) hz2, View.ld_unit_zero (S := S64) hz1, read_scratch]
  rw [readCov_lo_zero_hi, readCov_zero_lo, canon_hi_lo_all]
  rfl

theorem scratchAt1_zero (hn : 0 < cfg1.N) :
    (outsAt1 V c 0 hn).2.2.2 = scrStep1 V c ⟨0, hn⟩ (k1_pay2 (F := F)) :=
  (congrArg (fun p => p.2.2.2) (outsAt1_first V c ⟨0, hn⟩ (Nat.zero_mod _) (by show ¬(0 % 200 = 199); decide))).trans
    (contA_s V c ⟨0, hn⟩ _ _)

theorem scratchAt1_succ (n : ℕ) (hn : n + 1 < cfg1.N) :
    (outsAt1 V c (n + 1) hn).2.2.2 = scrStep1 V c ⟨n + 1, hn⟩ (outsAt1 V c n (Nat.lt_of_succ_lt hn)).2.2.2 := by
  by_cases h1 : (n + 1) % 200 = 199
  · exact (congrArg (fun p => p.2.2.2) (outsAt1_last V c ⟨n + 1, hn⟩ (succ_mod_ne n hn) h1)).trans
      (contC_s V c ⟨n + 1, hn⟩ _ _ _).2
  · exact (congrArg (fun p => p.2.2.2) (outsAt1_middle V c ⟨n + 1, hn⟩ (succ_mod_ne n hn) h1)).trans
      (contB_s V c ⟨n + 1, hn⟩ _ _ _)

theorem statsAt1_last (h1 : t.val % 200 = 199) :
    (outsAt1 V c t.val t.isLt).2.2.1 = (outsAt1 V c t.val t.isLt).2.2.2 := by
  have hN : t.val < 200 := lt_of_lt_of_eq t.isLt (show cfg1.N = 200 from N_1)
  have h0 : ¬t.val % 200 = 0 := by omega
  rw [outsAt1_last V c t h0 h1]
  exact (contC_s V c t h0 h1 _).1.trans (contC_s V c t h0 h1 _).2.symm

end Cert.KernelIdeal.Frame

end
-- ==== Proof.Val.RunSum.lean ====
import Mathlib.Algebra.BigOperators.Fin
import Mathlib.Algebra.BigOperators.Group.Finset.Basic
import proofs.«428159_j48533130445226_3_alg».proof.Proof.Val.BNMath

-- Per-point sums over the rows of a block, summed over the points of a grid, are one sum over all rows.

noncomputable section

namespace Cert.KernelIdeal.Val

theorem sum_range_blocks {M : Type*} [AddCommMonoid M] {n : ℕ} (B R : ℕ) (hn : n = B * R) (f : Fin n → M)
    (X : ℕ → M)
    (hX : ∀ (b : Fin B), X b.val
      = ∑ q : Fin R, f ⟨R * b.val + q.val, by rw [hn, Nat.mul_comm R]; exact blockRow_lt b q⟩) :
    ∑ s ∈ Finset.range B, X s = ∑ r : Fin n, f r := by
  rw [sum_blocks_of_eq B R hn f, ← Fin.sum_univ_eq_sum_range]
  refine Finset.sum_congr rfl fun b _ => (hX b).trans (Finset.sum_congr rfl fun q _ => ?_)
  exact congrArg f (Fin.ext (by show R * b.val + q.val = b.val * R + q.val; rw [Nat.mul_comm]))

end Cert.KernelIdeal.Val

end
-- ==== Proof.Val.Reg1Blk.lean ====
-- Region 1 at the ideal values: the pre-normalisation array after the region, read back block by block.
import proofs.«428159_j48533130445226_3_alg».proof.Proof.Val.Reg1Val

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open scoped BigOperators

variable (V : (c : Dev nD) → (b : Ref sig .tc) → Buf (Elt Ideal) ((c : Thread nD τ).loc b))

theorem row1_lt (t : Fin cfg1.N) (p : Fin 4000) : 4000 * t.val + p.val < 800000 := by
  have h : t.val < 200 := lt_of_lt_of_eq t.isLt (show cfg1.N = 200 from N_1)
  have := p.isLt
  omega

-- The network of point t's blocks at (p, q) is the pre-normalisation array after the region at row 4000 t + p.
theorem blk12_apply (c : Dev nD) (t : Fin cfg1.N) (p : Fin 4000) (q : Fin 64) :
    pre (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p q
      = ((dat1 (F := Ideal) V c).arrAt 12 cfg1.N : Vec Ideal S800000x64 .f32)
          (ix2 (⟨4000 * t.val + p.val, row1_lt t p⟩ : Fin 800000) q) := by
  have he : (⟨4000 * t.val + p.val, row1_lt t p⟩ : Fin 800000) = rowOf t p := Fin.ext (by simp only [rowOf] <;> omega)
  rw [he, final1_12_apply V c (rowOf t p) q]
  unfold pre hid ce
  simp only [blk1_0, blk1_1, blk1_2, blk1_3, blk1_4, blk1_5, blk1_6, blk1_7, blk1_8, blk1_9, blk1_10]

end Cert.KernelIdeal.Val

end
-- ==== Proof.Val.Reg1Stats.lean ====
-- The statistics row after the edge-update region: the column sums, over all edges, of the pre-normalisation array and of its squares.
import Idealize.ShloMosaic.Lib.Pipeline.Value
import proofs.«428159_j48533130445226_3_alg».proof.Proof.HKernelIdeal.Reg1.Scratch
import proofs.«428159_j48533130445226_3_alg».proof.Proof.Val.Pay1
import proofs.«428159_j48533130445226_3_alg».proof.Proof.Val.RunSum
import proofs.«428159_j48533130445226_3_alg».proof.Proof.Val.Reg1Blk

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

def preAt (c : Dev nD) (t : Fin cfg1.N) (p : Fin 4000) (j : Fin 64) : EReal :=
  pre (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p j

theorem lt_N1_199 : 199 < cfg1.N := by rw [show cfg1.N = 200 from N_1]; decide

abbrev tLast : Fin cfg1.N := ⟨199, lt_N1_199⟩

theorem idx13_zero : (fun a => win1_13.index tLast a * main_v15_2.ty.shape.size a) = fun _ => 0 :=
  funext fun a => by fin_cases a <;> decide +kernel

-- The statistics array after the region is the row held after the last point.
theorem arr13_eq (c : Dev nD) : (dat1 V c).arrAt 13 cfg1.N = (outsAt1 V c tLast.val tLast.isLt).2.2.1 :=
  (dat1 V c).arrAt_eq_of_cover 13 _ (fun t hf => by
    obtain rfl : t = tLast := Fin.ext (by
      have := (flush1_13 t).mp hf; have := t.isLt; have hN : cfg1.N = 200 := N_1; show t.val = 199; omega)
    show (cfg1.win 13).cut (grid1.coords tLast) ((dat1 V c).after 13 tLast) = _
    rw [after1_13]
    exact (Memref.read_access_unit_zero (Elt Ideal) main_v15_2 idx13_zero
      (fun a => by rw [congrFun idx13_zero a]; simp) _).symm) fun i =>
    ⟨tLast, (flush1_13 tLast).mpr rfl, by
      show i ∈ ((View.whole main_v15_2).slice (win1_13.rect tLast)).set
      rw [View.set_slice_whole]
      exact View.mem_set_unit_zero idx13_zero (fun a => by rw [congrFun idx13_zero a]; simp) i⟩

theorem scrStep1_lo_val (c : Dev nD) (t : Fin cfg1.N) (xs : Vec Ideal S1x128 .f32) (q : Fin 64) :
    scrStep1 V c t xs (ix2 (0 : Fin 1) ⟨q.val, by omega⟩)
      = xs (ix2 (0 : Fin 1) ⟨q.val, by omega⟩) + ∑ p : Fin 4000, preAt V c t p q := by
  rw [scrStep1_lo]
  exact (pay15_apply _ _ _ _ _ _ _ _ _ _ _ (View.ld xs rLo) q).trans (congrArg₂ (· + ·) (ld_rLo xs q) rfl)

theorem scrStep1_hi_val (c : Dev nD) (t : Fin cfg1.N) (xs : Vec Ideal S1x128 .f32) (q : Fin 64) :
    scrStep1 V c t xs (ix2 (0 : Fin 1) ⟨64 + q.val, by omega⟩)
      = xs (ix2 (0 : Fin 1) ⟨64 + q.val, by omega⟩) + ∑ p : Fin 4000, preAt V c t p q * preAt V c t p q := by
  rw [scrStep1_hi]
  exact (pay1_apply _ _).trans ((pay16_apply _ _ _ _ _ _ _ _ _ _ _ (View.ld xs rHi) q).trans
    (congrArg₂ (· + ·) (ld_rHi xs q) rfl))

-- A function of the points, continued by 0 past the grid.
def ext0 (g : Fin cfg1.N → EReal) (s : ℕ) : EReal := if h : s < cfg1.N then g ⟨s, h⟩ else 0

-- A column of the carried row to which every point adds its own term holds, after point n, the sum of the terms up to n.
theorem row_sum (c : Dev nD) (x : Fin 128) (g : Fin cfg1.N → EReal)
    (hstep : ∀ (t : Fin cfg1.N) (xs : Vec Ideal S1x128 .f32),
      scrStep1 V c t xs (ix2 (0 : Fin 1) x) = xs (ix2 (0 : Fin 1) x) + g t) : ∀ (n : ℕ) (hn : n < cfg1.N),
    (outsAt1 V c n hn).2.2.2 (ix2 (0 : Fin 1) x) = ∑ s ∈ Finset.range (n + 1), ext0 g s
  | 0, hn => by rw [scratchAt1_zero, hstep, pay2_apply, zero_add, Finset.sum_range_one, ext0, dif_pos hn]
  | n + 1, hn => by
    rw [scratchAt1_succ, hstep, row_sum c x g hstep n (Nat.lt_of_succ_lt hn), Finset.sum_range_succ _ (n + 1), ext0,
      dif_pos hn]

abbrev arr12 (c : Dev nD) : Vec Ideal S800000x64 .f32 := (dat1 V c).arrAt 12 cfg1.N

abbrev arr13 (c : Dev nD) : Vec Ideal S1x128 .f32 := (dat1 V c).arrAt 13 cfg1.N

-- So such a column ends as the sum over all 800000 edges, when each point's term is the sum over its 4000 rows.
theorem col_total (c : Dev nD) (x : Fin 128) (g : Fin cfg1.N → EReal) (P : Fin 800000 → EReal)
    (hstep : ∀ (t : Fin cfg1.N) (xs : Vec Ideal S1x128 .f32),
      scrStep1 V c t xs (ix2 (0 : Fin 1) x) = xs (ix2 (0 : Fin 1) x) + g t)
    (hg : ∀ t, g t = ∑ p : Fin 4000, P ⟨4000 * t.val + p.val, row1_lt t p⟩) :
    arr13 V c (ix2 (0 : Fin 1) x) = ∑ e : Fin 800000, P e := by
  have hN : cfg1.N = 200 := N_1
  show ((dat1 V c).arrAt 13 cfg1.N : Vec Ideal S1x128 .f32) (ix2 (0 : Fin 1) x) = _
  rw [arr13_eq V c, statsAt1_last V c tLast (by decide), row_sum V c x g hstep tLast.val tLast.isLt]
  refine sum_range_blocks 200 4000 (by norm_num) P (ext0 g) fun b => ?_
  have hb : b.val < cfg1.N := by rw [hN]; exact b.isLt
  rw [ext0, dif_pos hb]
  exact hg ⟨b.val, hb⟩

-- The statistics row after the region: the column sums of the pre-normalisation array and of its squares.
theorem final1_13_apply (c : Dev nD) (j : Fin 64) :
    arr13 V c (ix2 (0 : Fin 1) (⟨j.val, by omega⟩ : Fin 128)) = ∑ e : Fin 800000, arr12 V c (ix2 e j)
      ∧ arr13 V c (ix2 (0 : Fin 1) (⟨64 + j.val, by omega⟩ : Fin 128))
        = ∑ e : Fin 800000, arr12 V c (ix2 e j) * arr12 V c (ix2 e j) :=
  ⟨col_total V c _ (fun t => ∑ p : Fin 4000, preAt V c t p j) (fun e => arr12 V c (ix2 e j))
      (fun t xs => scrStep1_lo_val V c t xs j) fun t => Finset.sum_congr rfl fun p _ => blk12_apply V c t p j,
    col_total V c _ (fun t => ∑ p : Fin 4000, preAt V c t p j * preAt V c t p j)
      (fun e => arr12 V c (ix2 e j) * arr12 V c (ix2 e j)) (fun t xs => scrStep1_hi_val V c t xs j) fun t =>
      Finset.sum_congr rfl fun p _ => have h := blk12_apply V c t p j; congrArg₂ (· * ·) h h⟩

end Cert.KernelIdeal.Val

end
-- ==== Proof.Val.Chain2.lean ====
-- The edge region's three outputs are the reference's message, its rows before the batch norm, and their column sums.
import proofs.«428159_j48533130445226_3_alg».proof.Proof.HKernelIdeal.Run
import proofs.«428159_j48533130445226_3_alg».proof.Proof.Val.Args
import proofs.«428159_j48533130445226_3_alg».proof.Proof.Val.HostA
import proofs.«428159_j48533130445226_3_alg».proof.Proof.Val.Chain0
import proofs.«428159_j48533130445226_3_alg».proof.Proof.Ref.Stages
import proofs.«428159_j48533130445226_3_alg».proof.Proof.Ref.Read
import proofs.«428159_j48533130445226_3_alg».proof.Proof.Val.Match1
import proofs.«428159_j48533130445226_3_alg».proof.Proof.Val.Reg1Val
import proofs.«428159_j48533130445226_3_alg».proof.Proof.Val.Reg1Stats

set_option maxRecDepth 4096

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open Cert.ReferenceIdeal.Hand
open scoped BigOperators

variable (m : (ℓ : Loc nD τ sig) → Buf (Elt Ideal) ℓ) (ρ : Dev nD → PrngReg) (c : Dev nD)

theorem ea1_V6 : ea1 (V6 m ρ) c = argEa m c := W6_main_arg2 m ρ c
theorem wc1_V6 : wc1 (V6 m ρ) c = argWC m c := W6_main_arg11 m ρ c
theorem bc1_V6 : bc1 (V6 m ρ) c = argBC m c := W6_main_arg12 m ρ c
theorem b1_1_V6 : b1_1 (V6 m ρ) c = argB1 m c := W6_main_arg14 m ρ c
theorem w2_1_V6 : w2_1 (V6 m ρ) c = argW2 m c := W6_main_arg15 m ρ c
theorem b2_1_V6 : b2_1 (V6 m ρ) c = argB2 m c := W6_main_arg16 m ρ c

variable
    (hdd : (W6 m ρ c (Proc.devRef .tc main_v10) : FVec Ideal S800000x64 .f32) = atArgs m c (refDd (F := Ideal)))
    (hes : ∀ (e : Fin 800000) (j : Fin 64),
      (W6 m ρ c (Proc.devRef .tc main_v11) : FVec Ideal S800000x128 .f32) (ix2 e (⟨j.val, by omega⟩ : Fin 128))
        = atArgs m c (refEs (F := Ideal)) (ix2 e j))
    (hbxs : ∀ (e : Fin 800000) (j : Fin 64),
      (W6 m ρ c (Proc.devRef .tc main_v11) : FVec Ideal S800000x128 .f32) (ix2 e (⟨64 + j.val, by omega⟩ : Fin 128))
        = atArgs m c (refBxs (F := Ideal)) (ix2 e j))
include hdd hes hbxs

-- With the eleven inputs identified, the region's gated product is the reference's message.
theorem msg_eq :
    (W7 m ρ c (Proc.devRef .tc main_v15_0) : FVec Ideal S800000x64 .f32) = atArgs m c (refMsg (F := Ideal)) := by
  funext i
  obtain ⟨e, j, rfl⟩ : ∃ e j, i = ix2 e j := ⟨i 0, i 1, eq_ix2 i⟩
  refine (congrFun (W7_arr m ρ c 11) (ix2 e j)).trans ((final1_11_apply (V6 m ρ) c e j).trans ?_)
  rw [ea1_V6, wc1_V6, bc1_V6]
  exact msg_match _ _ _ _ _ _ _ _ _ _ _ _ _ _ _ _ _ _ _ _ _ _ _ hdd hes hbxs e j

-- Likewise its two-layer map of [Dd Es Ce], over the three column blocks the host cuts from the first-layer weight.
theorem pre_eq :
    (W7 m ρ c (Proc.devRef .tc main_v15_1) : FVec Ideal S800000x64 .f32) = atArgs m c (refPre (F := Ideal)) := by
  funext i
  obtain ⟨e, q, rfl⟩ : ∃ e q, i = ix2 e q := ⟨i 0, i 1, eq_ix2 i⟩
  refine (congrFun (W7_arr m ρ c 12) (ix2 e q)).trans ((final1_12_apply (V6 m ρ) c e q).trans ?_)
  rw [ea1_V6, wc1_V6, bc1_V6, b1_1_V6, w2_1_V6, b2_1_V6]
  exact pre_match _ _ _ _ _ _ _ _ _ _ _ _ _ _ _ _ _ _ _ _ _ _ _ _ _ _ hdd hes
    (fun p q => (hostOps1_3_main_v12_apply (W5 m ρ c) p q ⟨q.val, by omega⟩ rfl).trans (congrFun (W5_main_arg13 m ρ c) _))
    (fun p q => (hostOps1_3_main_v13_apply (W5 m ρ c) p q ⟨64 + q.val, by omega⟩ rfl).trans (congrFun (W5_main_arg13 m ρ c) _))
    (fun p q => (hostOps1_3_main_v14_apply (W5 m ρ c) p q ⟨128 + q.val, by omega⟩ rfl).trans (congrFun (W5_main_arg13 m ρ c) _)) e q

theorem arr12_V6 : arr12 (V6 m ρ) c = atArgs m c (refPre (F := Ideal)) :=
  (W7_arr m ρ c 12).symm.trans (pre_eq m ρ c hdd hes hbxs)

-- The statistics row: column sums of those rows, then of their squares, over all edges.
theorem stats_sum (j : Fin 64) :
    (W7 m ρ c (Proc.devRef .tc main_v15_2) : FVec Ideal S1x128 .f32) (ix2 (0 : Fin 1) (⟨j.val, by omega⟩ : Fin 128))
      = ∑ e : Fin 800000, atArgs m c (refPre (F := Ideal)) (ix2 e j) := by
  refine (congrFun (W7_arr m ρ c 13) _).trans ((final1_13_apply (V6 m ρ) c j).1.trans ?_)
  rw [arr12_V6 m ρ c hdd hes hbxs]

theorem stats_sq (j : Fin 64) :
    (W7 m ρ c (Proc.devRef .tc main_v15_2) : FVec Ideal S1x128 .f32) (ix2 (0 : Fin 1) (⟨64 + j.val, by omega⟩ : Fin 128))
      = ∑ e : Fin 800000, atArgs m c (refPre (F := Ideal)) (ix2 e j) * atArgs m c (refPre (F := Ideal)) (ix2 e j) := by
  refine (congrFun (W7_arr m ρ c 13) _).trans ((final1_13_apply (V6 m ρ) c j).2.trans ?_)
  rw [arr12_V6 m ρ c hdd hes hbxs]

end Cert.KernelIdeal.Val

end
-- ==== Proof.Val.HostB.lean ====
-- Each array computed around the third, fourth and fifth regions, as a term and read at an index.
import proofs.«428159_j48533130445226_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Val

open Idealize.ShloMosaic Idealize.ShloMosaic.ValueIdx Cert.KernelIdeal Cert.KernelIdeal.Gen

variable (W : Valuation τ sig (Elt Ideal))

-- Both entries sit at row-major position 64 e + j.
theorem hostOps3_main_v34_apply (e : Fin 800000) (j : Fin 64) :
    (StableHlo.after hostOps3 W (Proc.devRef .tc main_v34)) (ix2 e j)
      = (W (Proc.devRef .tc main_v33))
          (ix2 (⟨e.val / 2, by omega⟩ : Fin 400000) (⟨64 * (e.val % 2) + j.val, by omega⟩ : Fin 128)) := by
  after_results
  refine shapeCast_apply (s := S400000x128) (t := S800000x64) _ _ _ _ ?_
  rw [Shape.rowMajor_val_two, Shape.rowMajor_val_two]
  show e.val / 2 * 128 + (64 * (e.val % 2) + j.val) = e.val * 64 + j.val
  omega

def inDegree (idx : IVec S800000 32) : FVec Ideal S50000 .f32 :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

def sumRows (idx : IVec S800000 32) (msg : FVec Ideal S800000x64 .f32) : FVec Ideal S50000x64 .f32 :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 idx)
    msg

def clipDegree (idx : IVec S800000 32) : FVec Ideal S50000 .f32 :=
  maximumf (F := Ideal) (φ := .f32)
    (broadcastInDim S50000 ![] bcast_S_S50000 (id (constant (F := Ideal) S_ .f32 0x3F800000#32)))
    (inDegree idx)

-- The rows summed per destination node over the larger of one and the number of edges into the node.
def meanAgg (idx : IVec S800000 32) (msg : FVec Ideal S800000x64 .f32) : FVec Ideal S50000x64 .f32 :=
  Host.divf (F := Ideal) (φ := .f32) (sumRows idx msg)
    (broadcastInDim S50000x64 ![0, 1] bcast_S50000x1_S50000x64_0_1
      (broadcastInDim S50000x1 ![0] bcast_S50000_S50000x1_0 (clipDegree idx)))

theorem hostOps3_main_v37 :
    (StableHlo.after hostOps3 W (Proc.devRef .tc main_v37))
      = sumRows (W (Proc.devRef .tc main_v3)) (W (Proc.devRef .tc main_v15_0)) := by
  after_results; rfl

theorem hostOps3_main_v41 :
    (StableHlo.after hostOps3 W (Proc.devRef .tc main_v41))
      = inDegree (W (Proc.devRef .tc main_v3)) := by
  after_results; rfl

theorem hostOps3_main_cst_5 :
    (StableHlo.after hostOps3 W (Proc.devRef .tc main_cst_5))
      = constant (F := Ideal) S_ .f32 0x3F800000#32 := by
  after_results

theorem hostOps3_1_main_v42 :
    (StableHlo.after hostOps3_1 W (Proc.devRef .tc main_v42))
      = maximumf (F := Ideal) (φ := .f32)
          (broadcastInDim S50000 ![] bcast_S_S50000 (id (W (Proc.devRef .tc main_cst_5))))
          (W (Proc.devRef .tc main_v41)) := by
  after_results; rfl

theorem hostOps3_2_main_v45 :
    (StableHlo.after hostOps3_2 W (Proc.devRef .tc main_v45))
      = Host.divf (F := Ideal) (φ := .f32) (W (Proc.devRef .tc main_v37))
          (broadcastInDim S50000x64 ![0, 1] bcast_S50000x1_S50000x64_0_1
            (broadcastInDim S50000x1 ![0] bcast_S50000_S50000x1_0 (W (Proc.devRef .tc main_v42)))) := by
  after_results

theorem hostOps3_1_main_v37 :
    StableHlo.after (hostOps3_1 (F := Ideal)) W (Proc.devRef .tc main_v37) = W (Proc.devRef .tc main_v37) := by
  after_results

theorem hostOps3_2_main_v45_chain :
    (StableHlo.after (hostOps3_2 (F := Ideal)) (StableHlo.after (hostOps3_1 (F := Ideal)) (StableHlo.after (hostOps3 (F := Ideal)) W))
        (Proc.devRef .tc main_v45) : FVec Ideal S50000x64 .f32)
      = meanAgg (W (Proc.devRef .tc main_v3)) (W (Proc.devRef .tc main_v15_0)) := by
  rw [hostOps3_2_main_v45, hostOps3_1_main_v37, hostOps3_main_v37, hostOps3_1_main_v42, hostOps3_main_cst_5, hostOps3_main_v41]
  rfl

def statMean (stats : FVec Ideal S1x128 .f32) : FVec Ideal S64 .f32 :=
  Host.divf (F := Ideal) (φ := .f32)
    (shapeCast S64 (extractStridedSlice S1x64 ![0, 0] stats slices_S1x128_S1x64_0_0) shapeCasts_S1x64_S64)
    (broadcastInDim S64 ![] bcast_S_S64 (constant (F := Ideal) S_ .f32 0x47435000#32))

def statMeanSq (stats : FVec Ideal S1x128 .f32) : FVec Ideal S64 .f32 :=
  Host.divf (F := Ideal) (φ := .f32)
    (shapeCast S64 (extractStridedSlice S1x64 ![0, 64] stats slices_S1x128_S1x64_0_64) shapeCasts_S1x64_S64)
    (broadcastInDim S64 ![] bcast_S_S64 (constant (F := Ideal) S_ .f32 0x47435000#32))

-- The mean of squares less the squared mean, and zero where that is negative.
def statVar (stats : FVec Ideal S1x128 .f32) : FVec Ideal S64 .f32 :=
  maximumf (F := Ideal) (φ := .f32)
    (subf (F := Ideal) (φ := .f32) (statMeanSq stats) (mulf (F := Ideal) (φ := .f32) (statMean stats) (statMean stats)))
    (broadcastInDim S64 ![] bcast_S_S64 (constant (F := Ideal) S_ .f32 0x00000000#32))

def twice (x : FVec Ideal S64 .f32) : FVec Ideal S128 .f32 :=
  concatenate S128 0 [⟨S64, x⟩, ⟨S64, x⟩] concatenates_S64_S64_S128_d0

theorem statMean_apply (stats : FVec Ideal S1x128 .f32) (j : Fin 64) :
    statMean stats (ix1 j)
      = Ideal.div (stats (ix2 (0 : Fin 1) (⟨j.val, by omega⟩ : Fin 128))) (Ideal.ofBits .f32 0x47435000#32) := by
  unfold statMean
  rw [hostDivf_apply, shapeCast_1a_a_apply,
    slice2_axis1_apply 0 stats slices_S1x128_S1x64_0_0 (0 : Fin 1) j (⟨j.val, by omega⟩ : Fin 128) (Nat.zero_add _).symm,
    broadcastInDim_scalar_apply, constant_apply]

theorem statMeanSq_apply (stats : FVec Ideal S1x128 .f32) (j : Fin 64) :
    statMeanSq stats (ix1 j)
      = Ideal.div (stats (ix2 (0 : Fin 1) (⟨64 + j.val, by omega⟩ : Fin 128))) (Ideal.ofBits .f32 0x47435000#32) := by
  unfold statMeanSq
  rw [hostDivf_apply, shapeCast_1a_a_apply,
    slice2_axis1_apply 64 stats slices_S1x128_S1x64_0_64 (0 : Fin 1) j (⟨64 + j.val, by omega⟩ : Fin 128) rfl,
    broadcastInDim_scalar_apply, constant_apply]

theorem statVar_apply (stats : FVec Ideal S1x128 .f32) (j : Fin 64) :
    statVar stats (ix1 j)
      = max (statMeanSq stats (ix1 j) - statMean stats (ix1 j) * statMean stats (ix1 j))
          (Ideal.ofBits .f32 0x00000000#32) := by
  unfold statVar
  rw [maximumf_apply, subf_apply, mulf_apply, broadcastInDim_scalar_apply, constant_apply]

-- The first copy holds the positions below 64, the second those from 64 on.
theorem twice_apply (x : FVec Ideal S64 .f32) (k : Fin 128) :
    twice x (ix1 k) = x (ix1 (⟨k.val % 64, Nat.mod_lt _ (by decide)⟩ : Fin 64)) := by
  unfold twice
  by_cases hk : k.val < 64
  · exact concatenate_pair_apply_left (0 : Fin S128.rank) x x concatenates_S64_S64_S128_d0 (ix1 k) rfl _
      (fun | ⟨0, _⟩ => by show k.val % 64 = k.val; omega)
  · exact concatenate_pair_apply_right (0 : Fin S128.rank) x x concatenates_S64_S64_S128_d0 (ix1 k) rfl rfl _
      (fun | ⟨0, _⟩, hb => absurd rfl hb) (by show k.val % 64 + 64 = k.val; have := k.isLt; omega)

-- Both entries sit at row-major position 128 r + c.
theorem hostOps4_main_v59_apply (r : Fin 25000) (c : Fin 128) :
    (StableHlo.after hostOps4 W (Proc.devRef .tc main_v59)) (ix2 r c)
      = (W (Proc.devRef .tc main_v46_0))
          (ix2 (⟨2 * r.val + c.val / 64, by omega⟩ : Fin 50000) (⟨c.val % 64, by omega⟩ : Fin 64)) := by
  after_results
  refine shapeCast_apply (s := S50000x64) (t := S25000x128) _ _ _ _ ?_
  rw [Shape.rowMajor_val_two, Shape.rowMajor_val_two]
  show (2 * r.val + c.val / 64) * 64 + c.val % 64 = r.val * 128 + c.val
  omega

theorem hostOps5_main_v65_apply (n : Fin 50000) (j : Fin 64) :
    (StableHlo.after hostOps5 W (Proc.devRef .tc main_v65)) (ix2 n j)
      = (W (Proc.devRef .tc main_v64))
          (ix2 (⟨n.val / 2, by omega⟩ : Fin 25000) (⟨64 * (n.val % 2) + j.val, by omega⟩ : Fin 128)) := by
  after_results
  refine shapeCast_apply (s := S25000x128) (t := S50000x64) _ _ _ _ ?_
  rw [Shape.rowMajor_val_two, Shape.rowMajor_val_two]
  show n.val / 2 * 128 + (64 * (n.val % 2) + j.val) = n.val * 64 + j.val
  omega

theorem hostOps4_main_v60_apply (k : Fin 128) :
    (StableHlo.after hostOps4 W (Proc.devRef .tc main_v60)) (ix1 k)
      = statMean (W (Proc.devRef .tc main_v46_1))
          (ix1 (⟨k.val % 64, Nat.mod_lt _ (by decide)⟩ : Fin 64)) := by
  after_results; exact twice_apply _ k

theorem hostOps4_main_v61_apply (k : Fin 128) :
    (StableHlo.after hostOps4 W (Proc.devRef .tc main_v61)) (ix1 k)
      = statVar (W (Proc.devRef .tc main_v46_1))
          (ix1 (⟨k.val % 64, Nat.mod_lt _ (by decide)⟩ : Fin 64)) := by
  after_results; exact twice_apply _ k

theorem hostOps4_main_v62_apply (k : Fin 128) :
    (StableHlo.after hostOps4 W (Proc.devRef .tc main_v62)) (ix1 k)
      = (W (Proc.devRef .tc main_arg17)) (ix1 (⟨k.val % 64, Nat.mod_lt _ (by decide)⟩ : Fin 64)) := by
  after_results; exact twice_apply _ k

theorem hostOps4_main_v63_apply (k : Fin 128) :
    (StableHlo.after hostOps4 W (Proc.devRef .tc main_v63)) (ix1 k)
      = (W (Proc.devRef .tc main_arg18)) (ix1 (⟨k.val % 64, Nat.mod_lt _ (by decide)⟩ : Fin 64)) := by
  after_results; exact twice_apply _ k

end Cert.KernelIdeal.Val
-- ==== Proof.Val.Stats.lean ====
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws
import proofs.«428159_j48533130445226_3_alg».proof.Proof.Ref.Stages
import proofs.«428159_j48533130445226_3_alg».proof.Proof.Val.BNMath
import proofs.«428159_j48533130445226_3_alg».proof.Proof.Val.Consts

-- The reference's column means and biased variances at one column, and the variance as mean of squares less squared mean.

noncomputable section

namespace Cert.KernelIdeal.Val

open Idealize.ShloMosaic Idealize.ShloMosaic.ValueIdx Idealize.ShloMosaic.IdealReal
open Cert.ReferenceIdeal Cert.ReferenceIdeal.Gen Cert.ReferenceIdeal.Hand

theorem rowOf_apply {α : Type} (v : S64.Idx → α) (u : Fin 1) (j : Fin 64) :
    broadcastInDim S1x64 ![1] bcast_S64_S1x64_1 v (ix2 u j) = v (ix1 j) :=
  broadcastInDim_apply _ _ v (ix2 u j) (ix1 j) fun a => by
    match a with
    | ⟨0, _⟩ => rfl

-- The column sum of m rows of 64 from the zero initial value is the sum over the row coordinate.
theorem colSum_apply {m : ℕ} (hr : (⟨2, ![m, 64]⟩ : Shape).ReducesTo [0] S64) (hR : (⟨2, ![m, 64]⟩ : Shape).Reduces [0] S64)
    (h : FVec Ideal ⟨2, ![m, 64]⟩ .f32) (j : Fin 64) :
    Host.reduceAdd h (constant (F := Ideal) S_ .f32 0x00000000#32) hr h_S_ (ix1 j) = ∑ e : Fin m, h (ix2 e j) := by
  rw [hostReduceAdd_apply, Ideal.hostReduceAdd_single hr hR, constant_apply, ofBits_zero', zero_add]
  refine Finset.sum_congr rfl fun e _ => congrArg h (funext fun a => Fin.ext (by
    match a with
    | ⟨0, _⟩ => rfl
    | ⟨1, _⟩ => rfl))

-- A row count less the converted integer 0 is the row count, and its compare against 0 answers 1 when it is positive.
theorem count_eq (c : BitVec 32) :
    Ideal.ofBits .f32 c - FloatOps.sitofp (F := Ideal) .f32 (0#32 : BitVec 32) = Ideal.ofBits .f32 c := by
  show _ - ((((0#32 : BitVec 32).toInt : ℤ) : ℝ) : EReal) = _
  simp

theorem count_pos {n : FVec Ideal S_ .f32} {c : BitVec 32} {r : ℝ} (hn : n ix0 = Ideal.ofBits .f32 c)
    (hc : Ideal.ofBits .f32 c = (r : EReal)) (hr : 0 < r) :
    broadcastInDim S64 ![] bcast_S_S64 (cmpf .ogt n (constant S_ .f32 0x00000000#32)) = fun _ => 1#1 := by
  funext i
  rw [broadcastInDim_scalar_apply]
  show Ideal.cmp .ogt (n ix0) (Ideal.ofBits .f32 0x00000000#32) = 1#1
  rw [hn, hc, ofBits_zero, cmp_ogt_coe, if_pos hr]

theorem edgeCentred_apply (h : FVec Ideal S800000x64 .f32) (e : Fin 800000) (j : Fin 64) :
    edgeCentred h (ix2 e j)
      = h (ix2 e j) - Ideal.div (∑ e' : Fin 800000, h (ix2 e' j)) (Ideal.ofBits .f32 0x49435000#32) := by
  unfold edgeCentred
  refine congrArg₂ (· - ·) rfl ((broadcastInDim_oneRow_apply _ _ e j).trans ?_)
  exact congrArg₂ Ideal.div ((rowOf_apply _ 0 j).trans (colSum_apply _ (by decide) h j)) (broadcastInDim_scalar_apply _ _ _)

-- The biased variance at column j is the mean of the squared deviations from the column's mean.
theorem edgeVar_apply (h : FVec Ideal S800000x64 .f32) (j : Fin 64) :
    edgeVar (F := Ideal) h (ix1 j)
      = Ideal.div
          (∑ e : Fin 800000,
            (h (ix2 e j) - Ideal.div (∑ e' : Fin 800000, h (ix2 e' j)) (Ideal.ofBits .f32 0x49435000#32))
              * (h (ix2 e j) - Ideal.div (∑ e' : Fin 800000, h (ix2 e' j)) (Ideal.ofBits .f32 0x49435000#32)))
          (Ideal.ofBits .f32 0x49435000#32) := by
  unfold edgeVar
  rw [count_pos (count_eq 0x49435000#32) ofBits_800000 (by norm_num), select_apply, select_one]
  refine congrArg₂ Ideal.div ((colSum_apply _ (by decide) _ j).trans (Finset.sum_congr rfl fun e _ => ?_))
    ((broadcastInDim_scalar_apply _ _ _).trans (count_eq 0x49435000#32))
  exact congrArg₂ (· * ·) (edgeCentred_apply h e j) (edgeCentred_apply h e j)

def nodeMeanOf (h : FVec Ideal S50000x64 .f32) : FVec Ideal S64 .f32 :=
  Host.divf (Host.reduceAdd h (constant S_ .f32 0x00000000#32) reducesTo_S50000x64_S64_d0 h_S_)
    (broadcastInDim S64 ![] bcast_S_S64 (constant S_ .f32 0x47435000#32))

theorem nodeMeanOf_apply (h : FVec Ideal S50000x64 .f32) (j : Fin 64) :
    nodeMeanOf h (ix1 j) = Ideal.div (∑ e : Fin 50000, h (ix2 e j)) (Ideal.ofBits .f32 0x47435000#32) :=
  congrArg₂ Ideal.div (colSum_apply _ (by decide) h j) (broadcastInDim_scalar_apply _ _ _)

theorem nodeCentred_apply (h : FVec Ideal S50000x64 .f32) (e : Fin 50000) (j : Fin 64) :
    nodeCentred h (ix2 e j)
      = h (ix2 e j) - Ideal.div (∑ e' : Fin 50000, h (ix2 e' j)) (Ideal.ofBits .f32 0x47435000#32) := by
  unfold nodeCentred
  refine congrArg₂ (· - ·) rfl ((broadcastInDim_oneRow_apply _ _ e j).trans ?_)
  exact congrArg₂ Ideal.div ((rowOf_apply _ 0 j).trans (colSum_apply _ (by decide) h j)) (broadcastInDim_scalar_apply _ _ _)

theorem nodeVar_apply (h : FVec Ideal S50000x64 .f32) (j : Fin 64) :
    nodeVar (F := Ideal) h (ix1 j)
      = Ideal.div
          (∑ e : Fin 50000,
            (h (ix2 e j) - Ideal.div (∑ e' : Fin 50000, h (ix2 e' j)) (Ideal.ofBits .f32 0x47435000#32))
              * (h (ix2 e j) - Ideal.div (∑ e' : Fin 50000, h (ix2 e' j)) (Ideal.ofBits .f32 0x47435000#32)))
          (Ideal.ofBits .f32 0x47435000#32) := by
  unfold nodeVar
  rw [count_pos (count_eq 0x47435000#32) ofBits_50000 (by norm_num), select_apply, select_one]
  refine congrArg₂ Ideal.div ((colSum_apply _ (by decide) _ j).trans (Finset.sum_congr rfl fun e _ => ?_))
    ((broadcastInDim_scalar_apply _ _ _).trans (count_eq 0x47435000#32))
  exact congrArg₂ (· * ·) (nodeCentred_apply h e j) (nodeCentred_apply h e j)

theorem edgeMean_apply (h : FVec Ideal S800000x64 .f32) (j : Fin 64) :
    edgeMean (F := Ideal) h (ix1 j)
      = Ideal.div (∑ e : Fin 800000, h (ix2 e j)) (Ideal.ofBits .f32 0x49435000#32) :=
  congrArg₂ Ideal.div (colSum_apply _ (by decide) h j) (broadcastInDim_scalar_apply _ _ _)

section NodeStages

variable (x : FVec Ideal S50000x64 .f32) (idx : IVec S2x800000 32) (ea : FVec Ideal S800000x64 .f32)
  (WA : FVec Ideal S64x64 .f32) (bA : FVec Ideal S64 .f32) (WB : FVec Ideal S64x64 .f32) (bB : FVec Ideal S64 .f32)
  (WD : FVec Ideal S64x64 .f32) (bD : FVec Ideal S64 .f32) (WE : FVec Ideal S64x64 .f32) (bE : FVec Ideal S64 .f32)
  (WC : FVec Ideal S64x64 .f32) (bC : FVec Ideal S64 .f32) (W1 : FVec Ideal S64x192 .f32) (b1 : FVec Ideal S64 .f32)
  (W2 : FVec Ideal S64x64 .f32) (b2 : FVec Ideal S64 .f32) (gn bn ge be : FVec Ideal S64 .f32)

theorem refMuN_eq :
    refMuN (F := Ideal) x idx ea WA bA WB bB WD bD WE bE WC bC W1 b1 W2 b2 gn bn ge be
      = nodeMeanOf (refHpre (F := Ideal) x idx ea WA bA WB bB WD bD WE bE WC bC W1 b1 W2 b2 gn bn ge be) := rfl

end NodeStages

-- For real rows the mean of squares less the squared mean, clamped below at 0, is the reference's variance.
theorem edgeVar_bridge (h : FVec Ideal S800000x64 .f32) (hh : ∀ i, IsReal (h i)) (j : Fin 64) :
    max (Ideal.div (∑ e : Fin 800000, h (ix2 e j) * h (ix2 e j)) (Ideal.ofBits .f32 0x49435000#32)
          - edgeMean (F := Ideal) h (ix1 j) * edgeMean (F := Ideal) h (ix1 j)) 0
      = edgeVar (F := Ideal) h (ix1 j) := by
  rw [edgeMean_apply, edgeVar_apply]
  exact variance_identity (fun e => h (ix2 e j)) (fun e => hh _) _ ofBits_800000_card

theorem nodeVar_bridge (h : FVec Ideal S50000x64 .f32) (hh : ∀ i, IsReal (h i)) (j : Fin 64) :
    max (Ideal.div (∑ n : Fin 50000, h (ix2 n j) * h (ix2 n j)) (Ideal.ofBits .f32 0x47435000#32)
          - nodeMeanOf h (ix1 j) * nodeMeanOf h (ix1 j)) 0
      = nodeVar (F := Ideal) h (ix1 j) := by
  rw [nodeMeanOf_apply, nodeVar_apply]
  exact variance_identity (fun n => h (ix2 n j)) (fun n => hh _) _ ofBits_50000_card

end Cert.KernelIdeal.Val

end
-- ==== Proof.Val.Reg2Val.lean ====
/- After region 2 the output array is, index by index, scale · (x − mean) · rsqrt (variance + ε) + shift: the rows read at the index, each vector at its column. -/
import proofs.«428159_j48533130445226_3_alg».proof.Proof.HKernelIdeal.Reg2
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Frame Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

-- The store's payload at row p, column q: the casts are the identity and each vector, broadcast down the rows, is read at the column.
theorem reg2_pay_apply (x0 : Vec Ideal S8000x128 .f32) (xv xs xm xb : Vec Ideal S128 .f32) (p : Fin 8000) (q : Fin 128) :
    k2_pay1 (F := Ideal) x0 xv xs xm xb (ix2 p q)
      = xs (ix1 q) * (x0 (ix2 p q) - xm (ix1 q)) * Ideal.rsqrt (xv (ix1 q) + Ideal.ofBits .f32 0x3727C5AC#32) + xb (ix1 q) := by
  unfold k2_pay1
  simp only [shapeCast_self, addf_apply, mulf_apply, subf_apply, broadcastTo_1b_ab_apply, shapeCast_a_1a_apply] <;> rfl

-- The index maps, decided over the grid: the rows' and the output's windows are on row block t, each vector's window on its one block.
theorem idx_facts2 : ∀ t : Fin cfg2.N,
    win2_0.index t (0 : Fin 2) = t.val ∧ win2_0.index t (1 : Fin 2) = 0
    ∧ win2_1.index t (0 : Fin 1) = 0 ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

abbrev G2_5 (x : S400000x128.Idx → Ideal .f32) (mean vari scale shift : S128.Idx → Ideal .f32) : S400000x128.Idx → Ideal .f32 := fun i =>
  scale (ix1 (i 1)) * (x (ix2 (i 0) (i 1)) - mean (ix1 (i 1))) * Ideal.rsqrt (vari (ix1 (i 1)) + Ideal.ofBits .f32 0x3727C5AC#32) + shift (ix1 (i 1))

-- Every index of the output array is in the block of the point its row falls to: the 50 blocks of 8000 rows tile the array.
theorem cover2_5_arr (i : S400000x128.Idx) : ∃ t : Fin cfg2.N, (cfg2.win 5).flush t = true ∧ i ∈ ((cfg2.win 5).blk t).view.set := by
  have hi0 : (i 0).val < 400000 := (i 0).isLt
  have hi1 : (i 1).val < 128 := (i 1).isLt
  have hN : cfg2.N = 50 := N_2
  obtain ⟨t, ht⟩ : ∃ t : Fin cfg2.N, t.val = (i 0).val / 8000 := ⟨⟨_, by omega⟩, rfl⟩
  obtain ⟨-, -, -, -, -, -, e6, e7⟩ := idx_facts2 t
  refine ⟨t, flush2_5 t, ?_⟩
  show i ∈ ((View.whole main_v33).slice (win2_5.rect t)).set
  rw [View.set_slice_whole, Rect.mem_set_unit]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 128 ≤ (i 1).val ∧ (i 1).val < win2_5.index t (1 : Fin 2) * 128 + 128; omega

-- The blocks tile the array, and what point t writes back is block t of that function: each input block's entry is its array's entry at the place the index maps send it.
set_option maxHeartbeats 1000000 in
theorem final2_5 (c : Dev nD) : (dat2 (F := Ideal) V c).arrAt 5 cfg2.N
    = G2_5 (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => by
    show (cfg2.win 5).cut (grid2.coords t) ((dat2 (F := Ideal) V c).after 5 t) = _
    rw [after2_5]
    unfold out2_5
    rw [View.canon_unit_zero zero2]
    simp only [View.ld_unit_zero (S := S8000x128) zero2, View.ld_unit_zero (S := S128) zero1]
    obtain ⟨e0, e1, e2, e3, e4, e5, e6, e7⟩ := idx_facts2 t
    funext j
    obtain ⟨p, q, rfl⟩ : ∃ (p : Fin 8000) (q : Fin 128), j = ix2 p q := ⟨j 0, j 1, eq_ix2 j⟩
    refine (reg2_pay_apply _ _ _ _ _ p q).trans ?_
    refine congrArg₂ (· + ·) (congrArg₂ (· * ·) (congrArg₂ (· * ·) (congrArg (V c _) ?_) (congrArg₂ (· - ·) (congrArg (V c _) ?_) (congrArg (V c _) ?_))) (congrArg (fun z => Ideal.rsqrt (z + _)) (congrArg (V c _) ?_))) (congrArg (V c _) ?_)
      <;> funext a <;> apply Fin.ext
    · match a with | ⟨0, _⟩ => show win2_3.index t (0 : Fin 1) * 128 + 1 * q.val = win2_5.index t (1 : Fin 2) * 128 + 1 * q.val; omega
    · match a with
      | ⟨0, _⟩ => show win2_0.index t (0 : Fin 2) * 8000 + 1 * p.val = win2_5.index t (0 : Fin 2) * 8000 + 1 * p.val; omega
      | ⟨1, _⟩ => show win2_0.index t (1 : Fin 2) * 128 + 1 * q.val = win2_5.index t (1 : Fin 2) * 128 + 1 * q.val; omega
    · match a with | ⟨0, _⟩ => show win2_1.index t (0 : Fin 1) * 128 + 1 * q.val = win2_5.index t (1 : Fin 2) * 128 + 1 * q.val; omega
    · match a with | ⟨0, _⟩ => show win2_2.index t (0 : Fin 1) * 128 + 1 * q.val = win2_5.index t (1 : Fin 2) * 128 + 1 * q.val; omega
    · match a with | ⟨0, _⟩ => show win2_4.index t (0 : Fin 1) * 128 + 1 * q.val = win2_5.index t (1 : Fin 2) * 128 + 1 * q.val; omega) cover2_5_arr

end Cert.KernelIdeal.Val
-- ==== Proof.Val.Chain3.lean ====
-- The edge batch norm: the program's second result is the reference's new edge rows.
import proofs.«428159_j48533130445226_3_alg».proof.Proof.HKernelIdeal.Run
import proofs.«428159_j48533130445226_3_alg».proof.Proof.Val.Args
import proofs.«428159_j48533130445226_3_alg».proof.Proof.Val.HostA
import proofs.«428159_j48533130445226_3_alg».proof.Proof.Val.HostB
import proofs.«428159_j48533130445226_3_alg».proof.Proof.Val.Stats
import proofs.«428159_j48533130445226_3_alg».proof.Proof.Val.Chain0
import proofs.«428159_j48533130445226_3_alg».proof.Proof.Val.Reg2Val
import proofs.«428159_j48533130445226_3_alg».proof.Proof.Ref.Stages
import proofs.«428159_j48533130445226_3_alg».proof.Proof.Ref.Read

set_option maxRecDepth 4096

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Frame
open Cert.ReferenceIdeal.Hand
open scoped BigOperators

variable (m : (ℓ : Loc nD τ sig) → Buf (Elt Ideal) ℓ) (ρ : Dev nD → PrngReg) (c : Dev nD)

theorem v31_apply (a : Fin 2) (j : Fin 64) (q : Fin 128) (hq : q.val = 64 * a.val + j.val) :
    (W8 m ρ c (Proc.devRef .tc main_v31) : FVec Ideal S128 .f32) (ix1 q) = argGe m c (ix1 j) :=
  (hostOps2_main_v31_apply (W7 m ρ c) a j q hq).trans (congrFun (W7_main_arg19 m ρ c) (ix1 j))

theorem v32_apply (a : Fin 2) (j : Fin 64) (q : Fin 128) (hq : q.val = 64 * a.val + j.val) :
    (W8 m ρ c (Proc.devRef .tc main_v32) : FVec Ideal S128 .f32) (ix1 q) = argBe m c (ix1 j) :=
  (hostOps2_main_v32_apply (W7 m ρ c) a j q hq).trans (congrFun (W7_main_arg20 m ρ c) (ix1 j))

def bnEntry (scale row mean vari shift : EReal) : EReal :=
  scale * (row - mean) * Ideal.rsqrt (vari + Ideal.ofBits .f32 0x3727C5AC#32) + shift

variable
    (pre_eq : (W7 m ρ c (Proc.devRef .tc main_v15_1) : FVec Ideal S800000x64 .f32) = atArgs m c (refPre (F := Ideal)))
    (stats_sum : ∀ j : Fin 64, (W7 m ρ c (Proc.devRef .tc main_v15_2) : FVec Ideal S1x128 .f32) (ix2 (0 : Fin 1) ⟨j.val, by omega⟩)
      = ∑ e : Fin 800000, atArgs m c (refPre (F := Ideal)) (ix2 e j))
    (stats_sq : ∀ j : Fin 64, (W7 m ρ c (Proc.devRef .tc main_v15_2) : FVec Ideal S1x128 .f32) (ix2 (0 : Fin 1) ⟨64 + j.val, by omega⟩)
      = ∑ e : Fin 800000, atArgs m c (refPre (F := Ideal)) (ix2 e j) * atArgs m c (refPre (F := Ideal)) (ix2 e j))
    (hreal : ∀ i, IsReal (atArgs m c (refPre (F := Ideal)) i))
include pre_eq stats_sum stats_sq hreal

-- The column sum over the row count is the reference's column mean.
theorem v29_apply (a : Fin 2) (j : Fin 64) (q : Fin 128) (hq : q.val = 64 * a.val + j.val) :
    (W8 m ρ c (Proc.devRef .tc main_v29) : FVec Ideal S128 .f32) (ix1 q)
      = edgeMean (F := Ideal) (atArgs m c (refPre (F := Ideal))) (ix1 j) := by
  rw [edgeMean_apply, ← stats_sum j]
  exact (hostOps2_main_v29_apply (W7 m ρ c) a j q hq).trans (hostOps2_main_v19_apply (W7 m ρ c) j ⟨j.val, by omega⟩ rfl)

-- For real rows the clamped mean of squares less the squared mean is the biased variance.
theorem v30_apply (a : Fin 2) (j : Fin 64) (q : Fin 128) (hq : q.val = 64 * a.val + j.val) :
    (W8 m ρ c (Proc.devRef .tc main_v30) : FVec Ideal S128 .f32) (ix1 q)
      = edgeVar (F := Ideal) (atArgs m c (refPre (F := Ideal))) (ix1 j) := by
  rw [← edgeVar_bridge _ hreal j, edgeMean_apply, ← stats_sum j, ← stats_sq j]
  exact (hostOps2_main_v30_apply (W7 m ρ c) a j q hq).trans
    (hostOps2_main_v27_apply (W7 m ρ c) j ⟨j.val, by omega⟩ ⟨64 + j.val, by omega⟩ rfl rfl)

-- Entry (e, j) of the rows sits at row e / 2, column 64 (e % 2) + j of the paired view.
theorem v28_apply (e : Fin 800000) (j : Fin 64) :
    (W8 m ρ c (Proc.devRef .tc main_v28) : FVec Ideal S400000x128 .f32)
        (ix2 (⟨e.val / 2, by omega⟩ : Fin 400000) (⟨64 * (e.val % 2) + j.val, by omega⟩ : Fin 128))
      = atArgs m c (refPre (F := Ideal)) (ix2 e j) := by
  rw [← pre_eq]
  exact hostOps2_main_v28_apply (W7 m ρ c) _ _ (⟨e.val % 2, by omega⟩ : Fin 2) j e rfl (by show e.val = 2 * (e.val / 2) + e.val % 2; omega)

theorem enew_eq :
    (W10 m ρ c (Proc.devRef .tc main_v34) : FVec Ideal S800000x64 .f32) = atArgs m c (refEnew (F := Ideal)) := by
  have hreg2 : ∀ (p : Fin 400000) (q : Fin 128),
      (W9 m ρ c (Proc.devRef .tc main_v33) : FVec Ideal S400000x128 .f32) (ix2 p q)
        = bnEntry ((W8 m ρ c (Proc.devRef .tc main_v31) : FVec Ideal S128 .f32) (ix1 q))
            ((W8 m ρ c (Proc.devRef .tc main_v28) : FVec Ideal S400000x128 .f32) (ix2 p q))
            ((W8 m ρ c (Proc.devRef .tc main_v29) : FVec Ideal S128 .f32) (ix1 q))
            ((W8 m ρ c (Proc.devRef .tc main_v30) : FVec Ideal S128 .f32) (ix1 q))
            ((W8 m ρ c (Proc.devRef .tc main_v32) : FVec Ideal S128 .f32) (ix1 q)) :=
    fun p q => congrFun ((W9_arr m ρ c 5).trans (final2_5 (V8 m ρ) c)) (ix2 p q)
  funext i
  obtain ⟨e, j, rfl⟩ : ∃ e j, i = ix2 e j := ⟨i 0, i 1, eq_ix2 i⟩
  refine (hostOps3_main_v34_apply (W9 m ρ c) e j).trans ?_
  rw [hreg2, v28_apply m ρ c pre_eq stats_sum stats_sq hreal e j,
    v29_apply m ρ c pre_eq stats_sum stats_sq hreal (⟨e.val % 2, by omega⟩ : Fin 2) j _ rfl,
    v30_apply m ρ c pre_eq stats_sum stats_sq hreal (⟨e.val % 2, by omega⟩ : Fin 2) j _ rfl,
    v31_apply m ρ c (⟨e.val % 2, by omega⟩ : Fin 2) j _ rfl,
    v32_apply m ρ c (⟨e.val % 2, by omega⟩ : Fin 2) j _ rfl]
  exact (refEnew_apply _ _ _ _ _ _ _ _ _ _ _ _ _ _ _ _ _ _ _ _ _ e j).symm

end Cert.KernelIdeal.Val

end
-- ==== Proof.Val.HostBRef.lean ====
-- The reference's aggregation is the same mean: the two programs state equal records, so the spellings are one term.
import proofs.«428159_j48533130445226_3_alg».proof.Proof.Val.HostB
import proofs.«428159_j48533130445226_3_alg».proof.Proof.Ref.Stages

noncomputable section

namespace Cert.KernelIdeal.Val

open Idealize.ShloMosaic Cert.KernelIdeal Cert.KernelIdeal.Gen
open Cert.ReferenceIdeal.Hand (refAgg refMsg refDst)

theorem refAgg_eq_meanAgg (x : FVec Ideal S50000x64 .f32) (idx : IVec S2x800000 32) (ea : FVec Ideal S800000x64 .f32)
    (WA : FVec Ideal S64x64 .f32) (bA : FVec Ideal S64 .f32) (WB : FVec Ideal S64x64 .f32) (bB : FVec Ideal S64 .f32)
    (WD : FVec Ideal S64x64 .f32) (bD : FVec Ideal S64 .f32) (WE : FVec Ideal S64x64 .f32) (bE : FVec Ideal S64 .f32)
    (WC : FVec Ideal S64x64 .f32) (bC : FVec Ideal S64 .f32) (W1 : FVec Ideal S64x192 .f32) (b1 : FVec Ideal S64 .f32)
    (W2 : FVec Ideal S64x64 .f32) (b2 : FVec Ideal S64 .f32) (gn bn ge be : FVec Ideal S64 .f32) :
    refAgg (F := Ideal) x idx ea WA bA WB bB WD bD WE bE WC bC W1 b1 W2 b2 gn bn ge be
      = meanAgg (refDst idx) (refMsg (F := Ideal) x idx ea WA bA WB bB WD bD WE bE WC bC W1 b1 W2 b2 gn bn ge be) := rfl

end Cert.KernelIdeal.Val
-- ==== Proof.Val.Chain4.lean ====
-- The aggregation and the A block at the node region's entry are stages of the reference.
import proofs.«428159_j48533130445226_3_alg».proof.Proof.HKernelIdeal.Run
import proofs.«428159_j48533130445226_3_alg».proof.Proof.Val.HostA
import proofs.«428159_j48533130445226_3_alg».proof.Proof.Val.HostB
import proofs.«428159_j48533130445226_3_alg».proof.Proof.Val.HostBRef
import proofs.«428159_j48533130445226_3_alg».proof.Proof.Val.Args
import proofs.«428159_j48533130445226_3_alg».proof.Proof.Val.Chain0
import proofs.«428159_j48533130445226_3_alg».proof.Proof.Ref.Read

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Frame
open Cert.ReferenceIdeal.Hand (refAgg refMsg refAx refDst nodeLinear_apply)
open scoped BigOperators

variable (m : (ℓ : Loc nD τ sig) → Buf (Elt Ideal) ℓ) (ρ : Dev nD → PrngReg) (c : Dev nD)

-- Nothing after the first host stretch writes the destination words; nothing after the edge region writes the messages.
theorem agg_eq
    (msg_eq : (W7 m ρ c (Proc.devRef .tc main_v15_0) : FVec Ideal S800000x64 .f32) = atArgs m c (refMsg (F := Ideal))) :
    (W12 m ρ c (Proc.devRef .tc main_v45) : FVec Ideal S50000x64 .f32) = atArgs m c (refAgg (F := Ideal)) := by
  have h3 : (W9 m ρ c (Proc.devRef .tc main_v3) : IVec S800000 32) = refDst (argIdx m c) :=
    (W9_of_ne m ρ c main_v3 (by decide)).trans <|
    (W8_of m ρ c main_v3 (by decide)).trans <|
    (W7_of_ne m ρ c main_v3 (by decide)).trans <|
    (W6_of m ρ c main_v3 (by decide)).trans <|
    (W5_of m ρ c main_v3 (by decide)).trans <|
    (W4_of m ρ c main_v3 (by decide)).trans <|
    (W3_of m ρ c main_v3 (by decide)).trans <|
    (W2_of_ne m ρ c main_v3 (by decide)).trans <| (hostOps0_main_v3 (W0 m ρ c)).trans rfl
  have h := hostOps3_2_main_v45_chain (W9 m ρ c)
  rw [h3, (W9_of_ne m ρ c main_v15_0 (by decide)).trans (W8_of m ρ c main_v15_0 (by decide)), msg_eq] at h
  exact h.trans (refAgg_eq_meanAgg _ _ _ _ _ _ _ _ _ _ _ _ _ _ _ _ _ _ _ _ _).symm

theorem ax_eq :
    (W12 m ρ c (Proc.devRef .tc main_v7) : FVec Ideal S50000x64 .f32) = atArgs m c (refAx (F := Ideal)) := by
  funext i
  obtain ⟨n, j, rfl⟩ : ∃ n j, i = ix2 n j := ⟨i 0, i 1, eq_ix2 i⟩
  exact (v7_apply_W12 m ρ c n j).trans (nodeLinear_apply (argX m c) (argWA m c) (argBA m c) n j).symm

end Cert.KernelIdeal.Val
-- ==== Proof.Val.Reg3Val.lean ====
/- After region 3 the sum-rows array is input 0 plus input 1, and the statistics row holds in lane j the sum over all 50000 rows of that sum's column j and in lane 64 + j the sum of its squares. -/
import proofs.«428159_j48533130445226_3_alg».proof.Proof.HKernelIdeal.Reg3
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.KernelIdeal.Val

open Cert.KernelIdeal Cert.KernelIdeal.Gen Cert.KernelIdeal.Frame
open Idealize.ShloMosaic Idealize.ShloMosaic.TcCoe Idealize.ShloMosaic.Tactic Idealize.ShloMosaic.ValueIdx
open Idealize.SL.Sem
open Idealize.ShloMosaic.Pipeline (Dat)

section Halves
variable {Val : EltTy → Type} [∀ e, Nonempty (Val e)]

abbrev rLo3 : Rect S1x128 := Rect.unit (s := S1x128) ![0, 0] S1x64.size inb_S1x128_S1x64_0_0
abbrev rHi3 : Rect S1x128 := Rect.unit (s := S1x128) ![0, 64] S1x64.size inb_S1x128_S1x64_0_64

abbrev lo3 (j : Fin 64) : S1x128.Idx := ix2 (0 : Fin 1) (⟨j.val, by omega⟩ : Fin 128)
abbrev hi3 (j : Fin 64) : S1x128.Idx := ix2 (0 : Fin 1) (⟨64 + j.val, by omega⟩ : Fin 128)

theorem lo3_eq (j : Fin 64) : lo3 j = rLo3.emb (ix2 (0 : Fin 1) j) := by
  funext a; apply Fin.ext
  match a with
  | ⟨0, _⟩ => rfl
  | ⟨1, _⟩ => show j.val = 0 + 1 * j.val; omega

theorem hi3_eq (j : Fin 64) : hi3 j = rHi3.emb (ix2 (0 : Fin 1) j) := by
  funext a; apply Fin.ext
  match a with
  | ⟨0, _⟩ => rfl
  | ⟨1, _⟩ => show 64 + j.val = 64 + 1 * j.val; omega

theorem lo3_not_mem_hi (j : Fin 64) : lo3 j ∉ rHi3.set := by
  rw [Rect.mem_set_unit]; intro h; have := (h 1).1; revert this; show ¬ (64 ≤ j.val); omega

-- Of overlapping pieces the one listed first decides: lane 64 + j lies in the first piece, lane j only in the second.
theorem canon_hi3 (p : rHi3.shape.Idx → Val .f32) (L : List (View.Piece Val S1x128 .f32)) (j : Fin 64) :
    View.canon (⟨rHi3, p⟩ :: L) (hi3 j) = p (ix2 (0 : Fin 1) j) := by
  rw [hi3_eq, View.canon_cons_emb]

theorem canon_lo3 (p : rHi3.shape.Idx → Val .f32) (q : rLo3.shape.Idx → Val .f32) (L : List (View.Piece Val S1x128 .f32)) (j : Fin 64) :
    View.canon (⟨rHi3, p⟩ :: ⟨rLo3, q⟩ :: L) (lo3 j) = q (ix2 (0 : Fin 1) j) := by
  rw [View.canon_cons_of_not_mem (⟨rHi3, p⟩ : View.Piece Val S1x128 .f32) (⟨rLo3, q⟩ :: L) (lo3_not_mem_hi j), lo3_eq, View.canon_cons_emb]

abbrev rWh3 : Rect S1x128 := Rect.unit (s := S1x128) ![0, 0] S1x128.size inb_S1x128_S1x128_0_0

theorem hz3 : (![0, 0] : Fin 2 → Nat) = fun _ => 0 := funext fun a => by fin_cases a <;> rfl

variable {sig' : RefSig} {κ : Kind} {sp : Space} (v : View sig' κ sp S1x128 .f32)

-- Reading a rectangle off a list of pieces is reading it off the function the pieces define.
theorem readCov_ld3 (L : List (View.Piece Val S1x128 .f32)) (r : Rect S1x128) :
    v.readCov L r.toLoadRect = View.ld (View.canon L) r := View.readCov_eq_canon' v L _

theorem readCov_whole_lo3 (w : S1x128.Idx → Val .f32) :
    v.readCov [(⟨rWh3, w⟩ : View.Piece Val S1x128 .f32)] rLo3.toLoadRect = View.ld w rLo3 := by
  rw [readCov_ld3, View.canon_unit_zero hz3]

-- The lower-half piece misses every upper-half lane, so the whole-row piece under it decides.
theorem readCov_lo_whole_hi3 (q : rLo3.shape.Idx → Val .f32) (w : S1x128.Idx → Val .f32) :
    v.readCov [(⟨rLo3, q⟩ : View.Piece Val S1x128 .f32), ⟨rWh3, w⟩] rHi3.toLoadRect = View.ld w rHi3 := by
  rw [readCov_ld3]
  funext x
  show View.canon ((⟨rLo3, q⟩ : View.Piece Val S1x128 .f32) :: [⟨rWh3, w⟩]) (rHi3.idx x) = w (rHi3.idx x)
  have hx : rHi3.idx x ∉ rLo3.set := by
    rw [Rect.mem_set_unit]; intro h; have := (h 1).2; revert this
    show ¬ (64 + 1 * (x 1).val < 0 + 64); omega
  rw [View.canon_cons_of_not_mem (⟨rLo3, q⟩ : View.Piece Val S1x128 .f32) [⟨rWh3, w⟩] hx, View.canon_unit_zero hz3]

end Halves

-- Ten blocks of 5000 rows are the 50000 rows: a re-indexing of a sum in a commutative monoid.
theorem sum_blocks3 {M : Type*} [AddCommMonoid M] (f : Fin 50000 → M) :
    ∑ t : Fin 10, ∑ r : Fin 5000, f ⟨5000 * t.val + r.val, by omega⟩ = ∑ R : Fin 50000, f R := by
  rw [← Fintype.sum_prod_type', ← Equiv.sum_comp (finProdFinEquiv (m := 10) (n := 5000)) f]
  exact Finset.sum_congr rfl fun p _ => congrArg f (Fin.ext (Nat.add_comm _ _))

section Blocks
variable {F : FTy → Type} [FloatOps F]
variable (V : (c : Dev nD) → (b : Ref sig .tc) → Buf (Elt F) ((c : Thread nD τ).loc b))

abbrev in0_3 (c : Dev nD) : Vec F S50000x64 .f32 := V c main_v7
abbrev in1_3 (c : Dev nD) : Vec F S50000x64 .f32 := V c main_v45
abbrev blk0_3 (c : Dev nD) (t : Fin cfg3.N) : Vec F S5000x64 .f32 := iblk3 V c 0 t
abbrev blk1_of3 (c : Dev nD) (t : Fin cfg3.N) : Vec F S5000x64 .f32 := iblk3 V c 1 t

abbrev row3 (t : Fin cfg3.N) (r : Fin 5000) : Fin 50000 :=
  ⟨5000 * t.val + r.val, by have := t.isLt; have hN : cfg3.N = 10 := N_3; have := r.isLt; omega⟩

-- At point t the three row-blocked windows are on block (t, 0).
theorem index3 : ∀ t : Fin cfg3.N, (win3_0.index t 0 = t.val ∧ win3_0.index t 1 = 0)
    ∧ (win3_1.index t 0 = t.val ∧ win3_1.index t 1 = 0) ∧ win3_2.index t 0 = t.val ∧ win3_2.index t 1 = 0 :=
  (by decide +kernel : ∀ t : Fin grid3.N, _)

-- Row r of block t is row 5000 t + r of the array.
theorem blk_apply3 (c : Dev nD) (t : Fin cfg3.N) (r : Fin 5000) (j : Fin 64) :
    blk0_3 V c t (ix2 r j) = in0_3 V c (ix2 (row3 t r) j) ∧ blk1_of3 V c t (ix2 r j) = in1_3 V c (ix2 (row3 t r) j) := by
  obtain ⟨⟨a0, a1⟩, ⟨b0, b1⟩, -⟩ := index3 t
  refine ⟨congrArg (in0_3 V c) ?_, congrArg (in1_3 V c) ?_⟩ <;> funext a <;> apply Fin.ext
  · match a with
    | ⟨0, _⟩ => show win3_0.index t 0 * 5000 + 1 * r.val = 5000 * t.val + r.val; omega
    | ⟨1, _⟩ => show win3_0.index t 1 * 64 + 1 * j.val = j.val; omega
  · match a with
    | ⟨0, _⟩ => show win3_1.index t 0 * 5000 + 1 * r.val = 5000 * t.val + r.val; omega
    | ⟨1, _⟩ => show win3_1.index t 1 * 64 + 1 * j.val = j.val; omega

theorem cover3_2 (i : S50000x64.Idx) : ∃ t : Fin cfg3.N, (cfg3.win 2).flush t = true ∧ i ∈ ((cfg3.win 2).blk t).view.set := by
  have hN : cfg3.N = 10 := N_3
  have h0 : (i 0).val < 50000 := (i 0).isLt
  have h1 : (i 1).val < 64 := (i 1).isLt
  obtain ⟨t, ht⟩ : ∃ t : Fin cfg3.N, t.val = (i 0).val / 5000 := ⟨⟨_, by omega⟩, rfl⟩
  obtain ⟨-, -, e0, e1⟩ := index3 t
  refine ⟨t, flush3_2 t, ?_⟩
  show i ∈ ((View.whole main_v46_0).slice (win3_2.rect t)).set
  rw [View.set_slice_whole, Rect.mem_set_unit]
  intro a
  match a with
  | ⟨0, _⟩ => show win3_2.index t 0 * 5000 ≤ (i 0).val ∧ (i 0).val < win3_2.index t 0 * 5000 + 5000; omega
  | ⟨1, _⟩ => show win3_2.index t 1 * 64 ≤ (i 1).val ∧ (i 1).val < win3_2.index t 1 * 64 + 64; omega

end Blocks

section Pieces
variable {F : FTy → Type} [FloatOps F]

-- The row after a point's two half-row updates of xs: the upper half's piece first, the lower half's second, over earlier pieces L.
abbrev upd3 (L : List (View.Piece (Elt F) S1x128 .f32)) (x0 x1 : Vec F S5000x64 .f32) (xs : Vec F S1x128 .f32) : Vec F S1x128 .f32 :=
  View.canon ((⟨rHi3, k3_pay4 x0 x1 (View.ld xs rHi3)⟩ : View.Piece (Elt F) S1x128 .f32) :: ⟨rLo3, k3_pay3 x0 x1 (View.ld xs rLo3)⟩ :: L)

variable (c : Dev nD) (i : grid3.Coords) (arg1 arg2 arg3 : Memref sig .tc .vmem S5000x64 .f32) (arg4 arg5 : Memref sig .tc .vmem S1x128 .f32)
  (harg1 : arg1.IsWhole) (harg2 : arg2.IsWhole) (harg3 : arg3.IsWhole) (harg4 : arg4.IsWhole) (harg5 : arg5.IsWhole)
  (x0 x1 : Vec F S5000x64 .f32) (xs0 : Vec F S1x128 .f32)

-- First case: the sum-rows block is the elementwise sum of the two input blocks, and the two updates are made over the zero row.
theorem case3_A (hc0 : cond3_0 i) (hc1 : ¬cond3_1 i) :
    out3_A_2 c i arg1 harg1 arg2 harg2 arg3 harg3 arg4 harg4 arg5 harg5 hc0 hc1 x0 x1 = k3_pay2 x0 x1
      ∧ sout3_A_0 c i arg1 harg1 arg2 harg2 arg3 harg3 arg4 harg4 arg5 harg5 hc0 hc1 x0 x1 = upd3 [⟨rWh3, k3_pay1 (F := F)⟩] x0 x1 (k3_pay1 (F := F)) := by
  unfold out3_A_2 sout3_A_0
  rw [View.read_writes_junk_eq_canon, View.read_writes_junk_eq_canon]
  unfold kernelRun3_A
  dsimp only
  sl_unfold_words
  rw [View.canon_unit_zero hz3, readCov_lo_whole_hi3, readCov_whole_lo3]
  simp only [View.readAt_eq_ld, harg1.read_unread, harg2.read_unread, View.ld_unit_zero (S := S5000x64) hz3, and_self]

-- Middle case: the same sum, and the updates are made over the row as found.
theorem case3_B (hc0 : ¬cond3_0 i) (hc1 : ¬cond3_1 i) :
    out3_B_2 c i arg1 harg1 arg2 harg2 arg3 harg3 arg4 harg4 arg5 harg5 hc0 hc1 x0 x1 xs0 = k3_pay2 x0 x1 ∧ sout3_B_0 c i arg1 harg1 arg2 harg2 arg3 harg3 arg4 harg4 arg5 harg5 hc0 hc1 x0 x1 xs0 = upd3 [] x0 x1 xs0 := by
  unfold out3_B_2 sout3_B_0
  rw [View.read_writes_junk_eq_canon, View.read_writes_junk_eq_canon]
  unfold kernelRun3_B
  dsimp only
  sl_unfold_words
  rw [View.canon_unit_zero hz3]
  simp only [View.readAt_eq_ld, harg1.read_unread, harg2.read_unread, harg5.read_unread, View.ld_unit_zero (S := S5000x64) hz3, and_self]

-- Last case: as the middle one, and the statistics block equals the updated row.
theorem case3_C (hc0 : ¬cond3_0 i) (hc1 : cond3_1 i) :
    out3_C_2 c i arg1 harg1 arg2 harg2 arg3 harg3 arg4 harg4 arg5 harg5 hc0 hc1 x0 x1 xs0 = k3_pay2 x0 x1 ∧ sout3_C_0 c i arg1 harg1 arg2 harg2 arg3 harg3 arg4 harg4 arg5 harg5 hc0 hc1 x0 x1 xs0 = upd3 [] x0 x1 xs0
      ∧ out3_C_3 c i arg1 harg1 arg2 harg2 arg3 harg3 arg4 harg4 arg5 harg5 hc0 hc1 x0 x1 xs0 = upd3 [] x0 x1 xs0 := by
  unfold out3_C_2 sout3_C_0 out3_C_3
  rw [View.read_writes_junk_eq_canon, View.read_writes_junk_eq_canon, View.read_writes_junk_eq_canon]
  unfold kernelRun3_C
  dsimp only
  sl_unfold_words
  rw [View.canon_unit_zero hz3, View.canon_unit_zero hz3, readCov_ld3 _ _ rWh3, View.ld_unit_zero (S := S1x128) hz3]
  simp only [View.readAt_eq_ld, harg1.read_unread, harg2.read_unread, harg5.read_unread, View.ld_unit_zero (S := S5000x64) hz3, and_self]

end Pieces

section IdealVals

-- Lane j's column sum of g of the sum of two blocks: g the identity for the sums, the square for the sums of squares.
def colSum3 (g : EReal → EReal) (x0 x1 : Vec Ideal S5000x64 .f32) (j : Fin 64) : EReal :=
  ∑ r : Fin 5000, g (x0 (ix2 r j) + x1 (ix2 r j))

theorem lift3 (j : Fin 64) (r : Fin 5000) : reduces_S5000x64_S64.lift (ix1 j) r = ix2 r j := by
  funext a; apply Fin.ext
  match a with
  | ⟨0, _⟩ => rfl
  | ⟨1, _⟩ => rfl

theorem pay2_apply3 (x0 x1 : Vec Ideal S5000x64 .f32) (i : S5000x64.Idx) : k3_pay2 x0 x1 i = x0 i + x1 i := by
  unfold k3_pay2
  simp only [shapeCast_self]
  rfl

theorem pay1_apply3 (y : S1x128.Idx) : (k3_pay1 (F := Ideal)) y = 0 := by
  unfold k3_pay1
  simp only [shapeCast_self]
  exact Ideal.ofBits_zero_f32

-- A reduction over the row axis is the sum over the rows: each half-row update adds the block's column sums, of the sum or of its square.
theorem pay34_apply3 (x0 x1 : Vec Ideal S5000x64 .f32) (v : Vec Ideal S1x64 .f32) (j : Fin 64) :
    k3_pay3 x0 x1 v (ix2 (0 : Fin 1) j) = v (ix2 (0 : Fin 1) j) + colSum3 (fun z => z) x0 x1 j
      ∧ k3_pay4 x0 x1 v (ix2 (0 : Fin 1) j) = v (ix2 (0 : Fin 1) j) + colSum3 (fun z => z * z) x0 x1 j := by
  unfold k3_pay3 k3_pay4 colSum3
  simp only [shapeCast_self]
  constructor <;> refine (addf_apply _ _ _).trans (congrArg (v (ix2 (0 : Fin 1) j) + ·) ((shapeCast_a_1a_apply _ _ (0 : Fin 1) j).trans
    ((Ideal.multiReduction_add_single _ _ _ _ _ (ix1 j)).trans (Finset.sum_congr rfl fun r _ => ?_)))) <;> rw [lift3 j r]
  · exact pay2_apply3 x0 x1 (ix2 r j)
  · exact (mulf_apply _ _ _).trans (by rw [pay2_apply3])

end IdealVals

section Accumulate

-- A lane of the updated row is what it held plus the blocks' column sum: of the sum in the lower half, of its square in the upper.
theorem upd3_apply (L : List (View.Piece (Elt Ideal) S1x128 .f32)) (x0 x1 : Vec Ideal S5000x64 .f32) (xs : Vec Ideal S1x128 .f32) (j : Fin 64) :
    upd3 L x0 x1 xs (lo3 j) = xs (lo3 j) + colSum3 (fun z => z) x0 x1 j
      ∧ upd3 L x0 x1 xs (hi3 j) = xs (hi3 j) + colSum3 (fun z => z * z) x0 x1 j :=
  ⟨(canon_lo3 (Val := Elt Ideal) _ _ L j).trans ((pay34_apply3 x0 x1 (View.ld xs rLo3) j).1.trans
    (congrArg (fun z => xs z + colSum3 (fun z => z) x0 x1 j) (lo3_eq j).symm)),
  (canon_hi3 (Val := Elt Ideal) _ _ j).trans ((pay34_apply3 x0 x1 (View.ld xs rHi3) j).2.trans
    (congrArg (fun z => xs z + colSum3 (fun z => z * z) x0 x1 j) (hi3_eq j).symm))⟩

variable (V : (c : Dev nD) → (b : Ref sig .tc) → Buf (Elt Ideal) ((c : Thread nD τ).loc b))

def blkSum3 (g : EReal → EReal) (c : Dev nD) (j : Fin 64) (t : ℕ) : EReal :=
  if h : t < cfg3.N then colSum3 g (blk0_3 V c ⟨t, h⟩) (blk1_of3 V c ⟨t, h⟩) j else 0

-- After point n the row holds the first n + 1 blocks' column sums and column sums of squares: induction on n, starting over the zero row.
theorem scratch_eq3 (c : Dev nD) : ∀ (n : ℕ) (h : n < cfg3.N) (j : Fin 64),
    (outsAt3 V c n h).2.2 (lo3 j) = ∑ t ∈ Finset.range (n + 1), blkSum3 V (fun z => z) c j t
      ∧ (outsAt3 V c n h).2.2 (hi3 j) = ∑ t ∈ Finset.range (n + 1), blkSum3 V (fun z => z * z) c j t
  | 0, h, j => by
    rw [outsAt3_A V c ⟨0, h⟩ rfl (by show ¬ (0 : ℕ) = 9; omega)]
    dsimp only
    rw [(case3_A ..).2, Finset.sum_range_one, Finset.sum_range_one, (upd3_apply ..).1, (upd3_apply ..).2, pay1_apply3, pay1_apply3, zero_add, zero_add]
    unfold blkSum3
    rw [dif_pos h, dif_pos h]
    exact ⟨rfl, rfl⟩
  | n + 1, h, j => by
    have ih := scratch_eq3 c n (Nat.lt_of_succ_lt h) j
    have hstep : (outsAt3 V c (n + 1) h).2.2
        = upd3 [] (blk0_3 V c ⟨n + 1, h⟩) (blk1_of3 V c ⟨n + 1, h⟩) ((outsAt3 V c n (Nat.lt_of_succ_lt h)).2.2) := by
      by_cases h9 : n + 1 = 9
      · rw [outsAt3_C V c ⟨n + 1, h⟩ (Nat.succ_ne_zero n) h9]
        dsimp only
        exact (case3_C ..).2.1
      · rw [outsAt3_B V c ⟨n + 1, h⟩ (Nat.succ_ne_zero n) h9]
        dsimp only
        exact (case3_B ..).2
    rw [hstep, Finset.sum_range_succ _ (n + 1), Finset.sum_range_succ _ (n + 1), (upd3_apply ..).1, (upd3_apply ..).2, ih.1, ih.2]
    unfold blkSum3
    rw [dif_pos h, dif_pos h]
    exact ⟨rfl, rfl⟩

end Accumulate

section Finals
variable (V : (c : Dev nD) → (b : Ref sig .tc) → Buf (Elt Ideal) ((c : Thread nD τ).loc b))

abbrev hsum3 (c : Dev nD) : Vec Ideal S50000x64 .f32 := fun i => in0_3 V c i + in1_3 V c i

theorem out2_eq3 (c : Dev nD) (t : Fin cfg3.N) :
    (outsAt3 V c t.val t.isLt).1 = k3_pay2 (blk0_3 V c t) (blk1_of3 V c t) := by
  have hN : t.val < 10 := lt_of_lt_of_eq t.isLt (show cfg3.N = 10 from N_3)
  by_cases h0 : t.val = 0
  · rw [outsAt3_A V c t h0 (by omega)]
    dsimp only
    exact (case3_A ..).1
  · by_cases h9 : t.val = 9
    · rw [outsAt3_C V c t h0 h9]
      dsimp only
      exact (case3_C ..).1
    · rw [outsAt3_B V c t h0 h9]
      dsimp only
      exact (case3_B ..).1

theorem emb3_2 (t : Fin cfg3.N) (r : Fin 5000) (j : Fin 64) :
    ((cfg3.win 2).blk t).view.emb (ix2 r j) = (ix2 (row3 t r) j : S50000x64.Idx) := by
  obtain ⟨-, -, e0, e1⟩ := index3 t
  funext a; apply Fin.ext
  match a with
  | ⟨0, _⟩ => show win3_2.index t 0 * 5000 + 1 * r.val = 5000 * t.val + r.val; omega
  | ⟨1, _⟩ => show win3_2.index t 1 * 64 + 1 * j.val = j.val; omega

-- The ten blocks tile the sum-rows array, and point t's block of it is block t of the elementwise sum.
theorem final3_2 (c : Dev nD) : (dat3 V c).arrAt 2 cfg3.N = hsum3 V c :=
  (dat3 V c).arrAt_eq_of_cover 2 (hsum3 V c) (fun t _ => by
    show (cfg3.win 2).cut (grid3.coords t) ((dat3 V c).after 2 t) = _
    rw [after3_2, out2_eq3]
    funext x
    obtain ⟨r, j, rfl⟩ : ∃ (r : Fin 5000) (j : Fin 64), x = ix2 r j := ⟨x 0, x 1, eq_ix2 x⟩
    rw [View.read_apply, emb3_2 t r j]
    show k3_pay2 (blk0_3 V c t) (blk1_of3 V c t) (ix2 r j) = in0_3 V c (ix2 (row3 t r) j) + in1_3 V c (ix2 (row3 t r) j)
    rw [pay2_apply3, (blk_apply3 V c t r j).1, (blk_apply3 V c t r j).2]) cover3_2

theorem lt9_3 : 9 < cfg3.N := by rw [show cfg3.N = 10 from N_3]; decide

abbrev stats3 (c : Dev nD) : Vec Ideal S1x128 .f32 := (outsAt3 V c 9 lt9_3).2.1

-- The statistics array's one block is the whole array, and it is the last point's.
theorem final3_3 (c : Dev nD) : (dat3 V c).arrAt 3 cfg3.N = stats3 V c :=
  (dat3 V c).arrAt_eq_of_cover 3 (stats3 V c) (fun t hf => by
    have hN : cfg3.N = 10 := N_3
    have h9 : t.val = 9 := by have := (flush3_3 t).mp hf; have := t.isLt; omega
    obtain rfl : t = t3_9 := Fin.ext h9
    show (cfg3.win 3).cut (grid3.coords t3_9) ((dat3 V c).after 3 t3_9) = _
    rw [after3_3]
    have hz' : (fun a => win3_3.index t3_9 a * main_v46_1.ty.shape.size a) = fun _ => 0 := funext fun a => by fin_cases a <;> decide
    exact (Memref.read_access_unit_zero (Elt Ideal) main_v46_1 hz' (fun a => by rw [congrFun hz' a]; simp) (stats3 V c)).symm)
    (fun i => ⟨t3_9, (flush3_3 t3_9).mpr rfl, by
      show i ∈ ((View.whole main_v46_1).slice (win3_3.rect t3_9)).set
      rw [View.set_slice_whole, Rect.mem_set_unit]
      intro a
      have h := (i a).isLt
      match a with
      | ⟨0, _⟩ => exact ⟨Nat.zero_le _, h⟩
      | ⟨1, _⟩ => exact ⟨Nat.zero_le _, h⟩⟩)

-- The statistics row equals the running row after the last point.
theorem stats3_eq_scratch (c : Dev nD) : stats3 V c = (outsAt3 V c 9 lt9_3).2.2 := by
  show (outsAt3 V c 9 lt9_3).2.1 = _
  rw [show outsAt3 V c 9 lt9_3 = _ from outsAt3_C V c ⟨9, lt9_3⟩ (by show ¬ (9 : ℕ) = 0; omega) rfl]
  dsimp only
  rw [(case3_C ..).2.2, (case3_C ..).2.1]

-- Adding up the ten blocks' column sums gives the column sums of the whole array.
theorem total3 (g : EReal → EReal) (c : Dev nD) (j : Fin 64) :
    ∑ t ∈ Finset.range (9 + 1), blkSum3 V g c j t = ∑ R : Fin 50000, g (hsum3 V c (ix2 R j)) := by
  rw [Finset.sum_range, ← sum_blocks3 (fun R => g (hsum3 V c (ix2 R j)))]
  refine Finset.sum_congr rfl fun t _ => ?_
  have ht : t.val < cfg3.N := by rw [show cfg3.N = 10 from N_3]; exact t.isLt
  unfold blkSum3; rw [dif_pos ht]; unfold colSum3
  refine Finset.sum_congr rfl fun r _ => ?_
  rw [(blk_apply3 V c _ r j).1, (blk_apply3 V c _ r j).2]

theorem final3_3_lo (c : Dev nD) (j : Fin 64) :
    ((dat3 V c).arrAt 3 cfg3.N : Vec Ideal S1x128 .f32) (lo3 j) = ∑ R : Fin 50000, hsum3 V c (ix2 R j) := by
  rw [final3_3, stats3_eq_scratch, (scratch_eq3 V c 9 lt9_3 j).1, total3]

theorem final3_3_hi (c : Dev nD) (j : Fin 64) :
    ((dat3 V c).arrAt 3 cfg3.N : Vec Ideal S1x128 .f32) (hi3 j)
      = ∑ R : Fin 50000, hsum3 V c (ix2 R j) * hsum3 V c (ix2 R j) := by
  rw [final3_3, stats3_eq_scratch, (scratch_eq3 V c 9 lt9_3 j).2, total3]

end Finals

end Cert.KernelIdeal.Val

end
-- ==== Proof.Val.Chain5.lean ====
-- The node region's results are the reference's node rows before the batch norm, and their column statistics.
import proofs.«428159_j48533130445226_3_alg».proof.Proof.HKernelIdeal.Run
import proofs.«428159_j48533130445226_3_alg».proof.Proof.Val.Args
import proofs.«428159_j48533130445226_3_alg».proof.Proof.Val.Reg3Val
import proofs.«428159_j48533130445226_3_alg».proof.Proof.Ref.Stages

set_option maxRecDepth 4096

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Frame
open Cert.ReferenceIdeal.Hand
open scoped BigOperators

variable (m : (ℓ : Loc nD τ sig) → Buf (Elt Ideal) ℓ) (ρ : Dev nD → PrngReg) (c : Dev nD)

variable
    (agg_eq : (W12 m ρ c (Proc.devRef .tc main_v45) : FVec Ideal S50000x64 .f32) = atArgs m c (refAgg (F := Ideal)))
    (ax_eq : (W12 m ρ c (Proc.devRef .tc main_v7) : FVec Ideal S50000x64 .f32) = atArgs m c (refAx (F := Ideal)))
include agg_eq ax_eq

-- The region adds the two stages the reference adds.
theorem hsum3_eq_refHpre : hsum3 (V12 m ρ) c = atArgs m c (refHpre (F := Ideal)) :=
  funext fun i => congrArg₂ (· + ·) (congrFun ax_eq i) (congrFun agg_eq i)

theorem hpre_eq :
    (W13 m ρ c (Proc.devRef .tc main_v46_0) : FVec Ideal S50000x64 .f32) = atArgs m c (refHpre (F := Ideal)) :=
  ((W13_arr m ρ c 2).trans (final3_2 (V12 m ρ) c)).trans (hsum3_eq_refHpre m ρ c agg_eq ax_eq)

theorem nstats_sum (j : Fin 64) :
    (W13 m ρ c (Proc.devRef .tc main_v46_1) : FVec Ideal S1x128 .f32) (ix2 (0 : Fin 1) ⟨j.val, by omega⟩)
      = ∑ n : Fin 50000, atArgs m c (refHpre (F := Ideal)) (ix2 n j) := by
  rw [← hsum3_eq_refHpre m ρ c agg_eq ax_eq]
  exact (congrFun (W13_arr m ρ c 3) (lo3 j)).trans (final3_3_lo (V12 m ρ) c j)

theorem nstats_sq (j : Fin 64) :
    (W13 m ρ c (Proc.devRef .tc main_v46_1) : FVec Ideal S1x128 .f32) (ix2 (0 : Fin 1) ⟨64 + j.val, by omega⟩)
      = ∑ n : Fin 50000, atArgs m c (refHpre (F := Ideal)) (ix2 n j) * atArgs m c (refHpre (F := Ideal)) (ix2 n j) := by
  rw [← hsum3_eq_refHpre m ρ c agg_eq ax_eq]
  exact (congrFun (W13_arr m ρ c 3) (hi3 j)).trans (final3_3_hi (V12 m ρ) c j)

end Cert.KernelIdeal.Val

end
-- ==== Proof.Val.Reg4Val.lean ====
/- After region 4 the output array is, index by index, the maximum with zero of scale · (x − mean) · rsqrt (variance + ε) + shift: the rows read at the index, each vector at its column. -/
import proofs.«428159_j48533130445226_3_alg».proof.Proof.HKernelIdeal.Reg4
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Frame Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

-- The store's payload at row p, column q: the casts are the identity and each vector, broadcast down the rows, is read at the column.
theorem reg4_pay_apply (x0 : Vec Ideal S5000x128 .f32) (xv xs xm xb : Vec Ideal S128 .f32) (p : Fin 5000) (q : Fin 128) :
    k4_pay1 (F := Ideal) x0 xv xs xm xb (ix2 p q)
      = max (xs (ix1 q) * (x0 (ix2 p q) - xm (ix1 q)) * Ideal.rsqrt (xv (ix1 q) + Ideal.ofBits .f32 0x3727C5AC#32) + xb (ix1 q)) (Ideal.ofBits .f32 0x00000000#32) := by
  unfold k4_pay1
  simp only [shapeCast_self, addf_apply, mulf_apply, subf_apply, maximumf_apply, broadcast_apply, broadcastTo_1b_ab_apply, shapeCast_a_1a_apply] <;> rfl

-- The index maps, decided over the grid: the rows' and the output's windows are on row block t, each vector's window on its one block.
theorem idx_facts4 : ∀ t : Fin cfg4.N,
    win4_0.index t (0 : Fin 2) = t.val ∧ win4_0.index t (1 : Fin 2) = 0
    ∧ win4_1.index t (0 : Fin 1) = 0 ∧ win4_2.index t (0 : Fin 1) = 0 ∧ win4_3.index t (0 : Fin 1) = 0 ∧ win4_4.index t (0 : Fin 1) = 0
    ∧ win4_5.index t (0 : Fin 2) = t.val ∧ win4_5.index t (1 : Fin 2) = 0 :=
  (by decide +kernel : ∀ t : Fin grid4.N, _)

abbrev G4_5 (x : S25000x128.Idx → Ideal .f32) (mean vari scale shift : S128.Idx → Ideal .f32) : S25000x128.Idx → Ideal .f32 := fun i =>
  max (scale (ix1 (i 1)) * (x (ix2 (i 0) (i 1)) - mean (ix1 (i 1))) * Ideal.rsqrt (vari (ix1 (i 1)) + Ideal.ofBits .f32 0x3727C5AC#32) + shift (ix1 (i 1))) (Ideal.ofBits .f32 0x00000000#32)

theorem G4_5_apply (x : S25000x128.Idx → Ideal .f32) (mean vari scale shift : S128.Idx → Ideal .f32) (p : Fin 25000) (q : Fin 128) :
    G4_5 x mean vari scale shift (ix2 p q)
      = max (scale (ix1 q) * (x (ix2 p q) - mean (ix1 q)) * Ideal.rsqrt (vari (ix1 q) + Ideal.ofBits .f32 0x3727C5AC#32) + shift (ix1 q)) (Ideal.ofBits .f32 0x00000000#32) := rfl

-- Every index of the output array is in the block of the point its row falls to: the 5 blocks of 5000 rows tile the array.
theorem cover4_5_arr (i : S25000x128.Idx) : ∃ t : Fin cfg4.N, (cfg4.win 5).flush t = true ∧ i ∈ ((cfg4.win 5).blk t).view.set := by
  have hi0 : (i 0).val < 25000 := (i 0).isLt
  have hi1 : (i 1).val < 128 := (i 1).isLt
  have hN : cfg4.N = 5 := N_4
  obtain ⟨t, ht⟩ : ∃ t : Fin cfg4.N, t.val = (i 0).val / 5000 := ⟨⟨_, by omega⟩, rfl⟩
  obtain ⟨-, -, -, -, -, -, e6, e7⟩ := idx_facts4 t
  refine ⟨t, flush4_5 t, ?_⟩
  show i ∈ ((View.whole main_v64).slice (win4_5.rect t)).set
  rw [View.set_slice_whole, Rect.mem_set_unit]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

-- The blocks tile the array, and what point t writes back is block t of that function: each input block's entry is its array's entry at the place the index maps send it.
theorem final4_5 (c : Dev nD) : (dat4 (F := Ideal) V c).arrAt 5 cfg4.N
    = G4_5 (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 _ (fun t _ => by
    show (cfg4.win 5).cut (grid4.coords t) ((dat4 (F := Ideal) V c).after 5 t) = _
    rw [after4_5]
    unfold out4_5
    rw [View.canon_unit_zero zero2]
    simp only [View.ld_unit_zero (S := S5000x128) zero2, View.ld_unit_zero (S := S128) zero1]
    obtain ⟨e0, e1, e2, e3, e4, e5, e6, e7⟩ := idx_facts4 t
    funext j
    obtain ⟨p, q, rfl⟩ : ∃ (p : Fin 5000) (q : Fin 128), j = ix2 p q := ⟨j 0, j 1, eq_ix2 j⟩
    refine (reg4_pay_apply _ _ _ _ _ p q).trans ?_
    refine congrArg (fun z => max z _) (congrArg₂ (· + ·) (congrArg₂ (· * ·) (congrArg₂ (· * ·) (congrArg (V c _) ?_) (congrArg₂ (· - ·) (congrArg (V c _) ?_) (congrArg (V c _) ?_))) (congrArg (fun z => Ideal.rsqrt (z + _)) (congrArg (V c _) ?_))) (congrArg (V c _) ?_))
      <;> funext a <;> apply Fin.ext
    · match a with | ⟨0, _⟩ => show win4_3.index t (0 : Fin 1) * 128 + 1 * q.val = win4_5.index t (1 : Fin 2) * 128 + 1 * q.val; omega
    · match a with
      | ⟨0, _⟩ => show win4_0.index t (0 : Fin 2) * 5000 + 1 * p.val = win4_5.index t (0 : Fin 2) * 5000 + 1 * p.val; omega
      | ⟨1, _⟩ => show win4_0.index t (1 : Fin 2) * 128 + 1 * q.val = win4_5.index t (1 : Fin 2) * 128 + 1 * q.val; omega
    · match a with | ⟨0, _⟩ => show win4_1.index t (0 : Fin 1) * 128 + 1 * q.val = win4_5.index t (1 : Fin 2) * 128 + 1 * q.val; omega
    · match a with | ⟨0, _⟩ => show win4_2.index t (0 : Fin 1) * 128 + 1 * q.val = win4_5.index t (1 : Fin 2) * 128 + 1 * q.val; omega
    · match a with | ⟨0, _⟩ => show win4_4.index t (0 : Fin 1) * 128 + 1 * q.val = win4_5.index t (1 : Fin 2) * 128 + 1 * q.val; omega) cover4_5_arr

end Cert.KernelIdeal.Val
-- ==== Proof.Val.Chain6.lean ====
-- The node batch norm and relu: the program's first result is the reference's new node rows.
import proofs.«428159_j48533130445226_3_alg».proof.Proof.HKernelIdeal.Run
import proofs.«428159_j48533130445226_3_alg».proof.Proof.Val.Args
import proofs.«428159_j48533130445226_3_alg».proof.Proof.Val.HostB
import proofs.«428159_j48533130445226_3_alg».proof.Proof.Val.Stats
import proofs.«428159_j48533130445226_3_alg».proof.Proof.Val.Reg4Val
import proofs.«428159_j48533130445226_3_alg».proof.Proof.Val.Chain0
import proofs.«428159_j48533130445226_3_alg».proof.Proof.Ref.Read

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open Cert.ReferenceIdeal.Hand
open scoped BigOperators

variable (m : (ℓ : Loc nD τ sig) → Buf (Elt Ideal) ℓ) (ρ : Dev nD → PrngReg) (c : Dev nD)

theorem refMuN_at : atArgs m c (refMuN (F := Ideal)) = nodeMeanOf (atArgs m c (refHpre (F := Ideal))) :=
  refMuN_eq _ _ _ _ _ _ _ _ _ _ _ _ _ _ _ _ _ _ _ _ _

-- The doubled scale and shift read the launch arrays at the column q mod 64.
theorem v62_at (j : Fin 64) (q : Fin 128) (hq : q.val % 64 = j.val) :
    (W14 m ρ c (Proc.devRef .tc main_v62) : FVec Ideal S128 .f32) (ix1 q) = argGn m c (ix1 j) := by
  refine (hostOps4_main_v62_apply (W13 m ρ c) q).trans ?_
  rw [show (⟨q.val % 64, Nat.mod_lt _ (by decide)⟩ : Fin 64) = j from Fin.ext hq]
  exact congrFun (W13_main_arg17 m ρ c) (ix1 j)

theorem v63_at (j : Fin 64) (q : Fin 128) (hq : q.val % 64 = j.val) :
    (W14 m ρ c (Proc.devRef .tc main_v63) : FVec Ideal S128 .f32) (ix1 q) = argBn m c (ix1 j) := by
  refine (hostOps4_main_v63_apply (W13 m ρ c) q).trans ?_
  rw [show (⟨q.val % 64, Nat.mod_lt _ (by decide)⟩ : Fin 64) = j from Fin.ext hq]
  exact congrFun (W13_main_arg18 m ρ c) (ix1 j)

variable
    (hpre_eq : (W13 m ρ c (Proc.devRef .tc main_v46_0) : FVec Ideal S50000x64 .f32) = atArgs m c (refHpre (F := Ideal)))
    (nstats_sum : ∀ j : Fin 64, (W13 m ρ c (Proc.devRef .tc main_v46_1) : FVec Ideal S1x128 .f32) (ix2 (0 : Fin 1) ⟨j.val, by omega⟩)
      = ∑ n : Fin 50000, atArgs m c (refHpre (F := Ideal)) (ix2 n j))
    (nstats_sq : ∀ j : Fin 64, (W13 m ρ c (Proc.devRef .tc main_v46_1) : FVec Ideal S1x128 .f32) (ix2 (0 : Fin 1) ⟨64 + j.val, by omega⟩)
      = ∑ n : Fin 50000, atArgs m c (refHpre (F := Ideal)) (ix2 n j) * atArgs m c (refHpre (F := Ideal)) (ix2 n j))
    (hreal : ∀ i, IsReal (atArgs m c (refHpre (F := Ideal)) i))
include hpre_eq nstats_sum nstats_sq hreal

-- Entry (p, q) of the paired view, p = n / 2 and q = 64 (n mod 2) + j, is entry (n, j) of the rows.
theorem v59_at (n : Fin 50000) (j : Fin 64) (p : Fin 25000) (q : Fin 128) (hp : p.val = n.val / 2)
    (hq : q.val = 64 * (n.val % 2) + j.val) :
    (W14 m ρ c (Proc.devRef .tc main_v59) : FVec Ideal S25000x128 .f32) (ix2 p q)
      = atArgs m c (refHpre (F := Ideal)) (ix2 n j) := by
  refine (hostOps4_main_v59_apply (W13 m ρ c) p q).trans ?_
  rw [hpre_eq]
  refine congrArg (atArgs m c (refHpre (F := Ideal))) (funext fun a => Fin.ext ?_)
  match a with
  | ⟨0, _⟩ => show 2 * p.val + q.val / 64 = n.val; omega
  | ⟨1, _⟩ => show q.val % 64 = j.val; omega

theorem statMean_at (j : Fin 64) :
    statMean (W13 m ρ c (Proc.devRef .tc main_v46_1) : FVec Ideal S1x128 .f32) (ix1 j)
      = nodeMeanOf (atArgs m c (refHpre (F := Ideal))) (ix1 j) := by
  rw [statMean_apply, nstats_sum j, nodeMeanOf_apply]

-- For real entries the clipped mean of squares less the squared mean is the centred variance.
theorem statVar_at (j : Fin 64) :
    statVar (W13 m ρ c (Proc.devRef .tc main_v46_1) : FVec Ideal S1x128 .f32) (ix1 j)
      = nodeVar (F := Ideal) (atArgs m c (refHpre (F := Ideal))) (ix1 j) := by
  rw [statVar_apply, statMean_at m ρ c hpre_eq nstats_sum nstats_sq hreal j, statMeanSq_apply, nstats_sq j, ofBits_zero']
  exact nodeVar_bridge _ hreal j

theorem v60_at (j : Fin 64) (q : Fin 128) (hq : q.val % 64 = j.val) :
    (W14 m ρ c (Proc.devRef .tc main_v60) : FVec Ideal S128 .f32) (ix1 q) = atArgs m c (refMuN (F := Ideal)) (ix1 j) := by
  refine (hostOps4_main_v60_apply (W13 m ρ c) q).trans ?_
  rw [show (⟨q.val % 64, Nat.mod_lt _ (by decide)⟩ : Fin 64) = j from Fin.ext hq,
    statMean_at m ρ c hpre_eq nstats_sum nstats_sq hreal j, refMuN_at]

theorem v61_at (j : Fin 64) (q : Fin 128) (hq : q.val % 64 = j.val) :
    (W14 m ρ c (Proc.devRef .tc main_v61) : FVec Ideal S128 .f32) (ix1 q)
      = nodeVar (F := Ideal) (atArgs m c (refHpre (F := Ideal))) (ix1 j) := by
  refine (hostOps4_main_v61_apply (W13 m ρ c) q).trans ?_
  rw [show (⟨q.val % 64, Nat.mod_lt _ (by decide)⟩ : Fin 64) = j from Fin.ext hq]
  exact statVar_at m ρ c hpre_eq nstats_sum nstats_sq hreal j

-- Both sides are the same tree of operations; the five leaves agree.
theorem h_eq :
    (W16 m ρ c (Proc.devRef .tc main_v65) : FVec Ideal S50000x64 .f32) = atArgs m c (refH (F := Ideal)) := by
  funext i
  obtain ⟨n, j, rfl⟩ : ∃ (n : Fin 50000) (j : Fin 64), i = ix2 n j := ⟨i 0, i 1, eq_ix2 i⟩
  refine (hostOps5_main_v65_apply (W15 m ρ c) n j).trans ((congrFun (W15_arr m ρ c 5) _).trans ?_)
  rw [final4_5 (V14 m ρ) c, G4_5_apply, show atArgs m c (refH (F := Ideal)) (ix2 n j) = _ from
      refH_apply _ _ _ _ _ _ _ _ _ _ _ _ _ _ _ _ _ _ _ _ _ n j, ofBits_zero']
  have hq : (64 * (n.val % 2) + j.val) % 64 = j.val := by have := j.isLt; omega
  exact congrArg₂ (max : Ideal .f32 → Ideal .f32 → Ideal .f32)
    (congrArg₂ (HAdd.hAdd : Ideal .f32 → Ideal .f32 → Ideal .f32)
      (congrArg₂ (HMul.hMul : Ideal .f32 → Ideal .f32 → Ideal .f32)
        (congrArg₂ (HMul.hMul : Ideal .f32 → Ideal .f32 → Ideal .f32) (v62_at m ρ c j ⟨64 * (n.val % 2) + j.val, by omega⟩ hq)
          (congrArg₂ (HSub.hSub : Ideal .f32 → Ideal .f32 → Ideal .f32)
            (v59_at m ρ c hpre_eq nstats_sum nstats_sq hreal n j ⟨n.val / 2, by omega⟩ ⟨64 * (n.val % 2) + j.val, by omega⟩ rfl rfl)
            (v60_at m ρ c hpre_eq nstats_sum nstats_sq hreal j ⟨64 * (n.val % 2) + j.val, by omega⟩ hq)))
        (congrArg Ideal.rsqrt (congrArg₂ (HAdd.hAdd : Ideal .f32 → Ideal .f32 → Ideal .f32)
          (v61_at m ρ c hpre_eq nstats_sum nstats_sq hreal j ⟨64 * (n.val % 2) + j.val, by omega⟩ hq) rfl)))
      (v63_at m ρ c j ⟨64 * (n.val % 2) + j.val, by omega⟩ hq))
    rfl

end Cert.KernelIdeal.Val
-- ==== Proof.Val.Final.lean ====
-- The value claim: both results of the kernel program are the reference's results of the same launch arrays.
import proofs.«428159_j48533130445226_3_alg».proof.Defs
import proofs.«428159_j48533130445226_3_alg».proof.Proof.HKernelIdeal.Run
import proofs.«428159_j48533130445226_3_alg».proof.Proof.Ref.Run
import proofs.«428159_j48533130445226_3_alg».proof.Proof.Ref.Real
import proofs.«428159_j48533130445226_3_alg».proof.Proof.Val.PreFacts
import proofs.«428159_j48533130445226_3_alg».proof.Proof.Val.Args
import proofs.«428159_j48533130445226_3_alg».proof.Proof.Val.Chain0
import proofs.«428159_j48533130445226_3_alg».proof.Proof.Val.Chain1
import proofs.«428159_j48533130445226_3_alg».proof.Proof.Val.Chain2
import proofs.«428159_j48533130445226_3_alg».proof.Proof.Val.Chain3
import proofs.«428159_j48533130445226_3_alg».proof.Proof.Val.Chain4
import proofs.«428159_j48533130445226_3_alg».proof.Proof.Val.Chain5
import proofs.«428159_j48533130445226_3_alg».proof.Proof.Val.Chain6

set_option maxRecDepth 4096

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Frame
open Cert.ReferenceIdeal.Hand
open scoped BigOperators

variable (m : (ℓ : Loc nD τ sig) → Buf (Elt Ideal) ℓ) (ρ : Dev nD → PrngReg) (c : Dev nD)

-- Boundary by boundary, each buffer holds a stage of the reference at the launch arrays.
theorem results_eq (hpre : Cert.Pre_KernelIdeal m) :
    (W16 m ρ c (Proc.devRef .tc main_v65) : FVec Ideal S50000x64 .f32) = atArgs m c (refH (F := Ideal))
    ∧ (W16 m ρ c (Proc.devRef .tc main_v34) : FVec Ideal S800000x64 .f32) = atArgs m c (refEnew (F := Ideal)) := by
  have fa := finiteArgs_of_pre _ _ _ _ _ _ _ _ _ _ _ _ _ _ _ _ _ _ _ _ _ (hpre c)
  have hdd := dd_eq m ρ c hpre (v8_apply m ρ c)
  have hes := es_apply m ρ c hpre (v9_apply_E m ρ c)
  have hbxs := bxs_apply m ρ c hpre (v9_apply_B m ρ c)
  have hagg := agg_eq m ρ c (msg_eq m ρ c hdd hes hbxs)
  have hax := ax_eq m ρ c
  exact ⟨h_eq m ρ c (hpre_eq m ρ c hagg hax) (nstats_sum m ρ c hagg hax) (nstats_sq m ρ c hagg hax)
      (isReal_refHpre (argIdx m c) fa.r0 fa.r2 fa.r3 fa.r4 fa.r5 fa.r6 fa.r7 fa.r8 fa.r9 fa.r10 fa.r11 fa.r12 fa.r13 fa.r14 fa.r15 fa.r16),
    (W16_main_v34 m ρ c).trans <| enew_eq m ρ c (pre_eq m ρ c hdd hes hbxs) (stats_sum m ρ c hdd hes hbxs) (stats_sq m ρ c hdd hes hbxs)
      (isReal_refPre (argIdx m c) fa.r0 fa.r2 fa.r3 fa.r4 fa.r5 fa.r6 fa.r7 fa.r8 fa.r9 fa.r10 fa.r11 fa.r12 fa.r13 fa.r14 fa.r15 fa.r16)⟩

-- The reference, run from a memory agreeing on the arguments, ends with the same two stages of the same arrays.
theorem algebraic : Cert.algebraic_KernelIdeal_ReferenceIdeal := by
  intro m ρ m' ρ' hpre hagree
  refine ⟨fun c => W16 m ρ c (Proc.devRef .tc main_v65), fun c => W16 m ρ c (Proc.devRef .tc main_v34), run_results m ρ, ?_⟩
  refine (θ_run Cert.ReferenceIdeal.defs _ _).mono (fun r h c => ?_) (Cert.ReferenceIdeal.Hand.run (F := Ideal) m' ρ')
  obtain ⟨h1, h2, hargs⟩ := h c
  obtain ⟨e0, e1, e2, e3, e4, e5, e6, e7, e8, e9, e10, e11, e12, e13, e14, e15, e16, e17, e18, e19, e20⟩ := hagree c
  obtain ⟨r1, r2⟩ := results_eq m ρ c hpre
  refine ⟨h1.trans ?_, h2.trans ?_, hargs⟩ <;>
    rw [e0, e1, e2, e3, e4, e5, e6, e7, e8, e9, e10, e11, e12, e13, e14, e15, e16, e17, e18, e19, e20]
  exacts [r1.symm, r2.symm]

end Cert.KernelIdeal.Val

end
-- ==== Proof.lean ====
-- The claim's five conjuncts: the two frames of the kernel program from the run of @main item by item, the reference's frame from its run, no rewrite to preserve, and the two results equal as stages of the launch arrays.
import proofs.«428159_j48533130445226_3_alg».proof.Defs
import proofs.«428159_j48533130445226_3_alg».proof.Proof.Gen.Kernel
import proofs.«428159_j48533130445226_3_alg».proof.Proof.Gen.KernelIdeal
import proofs.«428159_j48533130445226_3_alg».proof.Proof.Gen.ReferenceIdeal
import proofs.«428159_j48533130445226_3_alg».proof.Proof.Gen.Pre_finite_inputs
import proofs.«428159_j48533130445226_3_alg».proof.Proof.HKernel.Run
import proofs.«428159_j48533130445226_3_alg».proof.Proof.HKernelIdeal.Run
import proofs.«428159_j48533130445226_3_alg».proof.Proof.Ref.Run
import proofs.«428159_j48533130445226_3_alg».proof.Proof.Val.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Frame.frame m ρ,
    fun m ρ _ => Cert.KernelIdeal.Frame.frame m ρ,
    fun m ρ _ => (θ_run Cert.ReferenceIdeal.defs _ _).mono (fun _ h c => (h c).2.2)
      (Cert.ReferenceIdeal.Hand.run (F := Ideal) m ρ),
    trivial,
    Cert.KernelIdeal.Val.algebraic⟩

end Cert.Proof

end
